-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S64000 : Shape := ⟨1, ![64000]⟩
abbrev S64000x16 : Shape := ⟨2, ![64000, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S64000x16 : S_.BroadcastsInDim S64000x16 (![] : Fin 0 → Fin S64000x16.rank)
  reducesTo_S64000x16_S_d0_1 : S64000x16.ReducesTo [0, 1] S_
  bcast_S_S64000 : S_.BroadcastsInDim S64000 (![] : Fin 0 → Fin S64000.rank)
  reducesTo_S64000_S_d0 : S64000.ReducesTo [0] S_

variable [Facts]

def fn_part4 {F : FTy → Type} [FloatOps F] (main_arg10 : IVec S64000 32) (main_arg11 : IVec S64000 32) (main_v65 : IVec S_ 1) (main_v66 : IVec S64000 32) : IVec S_ 1 :=
  let main_v67 : IVec S64000 1 := cmpi .sge main_arg10 main_v66
  let main_c_27 : IVec S_ 32 := constantI S_ 32 64000#32
  let main_v68 : IVec S64000 32 := broadcastInDim S64000 ![] bcast_S_S64000 main_c_27
  let main_v69 : IVec S64000 1 := cmpi .slt main_arg10 main_v68
  let main_v70 : IVec S64000 1 := andi main_v67 main_v69
  let main_c_28 : IVec S_ 1 := constantI S_ 1 1#1
  let main_v71 : IVec S_ 1 := (fun x v => Host.reduce IntOp.andi x v reducesTo_S64000_S_d0 h_S_) main_v70 main_c_28
  let main_v72 : IVec S_ 1 := andi main_v65 main_v71
  let main_c_29 : IVec S_ 32 := constantI S_ 32 0#32
  let main_v73 : IVec S64000 32 := broadcastInDim S64000 ![] bcast_S_S64000 main_c_29
  let main_v74 : IVec S64000 1 := cmpi .sge main_arg11 main_v73
  let main_c_30 : IVec S_ 32 := constantI S_ 32 64000#32
  let main_v75 : IVec S64000 32 := broadcastInDim S64000 ![] bcast_S_S64000 main_c_30
  let main_v76 : IVec S64000 1 := cmpi .slt main_arg11 main_v75
  let main_v77 : IVec S64000 1 := andi main_v74 main_v76
  let main_c_31 : IVec S_ 1 := constantI S_ 1 1#1
  let main_v78 : IVec S_ 1 := (fun x v => Host.reduce IntOp.andi x v reducesTo_S64000_S_d0 h_S_) main_v77 main_c_31
  let main_v79 : IVec S_ 1 := andi main_v72 main_v78
  main_v79

def fn_part3 {F : FTy → Type} [FloatOps F] (main_arg7 : IVec S64000 32) (main_arg8 : IVec S64000 32) (main_arg10 : IVec S64000 32) (main_arg11 : IVec S64000 32) (main_v44 : IVec S_ 1) (main_v49 : IVec S64000 1) (main_c_19 : IVec S_ 1) : IVec S_ 1 :=
  let main_v50 : IVec S_ 1 := (fun x v => Host.reduce IntOp.andi x v reducesTo_S64000_S_d0 h_S_) main_v49 main_c_19
  let main_v51 : IVec S_ 1 := andi main_v44 main_v50
  let main_c_20 : IVec S_ 32 := constantI S_ 32 0#32
  let main_v52 : IVec S64000 32 := broadcastInDim S64000 ![] bcast_S_S64000 main_c_20
  let main_v53 : IVec S64000 1 := cmpi .sge main_arg7 main_v52
  let main_c_21 : IVec S_ 32 := constantI S_ 32 64000#32
  let main_v54 : IVec S64000 32 := broadcastInDim S64000 ![] bcast_S_S64000 main_c_21
  let main_v55 : IVec S64000 1 := cmpi .slt main_arg7 main_v54
  let main_v56 : IVec S64000 1 := andi main_v53 main_v55
  let main_c_22 : IVec S_ 1 := constantI S_ 1 1#1
  let main_v57 : IVec S_ 1 := (fun x v => Host.reduce IntOp.andi x v reducesTo_S64000_S_d0 h_S_) main_v56 main_c_22
  let main_v58 : IVec S_ 1 := andi main_v51 main_v57
  let main_c_23 : IVec S_ 32 := constantI S_ 32 0#32
  let main_v59 : IVec S64000 32 := broadcastInDim S64000 ![] bcast_S_S64000 main_c_23
  let main_v60 : IVec S64000 1 := cmpi .sge main_arg8 main_v59
  let main_c_24 : IVec S_ 32 := constantI S_ 32 64000#32
  let main_v61 : IVec S64000 32 := broadcastInDim S64000 ![] bcast_S_S64000 main_c_24
  let main_v62 : IVec S64000 1 := cmpi .slt main_arg8 main_v61
  let main_v63 : IVec S64000 1 := andi main_v60 main_v62
  let main_c_25 : IVec S_ 1 := constantI S_ 1 1#1
  let main_v64 : IVec S_ 1 := (fun x v => Host.reduce IntOp.andi x v reducesTo_S64000_S_d0 h_S_) main_v63 main_c_25
  let main_v65 : IVec S_ 1 := andi main_v58 main_v64
  let main_c_26 : IVec S_ 32 := constantI S_ 32 0#32
  let main_v66 : IVec S64000 32 := broadcastInDim S64000 ![] bcast_S_S64000 main_c_26
  fn_part4 (F := F) main_arg10 main_arg11 main_v65 main_v66

def fn_part2 {F : FTy → Type} [FloatOps F] (main_arg2 : IVec S64000 32) (main_arg4 : IVec S64000 32) (main_arg5 : IVec S64000 32) (main_arg7 : IVec S64000 32) (main_arg8 : IVec S64000 32) (main_arg10 : IVec S64000 32) (main_arg11 : IVec S64000 32) (main_v30 : IVec S_ 1) (main_v32 : IVec S64000 1) (main_c_12 : IVec S_ 32) : IVec S_ 1 :=
  let main_v33 : IVec S64000 32 := broadcastInDim S64000 ![] bcast_S_S64000 main_c_12
  let main_v34 : IVec S64000 1 := cmpi .slt main_arg2 main_v33
  let main_v35 : IVec S64000 1 := andi main_v32 main_v34
  let main_c_13 : IVec S_ 1 := constantI S_ 1 1#1
  let main_v36 : IVec S_ 1 := (fun x v => Host.reduce IntOp.andi x v reducesTo_S64000_S_d0 h_S_) main_v35 main_c_13
  let main_v37 : IVec S_ 1 := andi main_v30 main_v36
  let main_c_14 : IVec S_ 32 := constantI S_ 32 0#32
  let main_v38 : IVec S64000 32 := broadcastInDim S64000 ![] bcast_S_S64000 main_c_14
  let main_v39 : IVec S64000 1 := cmpi .sge main_arg4 main_v38
  let main_c_15 : IVec S_ 32 := constantI S_ 32 64000#32
  let main_v40 : IVec S64000 32 := broadcastInDim S64000 ![] bcast_S_S64000 main_c_15
  let main_v41 : IVec S64000 1 := cmpi .slt main_arg4 main_v40
  let main_v42 : IVec S64000 1 := andi main_v39 main_v41
  let main_c_16 : IVec S_ 1 := constantI S_ 1 1#1
  let main_v43 : IVec S_ 1 := (fun x v => Host.reduce IntOp.andi x v reducesTo_S64000_S_d0 h_S_) main_v42 main_c_16
  let main_v44 : IVec S_ 1 := andi main_v37 main_v43
  let main_c_17 : IVec S_ 32 := constantI S_ 32 0#32
  let main_v45 : IVec S64000 32 := broadcastInDim S64000 ![] bcast_S_S64000 main_c_17
  let main_v46 : IVec S64000 1 := cmpi .sge main_arg5 main_v45
  let main_c_18 : IVec S_ 32 := constantI S_ 32 64000#32
  let main_v47 : IVec S64000 32 := broadcastInDim S64000 ![] bcast_S_S64000 main_c_18
  let main_v48 : IVec S64000 1 := cmpi .slt main_arg5 main_v47
  let main_v49 : IVec S64000 1 := andi main_v46 main_v48
  let main_c_19 : IVec S_ 1 := constantI S_ 1 1#1
  fn_part3 (F := F) main_arg7 main_arg8 main_arg10 main_arg11 main_v44 main_v49 main_c_19

def fn_part1 {F : FTy → Type} [FloatOps F] (main_arg1 : IVec S64000 32) (main_arg2 : IVec S64000 32) (main_arg4 : IVec S64000 32) (main_arg5 : IVec S64000 32) (main_arg7 : IVec S64000 32) (main_arg8 : IVec S64000 32) (main_arg10 : IVec S64000 32) (main_arg11 : IVec S64000 32) (main_arg12 : FVec F S64000x16 .f32) (main_v13 : IVec S_ 1) (main_v16 : IVec S64000x16 1) : IVec S_ 1 :=
  let main_c_5 : IVec S_ 1 := constantI S_ 1 1#1
  let main_v17 : IVec S_ 1 := (fun x v => Host.reduce IntOp.andi x v reducesTo_S64000x16_S_d0_1 h_S_) main_v16 main_c_5
  let main_v18 : IVec S_ 1 := andi main_v13 main_v17
  let main_v19 : FVec F S64000x16 .f32 := Host.absf main_arg12
  let main_cst_6 : FVec F S_ .f32 := constant S_ .f32 0x7F800000#32
  let main_v20 : FVec F S64000x16 .f32 := broadcastInDim S64000x16 ![] bcast_S_S64000x16 main_cst_6
  let main_v21 : IVec S64000x16 1 := cmpf .olt main_v19 main_v20
  let main_c_7 : IVec S_ 1 := constantI S_ 1 1#1
  let main_v22 : IVec S_ 1 := (fun x v => Host.reduce IntOp.andi x v reducesTo_S64000x16_S_d0_1 h_S_) main_v21 main_c_7
  let main_v23 : IVec S_ 1 := andi main_v18 main_v22
  let main_c_8 : IVec S_ 32 := constantI S_ 32 0#32
  let main_v24 : IVec S64000 32 := broadcastInDim S64000 ![] bcast_S_S64000 main_c_8
  let main_v25 : IVec S64000 1 := cmpi .sge main_arg1 main_v24
  let main_c_9 : IVec S_ 32 := constantI S_ 32 1024#32
  let main_v26 : IVec S64000 32 := broadcastInDim S64000 ![] bcast_S_S64000 main_c_9
  let main_v27 : IVec S64000 1 := cmpi .slt main_arg1 main_v26
  let main_v28 : IVec S64000 1 := andi main_v25 main_v27
  let main_c_10 : IVec S_ 1 := constantI S_ 1 1#1
  let main_v29 : IVec S_ 1 := (fun x v => Host.reduce IntOp.andi x v reducesTo_S64000_S_d0 h_S_) main_v28 main_c_10
  let main_v30 : IVec S_ 1 := andi main_v23 main_v29
  let main_c_11 : IVec S_ 32 := constantI S_ 32 0#32
  let main_v31 : IVec S64000 32 := broadcastInDim S64000 ![] bcast_S_S64000 main_c_11
  let main_v32 : IVec S64000 1 := cmpi .sge main_arg2 main_v31
  let main_c_12 : IVec S_ 32 := constantI S_ 32 1024#32
  fn_part2 (F := F) main_arg2 main_arg4 main_arg5 main_arg7 main_arg8 main_arg10 main_arg11 main_v30 main_v32 main_c_12

def fn {F : FTy → Type} [FloatOps F] (main_arg0 : FVec F S256x1024 .f32) (main_arg1 : IVec S64000 32) (main_arg2 : IVec S64000 32) (main_arg3 : FVec F S64000x16 .f32) (main_arg4 : IVec S64000 32) (main_arg5 : IVec S64000 32) (main_arg6 : FVec F S64000x16 .f32) (main_arg7 : IVec S64000 32) (main_arg8 : IVec S64000 32) (main_arg9 : FVec F S64000x16 .f32) (main_arg10 : IVec S64000 32) (main_arg11 : IVec S64000 32) (main_arg12 : FVec F S64000x16 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S64000x16 .f32 := Host.absf main_arg3
  let main_cst_0 : FVec F S_ .f32 := constant S_ .f32 0x7F800000#32
  let main_v5 : FVec F S64000x16 .f32 := broadcastInDim S64000x16 ![] bcast_S_S64000x16 main_cst_0
  let main_v6 : IVec S64000x16 1 := cmpf .olt main_v4 main_v5
  let main_c_1 : IVec S_ 1 := constantI S_ 1 1#1
  let main_v7 : IVec S_ 1 := (fun x v => Host.reduce IntOp.andi x v reducesTo_S64000x16_S_d0_1 h_S_) main_v6 main_c_1
  let main_v8 : IVec S_ 1 := andi main_v3 main_v7
  let main_v9 : FVec F S64000x16 .f32 := Host.absf main_arg6
  let main_cst_2 : FVec F S_ .f32 := constant S_ .f32 0x7F800000#32
  let main_v10 : FVec F S64000x16 .f32 := broadcastInDim S64000x16 ![] bcast_S_S64000x16 main_cst_2
  let main_v11 : IVec S64000x16 1 := cmpf .olt main_v9 main_v10
  let main_c_3 : IVec S_ 1 := constantI S_ 1 1#1
  let main_v12 : IVec S_ 1 := (fun x v => Host.reduce IntOp.andi x v reducesTo_S64000x16_S_d0_1 h_S_) main_v11 main_c_3
  let main_v13 : IVec S_ 1 := andi main_v8 main_v12
  let main_v14 : FVec F S64000x16 .f32 := Host.absf main_arg9
  let main_cst_4 : FVec F S_ .f32 := constant S_ .f32 0x7F800000#32
  let main_v15 : FVec F S64000x16 .f32 := broadcastInDim S64000x16 ![] bcast_S_S64000x16 main_cst_4
  let main_v16 : IVec S64000x16 1 := cmpf .olt main_v14 main_v15
  fn_part1 (F := F) main_arg1 main_arg2 main_arg4 main_arg5 main_arg7 main_arg8 main_arg10 main_arg11 main_arg12 main_v13 main_v16
-- ==== Kernel.lean ====
abbrev S256x1024 : Shape := ⟨2, ![256, 1024]⟩
abbrev S64000 : Shape := ⟨1, ![64000]⟩
abbrev S64000x16 : Shape := ⟨2, ![64000, 16]⟩
abbrev S16x4 : Shape := ⟨2, ![16, 4]⟩
abbrev S_ : Shape := ⟨0, ![]⟩
abbrev S64000x1 : Shape := ⟨2, ![64000, 1]⟩
abbrev S64000x4 : Shape := ⟨2, ![64000, 4]⟩
abbrev S4x64000 : Shape := ⟨2, ![4, 64000]⟩
abbrev S1x64000 : Shape := ⟨2, ![1, 64000]⟩
abbrev S256x64000 : Shape := ⟨2, ![256, 64000]⟩
abbrev S1x3200 : Shape := ⟨2, ![1, 3200]⟩
abbrev S4x3200 : Shape := ⟨2, ![4, 3200]⟩
abbrev S256x3200 : Shape := ⟨2, ![256, 3200]⟩
abbrev S1024x3200 : Shape := ⟨2, ![1024, 3200]⟩
abbrev S512x1024 : Shape := ⟨2, ![512, 1024]⟩
abbrev S512x3200 : Shape := ⟨2, ![512, 3200]⟩
abbrev S256x1280 : Shape := ⟨2, ![256, 1280]⟩
abbrev S1280x3200 : Shape := ⟨2, ![1280, 3200]⟩
abbrev S512x1280 : Shape := ⟨2, ![512, 1280]⟩
abbrev S256x10x6400 : Shape := ⟨3, ![256, 10, 6400]⟩
abbrev S256x10 : Shape := ⟨2, ![256, 10]⟩

abbrev nBuf : Space → Nat
  | .hbm => 112
  | .vmem => 54
  | .smem => 0
  | _ => 0

abbrev bufTy : (tb : Table) → Fin (tcTables nBuf tb) → BufTy
  | .hbm, ⟨0, _⟩ => ⟨S256x1024, .f32⟩
  | .hbm, ⟨1, _⟩ => ⟨S64000, .i32⟩
  | .hbm, ⟨2, _⟩ => ⟨S64000, .i32⟩
  | .hbm, ⟨3, _⟩ => ⟨S64000x16, .f32⟩
  | .hbm, ⟨4, _⟩ => ⟨S64000, .i32⟩
  | .hbm, ⟨5, _⟩ => ⟨S64000, .i32⟩
  | .hbm, ⟨6, _⟩ => ⟨S64000x16, .f32⟩
  | .hbm, ⟨7, _⟩ => ⟨S64000, .i32⟩
  | .hbm, ⟨8, _⟩ => ⟨S64000, .i32⟩
  | .hbm, ⟨9, _⟩ => ⟨S64000x16, .f32⟩
  | .hbm, ⟨10, _⟩ => ⟨S64000, .i32⟩
  | .hbm, ⟨11, _⟩ => ⟨S64000, .i32⟩
  | .hbm, ⟨12, _⟩ => ⟨S64000x16, .f32⟩
  | .hbm, ⟨13, _⟩ => ⟨S16x4, .f32⟩
  | .hbm, ⟨14, _⟩ => ⟨S_, .f32⟩
  | .hbm, ⟨15, _⟩ => ⟨S64000, .f32⟩
  | .hbm, ⟨16, _⟩ => ⟨S_, .f32⟩
  | .hbm, ⟨17, _⟩ => ⟨S64000, .f32⟩
  | .hbm, ⟨18, _⟩ => ⟨S64000, .f32⟩
  | .hbm, ⟨19, _⟩ => ⟨S64000x1, .f32⟩
  | .hbm, ⟨20, _⟩ => ⟨S64000x16, .f32⟩
  | .hbm, ⟨21, _⟩ => ⟨S64000x16, .f32⟩
  | .hbm, ⟨22, _⟩ => ⟨S64000x16, .f32⟩
  | .hbm, ⟨23, _⟩ => ⟨S_, .f32⟩
  | .hbm, ⟨24, _⟩ => ⟨S64000, .f32⟩
  | .hbm, ⟨25, _⟩ => ⟨S64000x1, .f32⟩
  | .hbm, ⟨26, _⟩ => ⟨S64000x16, .f32⟩
  | .hbm, ⟨27, _⟩ => ⟨S64000x16, .f32⟩
  | .hbm, ⟨28, _⟩ => ⟨S64000x4, .f32⟩
  | .hbm, ⟨29, _⟩ => ⟨S4x64000, .f32⟩
  | .hbm, ⟨30, _⟩ => ⟨S1x64000, .i32⟩
  | .hbm, ⟨31, _⟩ => ⟨S1x64000, .i32⟩
  | .hbm, ⟨32, _⟩ => ⟨S256x1024, .bf16⟩
  | .hbm, ⟨33, _⟩ => ⟨S256x1024, .f32⟩
  | .hbm, ⟨34, _⟩ => ⟨S256x1024, .f32⟩
  | .hbm, ⟨35, _⟩ => ⟨S256x1024, .bf16⟩
  | .hbm, ⟨36, _⟩ => ⟨S256x64000, .f32⟩
  | .hbm, ⟨37, _⟩ => ⟨S_, .f32⟩
  | .hbm, ⟨38, _⟩ => ⟨S64000, .f32⟩
  | .hbm, ⟨39, _⟩ => ⟨S_, .f32⟩
  | .hbm, ⟨40, _⟩ => ⟨S64000, .f32⟩
  | .hbm, ⟨41, _⟩ => ⟨S64000, .f32⟩
  | .hbm, ⟨42, _⟩ => ⟨S64000x1, .f32⟩
  | .hbm, ⟨43, _⟩ => ⟨S64000x16, .f32⟩
  | .hbm, ⟨44, _⟩ => ⟨S64000x16, .f32⟩
  | .hbm, ⟨45, _⟩ => ⟨S64000x16, .f32⟩
  | .hbm, ⟨46, _⟩ => ⟨S_, .f32⟩
  | .hbm, ⟨47, _⟩ => ⟨S64000, .f32⟩
  | .hbm, ⟨48, _⟩ => ⟨S64000x1, .f32⟩
  | .hbm, ⟨49, _⟩ => ⟨S64000x16, .f32⟩
  | .hbm, ⟨50, _⟩ => ⟨S64000x16, .f32⟩
  | .hbm, ⟨51, _⟩ => ⟨S64000x4, .f32⟩
  | .hbm, ⟨52, _⟩ => ⟨S4x64000, .f32⟩
  | .hbm, ⟨53, _⟩ => ⟨S1x64000, .i32⟩
  | .hbm, ⟨54, _⟩ => ⟨S1x64000, .i32⟩
  | .hbm, ⟨55, _⟩ => ⟨S256x64000, .bf16⟩
  | .hbm, ⟨56, _⟩ => ⟨S256x64000, .f32⟩
  | .hbm, ⟨57, _⟩ => ⟨S256x64000, .f32⟩
  | .hbm, ⟨58, _⟩ => ⟨S256x64000, .bf16⟩
  | .hbm, ⟨59, _⟩ => ⟨S256x64000, .f32⟩
  | .hbm, ⟨60, _⟩ => ⟨S_, .f32⟩
  | .hbm, ⟨61, _⟩ => ⟨S64000, .f32⟩
  | .hbm, ⟨62, _⟩ => ⟨S_, .f32⟩
  | .hbm, ⟨63, _⟩ => ⟨S64000, .f32⟩
  | .hbm, ⟨64, _⟩ => ⟨S64000, .f32⟩
  | .hbm, ⟨65, _⟩ => ⟨S64000x1, .f32⟩
  | .hbm, ⟨66, _⟩ => ⟨S64000x16, .f32⟩
  | .hbm, ⟨67, _⟩ => ⟨S64000x16, .f32⟩
  | .hbm, ⟨68, _⟩ => ⟨S64000x16, .f32⟩
  | .hbm, ⟨69, _⟩ => ⟨S_, .f32⟩
  | .hbm, ⟨70, _⟩ => ⟨S64000, .f32⟩
  | .hbm, ⟨71, _⟩ => ⟨S64000x1, .f32⟩
  | .hbm, ⟨72, _⟩ => ⟨S64000x16, .f32⟩
  | .hbm, ⟨73, _⟩ => ⟨S64000x16, .f32⟩
  | .hbm, ⟨74, _⟩ => ⟨S64000x4, .f32⟩
  | .hbm, ⟨75, _⟩ => ⟨S4x64000, .f32⟩
  | .hbm, ⟨76, _⟩ => ⟨S1x64000, .i32⟩
  | .hbm, ⟨77, _⟩ => ⟨S1x64000, .i32⟩
  | .hbm, ⟨78, _⟩ => ⟨S256x64000, .bf16⟩
  | .hbm, ⟨79, _⟩ => ⟨S256x64000, .f32⟩
  | .hbm, ⟨80, _⟩ => ⟨S256x64000, .f32⟩
  | .hbm, ⟨81, _⟩ => ⟨S256x64000, .bf16⟩
  | .hbm, ⟨82, _⟩ => ⟨S256x64000, .f32⟩
  | .hbm, ⟨83, _⟩ => ⟨S_, .f32⟩
  | .hbm, ⟨84, _⟩ => ⟨S64000, .f32⟩
  | .hbm, ⟨85, _⟩ => ⟨S_, .f32⟩
  | .hbm, ⟨86, _⟩ => ⟨S64000, .f32⟩
  | .hbm, ⟨87, _⟩ => ⟨S64000, .f32⟩
  | .hbm, ⟨88, _⟩ => ⟨S64000x1, .f32⟩
  | .hbm, ⟨89, _⟩ => ⟨S64000x16, .f32⟩
  | .hbm, ⟨90, _⟩ => ⟨S64000x16, .f32⟩
  | .hbm, ⟨91, _⟩ => ⟨S64000x16, .f32⟩
  | .hbm, ⟨92, _⟩ => ⟨S_, .f32⟩
  | .hbm, ⟨93, _⟩ => ⟨S64000, .f32⟩
  | .hbm, ⟨94, _⟩ => ⟨S64000x1, .f32⟩
  | .hbm, ⟨95, _⟩ => ⟨S64000x16, .f32⟩
  | .hbm, ⟨96, _⟩ => ⟨S64000x16, .f32⟩
  | .hbm, ⟨97, _⟩ => ⟨S64000x4, .f32⟩
  | .hbm, ⟨98, _⟩ => ⟨S4x64000, .f32⟩
  | .hbm, ⟨99, _⟩ => ⟨S1x64000, .i32⟩
  | .hbm, ⟨100, _⟩ => ⟨S1x64000, .i32⟩
  | .hbm, ⟨101, _⟩ => ⟨S256x64000, .bf16⟩
  | .hbm, ⟨102, _⟩ => ⟨S256x64000, .f32⟩
  | .hbm, ⟨103, _⟩ => ⟨S256x64000, .f32⟩
  | .hbm, ⟨104, _⟩ => ⟨S256x64000, .bf16⟩
  | .hbm, ⟨105, _⟩ => ⟨S256x64000, .f32⟩
  | .hbm, ⟨106, _⟩ => ⟨S256x10x6400, .f32⟩
  | .hbm, ⟨107, _⟩ => ⟨S_, .f32⟩
  | .hbm, ⟨108, _⟩ => ⟨S256x10, .f32⟩
  | .hbm, ⟨109, _⟩ => ⟨S_, .f32⟩
  | .hbm, ⟨110, _⟩ => ⟨S256x10, .f32⟩
  | .hbm, ⟨111, _⟩ => ⟨S256x10, .f32⟩
  | .local _ .vmem, ⟨0, _⟩ => ⟨S1x3200, .i32⟩
  | .local _ .vmem, ⟨1, _⟩ => ⟨S1x3200, .i32⟩
  | .local _ .vmem, ⟨2, _⟩ => ⟨S1x3200, .i32⟩
  | .local _ .vmem, ⟨3, _⟩ => ⟨S1x3200, .i32⟩
  | .local _ .vmem, ⟨4, _⟩ => ⟨S4x3200, .f32⟩
  | .local _ .vmem, ⟨5, _⟩ => ⟨S4x3200, .f32⟩
  | .local _ .vmem, ⟨6, _⟩ => ⟨S256x1024, .bf16⟩
  | .local _ .vmem, ⟨7, _⟩ => ⟨S256x1024, .bf16⟩
  | .local _ .vmem, ⟨8, _⟩ => ⟨S256x3200, .f32⟩
  | .local _ .vmem, ⟨9, _⟩ => ⟨S256x3200, .f32⟩
  | .local _ .vmem, ⟨10, _⟩ => ⟨S256x3200, .f32⟩
  | .local _ .vmem, ⟨11, _⟩ => ⟨S256x3200, .f32⟩
  | .local _ .vmem, ⟨12, _⟩ => ⟨S1x3200, .i32⟩
  | .local _ .vmem, ⟨13, _⟩ => ⟨S1x3200, .i32⟩
  | .local _ .vmem, ⟨14, _⟩ => ⟨S1x3200, .i32⟩
  | .local _ .vmem, ⟨15, _⟩ => ⟨S1x3200, .i32⟩
  | .local _ .vmem, ⟨16, _⟩ => ⟨S4x3200, .f32⟩
  | .local _ .vmem, ⟨17, _⟩ => ⟨S4x3200, .f32⟩
  | .local _ .vmem, ⟨18, _⟩ => ⟨S256x1280, .bf16⟩
  | .local _ .vmem, ⟨19, _⟩ => ⟨S256x1280, .bf16⟩
  | .local _ .vmem, ⟨20, _⟩ => ⟨S256x1280, .bf16⟩
  | .local _ .vmem, ⟨21, _⟩ => ⟨S256x1280, .bf16⟩
  | .local _ .vmem, ⟨22, _⟩ => ⟨S256x3200, .f32⟩
  | .local _ .vmem, ⟨23, _⟩ => ⟨S256x3200, .f32⟩
  | .local _ .vmem, ⟨24, _⟩ => ⟨S256x3200, .f32⟩
  | .local _ .vmem, ⟨25, _⟩ => ⟨S256x3200, .f32⟩
  | .local _ .vmem, ⟨26, _⟩ => ⟨S1x3200, .i32⟩
  | .local _ .vmem, ⟨27, _⟩ => ⟨S1x3200, .i32⟩
  | .local _ .vmem, ⟨28, _⟩ => ⟨S1x3200, .i32⟩
  | .local _ .vmem, ⟨29, _⟩ => ⟨S1x3200, .i32⟩
  | .local _ .vmem, ⟨30, _⟩ => ⟨S4x3200, .f32⟩
  | .local _ .vmem, ⟨31, _⟩ => ⟨S4x3200, .f32⟩
  | .local _ .vmem, ⟨32, _⟩ => ⟨S256x1280, .bf16⟩
  | .local _ .vmem, ⟨33, _⟩ => ⟨S256x1280, .bf16⟩
  | .local _ .vmem, ⟨34, _⟩ => ⟨S256x1280, .bf16⟩
  | .local _ .vmem, ⟨35, _⟩ => ⟨S256x1280, .bf16⟩
  | .local _ .vmem, ⟨36, _⟩ => ⟨S256x3200, .f32⟩
  | .local _ .vmem, ⟨37, _⟩ => ⟨S256x3200, .f32⟩
  | .local _ .vmem, ⟨38, _⟩ => ⟨S256x3200, .f32⟩
  | .local _ .vmem, ⟨39, _⟩ => ⟨S256x3200, .f32⟩
  | .local _ .vmem, ⟨40, _⟩ => ⟨S1x3200, .i32⟩
  | .local _ .vmem, ⟨41, _⟩ => ⟨S1x3200, .i32⟩
  | .local _ .vmem, ⟨42, _⟩ => ⟨S1x3200, .i32⟩
  | .local _ .vmem, ⟨43, _⟩ => ⟨S1x3200, .i32⟩
  | .local _ .vmem, ⟨44, _⟩ => ⟨S4x3200, .f32⟩
  | .local _ .vmem, ⟨45, _⟩ => ⟨S4x3200, .f32⟩
  | .local _ .vmem, ⟨46, _⟩ => ⟨S256x1280, .bf16⟩
  | .local _ .vmem, ⟨47, _⟩ => ⟨S256x1280, .bf16⟩
  | .local _ .vmem, ⟨48, _⟩ => ⟨S256x1280, .bf16⟩
  | .local _ .vmem, ⟨49, _⟩ => ⟨S256x1280, .bf16⟩
  | .local _ .vmem, ⟨50, _⟩ => ⟨S256x3200, .f32⟩
  | .local _ .vmem, ⟨51, _⟩ => ⟨S256x3200, .f32⟩
  | .local _ .vmem, ⟨52, _⟩ => ⟨S256x3200, .f32⟩
  | .local _ .vmem, ⟨53, _⟩ => ⟨S256x3200, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_cst_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_12 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc2_scratch1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_scratch0 : Ref sig .tc := ⟨.vmem, 52, rfl⟩
abbrev cc3_scratch1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45

abbrev nD : Nat := 1
abbrev τ : Topo := Topo.v7x

variable {F : FTy → Type} [FloatOps F]

abbrev grid0 : Pipeline.Grid := ⟨2, ![20, 1], ![false, false]⟩

def k0_cond2 (i : grid0.Coords) : BitVec 1 :=
  let arg1 : BitVec 32 := BitVec.ofNat 32 (i 1).val
  let c0_i32_17 : BitVec 32 := 0#32
  let v46 : BitVec 1 := Scalar.cmpi .eq arg1 c0_i32_17
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![20, 50], ![false, false]⟩

def k1_cond2 (i : grid1.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_17 : BitVec 32 := 0#32
  let v48 : BitVec 1 := Scalar.cmpi .ne v47 c0_i32_17
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1280 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x3200 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![20, 50], ![false, false]⟩

def k2_cond2 (i : grid2.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_17 : BitVec 32 := 0#32
  let v48 : BitVec 1 := Scalar.cmpi .ne v47 c0_i32_17
  v48

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1x3200 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x3200 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1280 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S256x1280 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S256x3200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![20, 50], ![false, false]⟩

def k3_cond2 (i : grid3.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_17 : BitVec 32 := 0#32
  let v48 : BitVec 1 := Scalar.cmpi .ne v47 c0_i32_17
  v48

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1x3200 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x3200 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S4x3200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x1280 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S256x1280 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S256x3200 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  reducesTo_S64000x16_S64000_d1 : S64000x16.ReducesTo [1] S64000
  h_S_ : 0 < S_.numel
  bcast_S_S64000 : S_.BroadcastsInDim S64000 (![] : Fin 0 → Fin S64000.rank)
  bcast_S64000_S64000x1_0 : S64000.BroadcastsInDim S64000x1 (![0] : Fin 1 → Fin S64000x1.rank)
  bcast_S64000x1_S64000x16_0_1 : S64000x1.BroadcastsInDim S64000x16 (![0, 1] : Fin 2 → Fin S64000x16.rank)
  transposes_S64000x4_S4x64000_1_0 : S64000x4.Transposes [1, 0] S4x64000
  shapeCasts_S64000_S1x64000 : S64000.ShapeCasts S1x64000
  bitsLt_bf16_f32 : FTy.bits .bf16 < FTy.bits .f32
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  iota_S1024x3200_d0_w32 : S1024x3200.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S1024x3200 : S1x3200.Broadcasts S1024x3200
  natLt_1_32 : 1 < 32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S256x1024_S256x1024_S512x1024_d0 : Shape.Concatenates [S256x1024, S256x1024] S512x1024 0
  slices_S512x3200_o0_0_S256x3200 : S512x3200.Slices ![0, 0] S256x3200
  slices_S512x3200_o256_0_S256x3200 : S512x3200.Slices ![256, 0] S256x3200
  inb_S4x3200_S1x3200_0_0 : ∀ a, (![0, 0] : Fin 2 → Nat) a + S1x3200.size a ≤ S4x3200.size a
  inb_S4x3200_S1x3200_1_0 : ∀ a, (![1, 0] : Fin 2 → Nat) a + S1x3200.size a ≤ S4x3200.size a
  inb_S4x3200_S1x3200_2_0 : ∀ a, (![2, 0] : Fin 2 → Nat) a + S1x3200.size a ≤ S4x3200.size a
  inb_S4x3200_S1x3200_3_0 : ∀ a, (![3, 0] : Fin 2 → Nat) a + S1x3200.size a ≤ S4x3200.size a
  broadcasts_S1x3200_S256x3200 : S1x3200.Broadcasts S256x3200
  iota_S1280x3200_d0_w32 : S1280x3200.Iotas .tc 32 [0]
  broadcasts_S1x3200_S1280x3200 : S1x3200.Broadcasts S1280x3200
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  concatenates_S256x1280_S256x1280_S512x1280_d0 : Shape.Concatenates [S256x1280, S256x1280] S512x1280 0
  shapeCasts_S256x64000_S256x10x6400 : S256x64000.ShapeCasts S256x10x6400
  reducesTo_S256x10x6400_S256x10_d2 : S256x10x6400.ReducesTo [2] S256x10
  bcast_S_S256x10 : S_.BroadcastsInDim S256x10 (![] : Fin 0 → Fin S256x10.rank)
  dot_S64000x16_S16x4_S64000x4_1_0_0_1_n_n_wf : DotDims.WF S64000x16 S16x4 S64000x4 [1] [0] [0] [1] [] []
  dot_S512x1024_S1024x3200_S512x3200_1_0_0_1_n_n_wf : DotDims.WF S512x1024 S1024x3200 S512x3200 [1] [0] [0] [1] [] []
  dot_S512x1280_S1280x3200_S512x3200_1_0_0_1_n_n_wf : DotDims.WF S512x1280 S1280x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x64000.size a
  hwx0_0 : ∀ i : grid0.Coords, EltTy.bits .i32 = 32 ∨ (Rect.block (s := S1x64000) S1x3200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x64000.size a
  hwx0_1 : ∀ i : grid0.Coords, EltTy.bits .i32 = 32 ∨ (Rect.block (s := S1x64000) S1x3200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3200.size a ≤ S4x64000.size a
  hwx0_2 : ∀ i : grid0.Coords, EltTy.bits .f32 = 32 ∨ (Rect.block (s := S4x64000) S4x3200.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3200.size a ≤ S256x64000.size a
  hwx0_5 : ∀ i : grid0.Coords, EltTy.bits .f32 = 32 ∨ (Rect.block (s := S256x64000) S256x3200.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x64000.size a
  hwx1_0 : ∀ i : grid1.Coords, EltTy.bits .i32 = 32 ∨ (Rect.block (s := S1x64000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3200.size a ≤ S1x64000.size a
  hwx1_1 : ∀ i : grid1.Coords, EltTy.bits .i32 = 32 ∨ (Rect.block (s := S1x64000) S1x3200.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x3200.size a ≤ S4x64000.size a
  hwx1_2 : ∀ i : grid1.Coords, EltTy.bits .f32 = 32 ∨ (Rect.block (s := S4x64000) S4x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1280.size a ≤ S256x64000.size a
  hwx1_3 : ∀ i : grid1.Coords, EltTy.bits .bf16 = 32 ∨ (Rect.block (s := S256x64000) S256x1280.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1280.size a ≤ S256x64000.size a
  hwx1_4 : ∀ i : grid1.Coords, EltTy.bits .bf16 = 32 ∨ (Rect.block (s := S256x64000) S256x1280.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x3200.size a ≤ S256x64000.size a
  hwx1_5 : ∀ i : grid1.Coords, EltTy.bits .f32 = 32 ∨ (Rect.block (s := S256x64000) S256x3200.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3200.size a ≤ S1x64000.size a
  hwx2_0 : ∀ i : grid2.Coords, EltTy.bits .i32 = 32 ∨ (Rect.block (s := S1x64000) S1x3200.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x3200.size a ≤ S1x64000.size a
  hwx2_1 : ∀ i : grid2.Coords, EltTy.bits .i32 = 32 ∨ (Rect.block (s := S1x64000) S1x3200.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x3200.size a ≤ S4x64000.size a
  hwx2_2 : ∀ i : grid2.Coords, EltTy.bits .f32 = 32 ∨ (Rect.block (s := S4x64000) S4x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1280.size a ≤ S256x64000.size a
  hwx2_3 : ∀ i : grid2.Coords, EltTy.bits .bf16 = 32 ∨ (Rect.block (s := S256x64000) S256x1280.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1280.size a ≤ S256x64000.size a
  hwx2_4 : ∀ i : grid2.Coords, EltTy.bits .bf16 = 32 ∨ (Rect.block (s := S256x64000) S256x1280.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x3200.size a ≤ S256x64000.size a
  hwx2_5 : ∀ i : grid2.Coords, EltTy.bits .f32 = 32 ∨ (Rect.block (s := S256x64000) S256x3200.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x3200.size a ≤ S1x64000.size a
  hwx3_0 : ∀ i : grid3.Coords, EltTy.bits .i32 = 32 ∨ (Rect.block (s := S1x64000) S1x3200.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x3200.size a ≤ S1x64000.size a
  hwx3_1 : ∀ i : grid3.Coords, EltTy.bits .i32 = 32 ∨ (Rect.block (s := S1x64000) S1x3200.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x3200.size a ≤ S4x64000.size a
  hwx3_2 : ∀ i : grid3.Coords, EltTy.bits .f32 = 32 ∨ (Rect.block (s := S4x64000) S4x3200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1280.size a ≤ S256x64000.size a
  hwx3_3 : ∀ i : grid3.Coords, EltTy.bits .bf16 = 32 ∨ (Rect.block (s := S256x64000) S256x1280.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x1280.size a ≤ S256x64000.size a
  hwx3_4 : ∀ i : grid3.Coords, EltTy.bits .bf16 = 32 ∨ (Rect.block (s := S256x64000) S256x1280.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x3200.size a ≤ S256x64000.size a
  hwx3_5 : ∀ i : grid3.Coords, EltTy.bits .f32 = 32 ∨ (Rect.block (s := S256x64000) S256x3200.size (cc3_transform_5 i) (hinb3_5 i)).WholeWords (EltTy.packing .f32)

variable [Facts₀]

def dot_S64000x16_S16x4_S64000x4_1_0_0_1_n_n : DotDims S64000x16 S16x4 S64000x4 where
  lhsContracting := [1]
  rhsContracting := [0]
  lhsNonContracting := [0]
  rhsNonContracting := [1]
  lhsBatch := []
  rhsBatch := []
  wf := dot_S64000x16_S16x4_S64000x4_1_0_0_1_n_n_wf
def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf
def dot_S512x1280_S1280x3200_S512x3200_1_0_0_1_n_n : DotDims S512x1280 S1280x3200 S512x3200 where
  lhsContracting := [1]
  rhsContracting := [0]
  lhsNonContracting := [0]
  rhsNonContracting := [1]
  lhsBatch := []
  rhsBatch := []
  wf := dot_S512x1280_S1280x3200_S512x3200_1_0_0_1_n_n_wf

abbrev win0_0 : Pipeline.Window sig grid0 :=
  Pipeline.Window.ofSpec (Memref.whole main_v13) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x1024.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x1024.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x3200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v33) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x1280.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38) S256x1280.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39) S256x3200.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v53) S1x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x3200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S4x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S256x1280.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58) S256x1280.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v59) S256x3200.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v73) S1x3200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x3200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S4x3200.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S256x1280.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v78) S256x1280.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v79) S256x3200.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S256x1024 : Shape := ⟨2, ![256, 1024]⟩
abbrev S64000 : Shape := ⟨1, ![64000]⟩
abbrev S64000x16 : Shape := ⟨2, ![64000, 16]⟩
abbrev S16x4 : Shape := ⟨2, ![16, 4]⟩
abbrev S_ : Shape := ⟨0, ![]⟩
abbrev S64000x1 : Shape := ⟨2, ![64000, 1]⟩
abbrev S64000x4 : Shape := ⟨2, ![64000, 4]⟩
abbrev S256x64000 : Shape := ⟨2, ![256, 64000]⟩
abbrev S1x64000 : Shape := ⟨2, ![1, 64000]⟩
abbrev S256x10x6400 : Shape := ⟨3, ![256, 10, 6400]⟩
abbrev S256x10 : Shape := ⟨2, ![256, 10]⟩

abbrev nBuf : Space → Nat
  | .hbm => 244
  | .vmem => 0
  | .smem => 0
  | _ => 0

abbrev hbmTy0_0 (i : Nat) : BufTy := match i % 128 with
  | 0 => ⟨S256x1024, .f32⟩
  | 1 => ⟨S64000, .i32⟩
  | 2 => ⟨S64000, .i32⟩
  | 3 => ⟨S64000x16, .f32⟩
  | 4 => ⟨S64000, .i32⟩
  | 5 => ⟨S64000, .i32⟩
  | 6 => ⟨S64000x16, .f32⟩
  | 7 => ⟨S64000, .i32⟩
  | 8 => ⟨S64000, .i32⟩
  | 9 => ⟨S64000x16, .f32⟩
  | 10 => ⟨S64000, .i32⟩
  | 11 => ⟨S64000, .i32⟩
  | 12 => ⟨S64000x16, .f32⟩
  | 13 => ⟨S16x4, .f32⟩
  | 14 => ⟨S_, .f32⟩
  | 15 => ⟨S64000, .f32⟩
  | 16 => ⟨S_, .f32⟩
  | 17 => ⟨S64000, .f32⟩
  | 18 => ⟨S64000, .f32⟩
  | 19 => ⟨S64000x1, .f32⟩
  | 20 => ⟨S64000x16, .f32⟩
  | 21 => ⟨S64000x16, .f32⟩
  | 22 => ⟨S64000x16, .f32⟩
  | 23 => ⟨S_, .f32⟩
  | 24 => ⟨S64000, .f32⟩
  | 25 => ⟨S64000x1, .f32⟩
  | 26 => ⟨S64000x16, .f32⟩
  | 27 => ⟨S64000x16, .f32⟩
  | 28 => ⟨S64000x4, .f32⟩
  | 29 => ⟨S_, .i32⟩
  | 30 => ⟨S64000, .i32⟩
  | 31 => ⟨S64000, .i1⟩
  | 32 => ⟨S_, .i32⟩
  | 33 => ⟨S64000, .i32⟩
  | 34 => ⟨S64000, .i32⟩
  | 35 => ⟨S64000, .i32⟩
  | 36 => ⟨S64000x1, .i32⟩
  | 37 => ⟨S256x64000, .f32⟩
  | 38 => ⟨S_, .i32⟩
  | 39 => ⟨S64000, .i32⟩
  | 40 => ⟨S64000, .i1⟩
  | 41 => ⟨S_, .i32⟩
  | 42 => ⟨S64000, .i32⟩
  | 43 => ⟨S64000, .i32⟩
  | 44 => ⟨S64000, .i32⟩
  | 45 => ⟨S64000x1, .i32⟩
  | 46 => ⟨S256x64000, .f32⟩
  | 47 => ⟨S64000x1, .f32⟩
  | 48 => ⟨S64000, .f32⟩
  | 49 => ⟨S64000x1, .f32⟩
  | 50 => ⟨S64000, .f32⟩
  | 51 => ⟨S1x64000, .f32⟩
  | 52 => ⟨S256x64000, .f32⟩
  | 53 => ⟨S256x64000, .f32⟩
  | 54 => ⟨S1x64000, .f32⟩
  | 55 => ⟨S256x64000, .f32⟩
  | 56 => ⟨S256x64000, .f32⟩
  | 57 => ⟨S64000x1, .f32⟩
  | 58 => ⟨S64000, .f32⟩
  | 59 => ⟨S1x64000, .f32⟩
  | 60 => ⟨S256x64000, .f32⟩
  | 61 => ⟨S256x64000, .f32⟩
  | 62 => ⟨S256x64000, .f32⟩
  | 63 => ⟨S64000x1, .f32⟩
  | 64 => ⟨S64000, .f32⟩
  | 65 => ⟨S256x64000, .f32⟩
  | 66 => ⟨S1x64000, .f32⟩
  | 67 => ⟨S256x64000, .f32⟩
  | 68 => ⟨S256x64000, .f32⟩
  | 69 => ⟨S256x64000, .f32⟩
  | 70 => ⟨S_, .f32⟩
  | 71 => ⟨S64000, .f32⟩
  | 72 => ⟨S_, .f32⟩
  | 73 => ⟨S64000, .f32⟩
  | 74 => ⟨S64000, .f32⟩
  | 75 => ⟨S64000x1, .f32⟩
  | 76 => ⟨S64000x16, .f32⟩
  | 77 => ⟨S64000x16, .f32⟩
  | 78 => ⟨S64000x16, .f32⟩
  | 79 => ⟨S_, .f32⟩
  | 80 => ⟨S64000, .f32⟩
  | 81 => ⟨S64000x1, .f32⟩
  | 82 => ⟨S64000x16, .f32⟩
  | 83 => ⟨S64000x16, .f32⟩
  | 84 => ⟨S64000x4, .f32⟩
  | 85 => ⟨S_, .i32⟩
  | 86 => ⟨S64000, .i32⟩
  | 87 => ⟨S64000, .i1⟩
  | 88 => ⟨S_, .i32⟩
  | 89 => ⟨S64000, .i32⟩
  | 90 => ⟨S64000, .i32⟩
  | 91 => ⟨S64000, .i32⟩
  | 92 => ⟨S64000x1, .i32⟩
  | 93 => ⟨S256x64000, .f32⟩
  | 94 => ⟨S_, .i32⟩
  | 95 => ⟨S64000, .i32⟩
  | 96 => ⟨S64000, .i1⟩
  | 97 => ⟨S_, .i32⟩
  | 98 => ⟨S64000, .i32⟩
  | 99 => ⟨S64000, .i32⟩
  | 100 => ⟨S64000, .i32⟩
  | 101 => ⟨S64000x1, .i32⟩
  | 102 => ⟨S256x64000, .f32⟩
  | 103 => ⟨S64000x1, .f32⟩
  | 104 => ⟨S64000, .f32⟩
  | 105 => ⟨S64000x1, .f32⟩
  | 106 => ⟨S64000, .f32⟩
  | 107 => ⟨S1x64000, .f32⟩
  | 108 => ⟨S256x64000, .f32⟩
  | 109 => ⟨S256x64000, .f32⟩
  | 110 => ⟨S1x64000, .f32⟩
  | 111 => ⟨S256x64000, .f32⟩
  | 112 => ⟨S256x64000, .f32⟩
  | 113 => ⟨S64000x1, .f32⟩
  | 114 => ⟨S64000, .f32⟩
  | 115 => ⟨S1x64000, .f32⟩
  | 116 => ⟨S256x64000, .f32⟩
  | 117 => ⟨S256x64000, .f32⟩
  | 118 => ⟨S256x64000, .f32⟩
  | 119 => ⟨S64000x1, .f32⟩
  | 120 => ⟨S64000, .f32⟩
  | 121 => ⟨S256x64000, .f32⟩
  | 122 => ⟨S1x64000, .f32⟩
  | 123 => ⟨S256x64000, .f32⟩
  | 124 => ⟨S256x64000, .f32⟩
  | 125 => ⟨S256x64000, .f32⟩
  | 126 => ⟨S_, .f32⟩
  | 127 => ⟨S64000, .f32⟩
  | _ => ⟨S256x1024, .f32⟩

abbrev hbmTy0_1 (i : Nat) : BufTy := match i % 128 with
  | 0 => ⟨S_, .f32⟩
  | 1 => ⟨S64000, .f32⟩
  | 2 => ⟨S64000, .f32⟩
  | 3 => ⟨S64000x1, .f32⟩
  | 4 => ⟨S64000x16, .f32⟩
  | 5 => ⟨S64000x16, .f32⟩
  | 6 => ⟨S64000x16, .f32⟩
  | 7 => ⟨S_, .f32⟩
  | 8 => ⟨S64000, .f32⟩
  | 9 => ⟨S64000x1, .f32⟩
  | 10 => ⟨S64000x16, .f32⟩
  | 11 => ⟨S64000x16, .f32⟩
  | 12 => ⟨S64000x4, .f32⟩
  | 13 => ⟨S_, .i32⟩
  | 14 => ⟨S64000, .i32⟩
  | 15 => ⟨S64000, .i1⟩
  | 16 => ⟨S_, .i32⟩
  | 17 => ⟨S64000, .i32⟩
  | 18 => ⟨S64000, .i32⟩
  | 19 => ⟨S64000, .i32⟩
  | 20 => ⟨S64000x1, .i32⟩
  | 21 => ⟨S256x64000, .f32⟩
  | 22 => ⟨S_, .i32⟩
  | 23 => ⟨S64000, .i32⟩
  | 24 => ⟨S64000, .i1⟩
  | 25 => ⟨S_, .i32⟩
  | 26 => ⟨S64000, .i32⟩
  | 27 => ⟨S64000, .i32⟩
  | 28 => ⟨S64000, .i32⟩
  | 29 => ⟨S64000x1, .i32⟩
  | 30 => ⟨S256x64000, .f32⟩
  | 31 => ⟨S64000x1, .f32⟩
  | 32 => ⟨S64000, .f32⟩
  | 33 => ⟨S64000x1, .f32⟩
  | 34 => ⟨S64000, .f32⟩
  | 35 => ⟨S1x64000, .f32⟩
  | 36 => ⟨S256x64000, .f32⟩
  | 37 => ⟨S256x64000, .f32⟩
  | 38 => ⟨S1x64000, .f32⟩
  | 39 => ⟨S256x64000, .f32⟩
  | 40 => ⟨S256x64000, .f32⟩
  | 41 => ⟨S64000x1, .f32⟩
  | 42 => ⟨S64000, .f32⟩
  | 43 => ⟨S1x64000, .f32⟩
  | 44 => ⟨S256x64000, .f32⟩
  | 45 => ⟨S256x64000, .f32⟩
  | 46 => ⟨S256x64000, .f32⟩
  | 47 => ⟨S64000x1, .f32⟩
  | 48 => ⟨S64000, .f32⟩
  | 49 => ⟨S256x64000, .f32⟩
  | 50 => ⟨S1x64000, .f32⟩
  | 51 => ⟨S256x64000, .f32⟩
  | 52 => ⟨S256x64000, .f32⟩
  | 53 => ⟨S256x64000, .f32⟩
  | 54 => ⟨S_, .f32⟩
  | 55 => ⟨S64000, .f32⟩
  | 56 => ⟨S_, .f32⟩
  | 57 => ⟨S64000, .f32⟩
  | 58 => ⟨S64000, .f32⟩
  | 59 => ⟨S64000x1, .f32⟩
  | 60 => ⟨S64000x16, .f32⟩
  | 61 => ⟨S64000x16, .f32⟩
  | 62 => ⟨S64000x16, .f32⟩
  | 63 => ⟨S_, .f32⟩
  | 64 => ⟨S64000, .f32⟩
  | 65 => ⟨S64000x1, .f32⟩
  | 66 => ⟨S64000x16, .f32⟩
  | 67 => ⟨S64000x16, .f32⟩
  | 68 => ⟨S64000x4, .f32⟩
  | 69 => ⟨S_, .i32⟩
  | 70 => ⟨S64000, .i32⟩
  | 71 => ⟨S64000, .i1⟩
  | 72 => ⟨S_, .i32⟩
  | 73 => ⟨S64000, .i32⟩
  | 74 => ⟨S64000, .i32⟩
  | 75 => ⟨S64000, .i32⟩
  | 76 => ⟨S64000x1, .i32⟩
  | 77 => ⟨S256x64000, .f32⟩
  | 78 => ⟨S_, .i32⟩
  | 79 => ⟨S64000, .i32⟩
  | 80 => ⟨S64000, .i1⟩
  | 81 => ⟨S_, .i32⟩
  | 82 => ⟨S64000, .i32⟩
  | 83 => ⟨S64000, .i32⟩
  | 84 => ⟨S64000, .i32⟩
  | 85 => ⟨S64000x1, .i32⟩
  | 86 => ⟨S256x64000, .f32⟩
  | 87 => ⟨S64000x1, .f32⟩
  | 88 => ⟨S64000, .f32⟩
  | 89 => ⟨S64000x1, .f32⟩
  | 90 => ⟨S64000, .f32⟩
  | 91 => ⟨S1x64000, .f32⟩
  | 92 => ⟨S256x64000, .f32⟩
  | 93 => ⟨S256x64000, .f32⟩
  | 94 => ⟨S1x64000, .f32⟩
  | 95 => ⟨S256x64000, .f32⟩
  | 96 => ⟨S256x64000, .f32⟩
  | 97 => ⟨S64000x1, .f32⟩
  | 98 => ⟨S64000, .f32⟩
  | 99 => ⟨S1x64000, .f32⟩
  | 100 => ⟨S256x64000, .f32⟩
  | 101 => ⟨S256x64000, .f32⟩
  | 102 => ⟨S256x64000, .f32⟩
  | 103 => ⟨S64000x1, .f32⟩
  | 104 => ⟨S64000, .f32⟩
  | 105 => ⟨S256x64000, .f32⟩
  | 106 => ⟨S1x64000, .f32⟩
  | 107 => ⟨S256x64000, .f32⟩
  | 108 => ⟨S256x64000, .f32⟩
  | 109 => ⟨S256x64000, .f32⟩
  | 110 => ⟨S256x10x6400, .f32⟩
  | 111 => ⟨S_, .f32⟩
  | 112 => ⟨S256x10, .f32⟩
  | 113 => ⟨S_, .f32⟩
  | 114 => ⟨S256x10, .f32⟩
  | 115 => ⟨S256x10, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_cst_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_11 : Ref sig .tc := ⟨.hbm, 94, rfl⟩
abbrev main_v68 : Ref sig .tc := ⟨.hbm, 95, rfl⟩
abbrev main_v69 : Ref sig .tc := ⟨.hbm, 96, rfl⟩
abbrev main_c_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_cst_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_15 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_16 : Ref sig .tc := ⟨.hbm, 141, rfl⟩
abbrev main_v110 : Ref sig .tc := ⟨.hbm, 142, rfl⟩
abbrev main_v111 : Ref sig .tc := ⟨.hbm, 143, rfl⟩
abbrev main_c_17 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_18 : Ref sig .tc := ⟨.hbm, 150, rfl⟩
abbrev main_v117 : Ref sig .tc := ⟨.hbm, 151, rfl⟩
abbrev main_v118 : Ref sig .tc := ⟨.hbm, 152, rfl⟩
abbrev main_c_19 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_20 : Ref sig .tc := ⟨.hbm, 182, rfl⟩
abbrev main_v147 : Ref sig .tc := ⟨.hbm, 183, rfl⟩
abbrev main_cst_21 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_22 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_c_23 : Ref sig .tc := ⟨.hbm, 197, rfl⟩
abbrev main_v159 : Ref sig .tc := ⟨.hbm, 198, rfl⟩
abbrev main_v160 : Ref sig .tc := ⟨.hbm, 199, rfl⟩
abbrev main_c_24 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_c_25 : Ref sig .tc := ⟨.hbm, 206, rfl⟩
abbrev main_v166 : Ref sig .tc := ⟨.hbm, 207, rfl⟩
abbrev main_v167 : Ref sig .tc := ⟨.hbm, 208, rfl⟩
abbrev main_c_26 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_27 : Ref sig .tc := ⟨.hbm, 239, rfl⟩
abbrev main_v197 : Ref sig .tc := ⟨.hbm, 240, rfl⟩
abbrev main_cst_28 : Ref sig .tc := ⟨.hbm, 241, rfl⟩
abbrev main_v198 : Ref sig .tc := ⟨.hbm, 242, rfl⟩
abbrev main_v199 : Ref sig .tc := ⟨.hbm, 243, rfl⟩

abbrev nD : Nat := 1
abbrev τ : Topo := Topo.v7x

variable {F : FTy → Type} [FloatOps F]

class Facts₀ : Prop where
  reducesTo_S64000x16_S64000_d1 : S64000x16.ReducesTo [1] S64000
  h_S_ : 0 < S_.numel
  bcast_S_S64000 : S_.BroadcastsInDim S64000 (![] : Fin 0 → Fin S64000.rank)
  bcast_S64000_S64000x1_0 : S64000.BroadcastsInDim S64000x1 (![0] : Fin 1 → Fin S64000x1.rank)
  bcast_S64000x1_S64000x16_0_1 : S64000x1.BroadcastsInDim S64000x16 (![0, 1] : Fin 2 → Fin S64000x16.rank)
  slices_S64000x4_S64000x1_0_0 : S64000x4.Slices ![0, 0] S64000x1
  shapeCasts_S64000x1_S64000 : S64000x1.ShapeCasts S64000
  slices_S64000x4_S64000x1_0_1 : S64000x4.Slices ![0, 1] S64000x1
  bcast_S64000_S1x64000_1 : S64000.BroadcastsInDim S1x64000 (![1] : Fin 1 → Fin S1x64000.rank)
  bcast_S1x64000_S256x64000_0_1 : S1x64000.BroadcastsInDim S256x64000 (![0, 1] : Fin 2 → Fin S256x64000.rank)
  slices_S64000x4_S64000x1_0_2 : S64000x4.Slices ![0, 2] S64000x1
  slices_S64000x4_S64000x1_0_3 : S64000x4.Slices ![0, 3] S64000x1
  shapeCasts_S256x64000_S256x10x6400 : S256x64000.ShapeCasts S256x10x6400
  reducesTo_S256x10x6400_S256x10_d2 : S256x10x6400.ReducesTo [2] S256x10
  bcast_S_S256x10 : S_.BroadcastsInDim S256x10 (![] : Fin 0 → Fin S256x10.rank)
  dot_S64000x16_S16x4_S64000x4_1_0_0_1_n_n_wf : DotDims.WF S64000x16 S16x4 S64000x4 [1] [0] [0] [1] [] []
  gather_S256x1024_S64000x1_S256x64000_0_1_n_n_1_1_2561_wf : GatherDims.WF S256x1024 S64000x1 S256x64000 [0] [1] [] [1] [] 1 ![256, 1]
  gather_S256x64000_S64000x1_S256x64000_0_1_n_n_1_1_2561_wf : GatherDims.WF S256x64000 S64000x1 S256x64000 [0] [1] [] [1] [] 1 ![256, 1]

variable [Facts₀]

def dot_S64000x16_S16x4_S64000x4_1_0_0_1_n_n : DotDims S64000x16 S16x4 S64000x4 where
  lhsContracting := [1]
  rhsContracting := [0]
  lhsNonContracting := [0]
  rhsNonContracting := [1]
  lhsBatch := []
  rhsBatch := []
  wf := dot_S64000x16_S16x4_S64000x4_1_0_0_1_n_n_wf
def gather_S256x1024_S64000x1_S256x64000_0_1_n_n_1_1_2561 : GatherDims S256x1024 S64000x1 S256x64000 where
  offsetDims := [0]
  collapsedSliceDims := [1]
  operandBatchingDims := []
  startIndicesBatchingDims := []
  startIndexMap := [1]
  indexVectorDim := 1
  sliceSizes := ![256, 1]
  wf := gather_S256x1024_S64000x1_S256x64000_0_1_n_n_1_1_2561_wf
def gather_S256x64000_S64000x1_S256x64000_0_1_n_n_1_1_2561 : GatherDims S256x64000 S64000x1 S256x64000 where
  offsetDims := [0]
  collapsedSliceDims := [1]
  operandBatchingDims := []
  startIndicesBatchingDims := []
  startIndexMap := [1]
  indexVectorDim := 1
  sliceSizes := ![256, 1]
  wf := gather_S256x64000_S64000x1_S256x64000_0_1_n_n_1_1_2561_wf

class Facts : Prop extends Facts₀ where

variable [Facts]
-- ==== Proof.R.Run.lean ====
import proofs.«413321_j24653112279275_3_alg».proof.Proof.Gen.ReferenceIdeal
import proofs.«413321_j24653112279275_3_alg».proof.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def table : FVec F S16x4 .f32 := fun i => FloatOps.ofBits .f32 (lit0 (S16x4.rowMajor i))

noncomputable def coef (w : FVec F S64000x16 .f32) : FVec F S64000x4 .f32 :=
  Host.dotGeneral dot_S64000x16_S16x4_S64000x4_1_0_0_1_n_n none (Host.divf (Host.exp (subf w (broadcastInDim S64000x16 ![0, 1] bcast_S64000x1_S64000x16_0_1 (broadcastInDim S64000x1 ![0] bcast_S64000_S64000x1_0 (maximumf (broadcastInDim S64000 ![] bcast_S_S64000 (constant S_ .f32 0xFF800000#32)) (Host.reduce FloatOps.maximumf w (constant S_ .f32 0xFF800000#32) reducesTo_S64000x16_S64000_d1 h_S_)))))) (broadcastInDim S64000x16 ![0, 1] bcast_S64000x1_S64000x16_0_1 (broadcastInDim S64000x1 ![0] bcast_S64000_S64000x1_0 (Host.reduceAdd (Host.exp (subf w (broadcastInDim S64000x16 ![0, 1] bcast_S64000x1_S64000x16_0_1 (broadcastInDim S64000x1 ![0] bcast_S64000_S64000x1_0 (maximumf (broadcastInDim S64000 ![] bcast_S_S64000 (constant S_ .f32 0xFF800000#32)) (Host.reduce FloatOps.maximumf w (constant S_ .f32 0xFF800000#32) reducesTo_S64000x16_S64000_d1 h_S_)))))) (constant S_ .f32 0x00000000#32) reducesTo_S64000x16_S64000_d1 h_S_)))) table

noncomputable def layer0 (x : FVec F S256x1024 .f32) (ia ib : IVec S64000 32) (cf : FVec F S64000x4 .f32) : FVec F S256x64000 .f32 :=
  addf (addf (addf (broadcastInDim S256x64000 ![0, 1] bcast_S1x64000_S256x64000_0_1 (broadcastInDim S1x64000 ![1] bcast_S64000_S1x64000_1 (shapeCast S64000 (extractStridedSlice S64000x1 ![0, 0] cf slices_S64000x4_S64000x1_0_0) shapeCasts_S64000x1_S64000))) (mulf (broadcastInDim S256x64000 ![0, 1] bcast_S1x64000_S256x64000_0_1 (broadcastInDim S1x64000 ![1] bcast_S64000_S1x64000_1 (shapeCast S64000 (extractStridedSlice S64000x1 ![0, 1] cf slices_S64000x4_S64000x1_0_1) shapeCasts_S64000x1_S64000))) (Host.gather gather_S256x1024_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 1024#32))) ia))))) (mulf (broadcastInDim S256x64000 ![0, 1] bcast_S1x64000_S256x64000_0_1 (broadcastInDim S1x64000 ![1] bcast_S64000_S1x64000_1 (shapeCast S64000 (extractStridedSlice S64000x1 ![0, 2] cf slices_S64000x4_S64000x1_0_2) shapeCasts_S64000x1_S64000))) (Host.gather gather_S256x1024_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 1024#32))) ib))))) (mulf (broadcastInDim S256x64000 ![0, 1] bcast_S1x64000_S256x64000_0_1 (broadcastInDim S1x64000 ![1] bcast_S64000_S1x64000_1 (shapeCast S64000 (extractStridedSlice S64000x1 ![0, 3] cf slices_S64000x4_S64000x1_0_3) shapeCasts_S64000x1_S64000))) (mulf (Host.gather gather_S256x1024_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 1024#32))) ia))) (Host.gather gather_S256x1024_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 1024#32))) ib)))))

noncomputable def layerN (x : FVec F S256x64000 .f32) (ia ib : IVec S64000 32) (cf : FVec F S64000x4 .f32) : FVec F S256x64000 .f32 :=
  addf (addf (addf (broadcastInDim S256x64000 ![0, 1] bcast_S1x64000_S256x64000_0_1 (broadcastInDim S1x64000 ![1] bcast_S64000_S1x64000_1 (shapeCast S64000 (extractStridedSlice S64000x1 ![0, 0] cf slices_S64000x4_S64000x1_0_0) shapeCasts_S64000x1_S64000))) (mulf (broadcastInDim S256x64000 ![0, 1] bcast_S1x64000_S256x64000_0_1 (broadcastInDim S1x64000 ![1] bcast_S64000_S1x64000_1 (shapeCast S64000 (extractStridedSlice S64000x1 ![0, 1] cf slices_S64000x4_S64000x1_0_1) shapeCasts_S64000x1_S64000))) (Host.gather gather_S256x64000_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 64000#32))) ia))))) (mulf (broadcastInDim S256x64000 ![0, 1] bcast_S1x64000_S256x64000_0_1 (broadcastInDim S1x64000 ![1] bcast_S64000_S1x64000_1 (shapeCast S64000 (extractStridedSlice S64000x1 ![0, 2] cf slices_S64000x4_S64000x1_0_2) shapeCasts_S64000x1_S64000))) (Host.gather gather_S256x64000_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 64000#32))) ib))))) (mulf (broadcastInDim S256x64000 ![0, 1] bcast_S1x64000_S256x64000_0_1 (broadcastInDim S1x64000 ![1] bcast_S64000_S1x64000_1 (shapeCast S64000 (extractStridedSlice S64000x1 ![0, 3] cf slices_S64000x4_S64000x1_0_3) shapeCasts_S64000x1_S64000))) (mulf (Host.gather gather_S256x64000_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 64000#32))) ia))) (Host.gather gather_S256x64000_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 64000#32))) ib)))))

noncomputable def groupSum (h : FVec F S256x64000 .f32) : FVec F S256x10 .f32 :=
  Host.divf (Host.reduceAdd (shapeCast S256x10x6400 h shapeCasts_S256x64000_S256x10x6400) (constant S_ .f32 0x00000000#32) reducesTo_S256x10x6400_S256x10_d2 h_S_) (broadcastInDim S256x10 ![] bcast_S_S256x10 (constant S_ .f32 0x41200000#32))

noncomputable def out (a0 : FVec F S256x1024 .f32) (a1 a2 : IVec S64000 32) (a3 : FVec F S64000x16 .f32)
    (a4 a5 : IVec S64000 32) (a6 : FVec F S64000x16 .f32) (a7 a8 : IVec S64000 32) (a9 : FVec F S64000x16 .f32)
    (a10 a11 : IVec S64000 32) (a12 : FVec F S64000x16 .f32) : FVec F S256x10 .f32 :=
  groupSum (layerN (layerN (layerN (layer0 a0 a1 a2 (coef a3)) a4 a5 (coef a6)) a7 a8 (coef a9)) a10 a11 (coef a12))

abbrev opsCoef0 : List (HloOp τ sig (Elt F)) :=
  [
    StableHlo.nullary main_cst (fun i => FloatOps.ofBits .f32 (lit0 (S16x4.rowMajor i))),
    StableHlo.nullary main_cst_0 (constant S_ .f32 0xFF800000#32),
    StableHlo.binary main_arg3 main_cst_0 main_v0 ((fun x v => Host.reduce FloatOps.maximumf x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.nullary main_cst_1 (constant S_ .f32 0xFF800000#32),
    StableHlo.unary main_cst_1 main_v1 (broadcastInDim S64000 ![] bcast_S_S64000 : (⟨S_, .f32⟩ : BufTy).Contents (Elt F) → (⟨S64000, .f32⟩ : BufTy).Contents (Elt F)),
    StableHlo.binary main_v1 main_v0 main_v2 (maximumf : (⟨S64000, .f32⟩ : BufTy).Contents (Elt F) → (⟨S64000, .f32⟩ : BufTy).Contents (Elt F) → (⟨S64000, .f32⟩ : BufTy).Contents (Elt F)),
    StableHlo.unary main_v2 main_v3 (broadcastInDim S64000x1 ![0] bcast_S64000_S64000x1_0 : (⟨S64000, .f32⟩ : BufTy).Contents (Elt F) → (⟨S64000x1, .f32⟩ : BufTy).Contents (Elt F)),
    StableHlo.unary main_v3 main_v4 (broadcastInDim S64000x16 ![0, 1] bcast_S64000x1_S64000x16_0_1 : (⟨S64000x1, .f32⟩ : BufTy).Contents (Elt F) → (⟨S64000x16, .f32⟩ : BufTy).Contents (Elt F)),
    StableHlo.binary main_arg3 main_v4 main_v5 (subf : (⟨S64000x16, .f32⟩ : BufTy).Contents (Elt F) → (⟨S64000x16, .f32⟩ : BufTy).Contents (Elt F) → (⟨S64000x16, .f32⟩ : BufTy).Contents (Elt F)),
    StableHlo.unary main_v5 main_v6 (Host.exp : (⟨S64000x16, .f32⟩ : BufTy).Contents (Elt F) → (⟨S64000x16, .f32⟩ : BufTy).Contents (Elt F)),
    StableHlo.nullary main_cst_2 (constant S_ .f32 0x00000000#32),
    StableHlo.binary main_v6 main_cst_2 main_v7 ((fun x v => Host.reduceAdd x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.unary main_v7 main_v8 (broadcastInDim S64000x1 ![0] bcast_S64000_S64000x1_0 : (⟨S64000, .f32⟩ : BufTy).Contents (Elt F) → (⟨S64000x1, .f32⟩ : BufTy).Contents (Elt F)),
    StableHlo.unary main_v8 main_v9 (broadcastInDim S64000x16 ![0, 1] bcast_S64000x1_S64000x16_0_1 : (⟨S64000x1, .f32⟩ : BufTy).Contents (Elt F) → (⟨S64000x16, .f32⟩ : BufTy).Contents (Elt F)),
    StableHlo.binary main_v6 main_v9 main_v10 (Host.divf : (⟨S64000x16, .f32⟩ : BufTy).Contents (Elt F) → (⟨S64000x16, .f32⟩ : BufTy).Contents (Elt F) → (⟨S64000x16, .f32⟩ : BufTy).Contents (Elt F)),
    StableHlo.binary main_v10 main_cst main_v11 ((fun l r => Host.dotGeneral dot_S64000x16_S16x4_S64000x4_1_0_0_1_n_n none l r) : (⟨S64000x16, .f32⟩ : BufTy).Contents (Elt F) → (⟨S16x4, .f32⟩ : BufTy).Contents (Elt F) → (⟨S64000x4, .f32⟩ : BufTy).Contents (Elt F)) ]
theorem opsCoef0_sub : (opsCoef0 : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

abbrev opsLayer0 : List (HloOp τ sig (Elt F)) :=
  [
    StableHlo.nullary main_c (constantI S_ 32 0#32),
    StableHlo.unary main_c main_v12 (broadcastInDim S64000 ![] bcast_S_S64000 : (⟨S_, .i32⟩ : BufTy).Contents (Elt F) → (⟨S64000, .i32⟩ : BufTy).Contents (Elt F)),
    StableHlo.binary main_arg1 main_v12 main_v13 (cmpi .slt : (⟨S64000, .i32⟩ : BufTy).Contents (Elt F) → (⟨S64000, .i32⟩ : BufTy).Contents (Elt F) → (⟨S64000, .i1⟩ : BufTy).Contents (Elt F)),
    StableHlo.nullary main_c_3 (constantI S_ 32 1024#32),
    StableHlo.unary main_c_3 main_v14 (broadcastInDim S64000 ![] bcast_S_S64000 : (⟨S_, .i32⟩ : BufTy).Contents (Elt F) → (⟨S64000, .i32⟩ : BufTy).Contents (Elt F)),
    StableHlo.binary main_arg1 main_v14 main_v15 (addi : (⟨S64000, .i32⟩ : BufTy).Contents (Elt F) → (⟨S64000, .i32⟩ : BufTy).Contents (Elt F) → (⟨S64000, .i32⟩ : BufTy).Contents (Elt F)),
    StableHlo.ternary main_v13 main_v15 main_arg1 main_v16 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v16 main_v17 (broadcastInDim S64000x1 ![0] bcast_S64000_S64000x1_0 : (⟨S64000, .i32⟩ : BufTy).Contents (Elt F) → (⟨S64000x1, .i32⟩ : BufTy).Contents (Elt F)),
    StableHlo.binary main_arg0 main_v17 main_v18 ((fun x i => Host.gather gather_S256x1024_S64000x1_S256x64000_0_1_n_n_1_1_2561 x i) : (⟨S256x1024, .f32⟩ : BufTy).Contents (Elt F) → (⟨S64000x1, .i32⟩ : BufTy).Contents (Elt F) → (⟨S256x64000, .f32⟩ : BufTy).Contents (Elt F)),
    StableHlo.nullary main_c_4 (constantI S_ 32 0#32),
    StableHlo.unary main_c_4 main_v19 (broadcastInDim S64000 ![] bcast_S_S64000 : (⟨S_, .i32⟩ : BufTy).Contents (Elt F) → (⟨S64000, .i32⟩ : BufTy).Contents (Elt F)),
    StableHlo.binary main_arg2 main_v19 main_v20 (cmpi .slt : (⟨S64000, .i32⟩ : BufTy).Contents (Elt F) → (⟨S64000, .i32⟩ : BufTy).Contents (Elt F) → (⟨S64000, .i1⟩ : BufTy).Contents (Elt F)),
    StableHlo.nullary main_c_5 (constantI S_ 32 1024#32),
    StableHlo.unary main_c_5 main_v21 (broadcastInDim S64000 ![] bcast_S_S64000 : (⟨S_, .i32⟩ : BufTy).Contents (Elt F) → (⟨S64000, .i32⟩ : BufTy).Contents (Elt F)),
    StableHlo.binary main_arg2 main_v21 main_v22 (addi : (⟨S64000, .i32⟩ : BufTy).Contents (Elt F) → (⟨S64000, .i32⟩ : BufTy).Contents (Elt F) → (⟨S64000, .i32⟩ : BufTy).Contents (Elt F)),
    StableHlo.ternary main_v20 main_v22 main_arg2 main_v23 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v23 main_v24 (broadcastInDim S64000x1 ![0] bcast_S64000_S64000x1_0 : (⟨S64000, .i32⟩ : BufTy).Contents (Elt F) → (⟨S64000x1, .i32⟩ : BufTy).Contents (Elt F)),
    StableHlo.binary main_arg0 main_v24 main_v25 ((fun x i => Host.gather gather_S256x1024_S64000x1_S256x64000_0_1_n_n_1_1_2561 x i) : (⟨S256x1024, .f32⟩ : BufTy).Contents (Elt F) → (⟨S64000x1, .i32⟩ : BufTy).Contents (Elt F) → (⟨S256x64000, .f32⟩ : BufTy).Contents (Elt F)),
    StableHlo.unary main_v11 main_v26 ((extractStridedSlice S64000x1 ![0, 0] · slices_S64000x4_S64000x1_0_0) : (⟨S64000x4, .f32⟩ : BufTy).Contents (Elt F) → (⟨S64000x1, .f32⟩ : BufTy).Contents (Elt F)),
    StableHlo.reshape main_v26 main_v27 rfl shapeCasts_S64000x1_S64000,
    StableHlo.unary main_v11 main_v28 ((extractStridedSlice S64000x1 ![0, 1] · slices_S64000x4_S64000x1_0_1) : (⟨S64000x4, .f32⟩ : BufTy).Contents (Elt F) → (⟨S64000x1, .f32⟩ : BufTy).Contents (Elt F)),
    StableHlo.reshape main_v28 main_v29 rfl shapeCasts_S64000x1_S64000,
    StableHlo.unary main_v29 main_v30 (broadcastInDim S1x64000 ![1] bcast_S64000_S1x64000_1 : (⟨S64000, .f32⟩ : BufTy).Contents (Elt F) → (⟨S1x64000, .f32⟩ : BufTy).Contents (Elt F)),
    StableHlo.unary main_v30 main_v31 (broadcastInDim S256x64000 ![0, 1] bcast_S1x64000_S256x64000_0_1 : (⟨S1x64000, .f32⟩ : BufTy).Contents (Elt F) → (⟨S256x64000, .f32⟩ : BufTy).Contents (Elt F)),
    StableHlo.binary main_v31 main_v18 main_v32 (mulf : (⟨S256x64000, .f32⟩ : BufTy).Contents (Elt F) → (⟨S256x64000, .f32⟩ : BufTy).Contents (Elt F) → (⟨S256x64000, .f32⟩ : BufTy).Contents (Elt F)),
    StableHlo.unary main_v27 main_v33 (broadcastInDim S1x64000 ![1] bcast_S64000_S1x64000_1 : (⟨S64000, .f32⟩ : BufTy).Contents (Elt F) → (⟨S1x64000, .f32⟩ : BufTy).Contents (Elt F)),
    StableHlo.unary main_v33 main_v34 (broadcastInDim S256x64000 ![0, 1] bcast_S1x64000_S256x64000_0_1 : (⟨S1x64000, .f32⟩ : BufTy).Contents (Elt F) → (⟨S256x64000, .f32⟩ : BufTy).Contents (Elt F)),
    StableHlo.binary main_v34 main_v32 main_v35 (addf : (⟨S256x64000, .f32⟩ : BufTy).Contents (Elt F) → (⟨S256x64000, .f32⟩ : BufTy).Contents (Elt F) → (⟨S256x64000, .f32⟩ : BufTy).Contents (Elt F)),
    StableHlo.unary main_v11 main_v36 ((extractStridedSlice S64000x1 ![0, 2] · slices_S64000x4_S64000x1_0_2) : (⟨S64000x4, .f32⟩ : BufTy).Contents (Elt F) → (⟨S64000x1, .f32⟩ : BufTy).Contents (Elt F)),
    StableHlo.reshape main_v36 main_v37 rfl shapeCasts_S64000x1_S64000,
    StableHlo.unary main_v37 main_v38 (broadcastInDim S1x64000 ![1] bcast_S64000_S1x64000_1 : (⟨S64000, .f32⟩ : BufTy).Contents (Elt F) → (⟨S1x64000, .f32⟩ : BufTy).Contents (Elt F)),
    StableHlo.unary main_v38 main_v39 (broadcastInDim S256x64000 ![0, 1] bcast_S1x64000_S256x64000_0_1 : (⟨S1x64000, .f32⟩ : BufTy).Contents (Elt F) → (⟨S256x64000, .f32⟩ : BufTy).Contents (Elt F)),
    StableHlo.binary main_v39 main_v25 main_v40 (mulf : (⟨S256x64000, .f32⟩ : BufTy).Contents (Elt F) → (⟨S256x64000, .f32⟩ : BufTy).Contents (Elt F) → (⟨S256x64000, .f32⟩ : BufTy).Contents (Elt F)),
    StableHlo.binary main_v35 main_v40 main_v41 (addf : (⟨S256x64000, .f32⟩ : BufTy).Contents (Elt F) → (⟨S256x64000, .f32⟩ : BufTy).Contents (Elt F) → (⟨S256x64000, .f32⟩ : BufTy).Contents (Elt F)),
    StableHlo.unary main_v11 main_v42 ((extractStridedSlice S64000x1 ![0, 3] · slices_S64000x4_S64000x1_0_3) : (⟨S64000x4, .f32⟩ : BufTy).Contents (Elt F) → (⟨S64000x1, .f32⟩ : BufTy).Contents (Elt F)),
    StableHlo.reshape main_v42 main_v43 rfl shapeCasts_S64000x1_S64000,
    StableHlo.binary main_v18 main_v25 main_v44 (mulf : (⟨S256x64000, .f32⟩ : BufTy).Contents (Elt F) → (⟨S256x64000, .f32⟩ : BufTy).Contents (Elt F) → (⟨S256x64000, .f32⟩ : BufTy).Contents (Elt F)),
    StableHlo.unary main_v43 main_v45 (broadcastInDim S1x64000 ![1] bcast_S64000_S1x64000_1 : (⟨S64000, .f32⟩ : BufTy).Contents (Elt F) → (⟨S1x64000, .f32⟩ : BufTy).Contents (Elt F)),
    StableHlo.unary main_v45 main_v46 (broadcastInDim S256x64000 ![0, 1] bcast_S1x64000_S256x64000_0_1 : (⟨S1x64000, .f32⟩ : BufTy).Contents (Elt F) → (⟨S256x64000, .f32⟩ : BufTy).Contents (Elt F)),
    StableHlo.binary main_v46 main_v44 main_v47 (mulf : (⟨S256x64000, .f32⟩ : BufTy).Contents (Elt F) → (⟨S256x64000, .f32⟩ : BufTy).Contents (Elt F) → (⟨S256x64000, .f32⟩ : BufTy).Contents (Elt F)),
    StableHlo.binary main_v41 main_v47 main_v48 (addf : (⟨S256x64000, .f32⟩ : BufTy).Contents (Elt F) → (⟨S256x64000, .f32⟩ : BufTy).Contents (Elt F) → (⟨S256x64000, .f32⟩ : BufTy).Contents (Elt F)) ]
theorem opsLayer0_sub : (opsLayer0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

abbrev opsCoef1a : List (HloOp τ sig (Elt F)) :=
  [
    StableHlo.nullary main_cst_6 (constant S_ .f32 0xFF800000#32),
    StableHlo.binary main_arg6 main_cst_6 main_v49 ((fun x v => Host.reduce FloatOps.maximumf x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.nullary main_cst_7 (constant S_ .f32 0xFF800000#32) ]
theorem opsCoef1a_sub : (opsCoef1a : List (HloOp τ sig (Elt F))).Forall fun op => op.bufs ⊆ tcRefs τ sig :=
  ⟨nullary_bufs_sub .., binary_bufs_sub .., nullary_bufs_sub ..⟩

abbrev opsCoef1b : List (HloOp τ sig (Elt F)) :=
  [
    StableHlo.unary main_cst_7 main_v50 (broadcastInDim S64000 ![] bcast_S_S64000 : (⟨S_, .f32⟩ : BufTy).Contents (Elt F) → (⟨S64000, .f32⟩ : BufTy).Contents (Elt F)),
    StableHlo.binary main_v50 main_v49 main_v51 (maximumf : (⟨S64000, .f32⟩ : BufTy).Contents (Elt F) → (⟨S64000, .f32⟩ : BufTy).Contents (Elt F) → (⟨S64000, .f32⟩ : BufTy).Contents (Elt F)),
    StableHlo.unary main_v51 main_v52 (broadcastInDim S64000x1 ![0] bcast_S64000_S64000x1_0 : (⟨S64000, .f32⟩ : BufTy).Contents (Elt F) → (⟨S64000x1, .f32⟩ : BufTy).Contents (Elt F)),
    StableHlo.unary main_v52 main_v53 (broadcastInDim S64000x16 ![0, 1] bcast_S64000x1_S64000x16_0_1 : (⟨S64000x1, .f32⟩ : BufTy).Contents (Elt F) → (⟨S64000x16, .f32⟩ : BufTy).Contents (Elt F)),
    StableHlo.binary main_arg6 main_v53 main_v54 (subf : (⟨S64000x16, .f32⟩ : BufTy).Contents (Elt F) → (⟨S64000x16, .f32⟩ : BufTy).Contents (Elt F) → (⟨S64000x16, .f32⟩ : BufTy).Contents (Elt F)),
    StableHlo.unary main_v54 main_v55 (Host.exp : (⟨S64000x16, .f32⟩ : BufTy).Contents (Elt F) → (⟨S64000x16, .f32⟩ : BufTy).Contents (Elt F)),
    StableHlo.nullary main_cst_8 (constant S_ .f32 0x00000000#32),
    StableHlo.binary main_v55 main_cst_8 main_v56 ((fun x v => Host.reduceAdd x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.unary main_v56 main_v57 (broadcastInDim S64000x1 ![0] bcast_S64000_S64000x1_0 : (⟨S64000, .f32⟩ : BufTy).Contents (Elt F) → (⟨S64000x1, .f32⟩ : BufTy).Contents (Elt F)),
    StableHlo.unary main_v57 main_v58 (broadcastInDim S64000x16 ![0, 1] bcast_S64000x1_S64000x16_0_1 : (⟨S64000x1, .f32⟩ : BufTy).Contents (Elt F) → (⟨S64000x16, .f32⟩ : BufTy).Contents (Elt F)),
    StableHlo.binary main_v55 main_v58 main_v59 (Host.divf : (⟨S64000x16, .f32⟩ : BufTy).Contents (Elt F) → (⟨S64000x16, .f32⟩ : BufTy).Contents (Elt F) → (⟨S64000x16, .f32⟩ : BufTy).Contents (Elt F)),
    StableHlo.binary main_v59 main_cst main_v60 ((fun l r => Host.dotGeneral dot_S64000x16_S16x4_S64000x4_1_0_0_1_n_n none l r) : (⟨S64000x16, .f32⟩ : BufTy).Contents (Elt F) → (⟨S16x4, .f32⟩ : BufTy).Contents (Elt F) → (⟨S64000x4, .f32⟩ : BufTy).Contents (Elt F)) ]
theorem opsCoef1b_sub : (opsCoef1b : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

abbrev opsLayer1 : List (HloOp τ sig (Elt F)) :=
  [
    StableHlo.nullary main_c_9 (constantI S_ 32 0#32),
    StableHlo.unary main_c_9 main_v61 (broadcastInDim S64000 ![] bcast_S_S64000 : (⟨S_, .i32⟩ : BufTy).Contents (Elt F) → (⟨S64000, .i32⟩ : BufTy).Contents (Elt F)),
    StableHlo.binary main_arg4 main_v61 main_v62 (cmpi .slt : (⟨S64000, .i32⟩ : BufTy).Contents (Elt F) → (⟨S64000, .i32⟩ : BufTy).Contents (Elt F) → (⟨S64000, .i1⟩ : BufTy).Contents (Elt F)),
    StableHlo.nullary main_c_10 (constantI S_ 32 64000#32),
    StableHlo.unary main_c_10 main_v63 (broadcastInDim S64000 ![] bcast_S_S64000 : (⟨S_, .i32⟩ : BufTy).Contents (Elt F) → (⟨S64000, .i32⟩ : BufTy).Contents (Elt F)),
    StableHlo.binary main_arg4 main_v63 main_v64 (addi : (⟨S64000, .i32⟩ : BufTy).Contents (Elt F) → (⟨S64000, .i32⟩ : BufTy).Contents (Elt F) → (⟨S64000, .i32⟩ : BufTy).Contents (Elt F)),
    StableHlo.ternary main_v62 main_v64 main_arg4 main_v65 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v65 main_v66 (broadcastInDim S64000x1 ![0] bcast_S64000_S64000x1_0 : (⟨S64000, .i32⟩ : BufTy).Contents (Elt F) → (⟨S64000x1, .i32⟩ : BufTy).Contents (Elt F)),
    StableHlo.binary main_v48 main_v66 main_v67 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.nullary main_c_11 (constantI S_ 32 0#32),
    StableHlo.unary main_c_11 main_v68 (broadcastInDim S64000 ![] bcast_S_S64000 : (⟨S_, .i32⟩ : BufTy).Contents (Elt F) → (⟨S64000, .i32⟩ : BufTy).Contents (Elt F)),
    StableHlo.binary main_arg5 main_v68 main_v69 (cmpi .slt : (⟨S64000, .i32⟩ : BufTy).Contents (Elt F) → (⟨S64000, .i32⟩ : BufTy).Contents (Elt F) → (⟨S64000, .i1⟩ : BufTy).Contents (Elt F)),
    StableHlo.nullary main_c_12 (constantI S_ 32 64000#32),
    StableHlo.unary main_c_12 main_v70 (broadcastInDim S64000 ![] bcast_S_S64000 : (⟨S_, .i32⟩ : BufTy).Contents (Elt F) → (⟨S64000, .i32⟩ : BufTy).Contents (Elt F)),
    StableHlo.binary main_arg5 main_v70 main_v71 (addi : (⟨S64000, .i32⟩ : BufTy).Contents (Elt F) → (⟨S64000, .i32⟩ : BufTy).Contents (Elt F) → (⟨S64000, .i32⟩ : BufTy).Contents (Elt F)),
    StableHlo.ternary main_v69 main_v71 main_arg5 main_v72 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v72 main_v73 (broadcastInDim S64000x1 ![0] bcast_S64000_S64000x1_0 : (⟨S64000, .i32⟩ : BufTy).Contents (Elt F) → (⟨S64000x1, .i32⟩ : BufTy).Contents (Elt F)),
    StableHlo.binary main_v48 main_v73 main_v74 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.unary main_v60 main_v75 ((extractStridedSlice S64000x1 ![0, 0] · slices_S64000x4_S64000x1_0_0) : (⟨S64000x4, .f32⟩ : BufTy).Contents (Elt F) → (⟨S64000x1, .f32⟩ : BufTy).Contents (Elt F)),
    StableHlo.reshape main_v75 main_v76 rfl shapeCasts_S64000x1_S64000,
    StableHlo.unary main_v60 main_v77 ((extractStridedSlice S64000x1 ![0, 1] · slices_S64000x4_S64000x1_0_1) : (⟨S64000x4, .f32⟩ : BufTy).Contents (Elt F) → (⟨S64000x1, .f32⟩ : BufTy).Contents (Elt F)),
    StableHlo.reshape main_v77 main_v78 rfl shapeCasts_S64000x1_S64000,
    StableHlo.unary main_v78 main_v79 (broadcastInDim S1x64000 ![1] bcast_S64000_S1x64000_1 : (⟨S64000, .f32⟩ : BufTy).Contents (Elt F) → (⟨S1x64000, .f32⟩ : BufTy).Contents (Elt F)),
    StableHlo.unary main_v79 main_v80 (broadcastInDim S256x64000 ![0, 1] bcast_S1x64000_S256x64000_0_1 : (⟨S1x64000, .f32⟩ : BufTy).Contents (Elt F) → (⟨S256x64000, .f32⟩ : BufTy).Contents (Elt F)),
    StableHlo.binary main_v80 main_v67 main_v81 (mulf : (⟨S256x64000, .f32⟩ : BufTy).Contents (Elt F) → (⟨S256x64000, .f32⟩ : BufTy).Contents (Elt F) → (⟨S256x64000, .f32⟩ : BufTy).Contents (Elt F)),
    StableHlo.unary main_v76 main_v82 (broadcastInDim S1x64000 ![1] bcast_S64000_S1x64000_1 : (⟨S64000, .f32⟩ : BufTy).Contents (Elt F) → (⟨S1x64000, .f32⟩ : BufTy).Contents (Elt F)),
    StableHlo.unary main_v82 main_v83 (broadcastInDim S256x64000 ![0, 1] bcast_S1x64000_S256x64000_0_1 : (⟨S1x64000, .f32⟩ : BufTy).Contents (Elt F) → (⟨S256x64000, .f32⟩ : BufTy).Contents (Elt F)),
    StableHlo.binary main_v83 main_v81 main_v84 (addf : (⟨S256x64000, .f32⟩ : BufTy).Contents (Elt F) → (⟨S256x64000, .f32⟩ : BufTy).Contents (Elt F) → (⟨S256x64000, .f32⟩ : BufTy).Contents (Elt F)),
    StableHlo.unary main_v60 main_v85 ((extractStridedSlice S64000x1 ![0, 2] · slices_S64000x4_S64000x1_0_2) : (⟨S64000x4, .f32⟩ : BufTy).Contents (Elt F) → (⟨S64000x1, .f32⟩ : BufTy).Contents (Elt F)),
    StableHlo.reshape main_v85 main_v86 rfl shapeCasts_S64000x1_S64000,
    StableHlo.unary main_v86 main_v87 (broadcastInDim S1x64000 ![1] bcast_S64000_S1x64000_1 : (⟨S64000, .f32⟩ : BufTy).Contents (Elt F) → (⟨S1x64000, .f32⟩ : BufTy).Contents (Elt F)),
    StableHlo.unary main_v87 main_v88 (broadcastInDim S256x64000 ![0, 1] bcast_S1x64000_S256x64000_0_1 : (⟨S1x64000, .f32⟩ : BufTy).Contents (Elt F) → (⟨S256x64000, .f32⟩ : BufTy).Contents (Elt F)),
    StableHlo.binary main_v88 main_v74 main_v89 (mulf : (⟨S256x64000, .f32⟩ : BufTy).Contents (Elt F) → (⟨S256x64000, .f32⟩ : BufTy).Contents (Elt F) → (⟨S256x64000, .f32⟩ : BufTy).Contents (Elt F)),
    StableHlo.binary main_v84 main_v89 main_v90 (addf : (⟨S256x64000, .f32⟩ : BufTy).Contents (Elt F) → (⟨S256x64000, .f32⟩ : BufTy).Contents (Elt F) → (⟨S256x64000, .f32⟩ : BufTy).Contents (Elt F)),
    StableHlo.unary main_v60 main_v91 ((extractStridedSlice S64000x1 ![0, 3] · slices_S64000x4_S64000x1_0_3) : (⟨S64000x4, .f32⟩ : BufTy).Contents (Elt F) → (⟨S64000x1, .f32⟩ : BufTy).Contents (Elt F)),
    StableHlo.reshape main_v91 main_v92 rfl shapeCasts_S64000x1_S64000,
    StableHlo.binary main_v67 main_v74 main_v93 (mulf : (⟨S256x64000, .f32⟩ : BufTy).Contents (Elt F) → (⟨S256x64000, .f32⟩ : BufTy).Contents (Elt F) → (⟨S256x64000, .f32⟩ : BufTy).Contents (Elt F)),
    StableHlo.unary main_v92 main_v94 (broadcastInDim S1x64000 ![1] bcast_S64000_S1x64000_1 : (⟨S64000, .f32⟩ : BufTy).Contents (Elt F) → (⟨S1x64000, .f32⟩ : BufTy).Contents (Elt F)),
    StableHlo.unary main_v94 main_v95 (broadcastInDim S256x64000 ![0, 1] bcast_S1x64000_S256x64000_0_1 : (⟨S1x64000, .f32⟩ : BufTy).Contents (Elt F) → (⟨S256x64000, .f32⟩ : BufTy).Contents (Elt F)),
    StableHlo.binary main_v95 main_v93 main_v96 (mulf : (⟨S256x64000, .f32⟩ : BufTy).Contents (Elt F) → (⟨S256x64000, .f32⟩ : BufTy).Contents (Elt F) → (⟨S256x64000, .f32⟩ : BufTy).Contents (Elt F)),
    StableHlo.binary main_v90 main_v96 main_v97 (addf : (⟨S256x64000, .f32⟩ : BufTy).Contents (Elt F) → (⟨S256x64000, .f32⟩ : BufTy).Contents (Elt F) → (⟨S256x64000, .f32⟩ : BufTy).Contents (Elt F)) ]
theorem opsLayer1_sub : (opsLayer1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

abbrev opsCoef2a : List (HloOp τ sig (Elt F)) :=
  [
    StableHlo.nullary main_cst_13 (constant S_ .f32 0xFF800000#32),
    StableHlo.binary main_arg9 main_cst_13 main_v98 ((fun x v => Host.reduce FloatOps.maximumf x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.nullary main_cst_14 (constant S_ .f32 0xFF800000#32),
    StableHlo.unary main_cst_14 main_v99 (broadcastInDim S64000 ![] bcast_S_S64000 : (⟨S_, .f32⟩ : BufTy).Contents (Elt F) → (⟨S64000, .f32⟩ : BufTy).Contents (Elt F)),
    StableHlo.binary main_v99 main_v98 main_v100 (maximumf : (⟨S64000, .f32⟩ : BufTy).Contents (Elt F) → (⟨S64000, .f32⟩ : BufTy).Contents (Elt F) → (⟨S64000, .f32⟩ : BufTy).Contents (Elt F)),
    StableHlo.unary main_v100 main_v101 (broadcastInDim S64000x1 ![0] bcast_S64000_S64000x1_0 : (⟨S64000, .f32⟩ : BufTy).Contents (Elt F) → (⟨S64000x1, .f32⟩ : BufTy).Contents (Elt F)),
    StableHlo.unary main_v101 main_v102 (broadcastInDim S64000x16 ![0, 1] bcast_S64000x1_S64000x16_0_1 : (⟨S64000x1, .f32⟩ : BufTy).Contents (Elt F) → (⟨S64000x16, .f32⟩ : BufTy).Contents (Elt F)) ]
theorem opsCoef2a_sub : (opsCoef2a : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..⟩

abbrev opsCoef2b : List (HloOp τ sig (Elt F)) :=
  [
    StableHlo.binary main_arg9 main_v102 main_v103 (subf : (⟨S64000x16, .f32⟩ : BufTy).Contents (Elt F) → (⟨S64000x16, .f32⟩ : BufTy).Contents (Elt F) → (⟨S64000x16, .f32⟩ : BufTy).Contents (Elt F)),
    StableHlo.unary main_v103 main_v104 (Host.exp : (⟨S64000x16, .f32⟩ : BufTy).Contents (Elt F) → (⟨S64000x16, .f32⟩ : BufTy).Contents (Elt F)),
    StableHlo.nullary main_cst_15 (constant S_ .f32 0x00000000#32),
    StableHlo.binary main_v104 main_cst_15 main_v105 ((fun x v => Host.reduceAdd x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.unary main_v105 main_v106 (broadcastInDim S64000x1 ![0] bcast_S64000_S64000x1_0 : (⟨S64000, .f32⟩ : BufTy).Contents (Elt F) → (⟨S64000x1, .f32⟩ : BufTy).Contents (Elt F)),
    StableHlo.unary main_v106 main_v107 (broadcastInDim S64000x16 ![0, 1] bcast_S64000x1_S64000x16_0_1 : (⟨S64000x1, .f32⟩ : BufTy).Contents (Elt F) → (⟨S64000x16, .f32⟩ : BufTy).Contents (Elt F)),
    StableHlo.binary main_v104 main_v107 main_v108 (Host.divf : (⟨S64000x16, .f32⟩ : BufTy).Contents (Elt F) → (⟨S64000x16, .f32⟩ : BufTy).Contents (Elt F) → (⟨S64000x16, .f32⟩ : BufTy).Contents (Elt F)),
    StableHlo.binary main_v108 main_cst main_v109 ((fun l r => Host.dotGeneral dot_S64000x16_S16x4_S64000x4_1_0_0_1_n_n none l r) : (⟨S64000x16, .f32⟩ : BufTy).Contents (Elt F) → (⟨S16x4, .f32⟩ : BufTy).Contents (Elt F) → (⟨S64000x4, .f32⟩ : BufTy).Contents (Elt F)) ]
theorem opsCoef2b_sub : (opsCoef2b : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., binary_bufs_sub ..⟩

abbrev opsLayer2 : List (HloOp τ sig (Elt F)) :=
  [
    StableHlo.nullary main_c_16 (constantI S_ 32 0#32),
    StableHlo.unary main_c_16 main_v110 (broadcastInDim S64000 ![] bcast_S_S64000 : (⟨S_, .i32⟩ : BufTy).Contents (Elt F) → (⟨S64000, .i32⟩ : BufTy).Contents (Elt F)),
    StableHlo.binary main_arg7 main_v110 main_v111 (cmpi .slt : (⟨S64000, .i32⟩ : BufTy).Contents (Elt F) → (⟨S64000, .i32⟩ : BufTy).Contents (Elt F) → (⟨S64000, .i1⟩ : BufTy).Contents (Elt F)),
    StableHlo.nullary main_c_17 (constantI S_ 32 64000#32),
    StableHlo.unary main_c_17 main_v112 (broadcastInDim S64000 ![] bcast_S_S64000 : (⟨S_, .i32⟩ : BufTy).Contents (Elt F) → (⟨S64000, .i32⟩ : BufTy).Contents (Elt F)),
    StableHlo.binary main_arg7 main_v112 main_v113 (addi : (⟨S64000, .i32⟩ : BufTy).Contents (Elt F) → (⟨S64000, .i32⟩ : BufTy).Contents (Elt F) → (⟨S64000, .i32⟩ : BufTy).Contents (Elt F)),
    StableHlo.ternary main_v111 main_v113 main_arg7 main_v114 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v114 main_v115 (broadcastInDim S64000x1 ![0] bcast_S64000_S64000x1_0 : (⟨S64000, .i32⟩ : BufTy).Contents (Elt F) → (⟨S64000x1, .i32⟩ : BufTy).Contents (Elt F)),
    StableHlo.binary main_v97 main_v115 main_v116 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.nullary main_c_18 (constantI S_ 32 0#32),
    StableHlo.unary main_c_18 main_v117 (broadcastInDim S64000 ![] bcast_S_S64000 : (⟨S_, .i32⟩ : BufTy).Contents (Elt F) → (⟨S64000, .i32⟩ : BufTy).Contents (Elt F)),
    StableHlo.binary main_arg8 main_v117 main_v118 (cmpi .slt : (⟨S64000, .i32⟩ : BufTy).Contents (Elt F) → (⟨S64000, .i32⟩ : BufTy).Contents (Elt F) → (⟨S64000, .i1⟩ : BufTy).Contents (Elt F)),
    StableHlo.nullary main_c_19 (constantI S_ 32 64000#32),
    StableHlo.unary main_c_19 main_v119 (broadcastInDim S64000 ![] bcast_S_S64000 : (⟨S_, .i32⟩ : BufTy).Contents (Elt F) → (⟨S64000, .i32⟩ : BufTy).Contents (Elt F)),
    StableHlo.binary main_arg8 main_v119 main_v120 (addi : (⟨S64000, .i32⟩ : BufTy).Contents (Elt F) → (⟨S64000, .i32⟩ : BufTy).Contents (Elt F) → (⟨S64000, .i32⟩ : BufTy).Contents (Elt F)),
    StableHlo.ternary main_v118 main_v120 main_arg8 main_v121 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v121 main_v122 (broadcastInDim S64000x1 ![0] bcast_S64000_S64000x1_0 : (⟨S64000, .i32⟩ : BufTy).Contents (Elt F) → (⟨S64000x1, .i32⟩ : BufTy).Contents (Elt F)),
    StableHlo.binary main_v97 main_v122 main_v123 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.unary main_v109 main_v124 ((extractStridedSlice S64000x1 ![0, 0] · slices_S64000x4_S64000x1_0_0) : (⟨S64000x4, .f32⟩ : BufTy).Contents (Elt F) → (⟨S64000x1, .f32⟩ : BufTy).Contents (Elt F)),
    StableHlo.reshape main_v124 main_v125 rfl shapeCasts_S64000x1_S64000,
    StableHlo.unary main_v109 main_v126 ((extractStridedSlice S64000x1 ![0, 1] · slices_S64000x4_S64000x1_0_1) : (⟨S64000x4, .f32⟩ : BufTy).Contents (Elt F) → (⟨S64000x1, .f32⟩ : BufTy).Contents (Elt F)),
    StableHlo.reshape main_v126 main_v127 rfl shapeCasts_S64000x1_S64000,
    StableHlo.unary main_v127 main_v128 (broadcastInDim S1x64000 ![1] bcast_S64000_S1x64000_1 : (⟨S64000, .f32⟩ : BufTy).Contents (Elt F) → (⟨S1x64000, .f32⟩ : BufTy).Contents (Elt F)),
    StableHlo.unary main_v128 main_v129 (broadcastInDim S256x64000 ![0, 1] bcast_S1x64000_S256x64000_0_1 : (⟨S1x64000, .f32⟩ : BufTy).Contents (Elt F) → (⟨S256x64000, .f32⟩ : BufTy).Contents (Elt F)),
    StableHlo.binary main_v129 main_v116 main_v130 (mulf : (⟨S256x64000, .f32⟩ : BufTy).Contents (Elt F) → (⟨S256x64000, .f32⟩ : BufTy).Contents (Elt F) → (⟨S256x64000, .f32⟩ : BufTy).Contents (Elt F)),
    StableHlo.unary main_v125 main_v131 (broadcastInDim S1x64000 ![1] bcast_S64000_S1x64000_1 : (⟨S64000, .f32⟩ : BufTy).Contents (Elt F) → (⟨S1x64000, .f32⟩ : BufTy).Contents (Elt F)),
    StableHlo.unary main_v131 main_v132 (broadcastInDim S256x64000 ![0, 1] bcast_S1x64000_S256x64000_0_1 : (⟨S1x64000, .f32⟩ : BufTy).Contents (Elt F) → (⟨S256x64000, .f32⟩ : BufTy).Contents (Elt F)),
    StableHlo.binary main_v132 main_v130 main_v133 (addf : (⟨S256x64000, .f32⟩ : BufTy).Contents (Elt F) → (⟨S256x64000, .f32⟩ : BufTy).Contents (Elt F) → (⟨S256x64000, .f32⟩ : BufTy).Contents (Elt F)),
    StableHlo.unary main_v109 main_v134 ((extractStridedSlice S64000x1 ![0, 2] · slices_S64000x4_S64000x1_0_2) : (⟨S64000x4, .f32⟩ : BufTy).Contents (Elt F) → (⟨S64000x1, .f32⟩ : BufTy).Contents (Elt F)),
    StableHlo.reshape main_v134 main_v135 rfl shapeCasts_S64000x1_S64000,
    StableHlo.unary main_v135 main_v136 (broadcastInDim S1x64000 ![1] bcast_S64000_S1x64000_1 : (⟨S64000, .f32⟩ : BufTy).Contents (Elt F) → (⟨S1x64000, .f32⟩ : BufTy).Contents (Elt F)),
    StableHlo.unary main_v136 main_v137 (broadcastInDim S256x64000 ![0, 1] bcast_S1x64000_S256x64000_0_1 : (⟨S1x64000, .f32⟩ : BufTy).Contents (Elt F) → (⟨S256x64000, .f32⟩ : BufTy).Contents (Elt F)),
    StableHlo.binary main_v137 main_v123 main_v138 (mulf : (⟨S256x64000, .f32⟩ : BufTy).Contents (Elt F) → (⟨S256x64000, .f32⟩ : BufTy).Contents (Elt F) → (⟨S256x64000, .f32⟩ : BufTy).Contents (Elt F)),
    StableHlo.binary main_v133 main_v138 main_v139 (addf : (⟨S256x64000, .f32⟩ : BufTy).Contents (Elt F) → (⟨S256x64000, .f32⟩ : BufTy).Contents (Elt F) → (⟨S256x64000, .f32⟩ : BufTy).Contents (Elt F)),
    StableHlo.unary main_v109 main_v140 ((extractStridedSlice S64000x1 ![0, 3] · slices_S64000x4_S64000x1_0_3) : (⟨S64000x4, .f32⟩ : BufTy).Contents (Elt F) → (⟨S64000x1, .f32⟩ : BufTy).Contents (Elt F)),
    StableHlo.reshape main_v140 main_v141 rfl shapeCasts_S64000x1_S64000,
    StableHlo.binary main_v116 main_v123 main_v142 (mulf : (⟨S256x64000, .f32⟩ : BufTy).Contents (Elt F) → (⟨S256x64000, .f32⟩ : BufTy).Contents (Elt F) → (⟨S256x64000, .f32⟩ : BufTy).Contents (Elt F)),
    StableHlo.unary main_v141 main_v143 (broadcastInDim S1x64000 ![1] bcast_S64000_S1x64000_1 : (⟨S64000, .f32⟩ : BufTy).Contents (Elt F) → (⟨S1x64000, .f32⟩ : BufTy).Contents (Elt F)),
    StableHlo.unary main_v143 main_v144 (broadcastInDim S256x64000 ![0, 1] bcast_S1x64000_S256x64000_0_1 : (⟨S1x64000, .f32⟩ : BufTy).Contents (Elt F) → (⟨S256x64000, .f32⟩ : BufTy).Contents (Elt F)),
    StableHlo.binary main_v144 main_v142 main_v145 (mulf : (⟨S256x64000, .f32⟩ : BufTy).Contents (Elt F) → (⟨S256x64000, .f32⟩ : BufTy).Contents (Elt F) → (⟨S256x64000, .f32⟩ : BufTy).Contents (Elt F)),
    StableHlo.binary main_v139 main_v145 main_v146 (addf : (⟨S256x64000, .f32⟩ : BufTy).Contents (Elt F) → (⟨S256x64000, .f32⟩ : BufTy).Contents (Elt F) → (⟨S256x64000, .f32⟩ : BufTy).Contents (Elt F)) ]
theorem opsLayer2_sub : (opsLayer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

abbrev opsCoef3a : List (HloOp τ sig (Elt F)) :=
  [
    StableHlo.nullary main_cst_20 (constant S_ .f32 0xFF800000#32),
    StableHlo.binary main_arg12 main_cst_20 main_v147 ((fun x v => Host.reduce FloatOps.maximumf x v reducesTo_S64000x16_S64000_d1 h_S_) : (⟨S64000x16, .f32⟩ : BufTy).Contents (Elt F) → (⟨S_, .f32⟩ : BufTy).Contents (Elt F) → (⟨S64000, .f32⟩ : BufTy).Contents (Elt F)),
    StableHlo.nullary main_cst_21 (constant S_ .f32 0xFF800000#32),
    StableHlo.unary main_cst_21 main_v148 (broadcastInDim S64000 ![] bcast_S_S64000 : (⟨S_, .f32⟩ : BufTy).Contents (Elt F) → (⟨S64000, .f32⟩ : BufTy).Contents (Elt F)),
    StableHlo.binary main_v148 main_v147 main_v149 (maximumf : (⟨S64000, .f32⟩ : BufTy).Contents (Elt F) → (⟨S64000, .f32⟩ : BufTy).Contents (Elt F) → (⟨S64000, .f32⟩ : BufTy).Contents (Elt F)),
    StableHlo.unary main_v149 main_v150 (broadcastInDim S64000x1 ![0] bcast_S64000_S64000x1_0 : (⟨S64000, .f32⟩ : BufTy).Contents (Elt F) → (⟨S64000x1, .f32⟩ : BufTy).Contents (Elt F)),
    StableHlo.unary main_v150 main_v151 (broadcastInDim S64000x16 ![0, 1] bcast_S64000x1_S64000x16_0_1 : (⟨S64000x1, .f32⟩ : BufTy).Contents (Elt F) → (⟨S64000x16, .f32⟩ : BufTy).Contents (Elt F)),
    StableHlo.binary main_arg12 main_v151 main_v152 (subf : (⟨S64000x16, .f32⟩ : BufTy).Contents (Elt F) → (⟨S64000x16, .f32⟩ : BufTy).Contents (Elt F) → (⟨S64000x16, .f32⟩ : BufTy).Contents (Elt F)),
    StableHlo.unary main_v152 main_v153 (Host.exp : (⟨S64000x16, .f32⟩ : BufTy).Contents (Elt F) → (⟨S64000x16, .f32⟩ : BufTy).Contents (Elt F)),
    StableHlo.nullary main_cst_22 (constant S_ .f32 0x00000000#32),
    StableHlo.binary main_v153 main_cst_22 main_v154 ((fun x v => Host.reduceAdd x v reducesTo_S64000x16_S64000_d1 h_S_) : (⟨S64000x16, .f32⟩ : BufTy).Contents (Elt F) → (⟨S_, .f32⟩ : BufTy).Contents (Elt F) → (⟨S64000, .f32⟩ : BufTy).Contents (Elt F)) ]
theorem opsCoef3a_sub : (opsCoef3a : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

abbrev opsCoef3b : List (HloOp τ sig (Elt F)) :=
  [
    StableHlo.unary main_v154 main_v155 (broadcastInDim S64000x1 ![0] bcast_S64000_S64000x1_0 : (⟨S64000, .f32⟩ : BufTy).Contents (Elt F) → (⟨S64000x1, .f32⟩ : BufTy).Contents (Elt F)),
    StableHlo.unary main_v155 main_v156 (broadcastInDim S64000x16 ![0, 1] bcast_S64000x1_S64000x16_0_1 : (⟨S64000x1, .f32⟩ : BufTy).Contents (Elt F) → (⟨S64000x16, .f32⟩ : BufTy).Contents (Elt F)),
    StableHlo.binary main_v153 main_v156 main_v157 (Host.divf : (⟨S64000x16, .f32⟩ : BufTy).Contents (Elt F) → (⟨S64000x16, .f32⟩ : BufTy).Contents (Elt F) → (⟨S64000x16, .f32⟩ : BufTy).Contents (Elt F)),
    StableHlo.binary main_v157 main_cst main_v158 ((fun l r => Host.dotGeneral dot_S64000x16_S16x4_S64000x4_1_0_0_1_n_n none l r) : (⟨S64000x16, .f32⟩ : BufTy).Contents (Elt F) → (⟨S16x4, .f32⟩ : BufTy).Contents (Elt F) → (⟨S64000x4, .f32⟩ : BufTy).Contents (Elt F)) ]
theorem opsCoef3b_sub : (opsCoef3b : List (HloOp τ sig (Elt F))).Forall fun op => op.bufs ⊆ tcRefs τ sig :=
  ⟨unary_bufs_sub .., unary_bufs_sub .., binary_bufs_sub .., binary_bufs_sub ..⟩

abbrev opsLayer3 : List (HloOp τ sig (Elt F)) :=
  [
    StableHlo.nullary main_c_23 (constantI S_ 32 0#32),
    StableHlo.unary main_c_23 main_v159 (broadcastInDim S64000 ![] bcast_S_S64000 : (⟨S_, .i32⟩ : BufTy).Contents (Elt F) → (⟨S64000, .i32⟩ : BufTy).Contents (Elt F)),
    StableHlo.binary main_arg10 main_v159 main_v160 (cmpi .slt : (⟨S64000, .i32⟩ : BufTy).Contents (Elt F) → (⟨S64000, .i32⟩ : BufTy).Contents (Elt F) → (⟨S64000, .i1⟩ : BufTy).Contents (Elt F)),
    StableHlo.nullary main_c_24 (constantI S_ 32 64000#32),
    StableHlo.unary main_c_24 main_v161 (broadcastInDim S64000 ![] bcast_S_S64000 : (⟨S_, .i32⟩ : BufTy).Contents (Elt F) → (⟨S64000, .i32⟩ : BufTy).Contents (Elt F)),
    StableHlo.binary main_arg10 main_v161 main_v162 (addi : (⟨S64000, .i32⟩ : BufTy).Contents (Elt F) → (⟨S64000, .i32⟩ : BufTy).Contents (Elt F) → (⟨S64000, .i32⟩ : BufTy).Contents (Elt F)),
    StableHlo.ternary main_v160 main_v162 main_arg10 main_v163 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v163 main_v164 (broadcastInDim S64000x1 ![0] bcast_S64000_S64000x1_0 : (⟨S64000, .i32⟩ : BufTy).Contents (Elt F) → (⟨S64000x1, .i32⟩ : BufTy).Contents (Elt F)),
    StableHlo.binary main_v146 main_v164 main_v165 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.nullary main_c_25 (constantI S_ 32 0#32),
    StableHlo.unary main_c_25 main_v166 (broadcastInDim S64000 ![] bcast_S_S64000 : (⟨S_, .i32⟩ : BufTy).Contents (Elt F) → (⟨S64000, .i32⟩ : BufTy).Contents (Elt F)),
    StableHlo.binary main_arg11 main_v166 main_v167 (cmpi .slt : (⟨S64000, .i32⟩ : BufTy).Contents (Elt F) → (⟨S64000, .i32⟩ : BufTy).Contents (Elt F) → (⟨S64000, .i1⟩ : BufTy).Contents (Elt F)),
    StableHlo.nullary main_c_26 (constantI S_ 32 64000#32),
    StableHlo.unary main_c_26 main_v168 (broadcastInDim S64000 ![] bcast_S_S64000 : (⟨S_, .i32⟩ : BufTy).Contents (Elt F) → (⟨S64000, .i32⟩ : BufTy).Contents (Elt F)),
    StableHlo.binary main_arg11 main_v168 main_v169 (addi : (⟨S64000, .i32⟩ : BufTy).Contents (Elt F) → (⟨S64000, .i32⟩ : BufTy).Contents (Elt F) → (⟨S64000, .i32⟩ : BufTy).Contents (Elt F)),
    StableHlo.ternary main_v167 main_v169 main_arg11 main_v170 (select : (⟨S64000, .i1⟩ : BufTy).Contents (Elt F) → (⟨S64000, .i32⟩ : BufTy).Contents (Elt F) → (⟨S64000, .i32⟩ : BufTy).Contents (Elt F) → (⟨S64000, .i32⟩ : BufTy).Contents (Elt F)),
    StableHlo.unary main_v170 main_v171 (broadcastInDim S64000x1 ![0] bcast_S64000_S64000x1_0 : (⟨S64000, .i32⟩ : BufTy).Contents (Elt F) → (⟨S64000x1, .i32⟩ : BufTy).Contents (Elt F)),
    StableHlo.binary main_v146 main_v171 main_v172 ((fun x i => Host.gather gather_S256x64000_S64000x1_S256x64000_0_1_n_n_1_1_2561 x i) : (⟨S256x64000, .f32⟩ : BufTy).Contents (Elt F) → (⟨S64000x1, .i32⟩ : BufTy).Contents (Elt F) → (⟨S256x64000, .f32⟩ : BufTy).Contents (Elt F)),
    StableHlo.unary main_v158 main_v173 ((extractStridedSlice S64000x1 ![0, 0] · slices_S64000x4_S64000x1_0_0) : (⟨S64000x4, .f32⟩ : BufTy).Contents (Elt F) → (⟨S64000x1, .f32⟩ : BufTy).Contents (Elt F)),
    StableHlo.reshape main_v173 main_v174 rfl shapeCasts_S64000x1_S64000,
    StableHlo.unary main_v158 main_v175 ((extractStridedSlice S64000x1 ![0, 1] · slices_S64000x4_S64000x1_0_1) : (⟨S64000x4, .f32⟩ : BufTy).Contents (Elt F) → (⟨S64000x1, .f32⟩ : BufTy).Contents (Elt F)),
    StableHlo.reshape main_v175 main_v176 rfl shapeCasts_S64000x1_S64000,
    StableHlo.unary main_v176 main_v177 (broadcastInDim S1x64000 ![1] bcast_S64000_S1x64000_1 : (⟨S64000, .f32⟩ : BufTy).Contents (Elt F) → (⟨S1x64000, .f32⟩ : BufTy).Contents (Elt F)),
    StableHlo.unary main_v177 main_v178 (broadcastInDim S256x64000 ![0, 1] bcast_S1x64000_S256x64000_0_1 : (⟨S1x64000, .f32⟩ : BufTy).Contents (Elt F) → (⟨S256x64000, .f32⟩ : BufTy).Contents (Elt F)),
    StableHlo.binary main_v178 main_v165 main_v179 (mulf : (⟨S256x64000, .f32⟩ : BufTy).Contents (Elt F) → (⟨S256x64000, .f32⟩ : BufTy).Contents (Elt F) → (⟨S256x64000, .f32⟩ : BufTy).Contents (Elt F)),
    StableHlo.unary main_v174 main_v180 (broadcastInDim S1x64000 ![1] bcast_S64000_S1x64000_1 : (⟨S64000, .f32⟩ : BufTy).Contents (Elt F) → (⟨S1x64000, .f32⟩ : BufTy).Contents (Elt F)),
    StableHlo.unary main_v180 main_v181 (broadcastInDim S256x64000 ![0, 1] bcast_S1x64000_S256x64000_0_1 : (⟨S1x64000, .f32⟩ : BufTy).Contents (Elt F) → (⟨S256x64000, .f32⟩ : BufTy).Contents (Elt F)),
    StableHlo.binary main_v181 main_v179 main_v182 (addf : (⟨S256x64000, .f32⟩ : BufTy).Contents (Elt F) → (⟨S256x64000, .f32⟩ : BufTy).Contents (Elt F) → (⟨S256x64000, .f32⟩ : BufTy).Contents (Elt F)),
    StableHlo.unary main_v158 main_v183 ((extractStridedSlice S64000x1 ![0, 2] · slices_S64000x4_S64000x1_0_2) : (⟨S64000x4, .f32⟩ : BufTy).Contents (Elt F) → (⟨S64000x1, .f32⟩ : BufTy).Contents (Elt F)),
    StableHlo.reshape main_v183 main_v184 rfl shapeCasts_S64000x1_S64000,
    StableHlo.unary main_v184 main_v185 (broadcastInDim S1x64000 ![1] bcast_S64000_S1x64000_1 : (⟨S64000, .f32⟩ : BufTy).Contents (Elt F) → (⟨S1x64000, .f32⟩ : BufTy).Contents (Elt F)),
    StableHlo.unary main_v185 main_v186 (broadcastInDim S256x64000 ![0, 1] bcast_S1x64000_S256x64000_0_1 : (⟨S1x64000, .f32⟩ : BufTy).Contents (Elt F) → (⟨S256x64000, .f32⟩ : BufTy).Contents (Elt F)),
    StableHlo.binary main_v186 main_v172 main_v187 (mulf : (⟨S256x64000, .f32⟩ : BufTy).Contents (Elt F) → (⟨S256x64000, .f32⟩ : BufTy).Contents (Elt F) → (⟨S256x64000, .f32⟩ : BufTy).Contents (Elt F)),
    StableHlo.binary main_v182 main_v187 main_v188 (addf : (⟨S256x64000, .f32⟩ : BufTy).Contents (Elt F) → (⟨S256x64000, .f32⟩ : BufTy).Contents (Elt F) → (⟨S256x64000, .f32⟩ : BufTy).Contents (Elt F)),
    StableHlo.unary main_v158 main_v189 ((extractStridedSlice S64000x1 ![0, 3] · slices_S64000x4_S64000x1_0_3) : (⟨S64000x4, .f32⟩ : BufTy).Contents (Elt F) → (⟨S64000x1, .f32⟩ : BufTy).Contents (Elt F)),
    StableHlo.reshape main_v189 main_v190 rfl shapeCasts_S64000x1_S64000,
    StableHlo.binary main_v165 main_v172 main_v191 (mulf : (⟨S256x64000, .f32⟩ : BufTy).Contents (Elt F) → (⟨S256x64000, .f32⟩ : BufTy).Contents (Elt F) → (⟨S256x64000, .f32⟩ : BufTy).Contents (Elt F)),
    StableHlo.unary main_v190 main_v192 (broadcastInDim S1x64000 ![1] bcast_S64000_S1x64000_1 : (⟨S64000, .f32⟩ : BufTy).Contents (Elt F) → (⟨S1x64000, .f32⟩ : BufTy).Contents (Elt F)),
    StableHlo.unary main_v192 main_v193 (broadcastInDim S256x64000 ![0, 1] bcast_S1x64000_S256x64000_0_1 : (⟨S1x64000, .f32⟩ : BufTy).Contents (Elt F) → (⟨S256x64000, .f32⟩ : BufTy).Contents (Elt F)),
    StableHlo.binary main_v193 main_v191 main_v194 (mulf : (⟨S256x64000, .f32⟩ : BufTy).Contents (Elt F) → (⟨S256x64000, .f32⟩ : BufTy).Contents (Elt F) → (⟨S256x64000, .f32⟩ : BufTy).Contents (Elt F)),
    StableHlo.binary main_v188 main_v194 main_v195 (addf : (⟨S256x64000, .f32⟩ : BufTy).Contents (Elt F) → (⟨S256x64000, .f32⟩ : BufTy).Contents (Elt F) → (⟨S256x64000, .f32⟩ : BufTy).Contents (Elt F)) ]
theorem opsLayer3_sub : (opsLayer3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

abbrev opsSum : List (HloOp τ sig (Elt F)) :=
  [
    StableHlo.reshape main_v195 main_v196 rfl shapeCasts_S256x64000_S256x10x6400,
    StableHlo.nullary main_cst_27 (constant S_ .f32 0x00000000#32),
    StableHlo.binary main_v196 main_cst_27 main_v197 ((fun x v => Host.reduceAdd x v reducesTo_S256x10x6400_S256x10_d2 h_S_) : (⟨S256x10x6400, .f32⟩ : BufTy).Contents (Elt F) → (⟨S_, .f32⟩ : BufTy).Contents (Elt F) → (⟨S256x10, .f32⟩ : BufTy).Contents (Elt F)),
    StableHlo.nullary main_cst_28 (constant S_ .f32 0x41200000#32),
    StableHlo.unary main_cst_28 main_v198 (broadcastInDim S256x10 ![] bcast_S_S256x10 : (⟨S_, .f32⟩ : BufTy).Contents (Elt F) → (⟨S256x10, .f32⟩ : BufTy).Contents (Elt F)),
    StableHlo.binary main_v197 main_v198 main_v199 (Host.divf : (⟨S256x10, .f32⟩ : BufTy).Contents (Elt F) → (⟨S256x10, .f32⟩ : BufTy).Contents (Elt F) → (⟨S256x10, .f32⟩ : BufTy).Contents (Elt F)) ]
theorem opsSum_sub : (opsSum : List (HloOp τ sig (Elt F))).Forall fun op => op.bufs ⊆ tcRefs τ sig :=
  ⟨reshape_bufs_sub .., nullary_bufs_sub .., binary_bufs_sub .., nullary_bufs_sub .., unary_bufs_sub .., binary_bufs_sub ..⟩

abbrev part0 : List (HloOp τ sig (Elt F)) := opsCoef0 ++ (opsLayer0 ++ opsCoef1a)
abbrev part1 : List (HloOp τ sig (Elt F)) := opsCoef1b ++ (opsLayer1 ++ opsCoef2a)
abbrev part2 : List (HloOp τ sig (Elt F)) := opsCoef2b ++ (opsLayer2 ++ opsCoef3a)
abbrev part3 : List (HloOp τ sig (Elt F)) := opsCoef3b ++ (opsLayer3 ++ opsSum)
abbrev ops : List (HloOp τ sig (Elt F)) := part0 ++ (part1 ++ (part2 ++ part3))

set_option maxRecDepth 8192 in
theorem main_part0_eq (c : Dev nD) : main_part0 (F := F) c = seq part0 := rfl
set_option maxRecDepth 8192 in
theorem main_part1_eq (c : Dev nD) : main_part1 (F := F) c = seq part1 := rfl
set_option maxRecDepth 8192 in
theorem main_part2_eq (c : Dev nD) : main_part2 (F := F) c = seq part2 := rfl
set_option maxRecDepth 8192 in
theorem main_part3_eq (c : Dev nD) : main_part3 (F := F) c = seq part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev opsCoef1 : List (HloOp τ sig (Elt F)) := opsCoef1a ++ opsCoef1b
abbrev opsCoef2 : List (HloOp τ sig (Elt F)) := opsCoef2a ++ opsCoef2b
abbrev opsCoef3 : List (HloOp τ sig (Elt F)) := opsCoef3a ++ opsCoef3b

abbrev opsCoef0_W : List (Ref sig .tc) := [main_cst, main_cst_0, main_v0, main_cst_1, main_v1, main_v2, main_v3, main_v4, main_v5, main_v6, main_cst_2, main_v7, main_v8, main_v9, main_v10, main_v11]
set_option maxRecDepth 8192 in
-- Every operation of a stage writes only its own result buffer, and the stage's list names it.
theorem opsCoef0_writes : (opsCoef0 : List (HloOp τ sig (Elt F))).Forall fun op => op.writes ⊆ (opsCoef0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsCoef0_keep (V : Valuation τ sig (Elt F)) (r : Ref sig .tc) (h : r ∉ opsCoef0_W) :
    after opsCoef0 V (Proc.devRef .tc r) = V (Proc.devRef .tc r) :=
  after_of_writes_sub opsCoef0 V opsCoef0_writes h

abbrev opsLayer0_W : List (Ref sig .tc) := [main_c, main_v12, main_v13, main_c_3, main_v14, main_v15, main_v16, main_v17, main_v18, main_c_4, main_v19, main_v20, main_c_5, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]
set_option maxRecDepth 8192 in
theorem opsLayer0_writes : (opsLayer0 : List (HloOp τ sig (Elt F))).Forall fun op => op.writes ⊆ (opsLayer0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsLayer0_keep (V : Valuation τ sig (Elt F)) (r : Ref sig .tc) (h : r ∉ opsLayer0_W) :
    after opsLayer0 V (Proc.devRef .tc r) = V (Proc.devRef .tc r) :=
  after_of_writes_sub opsLayer0 V opsLayer0_writes h

abbrev opsCoef1_W : List (Ref sig .tc) := [main_cst_6, main_v49, main_cst_7, main_v50, main_v51, main_v52, main_v53, main_v54, main_v55, main_cst_8, main_v56, main_v57, main_v58, main_v59, main_v60]
set_option maxRecDepth 8192 in
theorem opsCoef1_writes : (opsCoef1 : List (HloOp τ sig (Elt F))).Forall fun op => op.writes ⊆ (opsCoef1_W.map (Proc.devRef (τ := τ) .tc)).toFinset := by
  simp only [opsCoef1, opsCoef1a, opsCoef1b, List.cons_append, List.nil_append, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsCoef1_keep (V : Valuation τ sig (Elt F)) (r : Ref sig .tc) (h : r ∉ opsCoef1_W) :
    after opsCoef1 V (Proc.devRef .tc r) = V (Proc.devRef .tc r) :=
  after_of_writes_sub opsCoef1 V opsCoef1_writes h

abbrev opsLayer1_W : List (Ref sig .tc) := [main_c_9, main_v61, main_v62, main_c_10, main_v63, main_v64, main_v65, main_v66, main_v67, main_c_11, main_v68, main_v69, main_c_12, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97]
set_option maxRecDepth 8192 in
theorem opsLayer1_writes : (opsLayer1 : List (HloOp τ sig (Elt F))).Forall fun op => op.writes ⊆ (opsLayer1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsLayer1_keep (V : Valuation τ sig (Elt F)) (r : Ref sig .tc) (h : r ∉ opsLayer1_W) :
    after opsLayer1 V (Proc.devRef .tc r) = V (Proc.devRef .tc r) :=
  after_of_writes_sub opsLayer1 V opsLayer1_writes h

abbrev opsCoef2_W : List (Ref sig .tc) := [main_cst_13, main_v98, main_cst_14, main_v99, main_v100, main_v101, main_v102, main_v103, main_v104, main_cst_15, main_v105, main_v106, main_v107, main_v108, main_v109]
set_option maxRecDepth 8192 in
theorem opsCoef2_writes : (opsCoef2 : List (HloOp τ sig (Elt F))).Forall fun op => op.writes ⊆ (opsCoef2_W.map (Proc.devRef (τ := τ) .tc)).toFinset := by
  simp only [opsCoef2, opsCoef2a, opsCoef2b, List.cons_append, List.nil_append, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsCoef2_keep (V : Valuation τ sig (Elt F)) (r : Ref sig .tc) (h : r ∉ opsCoef2_W) :
    after opsCoef2 V (Proc.devRef .tc r) = V (Proc.devRef .tc r) :=
  after_of_writes_sub opsCoef2 V opsCoef2_writes h

abbrev opsLayer2_W : List (Ref sig .tc) := [main_c_16, main_v110, main_v111, main_c_17, main_v112, main_v113, main_v114, main_v115, main_v116, main_c_18, main_v117, main_v118, main_c_19, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146]
set_option maxRecDepth 8192 in
theorem opsLayer2_writes : (opsLayer2 : List (HloOp τ sig (Elt F))).Forall fun op => op.writes ⊆ (opsLayer2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsLayer2_keep (V : Valuation τ sig (Elt F)) (r : Ref sig .tc) (h : r ∉ opsLayer2_W) :
    after opsLayer2 V (Proc.devRef .tc r) = V (Proc.devRef .tc r) :=
  after_of_writes_sub opsLayer2 V opsLayer2_writes h

abbrev opsCoef3_W : List (Ref sig .tc) := [main_cst_20, main_v147, main_cst_21, main_v148, main_v149, main_v150, main_v151, main_v152, main_v153, main_cst_22, main_v154, main_v155, main_v156, main_v157, main_v158]
set_option maxRecDepth 8192 in
theorem opsCoef3_writes : (opsCoef3 : List (HloOp τ sig (Elt F))).Forall fun op => op.writes ⊆ (opsCoef3_W.map (Proc.devRef (τ := τ) .tc)).toFinset := by
  simp only [opsCoef3, opsCoef3a, opsCoef3b, List.cons_append, List.nil_append, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsCoef3_keep (V : Valuation τ sig (Elt F)) (r : Ref sig .tc) (h : r ∉ opsCoef3_W) :
    after opsCoef3 V (Proc.devRef .tc r) = V (Proc.devRef .tc r) :=
  after_of_writes_sub opsCoef3 V opsCoef3_writes h

abbrev opsLayer3_W : List (Ref sig .tc) := [main_c_23, main_v159, main_v160, main_c_24, main_v161, main_v162, main_v163, main_v164, main_v165, main_c_25, main_v166, main_v167, main_c_26, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195]
set_option maxRecDepth 8192 in
theorem opsLayer3_writes : (opsLayer3 : List (HloOp τ sig (Elt F))).Forall fun op => op.writes ⊆ (opsLayer3_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsLayer3_keep (V : Valuation τ sig (Elt F)) (r : Ref sig .tc) (h : r ∉ opsLayer3_W) :
    after opsLayer3 V (Proc.devRef .tc r) = V (Proc.devRef .tc r) :=
  after_of_writes_sub opsLayer3 V opsLayer3_writes h

abbrev opsSum_W : List (Ref sig .tc) := [main_v196, main_cst_27, main_v197, main_cst_28, main_v198, main_v199]
set_option maxRecDepth 8192 in
theorem opsSum_writes : (opsSum : List (HloOp τ sig (Elt F))).Forall fun op => op.writes ⊆ (opsSum_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem opsSum_keep (V : Valuation τ sig (Elt F)) (r : Ref sig .tc) (h : r ∉ opsSum_W) :
    after opsSum V (Proc.devRef .tc r) = V (Proc.devRef .tc r) :=
  after_of_writes_sub opsSum V opsSum_writes h

set_option maxRecDepth 8192 in
set_option maxHeartbeats 1600000 in
theorem opsCoef0_table (V : Valuation τ sig (Elt F)) : after opsCoef0 V (Proc.devRef .tc main_cst) = table := by
  simp only [opsCoef0]
  after_results_simp
  rfl
set_option maxRecDepth 8192 in
set_option maxHeartbeats 1600000 in
theorem opsCoef0_val (V : Valuation τ sig (Elt F)) : after opsCoef0 V (Proc.devRef .tc main_v11) = coef (V (Proc.devRef .tc main_arg3)) := by
  simp only [opsCoef0]
  after_results_simp
  rfl
set_option maxRecDepth 8192 in
set_option maxHeartbeats 2000000 in
theorem opsLayer0_val (V : Valuation τ sig (Elt F)) : after opsLayer0 V (Proc.devRef .tc main_v48)
    = layer0 (V (Proc.devRef .tc main_arg0)) (V (Proc.devRef .tc main_arg1)) (V (Proc.devRef .tc main_arg2)) (V (Proc.devRef .tc main_v11)) := by
  simp only [opsLayer0]
  after_results_simp
  rfl
set_option maxRecDepth 8192 in
set_option maxHeartbeats 1500000 in
theorem opsCoef1_val (V : Valuation τ sig (Elt F)) (hT : V (Proc.devRef .tc main_cst) = table) :
    after opsCoef1 V (Proc.devRef .tc main_v60) = coef (V (Proc.devRef .tc main_arg6)) := by
  simp only [opsCoef1, opsCoef1a, opsCoef1b, List.cons_append, List.nil_append]
  after_results_simp
  rw [hT]
  rfl
set_option maxRecDepth 8192 in
set_option maxHeartbeats 2000000 in
theorem opsLayer1_val (V : Valuation τ sig (Elt F)) : after opsLayer1 V (Proc.devRef .tc main_v97)
    = layerN (V (Proc.devRef .tc main_v48)) (V (Proc.devRef .tc main_arg4)) (V (Proc.devRef .tc main_arg5)) (V (Proc.devRef .tc main_v60)) := by
  simp only [opsLayer1]
  after_results_simp
  rfl
set_option maxRecDepth 8192 in
set_option maxHeartbeats 1500000 in
theorem opsCoef2_val (V : Valuation τ sig (Elt F)) (hT : V (Proc.devRef .tc main_cst) = table) :
    after opsCoef2 V (Proc.devRef .tc main_v109) = coef (V (Proc.devRef .tc main_arg9)) := by
  simp only [opsCoef2, opsCoef2a, opsCoef2b, List.cons_append, List.nil_append]
  after_results_simp
  rw [hT]
  rfl
set_option maxRecDepth 8192 in
set_option maxHeartbeats 2000000 in
theorem opsLayer2_val (V : Valuation τ sig (Elt F)) : after opsLayer2 V (Proc.devRef .tc main_v146)
    = layerN (V (Proc.devRef .tc main_v97)) (V (Proc.devRef .tc main_arg7)) (V (Proc.devRef .tc main_arg8)) (V (Proc.devRef .tc main_v109)) := by
  simp only [opsLayer2]
  after_results_simp
  rfl
set_option maxRecDepth 8192 in
set_option maxHeartbeats 1500000 in
theorem opsCoef3_val (V : Valuation τ sig (Elt F)) (hT : V (Proc.devRef .tc main_cst) = table) :
    after opsCoef3 V (Proc.devRef .tc main_v158) = coef (V (Proc.devRef .tc main_arg12)) := by
  simp only [opsCoef3, opsCoef3a, opsCoef3b, List.cons_append, List.nil_append]
  after_results_simp
  rw [hT]
  rfl
set_option maxRecDepth 8192 in
set_option maxHeartbeats 2000000 in
theorem opsLayer3_val (V : Valuation τ sig (Elt F)) : after opsLayer3 V (Proc.devRef .tc main_v195)
    = layerN (V (Proc.devRef .tc main_v146)) (V (Proc.devRef .tc main_arg10)) (V (Proc.devRef .tc main_arg11)) (V (Proc.devRef .tc main_v158)) := by
  simp only [opsLayer3]
  after_results_simp
  rfl
set_option maxRecDepth 8192 in
set_option maxHeartbeats 600000 in
theorem opsSum_val (V : Valuation τ sig (Elt F)) : after opsSum V (Proc.devRef .tc main_v199) = groupSum (V (Proc.devRef .tc main_v195)) := by
  simp only [opsSum]
  after_results_simp
  rfl

def val1 (V : Valuation τ sig (Elt F)) : Valuation τ sig (Elt F) := after opsCoef0 V
def val2 (V : Valuation τ sig (Elt F)) : Valuation τ sig (Elt F) := after opsLayer0 (val1 V)
def val3 (V : Valuation τ sig (Elt F)) : Valuation τ sig (Elt F) := after opsCoef1 (val2 V)
def val4 (V : Valuation τ sig (Elt F)) : Valuation τ sig (Elt F) := after opsLayer1 (val3 V)
def val5 (V : Valuation τ sig (Elt F)) : Valuation τ sig (Elt F) := after opsCoef2 (val4 V)
def val6 (V : Valuation τ sig (Elt F)) : Valuation τ sig (Elt F) := after opsLayer2 (val5 V)
def val7 (V : Valuation τ sig (Elt F)) : Valuation τ sig (Elt F) := after opsCoef3 (val6 V)
def val8 (V : Valuation τ sig (Elt F)) : Valuation τ sig (Elt F) := after opsLayer3 (val7 V)
def val9 (V : Valuation τ sig (Elt F)) : Valuation τ sig (Elt F) := after opsSum (val8 V)

-- A buffer that none of the first k stages writes still holds its initial contents after them.
theorem val1_keep (V : Valuation τ sig (Elt F)) (r : Ref sig .tc) (h1 : r ∉ opsCoef0_W) :
    val1 V (Proc.devRef .tc r) = V (Proc.devRef .tc r) :=
  opsCoef0_keep V r h1

theorem val2_keep (V : Valuation τ sig (Elt F)) (r : Ref sig .tc) (h1 : r ∉ opsCoef0_W) (h2 : r ∉ opsLayer0_W) :
    val2 V (Proc.devRef .tc r) = V (Proc.devRef .tc r) :=
  (opsLayer0_keep _ r h2).trans (val1_keep V r h1)

theorem val3_keep (V : Valuation τ sig (Elt F)) (r : Ref sig .tc) (h1 : r ∉ opsCoef0_W) (h2 : r ∉ opsLayer0_W) (h3 : r ∉ opsCoef1_W) :
    val3 V (Proc.devRef .tc r) = V (Proc.devRef .tc r) :=
  (opsCoef1_keep _ r h3).trans (val2_keep V r h1 h2)

theorem val4_keep (V : Valuation τ sig (Elt F)) (r : Ref sig .tc) (h1 : r ∉ opsCoef0_W) (h2 : r ∉ opsLayer0_W) (h3 : r ∉ opsCoef1_W) (h4 : r ∉ opsLayer1_W) :
    val4 V (Proc.devRef .tc r) = V (Proc.devRef .tc r) :=
  (opsLayer1_keep _ r h4).trans (val3_keep V r h1 h2 h3)

theorem val5_keep (V : Valuation τ sig (Elt F)) (r : Ref sig .tc) (h1 : r ∉ opsCoef0_W) (h2 : r ∉ opsLayer0_W) (h3 : r ∉ opsCoef1_W) (h4 : r ∉ opsLayer1_W) (h5 : r ∉ opsCoef2_W) :
    val5 V (Proc.devRef .tc r) = V (Proc.devRef .tc r) :=
  (opsCoef2_keep _ r h5).trans (val4_keep V r h1 h2 h3 h4)

theorem val6_keep (V : Valuation τ sig (Elt F)) (r : Ref sig .tc) (h1 : r ∉ opsCoef0_W) (h2 : r ∉ opsLayer0_W) (h3 : r ∉ opsCoef1_W) (h4 : r ∉ opsLayer1_W) (h5 : r ∉ opsCoef2_W) (h6 : r ∉ opsLayer2_W) :
    val6 V (Proc.devRef .tc r) = V (Proc.devRef .tc r) :=
  (opsLayer2_keep _ r h6).trans (val5_keep V r h1 h2 h3 h4 h5)

theorem val7_keep (V : Valuation τ sig (Elt F)) (r : Ref sig .tc) (h1 : r ∉ opsCoef0_W) (h2 : r ∉ opsLayer0_W) (h3 : r ∉ opsCoef1_W) (h4 : r ∉ opsLayer1_W) (h5 : r ∉ opsCoef2_W) (h6 : r ∉ opsLayer2_W) (h7 : r ∉ opsCoef3_W) :
    val7 V (Proc.devRef .tc r) = V (Proc.devRef .tc r) :=
  (opsCoef3_keep _ r h7).trans (val6_keep V r h1 h2 h3 h4 h5 h6)

-- The four hidden layers as functions of the initial contents.
abbrev hid1 (V : Valuation τ sig (Elt F)) : FVec F S256x64000 .f32 :=
  layer0 (V (Proc.devRef .tc main_arg0)) (V (Proc.devRef .tc main_arg1)) (V (Proc.devRef .tc main_arg2)) (coef (V (Proc.devRef .tc main_arg3)))
abbrev hid2 (V : Valuation τ sig (Elt F)) : FVec F S256x64000 .f32 :=
  layerN (hid1 V) (V (Proc.devRef .tc main_arg4)) (V (Proc.devRef .tc main_arg5)) (coef (V (Proc.devRef .tc main_arg6)))
abbrev hid3 (V : Valuation τ sig (Elt F)) : FVec F S256x64000 .f32 :=
  layerN (hid2 V) (V (Proc.devRef .tc main_arg7)) (V (Proc.devRef .tc main_arg8)) (coef (V (Proc.devRef .tc main_arg9)))
abbrev hid4 (V : Valuation τ sig (Elt F)) : FVec F S256x64000 .f32 :=
  layerN (hid3 V) (V (Proc.devRef .tc main_arg10)) (V (Proc.devRef .tc main_arg11)) (coef (V (Proc.devRef .tc main_arg12)))

theorem val1_cst (V : Valuation τ sig (Elt F)) : val1 V (Proc.devRef .tc main_cst) = table := opsCoef0_table V
theorem val2_cst (V : Valuation τ sig (Elt F)) : val2 V (Proc.devRef .tc main_cst) = table :=
  (opsLayer0_keep _ main_cst (by decide)).trans (val1_cst V)
theorem val3_cst (V : Valuation τ sig (Elt F)) : val3 V (Proc.devRef .tc main_cst) = table :=
  (opsCoef1_keep _ main_cst (by decide)).trans (val2_cst V)
theorem val4_cst (V : Valuation τ sig (Elt F)) : val4 V (Proc.devRef .tc main_cst) = table :=
  (opsLayer1_keep _ main_cst (by decide)).trans (val3_cst V)
theorem val5_cst (V : Valuation τ sig (Elt F)) : val5 V (Proc.devRef .tc main_cst) = table :=
  (opsCoef2_keep _ main_cst (by decide)).trans (val4_cst V)
theorem val6_cst (V : Valuation τ sig (Elt F)) : val6 V (Proc.devRef .tc main_cst) = table :=
  (opsLayer2_keep _ main_cst (by decide)).trans (val5_cst V)

theorem val1_v11 (V : Valuation τ sig (Elt F)) : val1 V (Proc.devRef .tc main_v11) = coef (V (Proc.devRef .tc main_arg3)) := opsCoef0_val V

theorem val2_v48 (V : Valuation τ sig (Elt F)) : val2 V (Proc.devRef .tc main_v48) = hid1 V := by
  unfold val2
  rw [opsLayer0_val (val1 V), val1_keep V main_arg1 (by decide), val1_keep V main_arg0 (by decide), val1_keep V main_arg2 (by decide), val1_v11 V]

theorem val3_v48 (V : Valuation τ sig (Elt F)) : val3 V (Proc.devRef .tc main_v48) = hid1 V :=
  (opsCoef1_keep _ main_v48 (by decide)).trans (val2_v48 V)

theorem val3_v60 (V : Valuation τ sig (Elt F)) : val3 V (Proc.devRef .tc main_v60) = coef (V (Proc.devRef .tc main_arg6)) := by
  unfold val3
  rw [opsCoef1_val (val2 V) (val2_cst V), val2_keep V main_arg6 (by decide) (by decide)]

theorem val4_v97 (V : Valuation τ sig (Elt F)) : val4 V (Proc.devRef .tc main_v97) = hid2 V := by
  unfold val4
  rw [opsLayer1_val (val3 V), val3_keep V main_arg4 (by decide) (by decide) (by decide), val3_v48 V, val3_keep V main_arg5 (by decide) (by decide) (by decide), val3_v60 V]

theorem val5_v97 (V : Valuation τ sig (Elt F)) : val5 V (Proc.devRef .tc main_v97) = hid2 V :=
  (opsCoef2_keep _ main_v97 (by decide)).trans (val4_v97 V)

theorem val5_v109 (V : Valuation τ sig (Elt F)) : val5 V (Proc.devRef .tc main_v109) = coef (V (Proc.devRef .tc main_arg9)) := by
  unfold val5
  rw [opsCoef2_val (val4 V) (val4_cst V), val4_keep V main_arg9 (by decide) (by decide) (by decide) (by decide)]

theorem val6_v146 (V : Valuation τ sig (Elt F)) : val6 V (Proc.devRef .tc main_v146) = hid3 V := by
  unfold val6
  rw [opsLayer2_val (val5 V), val5_keep V main_arg7 (by decide) (by decide) (by decide) (by decide) (by decide), val5_v97 V, val5_keep V main_arg8 (by decide) (by decide) (by decide) (by decide) (by decide), val5_v109 V]

theorem val7_v146 (V : Valuation τ sig (Elt F)) : val7 V (Proc.devRef .tc main_v146) = hid3 V :=
  (opsCoef3_keep _ main_v146 (by decide)).trans (val6_v146 V)

theorem val7_v158 (V : Valuation τ sig (Elt F)) : val7 V (Proc.devRef .tc main_v158) = coef (V (Proc.devRef .tc main_arg12)) := by
  unfold val7
  rw [opsCoef3_val (val6 V) (val6_cst V), val6_keep V main_arg12 (by decide) (by decide) (by decide) (by decide) (by decide) (by decide)]

theorem val8_v195 (V : Valuation τ sig (Elt F)) : val8 V (Proc.devRef .tc main_v195) = hid4 V := by
  unfold val8
  rw [opsLayer3_val (val7 V), val7_keep V main_arg10 (by decide) (by decide) (by decide) (by decide) (by decide) (by decide) (by decide), val7_v146 V, val7_keep V main_arg11 (by decide) (by decide) (by decide) (by decide) (by decide) (by decide) (by decide), val7_v158 V]

theorem val9_v199 (V : Valuation τ sig (Elt F)) : val9 V (Proc.devRef .tc main_v199) = groupSum (hid4 V) := by
  unfold val9
  rw [opsSum_val (val8 V), val8_v195 V]

theorem after_ops (V : Valuation τ sig (Elt F)) : after ops V = val9 V := by
  simp only [ops, part0, part1, part2, part3, opsCoef1, opsCoef2, opsCoef3, val1, val2, val3, val4, val5, val6, val7, val8, val9, after_append]

theorem res_main_v199 (V : Valuation τ sig (Elt F)) : after ops V (Proc.devRef .tc main_v199)
    = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, val9_v199]
  rfl

theorem ops_keep (V : Valuation τ sig (Elt F)) (r : Ref sig .tc)
    (h : r ∉ opsCoef0_W ∧ r ∉ opsLayer0_W ∧ r ∉ opsCoef1_W ∧ r ∉ opsLayer1_W ∧ r ∉ opsCoef2_W ∧ r ∉ opsLayer2_W ∧ r ∉ opsCoef3_W ∧ r ∉ opsLayer3_W ∧ r ∉ opsSum_W) :
    after ops V (Proc.devRef .tc r) = V (Proc.devRef .tc r) := by
  obtain ⟨h1, h2, h3, h4, h5, h6, h7, h8, h9⟩ := h
  rw [after_ops]
  unfold val9 val8 val7 val6 val5 val4 val3 val2 val1
  rw [opsSum_keep _ r h9, opsLayer3_keep _ r h8, opsCoef3_keep _ r h7, opsLayer2_keep _ r h6, opsCoef2_keep _ r h5, opsLayer1_keep _ r h4, opsCoef1_keep _ r h3, opsLayer0_keep _ r h2, opsCoef0_keep _ r h1]

theorem ops_sub : (ops : List (HloOp τ sig (Elt F))).Forall fun op => op.bufs ⊆ tcRefs τ sig :=
  List.forall_iff_forall_mem.mpr fun op h => by
    simp only [ops, part0, part1, part2, part3, List.mem_append, or_assoc] at h
    rcases h with h | h | h | h | h | h | h | h | h | h | h | h
    exacts [List.forall_iff_forall_mem.mp opsCoef0_sub op h, List.forall_iff_forall_mem.mp opsLayer0_sub op h, List.forall_iff_forall_mem.mp opsCoef1a_sub op h, List.forall_iff_forall_mem.mp opsCoef1b_sub op h, List.forall_iff_forall_mem.mp opsLayer1_sub op h, List.forall_iff_forall_mem.mp opsCoef2a_sub op h, List.forall_iff_forall_mem.mp opsCoef2b_sub op h, List.forall_iff_forall_mem.mp opsLayer2_sub op h, List.forall_iff_forall_mem.mp opsCoef3a_sub op h, List.forall_iff_forall_mem.mp opsCoef3b_sub op h, List.forall_iff_forall_mem.mp opsLayer3_sub op h, List.forall_iff_forall_mem.mp opsSum_sub op h]

theorem run (m : (l : Loc nD τ sig) → Buf (Elt F) l) (ρ : Dev nD → PrngReg) :
    θ_run (defs (F := F)) (onTc (τ := τ) (main (F := F))) ⟨m, fun _ => 0, ρ⟩ (fun r => ∀ c : Dev nD,
      r.2.mem ((c.tc : Thread nD τ).loc main_v199) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v199).trans (res_main_v199 _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide))⟩)
    (run_seq scopedRefs_eq scopedSems_eq defs main (fun _ => ops) main_eq (fun _ => ops_sub) m ρ)

end Cert.ReferenceIdeal.Hand

end
-- ==== Proof.K.Body0.lean ====
import proofs.«413321_j24653112279275_3_alg».proof.Proof.Gen.Kernel.Launch
import proofs.«413321_j24653112279275_3_alg».proof.Proof.Gen.Kernel.Skeleton
import proofs.«413321_j24653112279275_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 1).val) 0#32)) 0#32) = 1#1

theorem hcond0_1 : ∀ t : Fin cfg0.N, cond0_1 (grid0.coords t) :=
  (by decide +kernel : ∀ t : Fin grid0.N, cond0_1 (grid0.coords t))

theorem hcond0_2 : ∀ t : Fin cfg0.N, k0_cond2 (grid0.coords t) = 1#1 :=
  (by decide +kernel : ∀ t : Fin grid0.N, k0_cond2 (grid0.coords t) = 1#1)

theorem hz2 : (![0, 0] : Fin 2 → ℕ) = fun _ => 0 := by funext a; fin_cases a <;> rfl

def accA0 (i : grid0.Coords) (ia : Vec F S1x3200 .i32) (xh xl : Vec F S256x1024 .bf16) : Vec F S256x3200 .f32 :=
  k0_pay7 i ia xh xl (k0_pay3 (F := F))

def accB0 (i : grid0.Coords) (ib : Vec F S1x3200 .i32) (xh xl : Vec F S256x1024 .bf16) : Vec F S256x3200 .f32 :=
  k0_pay1 (k0_pay6 i ib xh xl) (k0_pay4 (F := F))

def outv0 (cb : Vec F S4x3200 .f32) (a b : Vec F S256x3200 .f32) : Vec F S256x3200 .f32 :=
  k0_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

theorem readCov_cons_whole (v : View sig .tc .vmem S256x3200 .f32) (w : S256x3200.Idx → Elt F .f32)
    (L : List (View.Piece (Elt F) S256x3200 .f32)) :
    v.readCov ((⟨Rect.unit (s := S256x3200) ![0, 0] S256x3200.size inb_S256x3200_S256x3200_0_0, w⟩ : View.Piece (Elt F) S256x3200 .f32) :: L)
        (Rect.unit (s := S256x3200) ![0, 0] S256x3200.size inb_S256x3200_S256x3200_0_0).toLoadRect = w := by
  rw [View.readCov_eq_canon_ld _ _ _ (fun y => ⟨_, List.mem_cons_self .., View.mem_set_unit_zero hz2 inb_S256x3200_S256x3200_0_0 y⟩),
    View.canon_cons_unit_zero (S := S256x3200) hz2, View.ld_unit_zero (S := S256x3200) hz2]

set_option maxHeartbeats 1000000 in
noncomputable def run0 (c : Dev nD) (i : grid0.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1024 .bf16) (harg5 : arg5.IsWhole) (arg6 : Memref sig .tc .vmem S256x1024 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (hc1 : cond0_1 i) (hc2 : k0_cond2 i = 1#1)
    (x2 x3 : Vec F S1x3200 .i32) (x4 : Vec F S4x3200 .f32) (x5 x6 : Vec F S256x1024 .bf16) :
    Σ' (L7 : List (View.Piece (Elt F) S256x3200 .f32)) (L8 : List (View.Piece (Elt F) S256x3200 .f32)),
    { L9 : List (View.Piece (Elt F) S256x3200 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨?_, ?_, ?_, fun E K => ?run⟩
  case run =>
    simp only [cc0_kernel_eq_skeleton]; unfold cc0_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

variable (c : Dev nD) (i : grid0.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1024 .bf16) (harg5 : arg5.IsWhole) (arg6 : Memref sig .tc .vmem S256x1024 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (hc1 : cond0_1 i) (hc2 : k0_cond2 i = 1#1)
    (x2 x3 : Vec F S1x3200 .i32) (x4 : Vec F S4x3200 .f32) (x5 x6 : Vec F S256x1024 .bf16)

theorem read8_0 (f : arg8.view.ty.Contents (Elt F)) :
    arg8.view.read (Elt F) (arg8.view.writes (Elt F) f (run0 c i arg2 harg2 arg3 harg3 arg4 harg4 arg5 harg5 arg6 harg6 arg7 harg7 arg8 harg8 arg9 harg9 hc1 hc2 x2 x3 x4 x5 x6).2.1)
      = accA0 i x2 x5 x6 := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rfl

theorem read9_0 (f : arg9.view.ty.Contents (Elt F)) :
    arg9.view.read (Elt F) (arg9.view.writes (Elt F) f (run0 c i arg2 harg2 arg3 harg3 arg4 harg4 arg5 harg5 arg6 harg6 arg7 harg7 arg8 harg8 arg9 harg9 hc1 hc2 x2 x3 x4 x5 x6).2.2.1)
      = accB0 i x3 x5 x6 := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rfl

theorem read7_0 (f : arg7.view.ty.Contents (Elt F)) :
    arg7.view.read (Elt F) (arg7.view.writes (Elt F) f (run0 c i arg2 harg2 arg3 harg3 arg4 harg4 arg5 harg5 arg6 harg6 arg7 harg7 arg8 harg8 arg9 harg9 hc1 hc2 x2 x3 x4 x5 x6).1)
      = outv0 x4 (accA0 i x2 x5 x6) (accB0 i x3 x5 x6) := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rw [readCov_cons_whole, readCov_cons_whole]
  rfl

include hc1 hc2 in
theorem sound_kernel0 (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (outv0 x4 (accA0 i x2 x5 x6) (accB0 i x3 x5 x6))
            ∗ owns (c : Thread nD τ) arg8 fullShare (accA0 i x2 x5 x6) ∗ owns (c : Thread nD τ) arg9 fullShare (accB0 i x3 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  iintro ⟨H2, H3, H4, H5, H6, H7, H8, H9, Hk⟩
  iapply ((run0 c i arg2 harg2 arg3 harg3 arg4 harg4 arg5 harg5 arg6 harg6 arg7 harg7 arg8 harg8 arg9 harg9 hc1 hc2 x2 x3 x4 x5 x6).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%f7, H7⟩, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_0 c i arg2 harg2 arg3 harg3 arg4 harg4 arg5 harg5 arg6 harg6 arg7 harg7 arg8 harg8 arg9 harg9 hc1 hc2 x2 x3 x4 x5 x6 f7
  isplitl [H8]
  · unfold owns; iexists _; isplitr
    swap; · iexact H8
    ipureintro; exact read8_0 c i arg2 harg2 arg3 harg3 arg4 harg4 arg5 harg5 arg6 harg6 arg7 harg7 arg8 harg8 arg9 harg9 hc1 hc2 x2 x3 x4 x5 x6 f8
  unfold owns; iexists _; isplitr
  swap; · iexact H9
  ipureintro; exact read9_0 c i arg2 harg2 arg3 harg3 arg4 harg4 arg5 harg5 arg6 harg6 arg7 harg7 arg8 harg8 arg9 harg9 hc1 hc2 x2 x3 x4 x5 x6 f9

end Cert.Kernel.Hand

end
-- ==== Proof.K.Dat0.lean ====
import proofs.«413321_j24653112279275_3_alg».proof.Proof.K.Body0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3200 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x3200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3200 .f32 := win0_5.stage (cfg0.slots t 5)
abbrev hs0_5 (t : Fin cfg0.N) : (ms0_5 t).IsWhole := hstage0_5 ((cfg0.slots t 5).cast nbuf0_5)
abbrev sc0_0 : Memref sig .tc .vmem S256x3200 .f32 := Memref.whole cc0_scratch0
abbrev sc0_1 : Memref sig .tc .vmem S256x3200 .f32 := Memref.whole cc0_scratch1

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

def outAt0 (c : Dev nD) (t : Fin cfg0.N) : Vec F S256x3200 .f32 :=
  outv0 (iblk0 V c 2 t) (accA0 (grid0.coords t) (iblk0 V c 0 t) (iblk0 V c 3 t) (iblk0 V c 4 t))
    (accB0 (grid0.coords t) (iblk0 V c 1 t) (iblk0 V c 3 t) (iblk0 V c 4 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA; rw [scopedRest0_split]; simp only [sc0_0, sc0_1, owns_whole]; try rfl

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl, PhiA0_eq]
  iintro ⟨⟨⟨⟨HSa, HSb⟩, Hrest⟩, Hg⟩, Ho, ⟨%d0, H0⟩, ⟨%d1, H1⟩, ⟨%d2, H2⟩, ⟨%d3, H3⟩, ⟨%d4, H4⟩, ⟨%d5, H5⟩⟩
  iapply (sound_kernel0 c (grid0.coords t) _ _ _ _ _ _ _ _ _ _ _ _ _ _ _ _ (hcond0_1 t) (hcond0_2 t)
    (iblk0 V c 0 t) (iblk0 V c 1 t) (iblk0 V c 2 t) (iblk0 V c 3 t) (iblk0 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HSa]; · iexact HSa
  isplitl [HSb]; · iexact HSb
  iintro ⟨H0, H1, H2, H3, H4, H5, HSa, HSb⟩
  isplitl [HSa HSb Hrest Hg]
  · isplitl [HSa HSb Hrest]
    · isplitl [HSa HSb]
      · isplitl [HSa]; · iexists _; iexact HSa
        iexists _; iexact HSb
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Body1.lean ====
import proofs.«413321_j24653112279275_3_alg».proof.Proof.Gen.Kernel.Launch
import proofs.«413321_j24653112279275_3_alg».proof.Proof.Gen.Kernel.Skeleton
import proofs.«413321_j24653112279275_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_1 (i : grid1.Coords) : Prop :=
  (Scalar.cmpi .ne (Scalar.extui (Scalar.cmpi .eq (BitVec.ofNat 32 (i 1).val) 0#32)) 0#32) = 1#1

theorem hcond1_1 : ∀ t : Fin cfg1.N, cond1_1 (grid1.coords t) ↔ t.val % 50 = 0 :=
  (by decide +kernel : ∀ t : Fin grid1.N, cond1_1 (grid1.coords t) ↔ t.val % 50 = 0)

theorem hcond1_2 : ∀ t : Fin cfg1.N, k1_cond2 (grid1.coords t) = 1#1 ↔ t.val % 50 = 49 :=
  (by decide +kernel : ∀ t : Fin grid1.N, k1_cond2 (grid1.coords t) = 1#1 ↔ t.val % 50 = 49)

theorem hz2_1 : (![0, 0] : Fin 2 → ℕ) = fun _ => 0 := by funext a; fin_cases a <;> rfl

def zeroA1 : Vec F S256x3200 .f32 := k1_pay3 (F := F)

def zeroB1 : Vec F S256x3200 .f32 := k1_pay4 (F := F)

def accA1 (i : grid1.Coords) (ia : Vec F S1x3200 .i32) (xh xl : Vec F S256x1280 .bf16) (a : Vec F S256x3200 .f32) :
    Vec F S256x3200 .f32 :=
  k1_pay7 i ia xh xl a

def accB1 (i : grid1.Coords) (ib : Vec F S1x3200 .i32) (xh xl : Vec F S256x1280 .bf16) (b : Vec F S256x3200 .f32) :
    Vec F S256x3200 .f32 :=
  k1_pay1 (k1_pay6 i ib xh xl) b

def outv1 (cb : Vec F S4x3200 .f32) (a b : Vec F S256x3200 .f32) : Vec F S256x3200 .f32 :=
  k1_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

variable (c : Dev nD) (i : grid1.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

set_option maxHeartbeats 1000000 in
noncomputable def run1_A (hc1 : cond1_1 i) (hc2 : ¬ k1_cond2 i = 1#1) :
    Σ' (L8 : List (View.Piece (Elt F) S256x3200 .f32)),
    { L9 : List (View.Piece (Elt F) S256x3200 .f32) //
      ∀ (d7 : Vec F S256x3200 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, fun d7 E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact hf7
      iexact H7
    isplitl [H8]; · iexists _; iexact H8
    iexists _; iexact H9

theorem read8_A (hc1 : cond1_1 i) (hc2 : ¬ k1_cond2 i = 1#1) (f : arg8.view.ty.Contents (Elt F)) :
    arg8.view.read (Elt F) (arg8.view.writes (Elt F) f (run1_A c i arg2 harg2 arg3 harg3 arg4 harg4 arg5 harg5 arg6 harg6 arg7 harg7 arg8 harg8 arg9 harg9 x2 x3 x4 x5 x6 hc1 hc2).1)
      = accA1 i x2 x5 x6 zeroA1 := by
  unfold run1_A; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_A (hc1 : cond1_1 i) (hc2 : ¬ k1_cond2 i = 1#1) (f : arg9.view.ty.Contents (Elt F)) :
    arg9.view.read (Elt F) (arg9.view.writes (Elt F) f (run1_A c i arg2 harg2 arg3 harg3 arg4 harg4 arg5 harg5 arg6 harg6 arg7 harg7 arg8 harg8 arg9 harg9 x2 x3 x4 x5 x6 hc1 hc2).2.1)
      = accB1 i x3 x5 x6 zeroB1 := by
  unfold run1_A; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_A (hc1 : cond1_1 i) (hc2 : ¬ k1_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA1 i x2 x5 x6 zeroA1) ∗ owns (c : Thread nD τ) arg9 fullShare (accB1 i x3 x5 x6 zeroB1)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_A c i arg2 harg2 arg3 harg3 arg4 harg4 arg5 harg5 arg6 harg6 arg7 harg7 arg8 harg8 arg9 harg9 x2 x3 x4 x5 x6 hc1 hc2).2.2 d7 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · iexact H7
  isplitl [H8]
  · unfold owns; iexists _; isplitr
    swap; · iexact H8
    ipureintro; exact read8_A c i arg2 harg2 arg3 harg3 arg4 harg4 arg5 harg5 arg6 harg6 arg7 harg7 arg8 harg8 arg9 harg9 x2 x3 x4 x5 x6 hc1 hc2 f8
  unfold owns; iexists _; isplitr
  swap; · iexact H9
  ipureintro; exact read9_A c i arg2 harg2 arg3 harg3 arg4 harg4 arg5 harg5 arg6 harg6 arg7 harg7 arg8 harg8 arg9 harg9 x2 x3 x4 x5 x6 hc1 hc2 f9

set_option maxHeartbeats 1000000 in
noncomputable def run1_B (hc1 : ¬ cond1_1 i) (hc2 : ¬ k1_cond2 i = 1#1) (a b : Vec F S256x3200 .f32) :
    Σ' (L8 : List (View.Piece (Elt F) S256x3200 .f32)),
    { L9 : List (View.Piece (Elt F) S256x3200 .f32) //
      ∀ (d7 : Vec F S256x3200 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, fun d7 E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact hf7
      iexact H7
    isplitl [H8]; · iexists _; iexact H8
    iexists _; iexact H9

theorem read8_B (hc1 : ¬ cond1_1 i) (hc2 : ¬ k1_cond2 i = 1#1) (a b : Vec F S256x3200 .f32) (f : arg8.view.ty.Contents (Elt F)) :
    arg8.view.read (Elt F) (arg8.view.writes (Elt F) f (run1_B c i arg2 harg2 arg3 harg3 arg4 harg4 arg5 harg5 arg6 harg6 arg7 harg7 arg8 harg8 arg9 harg9 x2 x3 x4 x5 x6 hc1 hc2 a b).1)
      = accA1 i x2 x5 x6 a := by
  unfold run1_B; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_B (hc1 : ¬ cond1_1 i) (hc2 : ¬ k1_cond2 i = 1#1) (a b : Vec F S256x3200 .f32) (f : arg9.view.ty.Contents (Elt F)) :
    arg9.view.read (Elt F) (arg9.view.writes (Elt F) f (run1_B c i arg2 harg2 arg3 harg3 arg4 harg4 arg5 harg5 arg6 harg6 arg7 harg7 arg8 harg8 arg9 harg9 x2 x3 x4 x5 x6 hc1 hc2 a b).2.1)
      = accB1 i x3 x5 x6 b := by
  unfold run1_B; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_B (hc1 : ¬ cond1_1 i) (hc2 : ¬ k1_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA1 i x2 x5 x6 a) ∗ owns (c : Thread nD τ) arg9 fullShare (accB1 i x3 x5 x6 b)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_B c i arg2 harg2 arg3 harg3 arg4 harg4 arg5 harg5 arg6 harg6 arg7 harg7 arg8 harg8 arg9 harg9 x2 x3 x4 x5 x6 hc1 hc2 a b).2.2 d7 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · iexact H7
  isplitl [H8]
  · unfold owns; iexists _; isplitr
    swap; · iexact H8
    ipureintro; exact read8_B c i arg2 harg2 arg3 harg3 arg4 harg4 arg5 harg5 arg6 harg6 arg7 harg7 arg8 harg8 arg9 harg9 x2 x3 x4 x5 x6 hc1 hc2 a b f8
  unfold owns; iexists _; isplitr
  swap; · iexact H9
  ipureintro; exact read9_B c i arg2 harg2 arg3 harg3 arg4 harg4 arg5 harg5 arg6 harg6 arg7 harg7 arg8 harg8 arg9 harg9 x2 x3 x4 x5 x6 hc1 hc2 a b f9

set_option maxHeartbeats 1000000 in
noncomputable def run1_C (hc1 : ¬ cond1_1 i) (hc2 : k1_cond2 i = 1#1) (a b : Vec F S256x3200 .f32) :
    Σ' (L7 : List (View.Piece (Elt F) S256x3200 .f32)),
    Σ' (L8 : List (View.Piece (Elt F) S256x3200 .f32)),
    { L9 : List (View.Piece (Elt F) S256x3200 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, ?_, fun E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

theorem read8_C (hc1 : ¬ cond1_1 i) (hc2 : k1_cond2 i = 1#1) (a b : Vec F S256x3200 .f32) (f : arg8.view.ty.Contents (Elt F)) :
    arg8.view.read (Elt F) (arg8.view.writes (Elt F) f (run1_C c i arg2 harg2 arg3 harg3 arg4 harg4 arg5 harg5 arg6 harg6 arg7 harg7 arg8 harg8 arg9 harg9 x2 x3 x4 x5 x6 hc1 hc2 a b).2.1)
      = accA1 i x2 x5 x6 a := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_C (hc1 : ¬ cond1_1 i) (hc2 : k1_cond2 i = 1#1) (a b : Vec F S256x3200 .f32) (f : arg9.view.ty.Contents (Elt F)) :
    arg9.view.read (Elt F) (arg9.view.writes (Elt F) f (run1_C c i arg2 harg2 arg3 harg3 arg4 harg4 arg5 harg5 arg6 harg6 arg7 harg7 arg8 harg8 arg9 harg9 x2 x3 x4 x5 x6 hc1 hc2 a b).2.2.1)
      = accB1 i x3 x5 x6 b := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read7_C (hc1 : ¬ cond1_1 i) (hc2 : k1_cond2 i = 1#1) (a b : Vec F S256x3200 .f32) (f : arg7.view.ty.Contents (Elt F)) :
    arg7.view.read (Elt F) (arg7.view.writes (Elt F) f (run1_C c i arg2 harg2 arg3 harg3 arg4 harg4 arg5 harg5 arg6 harg6 arg7 harg7 arg8 harg8 arg9 harg9 x2 x3 x4 x5 x6 hc1 hc2 a b).1)
      = outv1 x4 (accA1 i x2 x5 x6 a) (accB1 i x3 x5 x6 b) := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_C (hc1 : ¬ cond1_1 i) (hc2 : k1_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv1 x4 (accA1 i x2 x5 x6 a) (accB1 i x3 x5 x6 b)) ∗ owns (c : Thread nD τ) arg8 fullShare (accA1 i x2 x5 x6 a) ∗ owns (c : Thread nD τ) arg9 fullShare (accB1 i x3 x5 x6 b)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_C c i arg2 harg2 arg3 harg3 arg4 harg4 arg5 harg5 arg6 harg6 arg7 harg7 arg8 harg8 arg9 harg9 x2 x3 x4 x5 x6 hc1 hc2 a b).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%f7, H7⟩, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_C c i arg2 harg2 arg3 harg3 arg4 harg4 arg5 harg5 arg6 harg6 arg7 harg7 arg8 harg8 arg9 harg9 x2 x3 x4 x5 x6 hc1 hc2 a b f7
  isplitl [H8]
  · unfold owns; iexists _; isplitr
    swap; · iexact H8
    ipureintro; exact read8_C c i arg2 harg2 arg3 harg3 arg4 harg4 arg5 harg5 arg6 harg6 arg7 harg7 arg8 harg8 arg9 harg9 x2 x3 x4 x5 x6 hc1 hc2 a b f8
  unfold owns; iexists _; isplitr
  swap; · iexact H9
  ipureintro; exact read9_C c i arg2 harg2 arg3 harg3 arg4 harg4 arg5 harg5 arg6 harg6 arg7 harg7 arg8 harg8 arg9 harg9 x2 x3 x4 x5 x6 hc1 hc2 a b f9

end Cert.Kernel.Hand

end
-- ==== Proof.K.Dat1.lean ====
import proofs.«413321_j24653112279275_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S256x3200 .f32 × Vec F S256x3200 .f32
  | 0, hn =>
    (accA1 (grid1.coords ⟨0, hn⟩) (iblk1 V c 0 ⟨0, hn⟩) (iblk1 V c 3 ⟨0, hn⟩) (iblk1 V c 4 ⟨0, hn⟩) zeroA1,
     accB1 (grid1.coords ⟨0, hn⟩) (iblk1 V c 1 ⟨0, hn⟩) (iblk1 V c 3 ⟨0, hn⟩) (iblk1 V c 4 ⟨0, hn⟩) zeroB1)
  | n + 1, hn =>
    if h : (n + 1) % 50 = 0 then
      (accA1 (grid1.coords ⟨n + 1, hn⟩) (iblk1 V c 0 ⟨n + 1, hn⟩) (iblk1 V c 3 ⟨n + 1, hn⟩) (iblk1 V c 4 ⟨n + 1, hn⟩) zeroA1,
       accB1 (grid1.coords ⟨n + 1, hn⟩) (iblk1 V c 1 ⟨n + 1, hn⟩) (iblk1 V c 3 ⟨n + 1, hn⟩) (iblk1 V c 4 ⟨n + 1, hn⟩) zeroB1)
    else
      (accA1 (grid1.coords ⟨n + 1, hn⟩) (iblk1 V c 0 ⟨n + 1, hn⟩) (iblk1 V c 3 ⟨n + 1, hn⟩) (iblk1 V c 4 ⟨n + 1, hn⟩) (accAt1 c n (Nat.lt_of_succ_lt hn)).1,
       accB1 (grid1.coords ⟨n + 1, hn⟩) (iblk1 V c 1 ⟨n + 1, hn⟩) (iblk1 V c 3 ⟨n + 1, hn⟩) (iblk1 V c 4 ⟨n + 1, hn⟩) (accAt1 c n (Nat.lt_of_succ_lt hn)).2)

theorem accAt1_reset (c : Dev nD) (t : Fin cfg1.N) (h : t.val % 50 = 0) :
    accAt1 V c t.val t.isLt =
      (accA1 (grid1.coords t) (iblk1 V c 0 t) (iblk1 V c 3 t) (iblk1 V c 4 t) zeroA1,
       accB1 (grid1.coords t) (iblk1 V c 1 t) (iblk1 V c 3 t) (iblk1 V c 4 t) zeroB1) := by
  obtain ⟨n, hn⟩ := t
  cases n with
  | zero => exact rfl
  | succ n => exact (dif_pos h).trans rfl

theorem accAt1_step (c : Dev nD) (t : Fin cfg1.N) (h : ¬ t.val % 50 = 0) :
    accAt1 V c t.val t.isLt =
      (accA1 (grid1.coords t) (iblk1 V c 0 t) (iblk1 V c 3 t) (iblk1 V c 4 t) (accAt1 V c (t.val - 1) (Nat.lt_of_le_of_lt (Nat.sub_le _ _) t.isLt)).1,
       accB1 (grid1.coords t) (iblk1 V c 1 t) (iblk1 V c 3 t) (iblk1 V c 4 t) (accAt1 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt1 (c : Dev nD) (t : Fin cfg1.N) : Vec F S256x3200 .f32 :=
  outv1 (iblk1 V c 2 t) (accAt1 V c t.val t.isLt).1 (accAt1 V c t.val t.isLt).2

abbrev scA1 : Memref sig .tc .vmem S256x3200 .f32 := Memref.whole cc1_scratch0
abbrev scB1 : Memref sig .tc .vmem S256x3200 .f32 := Memref.whole cc1_scratch1

def PhiS1 (c : Dev nD) : (n : ℕ) → n ≤ cfg1.N → sProp 𝕄
  | 0, _ => Pipeline.ΦA spec1 c
  | n + 1, hn => iprop(iprop(iprop(owns (c : Thread nD τ) scA1 fullShare (accAt1 V c n hn).1 ∗ owns (c : Thread nD τ) scB1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scA1 fullShare (accAt1 V c n hn).1 ∗ owns (c : Thread nD τ) scB1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scA1 fullShare (accAt1 V c (n - 1) (by omega)).1 ∗ owns (c : Thread nD τ) scB1 fullShare (accAt1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

theorem PhiA1_eq (c : Dev nD) :
    (Pipeline.ΦA spec1 c : sProp 𝕄)
      = iprop(iprop(iprop((∃ d, owns (c : Thread nD τ) scA1 fullShare d) ∗ (∃ d, owns (c : Thread nD τ) scB1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scA1, scB1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

theorem idleAt1_5 (t : Fin cfg1.N) (h : ¬ k1_cond2 (grid1.coords t) = 1#1) : cfg1.idle 5 (grid1.coords t) = true := by
  show (!(k1_cond2 (grid1.coords t) == 1#1)) = true
  simp only [Bool.not_eq_true', beq_eq_false_iff_ne, ne_eq]; exact h

theorem noFlush1_5 (t : Fin cfg1.N) (h : ¬ k1_cond2 (grid1.coords t) = 1#1) : (cfg1.win 5).flush t = false :=
  Bool.eq_false_iff.mpr fun hf => h ((hcond1_2 t).mpr ((flush1_5 t).mp hf))

theorem liveAt1_5 (t : Fin cfg1.N) (h : k1_cond2 (grid1.coords t) = 1#1) : cfg1.idle 5 (grid1.coords t) = false := by
  show (!(k1_cond2 (grid1.coords t) == 1#1)) = false
  rw [h]; rfl

abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3200 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x3200 .f32 := win1_5.stage (cfg1.slots t 5)
abbrev hs1_5 (t : Fin cfg1.N) : (ms1_5 t).IsWhole := hstage1_5 ((cfg1.slots t 5).cast nbuf1_5)

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi1_toA (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
    try exact Idealize.SL.BI.Entails.refl _
  · exact Phi1_out V c t ht

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 1000 := lt_of_lt_of_eq t.isLt (show cfg1.N = 1000 from N_1)
  by_cases h0 : t.val % 50 = 0
  · have h1 : ¬ t.val % 50 = 49 := by omega
    have hc1 : cond1_1 (grid1.coords t) := (hcond1_1 t).mpr h0
    have hc2 : ¬ k1_cond2 (grid1.coords t) = 1#1 := fun h => h1 ((hcond1_2 t).mp h)
    rw [Dat.leavesExact_idle (dat1 V c) 5 t (idleAt1_5 t hc2) (noFlush1_5 t hc2)]
    rw [accAt1_reset V c t h0]
    refine (sep_mono_left (Phi1_toA V c t.castSucc)).trans ?_
    rw [PhiA1_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel1_A (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (d7 := (dat1 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond1_1 (grid1.coords t) := fun h => h0 ((hcond1_1 t).mp h)
    rw [accAt1_step V c t h0]
    rw [Phi1_castSucc V c t, PhiS1_pos V c _ _ hz]
    by_cases h1 : t.val % 50 = 49
    · have hc2 : k1_cond2 (grid1.coords t) = 1#1 := (hcond1_2 t).mpr h1
      rw [show (dat1 V c).leavesExact 5 t = owns (c : Thread nD τ) (ms1_5 t) fullShare ((dat1 V c).after 5 t) from by
        unfold Dat.leavesExact; rw [liveAt1_5 t hc2], after1_5]
      unfold outAt1
      rw [accAt1_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel1_C (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (a := (accAt1 V c (t.val - 1) (Nat.lt_of_le_of_lt (Nat.sub_le _ _) t.isLt)).1) (b := (accAt1 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k1_cond2 (grid1.coords t) = 1#1 := fun h => h1 ((hcond1_2 t).mp h)
      rw [Dat.leavesExact_idle (dat1 V c) 5 t (idleAt1_5 t hc2) (noFlush1_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel1_B (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (d7 := (dat1 V c).before 5 t d5) (a := (accAt1 V c (t.val - 1) (Nat.lt_of_le_of_lt (Nat.sub_le _ _) t.isLt)).1) (b := (accAt1 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi1_toA V c _

end

end Cert.Kernel.Hand

end
-- ==== Proof.K.Body2.lean ====
import proofs.«413321_j24653112279275_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_1 (i : grid2.Coords) : Prop :=
  (Scalar.cmpi .ne (Scalar.extui (Scalar.cmpi .eq (BitVec.ofNat 32 (i 1).val) 0#32)) 0#32) = 1#1

theorem hcond2_1 : ∀ t : Fin cfg2.N, cond2_1 (grid2.coords t) ↔ t.val % 50 = 0 :=
  (by decide +kernel : ∀ t : Fin grid2.N, cond2_1 (grid2.coords t) ↔ t.val % 50 = 0)

theorem hcond2_2 : ∀ t : Fin cfg2.N, k2_cond2 (grid2.coords t) = 1#1 ↔ t.val % 50 = 49 :=
  (by decide +kernel : ∀ t : Fin grid2.N, k2_cond2 (grid2.coords t) = 1#1 ↔ t.val % 50 = 49)

def zeroA2 : Vec F S256x3200 .f32 := k2_pay3 (F := F)

def zeroB2 : Vec F S256x3200 .f32 := k2_pay4 (F := F)

def accA2 (i : grid2.Coords) (ia : Vec F S1x3200 .i32) (xh xl : Vec F S256x1280 .bf16) (a : Vec F S256x3200 .f32) :
    Vec F S256x3200 .f32 :=
  k2_pay7 i ia xh xl a

def accB2 (i : grid2.Coords) (ib : Vec F S1x3200 .i32) (xh xl : Vec F S256x1280 .bf16) (b : Vec F S256x3200 .f32) :
    Vec F S256x3200 .f32 :=
  k2_pay1 (k2_pay6 i ib xh xl) b

def outv2 (cb : Vec F S4x3200 .f32) (a b : Vec F S256x3200 .f32) : Vec F S256x3200 .f32 :=
  k2_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

section

variable (c : Dev nD) (i : grid2.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

-- Region 2 runs the body of region 1 on a grid of the same extents, so each of its three triples is region 1's.
theorem sound_kernel2_A (hc1 : cond2_1 i) (hc2 : ¬ k2_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA2 i x2 x5 x6 zeroA2) ∗ owns (c : Thread nD τ) arg9 fullShare (accB2 i x3 x5 x6 zeroB2)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_A c i arg2 harg2 arg3 harg3 arg4 harg4 arg5 harg5 arg6 harg6 arg7 harg7 arg8 harg8 arg9 harg9 x2 x3 x4 x5 x6 hc1 hc2 d7 E K

theorem sound_kernel2_B (hc1 : ¬ cond2_1 i) (hc2 : ¬ k2_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA2 i x2 x5 x6 a) ∗ owns (c : Thread nD τ) arg9 fullShare (accB2 i x3 x5 x6 b)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_B c i arg2 harg2 arg3 harg3 arg4 harg4 arg5 harg5 arg6 harg6 arg7 harg7 arg8 harg8 arg9 harg9 x2 x3 x4 x5 x6 hc1 hc2 d7 a b E K

theorem sound_kernel2_C (hc1 : ¬ cond2_1 i) (hc2 : k2_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv2 x4 (accA2 i x2 x5 x6 a) (accB2 i x3 x5 x6 b)) ∗ owns (c : Thread nD τ) arg8 fullShare (accA2 i x2 x5 x6 a) ∗ owns (c : Thread nD τ) arg9 fullShare (accB2 i x3 x5 x6 b)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_C c i arg2 harg2 arg3 harg3 arg4 harg4 arg5 harg5 arg6 harg6 arg7 harg7 arg8 harg8 arg9 harg9 x2 x3 x4 x5 x6 hc1 hc2 a b E K

end

end Cert.Kernel.Hand

end
-- ==== Proof.K.Dat2.lean ====
import proofs.«413321_j24653112279275_3_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S256x3200 .f32 × Vec F S256x3200 .f32
  | 0, hn =>
    (accA2 (grid2.coords ⟨0, hn⟩) (iblk2 V c 0 ⟨0, hn⟩) (iblk2 V c 3 ⟨0, hn⟩) (iblk2 V c 4 ⟨0, hn⟩) zeroA2,
     accB2 (grid2.coords ⟨0, hn⟩) (iblk2 V c 1 ⟨0, hn⟩) (iblk2 V c 3 ⟨0, hn⟩) (iblk2 V c 4 ⟨0, hn⟩) zeroB2)
  | n + 1, hn =>
    if h : (n + 1) % 50 = 0 then
      (accA2 (grid2.coords ⟨n + 1, hn⟩) (iblk2 V c 0 ⟨n + 1, hn⟩) (iblk2 V c 3 ⟨n + 1, hn⟩) (iblk2 V c 4 ⟨n + 1, hn⟩) zeroA2,
       accB2 (grid2.coords ⟨n + 1, hn⟩) (iblk2 V c 1 ⟨n + 1, hn⟩) (iblk2 V c 3 ⟨n + 1, hn⟩) (iblk2 V c 4 ⟨n + 1, hn⟩) zeroB2)
    else
      (accA2 (grid2.coords ⟨n + 1, hn⟩) (iblk2 V c 0 ⟨n + 1, hn⟩) (iblk2 V c 3 ⟨n + 1, hn⟩) (iblk2 V c 4 ⟨n + 1, hn⟩) (accAt2 c n (Nat.lt_of_succ_lt hn)).1,
       accB2 (grid2.coords ⟨n + 1, hn⟩) (iblk2 V c 1 ⟨n + 1, hn⟩) (iblk2 V c 3 ⟨n + 1, hn⟩) (iblk2 V c 4 ⟨n + 1, hn⟩) (accAt2 c n (Nat.lt_of_succ_lt hn)).2)

theorem accAt2_reset (c : Dev nD) (t : Fin cfg2.N) (h : t.val % 50 = 0) :
    accAt2 V c t.val t.isLt =
      (accA2 (grid2.coords t) (iblk2 V c 0 t) (iblk2 V c 3 t) (iblk2 V c 4 t) zeroA2,
       accB2 (grid2.coords t) (iblk2 V c 1 t) (iblk2 V c 3 t) (iblk2 V c 4 t) zeroB2) := by
  obtain ⟨n, hn⟩ := t
  cases n with
  | zero => exact rfl
  | succ n => exact (dif_pos h).trans rfl

theorem accAt2_step (c : Dev nD) (t : Fin cfg2.N) (h : ¬ t.val % 50 = 0) :
    accAt2 V c t.val t.isLt =
      (accA2 (grid2.coords t) (iblk2 V c 0 t) (iblk2 V c 3 t) (iblk2 V c 4 t) (accAt2 V c (t.val - 1) (Nat.lt_of_le_of_lt (Nat.sub_le _ _) t.isLt)).1,
       accB2 (grid2.coords t) (iblk2 V c 1 t) (iblk2 V c 3 t) (iblk2 V c 4 t) (accAt2 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt2 (c : Dev nD) (t : Fin cfg2.N) : Vec F S256x3200 .f32 :=
  outv2 (iblk2 V c 2 t) (accAt2 V c t.val t.isLt).1 (accAt2 V c t.val t.isLt).2

abbrev scA2 : Memref sig .tc .vmem S256x3200 .f32 := Memref.whole cc2_scratch0
abbrev scB2 : Memref sig .tc .vmem S256x3200 .f32 := Memref.whole cc2_scratch1

def PhiS2 (c : Dev nD) : (n : ℕ) → n ≤ cfg2.N → sProp 𝕄
  | 0, _ => Pipeline.ΦA spec2 c
  | n + 1, hn => iprop(iprop(iprop(owns (c : Thread nD τ) scA2 fullShare (accAt2 V c n hn).1 ∗ owns (c : Thread nD τ) scB2 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scA2 fullShare (accAt2 V c n hn).1 ∗ owns (c : Thread nD τ) scB2 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scA2 fullShare (accAt2 V c (n - 1) (by omega)).1 ∗ owns (c : Thread nD τ) scB2 fullShare (accAt2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scA2, scB2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2 V c 0]; try rfl) t d).trans
    (by unfold Dat.fetched Dat.blockOf iblk2; rw [A_eq2 V c 0]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2 V c 1]; try rfl) t d).trans
    (by unfold Dat.fetched Dat.blockOf iblk2; rw [A_eq2 V c 1]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2 V c 2]; try rfl) t d).trans
    (by unfold Dat.fetched Dat.blockOf iblk2; rw [A_eq2 V c 2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2 V c 3]; try rfl) t d).trans
    (by unfold Dat.fetched Dat.blockOf iblk2; rw [A_eq2 V c 3]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2 V c 4]; try rfl) t d).trans
    (by unfold Dat.fetched Dat.blockOf iblk2; rw [A_eq2 V c 4]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

theorem idleAt2_5 (t : Fin cfg2.N) (h : ¬ k2_cond2 (grid2.coords t) = 1#1) : cfg2.idle 5 (grid2.coords t) = true := by
  show (!(k2_cond2 (grid2.coords t) == 1#1)) = true
  simp only [Bool.not_eq_true', beq_eq_false_iff_ne, ne_eq]; exact h

theorem noFlush2_5 (t : Fin cfg2.N) (h : ¬ k2_cond2 (grid2.coords t) = 1#1) : (cfg2.win 5).flush t = false :=
  Bool.eq_false_iff.mpr fun hf => h ((hcond2_2 t).mpr ((flush2_5 t).mp hf))

theorem liveAt2_5 (t : Fin cfg2.N) (h : k2_cond2 (grid2.coords t) = 1#1) : cfg2.idle 5 (grid2.coords t) = false := by
  show (!(k2_cond2 (grid2.coords t) == 1#1)) = false
  rw [h]; rfl

abbrev ms2_0 (t : Fin cfg2.N) : Memref sig .tc .vmem S1x3200 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3200 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x3200 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1280 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1280 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x3200 .f32 := win2_5.stage (cfg2.slots t 5)
abbrev hs2_5 (t : Fin cfg2.N) : (ms2_5 t).IsWhole := hstage2_5 ((cfg2.slots t 5).cast nbuf2_5)

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi2_toA (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
    try exact Idealize.SL.BI.Entails.refl _
  · exact Phi2_out V c t ht

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 1000 := lt_of_lt_of_eq t.isLt (show cfg2.N = 1000 from N_2)
  by_cases h0 : t.val % 50 = 0
  · have h1 : ¬ t.val % 50 = 49 := by omega
    have hc1 : cond2_1 (grid2.coords t) := (hcond2_1 t).mpr h0
    have hc2 : ¬ k2_cond2 (grid2.coords t) = 1#1 := fun h => h1 ((hcond2_2 t).mp h)
    rw [Dat.leavesExact_idle (dat2 V c) 5 t (idleAt2_5 t hc2) (noFlush2_5 t hc2)]
    rw [accAt2_reset V c t h0]
    refine (sep_mono_left (Phi2_toA V c t.castSucc)).trans ?_
    rw [PhiA2_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel2_A (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (d7 := (dat2 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond2_1 (grid2.coords t) := fun h => h0 ((hcond2_1 t).mp h)
    rw [accAt2_step V c t h0]
    rw [Phi2_castSucc V c t, PhiS2_pos V c _ _ hz]
    by_cases h1 : t.val % 50 = 49
    · have hc2 : k2_cond2 (grid2.coords t) = 1#1 := (hcond2_2 t).mpr h1
      rw [show (dat2 V c).leavesExact 5 t = owns (c : Thread nD τ) (ms2_5 t) fullShare ((dat2 V c).after 5 t) from by
        unfold Dat.leavesExact; rw [liveAt2_5 t hc2], after2_5]
      unfold outAt2
      rw [accAt2_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel2_C (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (a := (accAt2 V c (t.val - 1) (Nat.lt_of_le_of_lt (Nat.sub_le _ _) t.isLt)).1) (b := (accAt2 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k2_cond2 (grid2.coords t) = 1#1 := fun h => h1 ((hcond2_2 t).mp h)
      rw [Dat.leavesExact_idle (dat2 V c) 5 t (idleAt2_5 t hc2) (noFlush2_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel2_B (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (d7 := (dat2 V c).before 5 t d5) (a := (accAt2 V c (t.val - 1) (Nat.lt_of_le_of_lt (Nat.sub_le _ _) t.isLt)).1) (b := (accAt2 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  Phi2_toA V c _

end

end Cert.Kernel.Hand

end
-- ==== Proof.K.Body3.lean ====
import proofs.«413321_j24653112279275_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_1 (i : grid3.Coords) : Prop :=
  (Scalar.cmpi .ne (Scalar.extui (Scalar.cmpi .eq (BitVec.ofNat 32 (i 1).val) 0#32)) 0#32) = 1#1

theorem hcond3_1 : ∀ t : Fin cfg3.N, cond3_1 (grid3.coords t) ↔ t.val % 50 = 0 :=
  (by decide +kernel : ∀ t : Fin grid3.N, cond3_1 (grid3.coords t) ↔ t.val % 50 = 0)

theorem hcond3_2 : ∀ t : Fin cfg3.N, k3_cond2 (grid3.coords t) = 1#1 ↔ t.val % 50 = 49 :=
  (by decide +kernel : ∀ t : Fin grid3.N, k3_cond2 (grid3.coords t) = 1#1 ↔ t.val % 50 = 49)

def zeroA3 : Vec F S256x3200 .f32 := k3_pay3 (F := F)

def zeroB3 : Vec F S256x3200 .f32 := k3_pay4 (F := F)

def accA3 (i : grid3.Coords) (ia : Vec F S1x3200 .i32) (xh xl : Vec F S256x1280 .bf16) (a : Vec F S256x3200 .f32) :
    Vec F S256x3200 .f32 :=
  k3_pay7 i ia xh xl a

def accB3 (i : grid3.Coords) (ib : Vec F S1x3200 .i32) (xh xl : Vec F S256x1280 .bf16) (b : Vec F S256x3200 .f32) :
    Vec F S256x3200 .f32 :=
  k3_pay1 (k3_pay6 i ib xh xl) b

def outv3 (cb : Vec F S4x3200 .f32) (a b : Vec F S256x3200 .f32) : Vec F S256x3200 .f32 :=
  k3_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

section

variable (c : Dev nD) (i : grid3.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

-- Region 3 runs the body of region 1 on a grid of the same extents, so each of its three triples is region 1's.
theorem sound_kernel3_A (hc1 : cond3_1 i) (hc2 : ¬ k3_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA3 i x2 x5 x6 zeroA3) ∗ owns (c : Thread nD τ) arg9 fullShare (accB3 i x3 x5 x6 zeroB3)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_A c i arg2 harg2 arg3 harg3 arg4 harg4 arg5 harg5 arg6 harg6 arg7 harg7 arg8 harg8 arg9 harg9 x2 x3 x4 x5 x6 hc1 hc2 d7 E K

theorem sound_kernel3_B (hc1 : ¬ cond3_1 i) (hc2 : ¬ k3_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA3 i x2 x5 x6 a) ∗ owns (c : Thread nD τ) arg9 fullShare (accB3 i x3 x5 x6 b)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_B c i arg2 harg2 arg3 harg3 arg4 harg4 arg5 harg5 arg6 harg6 arg7 harg7 arg8 harg8 arg9 harg9 x2 x3 x4 x5 x6 hc1 hc2 d7 a b E K

theorem sound_kernel3_C (hc1 : ¬ cond3_1 i) (hc2 : k3_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv3 x4 (accA3 i x2 x5 x6 a) (accB3 i x3 x5 x6 b)) ∗ owns (c : Thread nD τ) arg8 fullShare (accA3 i x2 x5 x6 a) ∗ owns (c : Thread nD τ) arg9 fullShare (accB3 i x3 x5 x6 b)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_C c i arg2 harg2 arg3 harg3 arg4 harg4 arg5 harg5 arg6 harg6 arg7 harg7 arg8 harg8 arg9 harg9 x2 x3 x4 x5 x6 hc1 hc2 a b E K

end

end Cert.Kernel.Hand

end
-- ==== Proof.K.Dat3.lean ====
import proofs.«413321_j24653112279275_3_alg».proof.Proof.K.Body3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accAt3 (c : Dev nD) : (n : ℕ) → n < cfg3.N → Vec F S256x3200 .f32 × Vec F S256x3200 .f32
  | 0, hn =>
    (accA3 (grid3.coords ⟨0, hn⟩) (iblk3 V c 0 ⟨0, hn⟩) (iblk3 V c 3 ⟨0, hn⟩) (iblk3 V c 4 ⟨0, hn⟩) zeroA3,
     accB3 (grid3.coords ⟨0, hn⟩) (iblk3 V c 1 ⟨0, hn⟩) (iblk3 V c 3 ⟨0, hn⟩) (iblk3 V c 4 ⟨0, hn⟩) zeroB3)
  | n + 1, hn =>
    if h : (n + 1) % 50 = 0 then
      (accA3 (grid3.coords ⟨n + 1, hn⟩) (iblk3 V c 0 ⟨n + 1, hn⟩) (iblk3 V c 3 ⟨n + 1, hn⟩) (iblk3 V c 4 ⟨n + 1, hn⟩) zeroA3,
       accB3 (grid3.coords ⟨n + 1, hn⟩) (iblk3 V c 1 ⟨n + 1, hn⟩) (iblk3 V c 3 ⟨n + 1, hn⟩) (iblk3 V c 4 ⟨n + 1, hn⟩) zeroB3)
    else
      (accA3 (grid3.coords ⟨n + 1, hn⟩) (iblk3 V c 0 ⟨n + 1, hn⟩) (iblk3 V c 3 ⟨n + 1, hn⟩) (iblk3 V c 4 ⟨n + 1, hn⟩) (accAt3 c n (Nat.lt_of_succ_lt hn)).1,
       accB3 (grid3.coords ⟨n + 1, hn⟩) (iblk3 V c 1 ⟨n + 1, hn⟩) (iblk3 V c 3 ⟨n + 1, hn⟩) (iblk3 V c 4 ⟨n + 1, hn⟩) (accAt3 c n (Nat.lt_of_succ_lt hn)).2)

theorem accAt3_reset (c : Dev nD) (t : Fin cfg3.N) (h : t.val % 50 = 0) :
    accAt3 V c t.val t.isLt =
      (accA3 (grid3.coords t) (iblk3 V c 0 t) (iblk3 V c 3 t) (iblk3 V c 4 t) zeroA3,
       accB3 (grid3.coords t) (iblk3 V c 1 t) (iblk3 V c 3 t) (iblk3 V c 4 t) zeroB3) := by
  obtain ⟨n, hn⟩ := t
  cases n with
  | zero => exact rfl
  | succ n => exact (dif_pos h).trans rfl

theorem accAt3_step (c : Dev nD) (t : Fin cfg3.N) (h : ¬ t.val % 50 = 0) :
    accAt3 V c t.val t.isLt =
      (accA3 (grid3.coords t) (iblk3 V c 0 t) (iblk3 V c 3 t) (iblk3 V c 4 t) (accAt3 V c (t.val - 1) (Nat.lt_of_le_of_lt (Nat.sub_le _ _) t.isLt)).1,
       accB3 (grid3.coords t) (iblk3 V c 1 t) (iblk3 V c 3 t) (iblk3 V c 4 t) (accAt3 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt3 (c : Dev nD) (t : Fin cfg3.N) : Vec F S256x3200 .f32 :=
  outv3 (iblk3 V c 2 t) (accAt3 V c t.val t.isLt).1 (accAt3 V c t.val t.isLt).2

abbrev scA3 : Memref sig .tc .vmem S256x3200 .f32 := Memref.whole cc3_scratch0
abbrev scB3 : Memref sig .tc .vmem S256x3200 .f32 := Memref.whole cc3_scratch1

def PhiS3 (c : Dev nD) : (n : ℕ) → n ≤ cfg3.N → sProp 𝕄
  | 0, _ => Pipeline.ΦA spec3 c
  | n + 1, hn => iprop(iprop(iprop(owns (c : Thread nD τ) scA3 fullShare (accAt3 V c n hn).1 ∗ owns (c : Thread nD τ) scB3 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scA3 fullShare (accAt3 V c n hn).1 ∗ owns (c : Thread nD τ) scB3 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scA3 fullShare (accAt3 V c (n - 1) (by omega)).1 ∗ owns (c : Thread nD τ) scB3 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

theorem PhiA3_eq (c : Dev nD) :
    (Pipeline.ΦA spec3 c : sProp 𝕄)
      = iprop(iprop(iprop((∃ d, owns (c : Thread nD τ) scA3 fullShare d) ∗ (∃ d, owns (c : Thread nD τ) scB3 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scA3, scB3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3 V c 0]; try rfl) t d).trans
    (by unfold Dat.fetched Dat.blockOf iblk3; rw [A_eq3 V c 0]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3 V c 1]; try rfl) t d).trans
    (by unfold Dat.fetched Dat.blockOf iblk3; rw [A_eq3 V c 1]; try rfl)

theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3 V c 2]; try rfl) t d).trans
    (by unfold Dat.fetched Dat.blockOf iblk3; rw [A_eq3 V c 2]; try rfl)

theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3 V c 3]; try rfl) t d).trans
    (by unfold Dat.fetched Dat.blockOf iblk3; rw [A_eq3 V c 3]; try rfl)

theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3 V c 4]; try rfl) t d).trans
    (by unfold Dat.fetched Dat.blockOf iblk3; rw [A_eq3 V c 4]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl

theorem idleAt3_5 (t : Fin cfg3.N) (h : ¬ k3_cond2 (grid3.coords t) = 1#1) : cfg3.idle 5 (grid3.coords t) = true := by
  show (!(k3_cond2 (grid3.coords t) == 1#1)) = true
  simp only [Bool.not_eq_true', beq_eq_false_iff_ne, ne_eq]; exact h

theorem noFlush3_5 (t : Fin cfg3.N) (h : ¬ k3_cond2 (grid3.coords t) = 1#1) : (cfg3.win 5).flush t = false :=
  Bool.eq_false_iff.mpr fun hf => h ((hcond3_2 t).mpr ((flush3_5 t).mp hf))

theorem liveAt3_5 (t : Fin cfg3.N) (h : k3_cond2 (grid3.coords t) = 1#1) : cfg3.idle 5 (grid3.coords t) = false := by
  show (!(k3_cond2 (grid3.coords t) == 1#1)) = false
  rw [h]; rfl

abbrev ms3_0 (t : Fin cfg3.N) : Memref sig .tc .vmem S1x3200 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x3200 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x3200 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x1280 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x1280 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x3200 .f32 := win3_5.stage (cfg3.slots t 5)
abbrev hs3_5 (t : Fin cfg3.N) : (ms3_5 t).IsWhole := hstage3_5 ((cfg3.slots t 5).cast nbuf3_5)

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi3_toA (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi3_out V c t ht

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 1000 := lt_of_lt_of_eq t.isLt (show cfg3.N = 1000 from N_3)
  by_cases h0 : t.val % 50 = 0
  · have h1 : ¬ t.val % 50 = 49 := by omega
    have hc1 : cond3_1 (grid3.coords t) := (hcond3_1 t).mpr h0
    have hc2 : ¬ k3_cond2 (grid3.coords t) = 1#1 := fun h => h1 ((hcond3_2 t).mp h)
    rw [Dat.leavesExact_idle (dat3 V c) 5 t (idleAt3_5 t hc2) (noFlush3_5 t hc2)]
    rw [accAt3_reset V c t h0]
    refine (sep_mono_left (Phi3_toA V c t.castSucc)).trans ?_
    rw [PhiA3_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel3_A (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (d7 := (dat3 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond3_1 (grid3.coords t) := fun h => h0 ((hcond3_1 t).mp h)
    rw [accAt3_step V c t h0]
    rw [Phi3_castSucc V c t, PhiS3_pos V c _ _ hz]
    by_cases h1 : t.val % 50 = 49
    · have hc2 : k3_cond2 (grid3.coords t) = 1#1 := (hcond3_2 t).mpr h1
      rw [show (dat3 V c).leavesExact 5 t = owns (c : Thread nD τ) (ms3_5 t) fullShare ((dat3 V c).after 5 t) from by
        unfold Dat.leavesExact; rw [liveAt3_5 t hc2], after3_5]
      unfold outAt3
      rw [accAt3_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel3_C (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (a := (accAt3 V c (t.val - 1) (Nat.lt_of_le_of_lt (Nat.sub_le _ _) t.isLt)).1) (b := (accAt3 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k3_cond2 (grid3.coords t) = 1#1 := fun h => h1 ((hcond3_2 t).mp h)
      rw [Dat.leavesExact_idle (dat3 V c) 5 t (idleAt3_5 t hc2) (noFlush3_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel3_B (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (d7 := (dat3 V c).before 5 t d5) (a := (accAt3 V c (t.val - 1) (Nat.lt_of_le_of_lt (Nat.sub_le _ _) t.isLt)).1) (b := (accAt3 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  Phi3_toA V c _

end

end Cert.Kernel.Hand

end
-- ==== Proof.K.ValueCond.lean ====
import proofs.«413321_j24653112279275_3_alg».proof.Proof.Gen.Kernel.Regions

set_option maxRecDepth 1176

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v83) = V9 m outs c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => s.mem ((c.tc : Thread nD τ).loc main_v83) = V9 m outs c main_v83 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v83) (Finset.mem_filter.mpr ⟨StableHlo.devRef_mem_tcRefs main_v83, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c),
        (h (Proc.devRef .tc main_arg12) (Finset.mem_filter.mpr ⟨StableHlo.devRef_mem_tcRefs main_arg12, by decide⟩)).trans (V9_main_arg12 m outs c)⟩
    · iexact HSI

end Cert.Kernel.Hand

end
-- ==== Proof.K.Reg.lean ====
import proofs.«413321_j24653112279275_3_alg».proof.Proof.K.Dat0
import proofs.«413321_j24653112279275_3_alg».proof.Proof.K.Dat1
import proofs.«413321_j24653112279275_3_alg».proof.Proof.K.Dat2
import proofs.«413321_j24653112279275_3_alg».proof.Proof.K.Dat3
import proofs.«413321_j24653112279275_3_alg».proof.Proof.K.ValueCond
import proofs.«413321_j24653112279275_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev LL : GSem nD τ sig → Finset Unit := fun _ => ∅
abbrev lvv : GSem nD τ sig → Unit → ℕ := fun _ _ => 0
abbrev Rr (c : Dev nD) : sProp 𝕄 := iprop((∃ r, prngReg c r) ∗ ∃ W, owes (c : Thread nD τ) (0 : CellTallies nD τ sig Unit) W)

abbrev En0 (c : Dev nD) (b : Ref sig .tc) : Buf (Elt F) ((c : Thread nD τ).loc b) := V1 m c b
def W2 (c : Dev nD) : Valuation τ sig (Elt F) :=
  Pipeline.withArrays spec0 c (V1 m c) fun w => (dat0 (En0 m) c).arrAt w cfg0.N
def outsA : Outs (F := F) := fun J r c => match J with
  | 2 => W2 m c r
  | _ => m ((c : Thread nD τ).loc r)

abbrev En1 (c : Dev nD) (b : Ref sig .tc) : Buf (Elt F) ((c : Thread nD τ).loc b) := V3 m (outsA m) c b
def W4 (c : Dev nD) : Valuation τ sig (Elt F) :=
  Pipeline.withArrays spec1 c (V3 m (outsA m) c) fun w => (dat1 (En1 m) c).arrAt w cfg1.N
def outsB : Outs (F := F) := fun J r c => match J with
  | 2 => W2 m c r
  | 4 => W4 m c r
  | _ => m ((c : Thread nD τ).loc r)

abbrev En2 (c : Dev nD) (b : Ref sig .tc) : Buf (Elt F) ((c : Thread nD τ).loc b) := V5 m (outsB m) c b
def W6 (c : Dev nD) : Valuation τ sig (Elt F) :=
  Pipeline.withArrays spec2 c (V5 m (outsB m) c) fun w => (dat2 (En2 m) c).arrAt w cfg2.N
def outsC : Outs (F := F) := fun J r c => match J with
  | 2 => W2 m c r
  | 4 => W4 m c r
  | 6 => W6 m c r
  | _ => m ((c : Thread nD τ).loc r)

abbrev En3 (c : Dev nD) (b : Ref sig .tc) : Buf (Elt F) ((c : Thread nD τ).loc b) := V7 m (outsC m) c b
def W8 (c : Dev nD) : Valuation τ sig (Elt F) :=
  Pipeline.withArrays spec3 c (V7 m (outsC m) c) fun w => (dat3 (En3 m) c).arrAt w cfg3.N
def outsD : Outs (F := F) := fun J r c => match J with
  | 2 => W2 m c r
  | 4 => W4 m c r
  | 6 => W6 m c r
  | 8 => W8 m c r
  | _ => m ((c : Thread nD τ).loc r)

def pdats : (p : Fin 4) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c

theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w

theorem V2_out (c : Dev nD) : V2 m (outsA m) c main_v19 = W2 m c main_v19 := by
  simp only [V2, Function.update_self]; rfl

theorem hF0_0 (c : Dev nD) : (pdats m 0 c).arrAt 0 cfg0.N = V2 m (outsA m) c main_v13 :=
  (((pdats m 0 c).arrAt_in 0 rfl _).trans (A_eq0 (En0 m) c 0)).trans (V2_of m (outsA m) c main_v13 (by decide)).symm
theorem hF0_1 (c : Dev nD) : (pdats m 0 c).arrAt 1 cfg0.N = V2 m (outsA m) c main_v14 :=
  (((pdats m 0 c).arrAt_in 1 rfl _).trans (A_eq0 (En0 m) c 1)).trans (V2_of m (outsA m) c main_v14 (by decide)).symm
theorem hF0_2 (c : Dev nD) : (pdats m 0 c).arrAt 2 cfg0.N = V2 m (outsA m) c main_v12 :=
  (((pdats m 0 c).arrAt_in 2 rfl _).trans (A_eq0 (En0 m) c 2)).trans (V2_of m (outsA m) c main_v12 (by decide)).symm
theorem hF0_3 (c : Dev nD) : (pdats m 0 c).arrAt 3 cfg0.N = V2 m (outsA m) c main_v15 :=
  (((pdats m 0 c).arrAt_in 3 rfl _).trans (A_eq0 (En0 m) c 3)).trans (V2_of m (outsA m) c main_v15 (by decide)).symm
theorem hF0_4 (c : Dev nD) : (pdats m 0 c).arrAt 4 cfg0.N = V2 m (outsA m) c main_v18 :=
  (((pdats m 0 c).arrAt_in 4 rfl _).trans (A_eq0 (En0 m) c 4)).trans (V2_of m (outsA m) c main_v18 (by decide)).symm
theorem hF0_5 (c : Dev nD) : (pdats m 0 c).arrAt 5 cfg0.N = V2 m (outsA m) c main_v19 :=
  (W2_arr m c 5).symm.trans (V2_out m c).symm

set_option maxHeartbeats 1000000 in
theorem hF0 (c : Dev nD) (w : Fin cfg0.W) : (pdats m 0 c).arrAt w cfg0.N = V2 m (outsA m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
theorem hrest0 (c : Dev nD) : ∀ b, b ∉ Finset.univ.image (Pipeline.arrRef spec0) → V2 m (outsA m) c b = En0 m c b :=
  fun b hb => V2_of m (outsA m) c b (by
    intro h; exact hb (Finset.mem_image.mpr ⟨5, Finset.mem_univ _, (List.mem_singleton.mp h).symm⟩))

theorem W4_arr (c : Dev nD) (w : Fin cfg1.W) :
    W4 m c (Proc.devRef .tc (Pipeline.arrRef spec1 w)) = (dat1 (En1 m) c).arrAt w cfg1.N := by
  unfold W4; exact Pipeline.withArrays_arr spec1 launch1.win.arr_inj c _ _ w

theorem V4_out (c : Dev nD) : V4 m (outsB m) c main_v39 = W4 m c main_v39 := by
  simp only [V4, Function.update_self]; rfl

theorem hF1_0 (c : Dev nD) : (pdats m 1 c).arrAt 0 cfg1.N = V4 m (outsB m) c main_v33 :=
  (((pdats m 1 c).arrAt_in 0 rfl _).trans (A_eq1 (En1 m) c 0)).trans (V4_of m (outsB m) c main_v33 (by decide)).symm
theorem hF1_1 (c : Dev nD) : (pdats m 1 c).arrAt 1 cfg1.N = V4 m (outsB m) c main_v34 :=
  (((pdats m 1 c).arrAt_in 1 rfl _).trans (A_eq1 (En1 m) c 1)).trans (V4_of m (outsB m) c main_v34 (by decide)).symm
theorem hF1_2 (c : Dev nD) : (pdats m 1 c).arrAt 2 cfg1.N = V4 m (outsB m) c main_v32 :=
  (((pdats m 1 c).arrAt_in 2 rfl _).trans (A_eq1 (En1 m) c 2)).trans (V4_of m (outsB m) c main_v32 (by decide)).symm
theorem hF1_3 (c : Dev nD) : (pdats m 1 c).arrAt 3 cfg1.N = V4 m (outsB m) c main_v35 :=
  (((pdats m 1 c).arrAt_in 3 rfl _).trans (A_eq1 (En1 m) c 3)).trans (V4_of m (outsB m) c main_v35 (by decide)).symm
theorem hF1_4 (c : Dev nD) : (pdats m 1 c).arrAt 4 cfg1.N = V4 m (outsB m) c main_v38 :=
  (((pdats m 1 c).arrAt_in 4 rfl _).trans (A_eq1 (En1 m) c 4)).trans (V4_of m (outsB m) c main_v38 (by decide)).symm
theorem hF1_5 (c : Dev nD) : (pdats m 1 c).arrAt 5 cfg1.N = V4 m (outsB m) c main_v39 :=
  (W4_arr m c 5).symm.trans (V4_out m c).symm

set_option maxHeartbeats 1000000 in
theorem hF1 (c : Dev nD) (w : Fin cfg1.W) : (pdats m 1 c).arrAt w cfg1.N = V4 m (outsB m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → V4 m (outsB m) c b = En1 m c b :=
  fun b hb => V4_of m (outsB m) c b (by
    intro h; exact hb (Finset.mem_image.mpr ⟨5, Finset.mem_univ _, (List.mem_singleton.mp h).symm⟩))

theorem W6_arr (c : Dev nD) (w : Fin cfg2.W) :
    W6 m c (Proc.devRef .tc (Pipeline.arrRef spec2 w)) = (dat2 (En2 m) c).arrAt w cfg2.N := by
  unfold W6; exact Pipeline.withArrays_arr spec2 launch2.win.arr_inj c _ _ w

theorem V6_out (c : Dev nD) : V6 m (outsC m) c main_v59 = W6 m c main_v59 := by
  simp only [V6, Function.update_self]; rfl

theorem hF2_0 (c : Dev nD) : (pdats m 2 c).arrAt 0 cfg2.N = V6 m (outsC m) c main_v53 :=
  (((pdats m 2 c).arrAt_in 0 rfl _).trans (A_eq2 (En2 m) c 0)).trans (V6_of m (outsC m) c main_v53 (by decide)).symm
theorem hF2_1 (c : Dev nD) : (pdats m 2 c).arrAt 1 cfg2.N = V6 m (outsC m) c main_v54 :=
  (((pdats m 2 c).arrAt_in 1 rfl _).trans (A_eq2 (En2 m) c 1)).trans (V6_of m (outsC m) c main_v54 (by decide)).symm
theorem hF2_2 (c : Dev nD) : (pdats m 2 c).arrAt 2 cfg2.N = V6 m (outsC m) c main_v52 :=
  (((pdats m 2 c).arrAt_in 2 rfl _).trans (A_eq2 (En2 m) c 2)).trans (V6_of m (outsC m) c main_v52 (by decide)).symm
theorem hF2_3 (c : Dev nD) : (pdats m 2 c).arrAt 3 cfg2.N = V6 m (outsC m) c main_v55 :=
  (((pdats m 2 c).arrAt_in 3 rfl _).trans (A_eq2 (En2 m) c 3)).trans (V6_of m (outsC m) c main_v55 (by decide)).symm
theorem hF2_4 (c : Dev nD) : (pdats m 2 c).arrAt 4 cfg2.N = V6 m (outsC m) c main_v58 :=
  (((pdats m 2 c).arrAt_in 4 rfl _).trans (A_eq2 (En2 m) c 4)).trans (V6_of m (outsC m) c main_v58 (by decide)).symm
theorem hF2_5 (c : Dev nD) : (pdats m 2 c).arrAt 5 cfg2.N = V6 m (outsC m) c main_v59 :=
  (W6_arr m c 5).symm.trans (V6_out m c).symm

set_option maxHeartbeats 1000000 in
theorem hF2 (c : Dev nD) (w : Fin cfg2.W) : (pdats m 2 c).arrAt w cfg2.N = V6 m (outsC m) c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
theorem hrest2 (c : Dev nD) : ∀ b, b ∉ Finset.univ.image (Pipeline.arrRef spec2) → V6 m (outsC m) c b = En2 m c b :=
  fun b hb => V6_of m (outsC m) c b (by
    intro h; exact hb (Finset.mem_image.mpr ⟨5, Finset.mem_univ _, (List.mem_singleton.mp h).symm⟩))

theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w

theorem V8_out (c : Dev nD) : V8 m (outsD m) c main_v79 = W8 m c main_v79 := by
  simp only [V8, Function.update_self]; rfl

theorem hF3_0 (c : Dev nD) : (pdats m 3 c).arrAt 0 cfg3.N = V8 m (outsD m) c main_v73 :=
  (((pdats m 3 c).arrAt_in 0 rfl _).trans (A_eq3 (En3 m) c 0)).trans (V8_of m (outsD m) c main_v73 (by decide)).symm
theorem hF3_1 (c : Dev nD) : (pdats m 3 c).arrAt 1 cfg3.N = V8 m (outsD m) c main_v74 :=
  (((pdats m 3 c).arrAt_in 1 rfl _).trans (A_eq3 (En3 m) c 1)).trans (V8_of m (outsD m) c main_v74 (by decide)).symm
theorem hF3_2 (c : Dev nD) : (pdats m 3 c).arrAt 2 cfg3.N = V8 m (outsD m) c main_v72 :=
  (((pdats m 3 c).arrAt_in 2 rfl _).trans (A_eq3 (En3 m) c 2)).trans (V8_of m (outsD m) c main_v72 (by decide)).symm
theorem hF3_3 (c : Dev nD) : (pdats m 3 c).arrAt 3 cfg3.N = V8 m (outsD m) c main_v75 :=
  (((pdats m 3 c).arrAt_in 3 rfl _).trans (A_eq3 (En3 m) c 3)).trans (V8_of m (outsD m) c main_v75 (by decide)).symm
theorem hF3_4 (c : Dev nD) : (pdats m 3 c).arrAt 4 cfg3.N = V8 m (outsD m) c main_v78 :=
  (((pdats m 3 c).arrAt_in 4 rfl _).trans (A_eq3 (En3 m) c 4)).trans (V8_of m (outsD m) c main_v78 (by decide)).symm
theorem hF3_5 (c : Dev nD) : (pdats m 3 c).arrAt 5 cfg3.N = V8 m (outsD m) c main_v79 :=
  (W8_arr m c 5).symm.trans (V8_out m c).symm

set_option maxHeartbeats 1000000 in
theorem hF3 (c : Dev nD) (w : Fin cfg3.W) : (pdats m 3 c).arrAt w cfg3.N = V8 m (outsD m) c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
theorem hrest3 (c : Dev nD) : ∀ b, b ∉ Finset.univ.image (Pipeline.arrRef spec3) → V8 m (outsD m) c b = En3 m c b :=
  fun b hb => V8_of m (outsD m) c b (by
    intro h; exact hb (Finset.mem_image.mpr ⟨5, Finset.mem_univ _, (List.mem_singleton.mp h).symm⟩))

set_option backward.isDefEq.respectTransparency.types false in
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ LL lvv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsA m) c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (En0 m) c)
    unfold Pipeline.ΦA
    iintro ⟨Hp, -, Hr⟩
    isplitl [Hr]; · iexact Hr
    iexact Hp
  hout c := by
    rw [Pipeline.ownSems0_none]
    refine BIBase.Entails.trans (hout0 (En0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => V2 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ LL lvv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsB m) c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En1 m) c)
    unfold Pipeline.ΦA
    iintro ⟨Hp, -, Hr⟩
    isplitl [Hr]; · iexact Hr
    iexact Hp
  hout c := by
    rw [Pipeline.ownSems0_none]
    refine BIBase.Entails.trans (hout1 (En1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => V4 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ LL lvv 2 fun _ _ => rfl
  pre c := iprop(StableHlo.held (c : Thread nD τ) (Pipeline.ucRefs τ sig) (V5 m (outsB m) c) ∗ Rr c)
  post c := iprop(StableHlo.held (c : Thread nD τ) (Pipeline.ucRefs τ sig) (V6 m (outsC m) c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (En2 m) c)
    unfold Pipeline.ΦA
    iintro ⟨Hp, -, Hr⟩
    isplitl [Hr]; · iexact Hr
    iexact Hp
  hout c := by
    rw [Pipeline.ownSems0_none]
    refine BIBase.Entails.trans (hout2 (En2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b => V6 m (outsC m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ LL lvv 3 fun _ _ => rfl
  pre c := iprop(StableHlo.held (c : Thread nD τ) (Pipeline.ucRefs τ sig) (V7 m (outsC m) c) ∗ Rr c)
  post c := iprop(StableHlo.held (c : Thread nD τ) (Pipeline.ucRefs τ sig) (V8 m (outsD m) c) ∗ Rr c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (En3 m) c)
    unfold Pipeline.ΦA
    iintro ⟨Hp, -, Hr⟩
    isplitl [Hr]; · iexact Hr
    iexact Hp
  hout c := by
    rw [Pipeline.ownSems0_none]
    refine BIBase.Entails.trans (hout3 (En3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (fun b => V8 m (outsD m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v83) = V9 m (outsD m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  value_cond m emb₁ () Variants.none LL lvv (fun _ _ => rfl) ρ (outsD m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach LL lvv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_main m ρ)

end Cert.Kernel.Hand

end
-- ==== Proof.KI.Body0.lean ====
import proofs.«413321_j24653112279275_3_alg».proof.Proof.Gen.KernelIdeal.Launch
import proofs.«413321_j24653112279275_3_alg».proof.Proof.Gen.KernelIdeal.Skeleton
import proofs.«413321_j24653112279275_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 1).val) 0#32)) 0#32) = 1#1

theorem hcond0_1 : ∀ t : Fin cfg0.N, cond0_1 (grid0.coords t) :=
  (by decide +kernel : ∀ t : Fin grid0.N, cond0_1 (grid0.coords t))

theorem hcond0_2 : ∀ t : Fin cfg0.N, k0_cond2 (grid0.coords t) = 1#1 :=
  (by decide +kernel : ∀ t : Fin grid0.N, k0_cond2 (grid0.coords t) = 1#1)

theorem hz2 : (![0, 0] : Fin 2 → ℕ) = fun _ => 0 := by funext a; fin_cases a <;> rfl

def accA0 (i : grid0.Coords) (ia : Vec F S1x3200 .i32) (xh xl : Vec F S256x1024 .bf16) : Vec F S256x3200 .f32 :=
  k0_pay7 i ia xh xl (k0_pay3 (F := F))

def accB0 (i : grid0.Coords) (ib : Vec F S1x3200 .i32) (xh xl : Vec F S256x1024 .bf16) : Vec F S256x3200 .f32 :=
  k0_pay1 (k0_pay6 i ib xh xl) (k0_pay4 (F := F))

def outv0 (cb : Vec F S4x3200 .f32) (a b : Vec F S256x3200 .f32) : Vec F S256x3200 .f32 :=
  k0_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

theorem readCov_cons_whole (v : View sig .tc .vmem S256x3200 .f32) (w : S256x3200.Idx → Elt F .f32)
    (L : List (View.Piece (Elt F) S256x3200 .f32)) :
    v.readCov ((⟨Rect.unit (s := S256x3200) ![0, 0] S256x3200.size inb_S256x3200_S256x3200_0_0, w⟩ : View.Piece (Elt F) S256x3200 .f32) :: L)
        (Rect.unit (s := S256x3200) ![0, 0] S256x3200.size inb_S256x3200_S256x3200_0_0).toLoadRect = w := by
  rw [View.readCov_eq_canon_ld _ _ _ (fun y => ⟨_, List.mem_cons_self .., View.mem_set_unit_zero hz2 inb_S256x3200_S256x3200_0_0 y⟩),
    View.canon_cons_unit_zero (S := S256x3200) hz2, View.ld_unit_zero (S := S256x3200) hz2]

set_option maxHeartbeats 1000000 in
noncomputable def run0 (c : Dev nD) (i : grid0.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1024 .bf16) (harg5 : arg5.IsWhole) (arg6 : Memref sig .tc .vmem S256x1024 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (hc1 : cond0_1 i) (hc2 : k0_cond2 i = 1#1)
    (x2 x3 : Vec F S1x3200 .i32) (x4 : Vec F S4x3200 .f32) (x5 x6 : Vec F S256x1024 .bf16) :
    Σ' (L7 : List (View.Piece (Elt F) S256x3200 .f32)) (L8 : List (View.Piece (Elt F) S256x3200 .f32)),
    { L9 : List (View.Piece (Elt F) S256x3200 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨?_, ?_, ?_, fun E K => ?run⟩
  case run =>
    simp only [cc0_kernel_eq_skeleton]; unfold cc0_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

variable (c : Dev nD) (i : grid0.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1024 .bf16) (harg5 : arg5.IsWhole) (arg6 : Memref sig .tc .vmem S256x1024 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (hc1 : cond0_1 i) (hc2 : k0_cond2 i = 1#1)
    (x2 x3 : Vec F S1x3200 .i32) (x4 : Vec F S4x3200 .f32) (x5 x6 : Vec F S256x1024 .bf16)

theorem read8_0 (f : arg8.view.ty.Contents (Elt F)) :
    arg8.view.read (Elt F) (arg8.view.writes (Elt F) f (run0 c i arg2 harg2 arg3 harg3 arg4 harg4 arg5 harg5 arg6 harg6 arg7 harg7 arg8 harg8 arg9 harg9 hc1 hc2 x2 x3 x4 x5 x6).2.1)
      = accA0 i x2 x5 x6 := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rfl

theorem read9_0 (f : arg9.view.ty.Contents (Elt F)) :
    arg9.view.read (Elt F) (arg9.view.writes (Elt F) f (run0 c i arg2 harg2 arg3 harg3 arg4 harg4 arg5 harg5 arg6 harg6 arg7 harg7 arg8 harg8 arg9 harg9 hc1 hc2 x2 x3 x4 x5 x6).2.2.1)
      = accB0 i x3 x5 x6 := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rfl

theorem read7_0 (f : arg7.view.ty.Contents (Elt F)) :
    arg7.view.read (Elt F) (arg7.view.writes (Elt F) f (run0 c i arg2 harg2 arg3 harg3 arg4 harg4 arg5 harg5 arg6 harg6 arg7 harg7 arg8 harg8 arg9 harg9 hc1 hc2 x2 x3 x4 x5 x6).1)
      = outv0 x4 (accA0 i x2 x5 x6) (accB0 i x3 x5 x6) := by
  unfold run0; dsimp only; sl_unfold_words
  rw [View.read_writes_eq_canon _ _ _ (fun y => ⟨_, List.mem_cons_self .., View.mem_set_unit_zero hz2 inb_S256x3200_S256x3200_0_0 y⟩),
    View.canon_cons_unit_zero hz2]
  simp only [View.readAt_eq_ld, Memref.IsWhole.read_unread, View.ld_unit_zero (S := S1x3200) hz2, View.ld_unit_zero (S := S256x1024) hz2,
    View.ld_unit_zero (S := S256x3200) hz2, View.readCov_unit_zero (S := S256x3200) _ hz2]
  rw [readCov_cons_whole, readCov_cons_whole]
  rfl

include hc1 hc2 in
theorem sound_kernel0 (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (outv0 x4 (accA0 i x2 x5 x6) (accB0 i x3 x5 x6))
            ∗ owns (c : Thread nD τ) arg8 fullShare (accA0 i x2 x5 x6) ∗ owns (c : Thread nD τ) arg9 fullShare (accB0 i x3 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9) K := by
  iintro ⟨H2, H3, H4, H5, H6, H7, H8, H9, Hk⟩
  iapply ((run0 c i arg2 harg2 arg3 harg3 arg4 harg4 arg5 harg5 arg6 harg6 arg7 harg7 arg8 harg8 arg9 harg9 hc1 hc2 x2 x3 x4 x5 x6).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%f7, H7⟩, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_0 c i arg2 harg2 arg3 harg3 arg4 harg4 arg5 harg5 arg6 harg6 arg7 harg7 arg8 harg8 arg9 harg9 hc1 hc2 x2 x3 x4 x5 x6 f7
  isplitl [H8]
  · unfold owns; iexists _; isplitr
    swap; · iexact H8
    ipureintro; exact read8_0 c i arg2 harg2 arg3 harg3 arg4 harg4 arg5 harg5 arg6 harg6 arg7 harg7 arg8 harg8 arg9 harg9 hc1 hc2 x2 x3 x4 x5 x6 f8
  unfold owns; iexists _; isplitr
  swap; · iexact H9
  ipureintro; exact read9_0 c i arg2 harg2 arg3 harg3 arg4 harg4 arg5 harg5 arg6 harg6 arg7 harg7 arg8 harg8 arg9 harg9 hc1 hc2 x2 x3 x4 x5 x6 f9

end Cert.KernelIdeal.Hand

end
-- ==== Proof.KI.Dat0.lean ====
import proofs.«413321_j24653112279275_3_alg».proof.Proof.KI.Body0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3200 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x3200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3200 .f32 := win0_5.stage (cfg0.slots t 5)
abbrev hs0_5 (t : Fin cfg0.N) : (ms0_5 t).IsWhole := hstage0_5 ((cfg0.slots t 5).cast nbuf0_5)
abbrev sc0_0 : Memref sig .tc .vmem S256x3200 .f32 := Memref.whole cc0_scratch0
abbrev sc0_1 : Memref sig .tc .vmem S256x3200 .f32 := Memref.whole cc0_scratch1

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

def outAt0 (c : Dev nD) (t : Fin cfg0.N) : Vec F S256x3200 .f32 :=
  outv0 (iblk0 V c 2 t) (accA0 (grid0.coords t) (iblk0 V c 0 t) (iblk0 V c 3 t) (iblk0 V c 4 t))
    (accB0 (grid0.coords t) (iblk0 V c 1 t) (iblk0 V c 3 t) (iblk0 V c 4 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA; rw [scopedRest0_split]; simp only [sc0_0, sc0_1, owns_whole]; try rfl

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl, PhiA0_eq]
  iintro ⟨⟨⟨⟨HSa, HSb⟩, Hrest⟩, Hg⟩, Ho, ⟨%d0, H0⟩, ⟨%d1, H1⟩, ⟨%d2, H2⟩, ⟨%d3, H3⟩, ⟨%d4, H4⟩, ⟨%d5, H5⟩⟩
  iapply (sound_kernel0 c (grid0.coords t) _ _ _ _ _ _ _ _ _ _ _ _ _ _ _ _ (hcond0_1 t) (hcond0_2 t)
    (iblk0 V c 0 t) (iblk0 V c 1 t) (iblk0 V c 2 t) (iblk0 V c 3 t) (iblk0 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HSa]; · iexact HSa
  isplitl [HSb]; · iexact HSb
  iintro ⟨H0, H1, H2, H3, H4, H5, HSa, HSb⟩
  isplitl [HSa HSb Hrest Hg]
  · isplitl [HSa HSb Hrest]
    · isplitl [HSa HSb]
      · isplitl [HSa]; · iexists _; iexact HSa
        iexists _; iexact HSb
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Body1.lean ====
import proofs.«413321_j24653112279275_3_alg».proof.Proof.Gen.KernelIdeal.Launch
import proofs.«413321_j24653112279275_3_alg».proof.Proof.Gen.KernelIdeal.Skeleton
import proofs.«413321_j24653112279275_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_1 (i : grid1.Coords) : Prop :=
  (Scalar.cmpi .ne (Scalar.extui (Scalar.cmpi .eq (BitVec.ofNat 32 (i 1).val) 0#32)) 0#32) = 1#1

theorem hcond1_1 : ∀ t : Fin cfg1.N, cond1_1 (grid1.coords t) ↔ t.val % 50 = 0 :=
  (by decide +kernel : ∀ t : Fin grid1.N, cond1_1 (grid1.coords t) ↔ t.val % 50 = 0)

theorem hcond1_2 : ∀ t : Fin cfg1.N, k1_cond2 (grid1.coords t) = 1#1 ↔ t.val % 50 = 49 :=
  (by decide +kernel : ∀ t : Fin grid1.N, k1_cond2 (grid1.coords t) = 1#1 ↔ t.val % 50 = 49)

theorem hz2_1 : (![0, 0] : Fin 2 → ℕ) = fun _ => 0 := by funext a; fin_cases a <;> rfl

def zeroA1 : Vec F S256x3200 .f32 := k1_pay3 (F := F)

def zeroB1 : Vec F S256x3200 .f32 := k1_pay4 (F := F)

def accA1 (i : grid1.Coords) (ia : Vec F S1x3200 .i32) (xh xl : Vec F S256x1280 .bf16) (a : Vec F S256x3200 .f32) :
    Vec F S256x3200 .f32 :=
  k1_pay7 i ia xh xl a

def accB1 (i : grid1.Coords) (ib : Vec F S1x3200 .i32) (xh xl : Vec F S256x1280 .bf16) (b : Vec F S256x3200 .f32) :
    Vec F S256x3200 .f32 :=
  k1_pay1 (k1_pay6 i ib xh xl) b

def outv1 (cb : Vec F S4x3200 .f32) (a b : Vec F S256x3200 .f32) : Vec F S256x3200 .f32 :=
  k1_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

variable (c : Dev nD) (i : grid1.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

set_option maxHeartbeats 1000000 in
noncomputable def run1_A (hc1 : cond1_1 i) (hc2 : ¬ k1_cond2 i = 1#1) :
    Σ' (L8 : List (View.Piece (Elt F) S256x3200 .f32)),
    { L9 : List (View.Piece (Elt F) S256x3200 .f32) //
      ∀ (d7 : Vec F S256x3200 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, fun d7 E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact hf7
      iexact H7
    isplitl [H8]; · iexists _; iexact H8
    iexists _; iexact H9

theorem read8_A (hc1 : cond1_1 i) (hc2 : ¬ k1_cond2 i = 1#1) (f : arg8.view.ty.Contents (Elt F)) :
    arg8.view.read (Elt F) (arg8.view.writes (Elt F) f (run1_A c i arg2 harg2 arg3 harg3 arg4 harg4 arg5 harg5 arg6 harg6 arg7 harg7 arg8 harg8 arg9 harg9 x2 x3 x4 x5 x6 hc1 hc2).1)
      = accA1 i x2 x5 x6 zeroA1 := by
  unfold run1_A; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_A (hc1 : cond1_1 i) (hc2 : ¬ k1_cond2 i = 1#1) (f : arg9.view.ty.Contents (Elt F)) :
    arg9.view.read (Elt F) (arg9.view.writes (Elt F) f (run1_A c i arg2 harg2 arg3 harg3 arg4 harg4 arg5 harg5 arg6 harg6 arg7 harg7 arg8 harg8 arg9 harg9 x2 x3 x4 x5 x6 hc1 hc2).2.1)
      = accB1 i x3 x5 x6 zeroB1 := by
  unfold run1_A; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_A (hc1 : cond1_1 i) (hc2 : ¬ k1_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA1 i x2 x5 x6 zeroA1) ∗ owns (c : Thread nD τ) arg9 fullShare (accB1 i x3 x5 x6 zeroB1)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_A c i arg2 harg2 arg3 harg3 arg4 harg4 arg5 harg5 arg6 harg6 arg7 harg7 arg8 harg8 arg9 harg9 x2 x3 x4 x5 x6 hc1 hc2).2.2 d7 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · iexact H7
  isplitl [H8]
  · unfold owns; iexists _; isplitr
    swap; · iexact H8
    ipureintro; exact read8_A c i arg2 harg2 arg3 harg3 arg4 harg4 arg5 harg5 arg6 harg6 arg7 harg7 arg8 harg8 arg9 harg9 x2 x3 x4 x5 x6 hc1 hc2 f8
  unfold owns; iexists _; isplitr
  swap; · iexact H9
  ipureintro; exact read9_A c i arg2 harg2 arg3 harg3 arg4 harg4 arg5 harg5 arg6 harg6 arg7 harg7 arg8 harg8 arg9 harg9 x2 x3 x4 x5 x6 hc1 hc2 f9

set_option maxHeartbeats 1000000 in
noncomputable def run1_B (hc1 : ¬ cond1_1 i) (hc2 : ¬ k1_cond2 i = 1#1) (a b : Vec F S256x3200 .f32) :
    Σ' (L8 : List (View.Piece (Elt F) S256x3200 .f32)),
    { L9 : List (View.Piece (Elt F) S256x3200 .f32) //
      ∀ (d7 : Vec F S256x3200 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, fun d7 E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact hf7
      iexact H7
    isplitl [H8]; · iexists _; iexact H8
    iexists _; iexact H9

theorem read8_B (hc1 : ¬ cond1_1 i) (hc2 : ¬ k1_cond2 i = 1#1) (a b : Vec F S256x3200 .f32) (f : arg8.view.ty.Contents (Elt F)) :
    arg8.view.read (Elt F) (arg8.view.writes (Elt F) f (run1_B c i arg2 harg2 arg3 harg3 arg4 harg4 arg5 harg5 arg6 harg6 arg7 harg7 arg8 harg8 arg9 harg9 x2 x3 x4 x5 x6 hc1 hc2 a b).1)
      = accA1 i x2 x5 x6 a := by
  unfold run1_B; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_B (hc1 : ¬ cond1_1 i) (hc2 : ¬ k1_cond2 i = 1#1) (a b : Vec F S256x3200 .f32) (f : arg9.view.ty.Contents (Elt F)) :
    arg9.view.read (Elt F) (arg9.view.writes (Elt F) f (run1_B c i arg2 harg2 arg3 harg3 arg4 harg4 arg5 harg5 arg6 harg6 arg7 harg7 arg8 harg8 arg9 harg9 x2 x3 x4 x5 x6 hc1 hc2 a b).2.1)
      = accB1 i x3 x5 x6 b := by
  unfold run1_B; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_B (hc1 : ¬ cond1_1 i) (hc2 : ¬ k1_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA1 i x2 x5 x6 a) ∗ owns (c : Thread nD τ) arg9 fullShare (accB1 i x3 x5 x6 b)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_B c i arg2 harg2 arg3 harg3 arg4 harg4 arg5 harg5 arg6 harg6 arg7 harg7 arg8 harg8 arg9 harg9 x2 x3 x4 x5 x6 hc1 hc2 a b).2.2 d7 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · iexact H7
  isplitl [H8]
  · unfold owns; iexists _; isplitr
    swap; · iexact H8
    ipureintro; exact read8_B c i arg2 harg2 arg3 harg3 arg4 harg4 arg5 harg5 arg6 harg6 arg7 harg7 arg8 harg8 arg9 harg9 x2 x3 x4 x5 x6 hc1 hc2 a b f8
  unfold owns; iexists _; isplitr
  swap; · iexact H9
  ipureintro; exact read9_B c i arg2 harg2 arg3 harg3 arg4 harg4 arg5 harg5 arg6 harg6 arg7 harg7 arg8 harg8 arg9 harg9 x2 x3 x4 x5 x6 hc1 hc2 a b f9

set_option maxHeartbeats 1000000 in
noncomputable def run1_C (hc1 : ¬ cond1_1 i) (hc2 : k1_cond2 i = 1#1) (a b : Vec F S256x3200 .f32) :
    Σ' (L7 : List (View.Piece (Elt F) S256x3200 .f32)),
    Σ' (L8 : List (View.Piece (Elt F) S256x3200 .f32)),
    { L9 : List (View.Piece (Elt F) S256x3200 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E
              (cc1_kernel i arg2 harg2 arg3 harg3 arg4 harg4 arg5 harg5 arg6 harg6 arg7 harg7 arg8 harg8 arg9 harg9) K } := by
  refine ⟨?_, ?_, ?_, fun E K => ?run⟩
  case run =>
    simp only [cc1_kernel_eq_skeleton]; unfold cc1_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

theorem read8_C (hc1 : ¬ cond1_1 i) (hc2 : k1_cond2 i = 1#1) (a b : Vec F S256x3200 .f32) (f : arg8.view.ty.Contents (Elt F)) :
    arg8.view.read (Elt F) (arg8.view.writes (Elt F) f (run1_C c i arg2 harg2 arg3 harg3 arg4 harg4 arg5 harg5 arg6 harg6 arg7 harg7 arg8 harg8 arg9 harg9 x2 x3 x4 x5 x6 hc1 hc2 a b).2.1)
      = accA1 i x2 x5 x6 a := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read9_C (hc1 : ¬ cond1_1 i) (hc2 : k1_cond2 i = 1#1) (a b : Vec F S256x3200 .f32) (f : arg9.view.ty.Contents (Elt F)) :
    arg9.view.read (Elt F) (arg9.view.writes (Elt F) f (run1_C c i arg2 harg2 arg3 harg3 arg4 harg4 arg5 harg5 arg6 harg6 arg7 harg7 arg8 harg8 arg9 harg9 x2 x3 x4 x5 x6 hc1 hc2 a b).2.2.1)
      = accB1 i x3 x5 x6 b := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem read7_C (hc1 : ¬ cond1_1 i) (hc2 : k1_cond2 i = 1#1) (a b : Vec F S256x3200 .f32) (f : arg7.view.ty.Contents (Elt F)) :
    arg7.view.read (Elt F) (arg7.view.writes (Elt F) f (run1_C c i arg2 harg2 arg3 harg3 arg4 harg4 arg5 harg5 arg6 harg6 arg7 harg7 arg8 harg8 arg9 harg9 x2 x3 x4 x5 x6 hc1 hc2 a b).1)
      = outv1 x4 (accA1 i x2 x5 x6 a) (accB1 i x3 x5 x6 b) := by
  unfold run1_C; dsimp only; sl_unfold_words
  rw [View.read_writes_eq_canon _ _ _ (fun y => ⟨_, List.mem_cons_self .., View.mem_set_unit_zero hz2_1 inb_S256x3200_S256x3200_0_0 y⟩),
    View.canon_cons_unit_zero hz2_1]
  simp only [View.readAt_eq_ld, Memref.IsWhole.read_unread, View.ld_unit_zero (S := S1x3200) hz2_1, View.ld_unit_zero (S := S256x1280) hz2_1,
    View.ld_unit_zero (S := S256x3200) hz2_1, View.readCov_unit_zero (S := S256x3200) _ hz2_1]
  rfl

theorem sound_kernel1_C (hc1 : ¬ cond1_1 i) (hc2 : k1_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv1 x4 (accA1 i x2 x5 x6 a) (accB1 i x3 x5 x6 b)) ∗ owns (c : Thread nD τ) arg8 fullShare (accA1 i x2 x5 x6 a) ∗ owns (c : Thread nD τ) arg9 fullShare (accB1 i x3 x5 x6 b)) -∗ K ⟨⟩))
      ⊢ wp frame (wpE (defs₀ (F := F)) Variants.none c none) E
              (cc1_kernel i arg2 harg2 arg3 harg3 arg4 harg4 arg5 harg5 arg6 harg6 arg7 harg7 arg8 harg8 arg9 harg9) K := by
  iintro ⟨H2, H3, H4, H5, H6, H7, H8, H9, Hk⟩
  iapply ((run1_C c i arg2 harg2 arg3 harg3 arg4 harg4 arg5 harg5 arg6 harg6 arg7 harg7 arg8 harg8 arg9 harg9 x2 x3 x4 x5 x6 hc1 hc2 a b).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%f7, H7⟩, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7_C c i arg2 harg2 arg3 harg3 arg4 harg4 arg5 harg5 arg6 harg6 arg7 harg7 arg8 harg8 arg9 harg9 x2 x3 x4 x5 x6 hc1 hc2 a b f7
  isplitl [H8]
  · unfold owns; iexists _; isplitr
    swap; · iexact H8
    ipureintro; exact read8_C c i arg2 harg2 arg3 harg3 arg4 harg4 arg5 harg5 arg6 harg6 arg7 harg7 arg8 harg8 arg9 harg9 x2 x3 x4 x5 x6 hc1 hc2 a b f8
  unfold owns; iexists _; isplitr
  swap; · iexact H9
  ipureintro; exact read9_C c i arg2 harg2 arg3 harg3 arg4 harg4 arg5 harg5 arg6 harg6 arg7 harg7 arg8 harg8 arg9 harg9 x2 x3 x4 x5 x6 hc1 hc2 a b f9

end Cert.KernelIdeal.Hand

end
-- ==== Proof.KI.Dat1.lean ====
import proofs.«413321_j24653112279275_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S256x3200 .f32 × Vec F S256x3200 .f32
  | 0, hn =>
    (accA1 (grid1.coords ⟨0, hn⟩) (iblk1 V c 0 ⟨0, hn⟩) (iblk1 V c 3 ⟨0, hn⟩) (iblk1 V c 4 ⟨0, hn⟩) zeroA1,
     accB1 (grid1.coords ⟨0, hn⟩) (iblk1 V c 1 ⟨0, hn⟩) (iblk1 V c 3 ⟨0, hn⟩) (iblk1 V c 4 ⟨0, hn⟩) zeroB1)
  | n + 1, hn =>
    if h : (n + 1) % 50 = 0 then
      (accA1 (grid1.coords ⟨n + 1, hn⟩) (iblk1 V c 0 ⟨n + 1, hn⟩) (iblk1 V c 3 ⟨n + 1, hn⟩) (iblk1 V c 4 ⟨n + 1, hn⟩) zeroA1,
       accB1 (grid1.coords ⟨n + 1, hn⟩) (iblk1 V c 1 ⟨n + 1, hn⟩) (iblk1 V c 3 ⟨n + 1, hn⟩) (iblk1 V c 4 ⟨n + 1, hn⟩) zeroB1)
    else
      (accA1 (grid1.coords ⟨n + 1, hn⟩) (iblk1 V c 0 ⟨n + 1, hn⟩) (iblk1 V c 3 ⟨n + 1, hn⟩) (iblk1 V c 4 ⟨n + 1, hn⟩) (accAt1 c n (Nat.lt_of_succ_lt hn)).1,
       accB1 (grid1.coords ⟨n + 1, hn⟩) (iblk1 V c 1 ⟨n + 1, hn⟩) (iblk1 V c 3 ⟨n + 1, hn⟩) (iblk1 V c 4 ⟨n + 1, hn⟩) (accAt1 c n (Nat.lt_of_succ_lt hn)).2)

theorem accAt1_reset (c : Dev nD) (t : Fin cfg1.N) (h : t.val % 50 = 0) :
    accAt1 V c t.val t.isLt =
      (accA1 (grid1.coords t) (iblk1 V c 0 t) (iblk1 V c 3 t) (iblk1 V c 4 t) zeroA1,
       accB1 (grid1.coords t) (iblk1 V c 1 t) (iblk1 V c 3 t) (iblk1 V c 4 t) zeroB1) := by
  obtain ⟨n, hn⟩ := t
  cases n with
  | zero => exact rfl
  | succ n => exact (dif_pos h).trans rfl

theorem accAt1_step (c : Dev nD) (t : Fin cfg1.N) (h : ¬ t.val % 50 = 0) :
    accAt1 V c t.val t.isLt =
      (accA1 (grid1.coords t) (iblk1 V c 0 t) (iblk1 V c 3 t) (iblk1 V c 4 t) (accAt1 V c (t.val - 1) (Nat.lt_of_le_of_lt (Nat.sub_le _ _) t.isLt)).1,
       accB1 (grid1.coords t) (iblk1 V c 1 t) (iblk1 V c 3 t) (iblk1 V c 4 t) (accAt1 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt1 (c : Dev nD) (t : Fin cfg1.N) : Vec F S256x3200 .f32 :=
  outv1 (iblk1 V c 2 t) (accAt1 V c t.val t.isLt).1 (accAt1 V c t.val t.isLt).2

abbrev scA1 : Memref sig .tc .vmem S256x3200 .f32 := Memref.whole cc1_scratch0
abbrev scB1 : Memref sig .tc .vmem S256x3200 .f32 := Memref.whole cc1_scratch1

def PhiS1 (c : Dev nD) : (n : ℕ) → n ≤ cfg1.N → sProp 𝕄
  | 0, _ => Pipeline.ΦA spec1 c
  | n + 1, hn => iprop(iprop(iprop(owns (c : Thread nD τ) scA1 fullShare (accAt1 V c n hn).1 ∗ owns (c : Thread nD τ) scB1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scA1 fullShare (accAt1 V c n hn).1 ∗ owns (c : Thread nD τ) scB1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scA1 fullShare (accAt1 V c (n - 1) (by omega)).1 ∗ owns (c : Thread nD τ) scB1 fullShare (accAt1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

theorem PhiA1_eq (c : Dev nD) :
    (Pipeline.ΦA spec1 c : sProp 𝕄)
      = iprop(iprop(iprop((∃ d, owns (c : Thread nD τ) scA1 fullShare d) ∗ (∃ d, owns (c : Thread nD τ) scB1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scA1, scB1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

theorem idleAt1_5 (t : Fin cfg1.N) (h : ¬ k1_cond2 (grid1.coords t) = 1#1) : cfg1.idle 5 (grid1.coords t) = true := by
  show (!(k1_cond2 (grid1.coords t) == 1#1)) = true
  simp only [Bool.not_eq_true', beq_eq_false_iff_ne, ne_eq]; exact h

theorem noFlush1_5 (t : Fin cfg1.N) (h : ¬ k1_cond2 (grid1.coords t) = 1#1) : (cfg1.win 5).flush t = false :=
  Bool.eq_false_iff.mpr fun hf => h ((hcond1_2 t).mpr ((flush1_5 t).mp hf))

theorem liveAt1_5 (t : Fin cfg1.N) (h : k1_cond2 (grid1.coords t) = 1#1) : cfg1.idle 5 (grid1.coords t) = false := by
  show (!(k1_cond2 (grid1.coords t) == 1#1)) = false
  rw [h]; rfl

abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3200 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x3200 .f32 := win1_5.stage (cfg1.slots t 5)
abbrev hs1_5 (t : Fin cfg1.N) : (ms1_5 t).IsWhole := hstage1_5 ((cfg1.slots t 5).cast nbuf1_5)

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi1_toA (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
    try exact Idealize.SL.BI.Entails.refl _
  · exact Phi1_out V c t ht

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 1000 := lt_of_lt_of_eq t.isLt (show cfg1.N = 1000 from N_1)
  by_cases h0 : t.val % 50 = 0
  · have h1 : ¬ t.val % 50 = 49 := by omega
    have hc1 : cond1_1 (grid1.coords t) := (hcond1_1 t).mpr h0
    have hc2 : ¬ k1_cond2 (grid1.coords t) = 1#1 := fun h => h1 ((hcond1_2 t).mp h)
    rw [Dat.leavesExact_idle (dat1 V c) 5 t (idleAt1_5 t hc2) (noFlush1_5 t hc2)]
    rw [accAt1_reset V c t h0]
    refine (sep_mono_left (Phi1_toA V c t.castSucc)).trans ?_
    rw [PhiA1_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel1_A (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (d7 := (dat1 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond1_1 (grid1.coords t) := fun h => h0 ((hcond1_1 t).mp h)
    rw [accAt1_step V c t h0]
    rw [Phi1_castSucc V c t, PhiS1_pos V c _ _ hz]
    by_cases h1 : t.val % 50 = 49
    · have hc2 : k1_cond2 (grid1.coords t) = 1#1 := (hcond1_2 t).mpr h1
      rw [show (dat1 V c).leavesExact 5 t = owns (c : Thread nD τ) (ms1_5 t) fullShare ((dat1 V c).after 5 t) from by
        unfold Dat.leavesExact; rw [liveAt1_5 t hc2], after1_5]
      unfold outAt1
      rw [accAt1_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel1_C (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (a := (accAt1 V c (t.val - 1) (Nat.lt_of_le_of_lt (Nat.sub_le _ _) t.isLt)).1) (b := (accAt1 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k1_cond2 (grid1.coords t) = 1#1 := fun h => h1 ((hcond1_2 t).mp h)
      rw [Dat.leavesExact_idle (dat1 V c) 5 t (idleAt1_5 t hc2) (noFlush1_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel1_B (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scA1) (harg8 := Memref.isWhole_whole _) (arg9 := scB1) (harg9 := Memref.isWhole_whole _) (x2 := iblk1 V c 0 t) (x3 := iblk1 V c 1 t) (x4 := iblk1 V c 2 t) (x5 := iblk1 V c 3 t) (x6 := iblk1 V c 4 t) (E := Set.univ) (K := _) (hc1 := hc1) (hc2 := hc2) (d7 := (dat1 V c).before 5 t d5) (a := (accAt1 V c (t.val - 1) (Nat.lt_of_le_of_lt (Nat.sub_le _ _) t.isLt)).1) (b := (accAt1 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi1_toA V c _

end

end Cert.KernelIdeal.Hand

end
-- ==== Proof.KI.Body2.lean ====
import proofs.«413321_j24653112279275_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_1 (i : grid2.Coords) : Prop :=
  (Scalar.cmpi .ne (Scalar.extui (Scalar.cmpi .eq (BitVec.ofNat 32 (i 1).val) 0#32)) 0#32) = 1#1

theorem hcond2_1 : ∀ t : Fin cfg2.N, cond2_1 (grid2.coords t) ↔ t.val % 50 = 0 :=
  (by decide +kernel : ∀ t : Fin grid2.N, cond2_1 (grid2.coords t) ↔ t.val % 50 = 0)

theorem hcond2_2 : ∀ t : Fin cfg2.N, k2_cond2 (grid2.coords t) = 1#1 ↔ t.val % 50 = 49 :=
  (by decide +kernel : ∀ t : Fin grid2.N, k2_cond2 (grid2.coords t) = 1#1 ↔ t.val % 50 = 49)

def zeroA2 : Vec F S256x3200 .f32 := k2_pay3 (F := F)

def zeroB2 : Vec F S256x3200 .f32 := k2_pay4 (F := F)

def accA2 (i : grid2.Coords) (ia : Vec F S1x3200 .i32) (xh xl : Vec F S256x1280 .bf16) (a : Vec F S256x3200 .f32) :
    Vec F S256x3200 .f32 :=
  k2_pay7 i ia xh xl a

def accB2 (i : grid2.Coords) (ib : Vec F S1x3200 .i32) (xh xl : Vec F S256x1280 .bf16) (b : Vec F S256x3200 .f32) :
    Vec F S256x3200 .f32 :=
  k2_pay1 (k2_pay6 i ib xh xl) b

def outv2 (cb : Vec F S4x3200 .f32) (a b : Vec F S256x3200 .f32) : Vec F S256x3200 .f32 :=
  k2_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

section

variable (c : Dev nD) (i : grid2.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

-- Region 2 runs the body of region 1 on a grid of the same extents, so each of its three triples is region 1's.
theorem sound_kernel2_A (hc1 : cond2_1 i) (hc2 : ¬ k2_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA2 i x2 x5 x6 zeroA2) ∗ owns (c : Thread nD τ) arg9 fullShare (accB2 i x3 x5 x6 zeroB2)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_A c i arg2 harg2 arg3 harg3 arg4 harg4 arg5 harg5 arg6 harg6 arg7 harg7 arg8 harg8 arg9 harg9 x2 x3 x4 x5 x6 hc1 hc2 d7 E K

theorem sound_kernel2_B (hc1 : ¬ cond2_1 i) (hc2 : ¬ k2_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA2 i x2 x5 x6 a) ∗ owns (c : Thread nD τ) arg9 fullShare (accB2 i x3 x5 x6 b)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_B c i arg2 harg2 arg3 harg3 arg4 harg4 arg5 harg5 arg6 harg6 arg7 harg7 arg8 harg8 arg9 harg9 x2 x3 x4 x5 x6 hc1 hc2 d7 a b E K

theorem sound_kernel2_C (hc1 : ¬ cond2_1 i) (hc2 : k2_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv2 x4 (accA2 i x2 x5 x6 a) (accB2 i x3 x5 x6 b)) ∗ owns (c : Thread nD τ) arg8 fullShare (accA2 i x2 x5 x6 a) ∗ owns (c : Thread nD τ) arg9 fullShare (accB2 i x3 x5 x6 b)) -∗ K ⟨⟩))
      ⊢ wp frame (wpE (defs₀ (F := F)) Variants.none c none) E
              (cc2_kernel i arg2 harg2 arg3 harg3 arg4 harg4 arg5 harg5 arg6 harg6 arg7 harg7 arg8 harg8 arg9 harg9) K :=
  sound_kernel1_C c i arg2 harg2 arg3 harg3 arg4 harg4 arg5 harg5 arg6 harg6 arg7 harg7 arg8 harg8 arg9 harg9 x2 x3 x4 x5 x6 hc1 hc2 a b E K

end

end Cert.KernelIdeal.Hand

end
-- ==== Proof.KI.Dat2.lean ====
import proofs.«413321_j24653112279275_3_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S256x3200 .f32 × Vec F S256x3200 .f32
  | 0, hn =>
    (accA2 (grid2.coords ⟨0, hn⟩) (iblk2 V c 0 ⟨0, hn⟩) (iblk2 V c 3 ⟨0, hn⟩) (iblk2 V c 4 ⟨0, hn⟩) zeroA2,
     accB2 (grid2.coords ⟨0, hn⟩) (iblk2 V c 1 ⟨0, hn⟩) (iblk2 V c 3 ⟨0, hn⟩) (iblk2 V c 4 ⟨0, hn⟩) zeroB2)
  | n + 1, hn =>
    if h : (n + 1) % 50 = 0 then
      (accA2 (grid2.coords ⟨n + 1, hn⟩) (iblk2 V c 0 ⟨n + 1, hn⟩) (iblk2 V c 3 ⟨n + 1, hn⟩) (iblk2 V c 4 ⟨n + 1, hn⟩) zeroA2,
       accB2 (grid2.coords ⟨n + 1, hn⟩) (iblk2 V c 1 ⟨n + 1, hn⟩) (iblk2 V c 3 ⟨n + 1, hn⟩) (iblk2 V c 4 ⟨n + 1, hn⟩) zeroB2)
    else
      (accA2 (grid2.coords ⟨n + 1, hn⟩) (iblk2 V c 0 ⟨n + 1, hn⟩) (iblk2 V c 3 ⟨n + 1, hn⟩) (iblk2 V c 4 ⟨n + 1, hn⟩) (accAt2 c n (Nat.lt_of_succ_lt hn)).1,
       accB2 (grid2.coords ⟨n + 1, hn⟩) (iblk2 V c 1 ⟨n + 1, hn⟩) (iblk2 V c 3 ⟨n + 1, hn⟩) (iblk2 V c 4 ⟨n + 1, hn⟩) (accAt2 c n (Nat.lt_of_succ_lt hn)).2)

theorem accAt2_reset (c : Dev nD) (t : Fin cfg2.N) (h : t.val % 50 = 0) :
    accAt2 V c t.val t.isLt =
      (accA2 (grid2.coords t) (iblk2 V c 0 t) (iblk2 V c 3 t) (iblk2 V c 4 t) zeroA2,
       accB2 (grid2.coords t) (iblk2 V c 1 t) (iblk2 V c 3 t) (iblk2 V c 4 t) zeroB2) := by
  obtain ⟨n, hn⟩ := t
  cases n with
  | zero => exact rfl
  | succ n => exact (dif_pos h).trans rfl

theorem accAt2_step (c : Dev nD) (t : Fin cfg2.N) (h : ¬ t.val % 50 = 0) :
    accAt2 V c t.val t.isLt =
      (accA2 (grid2.coords t) (iblk2 V c 0 t) (iblk2 V c 3 t) (iblk2 V c 4 t) (accAt2 V c (t.val - 1) (Nat.lt_of_le_of_lt (Nat.sub_le _ _) t.isLt)).1,
       accB2 (grid2.coords t) (iblk2 V c 1 t) (iblk2 V c 3 t) (iblk2 V c 4 t) (accAt2 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt2 (c : Dev nD) (t : Fin cfg2.N) : Vec F S256x3200 .f32 :=
  outv2 (iblk2 V c 2 t) (accAt2 V c t.val t.isLt).1 (accAt2 V c t.val t.isLt).2

abbrev scA2 : Memref sig .tc .vmem S256x3200 .f32 := Memref.whole cc2_scratch0
abbrev scB2 : Memref sig .tc .vmem S256x3200 .f32 := Memref.whole cc2_scratch1

def PhiS2 (c : Dev nD) : (n : ℕ) → n ≤ cfg2.N → sProp 𝕄
  | 0, _ => Pipeline.ΦA spec2 c
  | n + 1, hn => iprop(iprop(iprop(owns (c : Thread nD τ) scA2 fullShare (accAt2 V c n hn).1 ∗ owns (c : Thread nD τ) scB2 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scA2 fullShare (accAt2 V c n hn).1 ∗ owns (c : Thread nD τ) scB2 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scA2 fullShare (accAt2 V c (n - 1) (by omega)).1 ∗ owns (c : Thread nD τ) scB2 fullShare (accAt2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scA2, scB2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2 V c 0]; try rfl) t d).trans
    (by unfold Dat.fetched Dat.blockOf iblk2; rw [A_eq2 V c 0]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2 V c 1]; try rfl) t d).trans
    (by unfold Dat.fetched Dat.blockOf iblk2; rw [A_eq2 V c 1]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2 V c 2]; try rfl) t d).trans
    (by unfold Dat.fetched Dat.blockOf iblk2; rw [A_eq2 V c 2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2 V c 3]; try rfl) t d).trans
    (by unfold Dat.fetched Dat.blockOf iblk2; rw [A_eq2 V c 3]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2 V c 4]; try rfl) t d).trans
    (by unfold Dat.fetched Dat.blockOf iblk2; rw [A_eq2 V c 4]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

theorem idleAt2_5 (t : Fin cfg2.N) (h : ¬ k2_cond2 (grid2.coords t) = 1#1) : cfg2.idle 5 (grid2.coords t) = true := by
  show (!(k2_cond2 (grid2.coords t) == 1#1)) = true
  simp only [Bool.not_eq_true', beq_eq_false_iff_ne, ne_eq]; exact h

theorem noFlush2_5 (t : Fin cfg2.N) (h : ¬ k2_cond2 (grid2.coords t) = 1#1) : (cfg2.win 5).flush t = false :=
  Bool.eq_false_iff.mpr fun hf => h ((hcond2_2 t).mpr ((flush2_5 t).mp hf))

theorem liveAt2_5 (t : Fin cfg2.N) (h : k2_cond2 (grid2.coords t) = 1#1) : cfg2.idle 5 (grid2.coords t) = false := by
  show (!(k2_cond2 (grid2.coords t) == 1#1)) = false
  rw [h]; rfl

abbrev ms2_0 (t : Fin cfg2.N) : Memref sig .tc .vmem S1x3200 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3200 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x3200 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1280 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1280 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x3200 .f32 := win2_5.stage (cfg2.slots t 5)
abbrev hs2_5 (t : Fin cfg2.N) : (ms2_5 t).IsWhole := hstage2_5 ((cfg2.slots t 5).cast nbuf2_5)

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi2_toA (c : Dev nD) (t : Fin (cfg2.N + 1)) : (dat2 V c).Φ t ⊢ Pipeline.ΦA spec2 c := by
  by_cases ht : t.val = 0
  · rw [show (dat2 V c).Φ t = PhiS2 V c t.val (Nat.le_of_lt_succ t.isLt) from rfl, PhiS2_zero V c _ _ ht]
    try exact Idealize.SL.BI.Entails.refl _
  · exact Phi2_out V c t ht

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 1000 := lt_of_lt_of_eq t.isLt (show cfg2.N = 1000 from N_2)
  by_cases h0 : t.val % 50 = 0
  · have h1 : ¬ t.val % 50 = 49 := by omega
    have hc1 : cond2_1 (grid2.coords t) := (hcond2_1 t).mpr h0
    have hc2 : ¬ k2_cond2 (grid2.coords t) = 1#1 := fun h => h1 ((hcond2_2 t).mp h)
    rw [Dat.leavesExact_idle (dat2 V c) 5 t (idleAt2_5 t hc2) (noFlush2_5 t hc2)]
    rw [accAt2_reset V c t h0]
    refine (sep_mono_left (Phi2_toA V c t.castSucc)).trans ?_
    rw [PhiA2_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel2_A (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (d7 := (dat2 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond2_1 (grid2.coords t) := fun h => h0 ((hcond2_1 t).mp h)
    rw [accAt2_step V c t h0]
    rw [Phi2_castSucc V c t, PhiS2_pos V c _ _ hz]
    by_cases h1 : t.val % 50 = 49
    · have hc2 : k2_cond2 (grid2.coords t) = 1#1 := (hcond2_2 t).mpr h1
      rw [show (dat2 V c).leavesExact 5 t = owns (c : Thread nD τ) (ms2_5 t) fullShare ((dat2 V c).after 5 t) from by
        unfold Dat.leavesExact; rw [liveAt2_5 t hc2], after2_5]
      unfold outAt2
      rw [accAt2_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel2_C (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (a := (accAt2 V c (t.val - 1) (Nat.lt_of_le_of_lt (Nat.sub_le _ _) t.isLt)).1) (b := (accAt2 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k2_cond2 (grid2.coords t) = 1#1 := fun h => h1 ((hcond2_2 t).mp h)
      rw [Dat.leavesExact_idle (dat2 V c) 5 t (idleAt2_5 t hc2) (noFlush2_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel2_B (c := c) (i := grid2.coords t) (arg2 := ms2_0 t) (harg2 := hs2_0 t) (arg3 := ms2_1 t) (harg3 := hs2_1 t) (arg4 := ms2_2 t) (harg4 := hs2_2 t) (arg5 := ms2_3 t) (harg5 := hs2_3 t) (arg6 := ms2_4 t) (harg6 := hs2_4 t) (arg7 := ms2_5 t) (harg7 := hs2_5 t) (arg8 := scA2) (harg8 := Memref.isWhole_whole _) (arg9 := scB2) (harg9 := Memref.isWhole_whole _) (x2 := iblk2 V c 0 t) (x3 := iblk2 V c 1 t) (x4 := iblk2 V c 2 t) (x5 := iblk2 V c 3 t) (x6 := iblk2 V c 4 t) (E := Set.univ) (K := _) (hc1 := hc1) (hc2 := hc2) (d7 := (dat2 V c).before 5 t d5) (a := (accAt2 V c (t.val - 1) (Nat.lt_of_le_of_lt (Nat.sub_le _ _) t.isLt)).1) (b := (accAt2 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  Phi2_toA V c _

end

end Cert.KernelIdeal.Hand

end
-- ==== Proof.KI.Body3.lean ====
import proofs.«413321_j24653112279275_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_1 (i : grid3.Coords) : Prop :=
  (Scalar.cmpi .ne (Scalar.extui (Scalar.cmpi .eq (BitVec.ofNat 32 (i 1).val) 0#32)) 0#32) = 1#1

theorem hcond3_1 : ∀ t : Fin cfg3.N, cond3_1 (grid3.coords t) ↔ t.val % 50 = 0 :=
  (by decide +kernel : ∀ t : Fin grid3.N, cond3_1 (grid3.coords t) ↔ t.val % 50 = 0)

theorem hcond3_2 : ∀ t : Fin cfg3.N, k3_cond2 (grid3.coords t) = 1#1 ↔ t.val % 50 = 49 :=
  (by decide +kernel : ∀ t : Fin grid3.N, k3_cond2 (grid3.coords t) = 1#1 ↔ t.val % 50 = 49)

def zeroA3 : Vec F S256x3200 .f32 := k3_pay3 (F := F)

def zeroB3 : Vec F S256x3200 .f32 := k3_pay4 (F := F)

def accA3 (i : grid3.Coords) (ia : Vec F S1x3200 .i32) (xh xl : Vec F S256x1280 .bf16) (a : Vec F S256x3200 .f32) :
    Vec F S256x3200 .f32 :=
  k3_pay7 i ia xh xl a

def accB3 (i : grid3.Coords) (ib : Vec F S1x3200 .i32) (xh xl : Vec F S256x1280 .bf16) (b : Vec F S256x3200 .f32) :
    Vec F S256x3200 .f32 :=
  k3_pay1 (k3_pay6 i ib xh xl) b

def outv3 (cb : Vec F S4x3200 .f32) (a b : Vec F S256x3200 .f32) : Vec F S256x3200 .f32 :=
  k3_pay2 (View.ld cb (Rect.unit (s := S4x3200) ![0, 0] S1x3200.size inb_S4x3200_S1x3200_0_0))
    (View.ld cb (Rect.unit (s := S4x3200) ![1, 0] S1x3200.size inb_S4x3200_S1x3200_1_0))
    (View.ld cb (Rect.unit (s := S4x3200) ![2, 0] S1x3200.size inb_S4x3200_S1x3200_2_0))
    (View.ld cb (Rect.unit (s := S4x3200) ![3, 0] S1x3200.size inb_S4x3200_S1x3200_3_0)) a b

section

variable (c : Dev nD) (i : grid3.Coords)
    (arg2 : Memref sig .tc .vmem S1x3200 .i32) (harg2 : arg2.IsWhole) (arg3 : Memref sig .tc .vmem S1x3200 .i32) (harg3 : arg3.IsWhole)
    (arg4 : Memref sig .tc .vmem S4x3200 .f32) (harg4 : arg4.IsWhole)
    (arg5 : Memref sig .tc .vmem S256x1280 .bf16) (harg5 : arg5.IsWhole) (arg6 : Memref sig .tc .vmem S256x1280 .bf16) (harg6 : arg6.IsWhole)
    (arg7 : Memref sig .tc .vmem S256x3200 .f32) (harg7 : arg7.IsWhole)
    (arg8 : Memref sig .tc .vmem S256x3200 .f32) (harg8 : arg8.IsWhole) (arg9 : Memref sig .tc .vmem S256x3200 .f32) (harg9 : arg9.IsWhole)
    (x2 x3 : Vec F S1x3200 .i32) (x4 : Vec F S4x3200 .f32) (x5 x6 : Vec F S256x1280 .bf16)

-- Region 3 runs the body of region 1 on a grid of the same extents, so each of its three triples is region 1's.
theorem sound_kernel3_A (hc1 : cond3_1 i) (hc2 : ¬ k3_cond2 i = 1#1) (d7 : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA3 i x2 x5 x6 zeroA3) ∗ owns (c : Thread nD τ) arg9 fullShare (accB3 i x3 x5 x6 zeroB3)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_A c i arg2 harg2 arg3 harg3 arg4 harg4 arg5 harg5 arg6 harg6 arg7 harg7 arg8 harg8 arg9 harg9 x2 x3 x4 x5 x6 hc1 hc2 d7 E K

theorem sound_kernel3_B (hc1 : ¬ cond3_1 i) (hc2 : ¬ k3_cond2 i = 1#1) (d7 a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare (accA3 i x2 x5 x6 a) ∗ owns (c : Thread nD τ) arg9 fullShare (accB3 i x3 x5 x6 b)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_B c i arg2 harg2 arg3 harg3 arg4 harg4 arg5 harg5 arg6 harg6 arg7 harg7 arg8 harg8 arg9 harg9 x2 x3 x4 x5 x6 hc1 hc2 d7 a b E K

theorem sound_kernel3_C (hc1 : ¬ cond3_1 i) (hc2 : k3_cond2 i = 1#1) (a b : Vec F S256x3200 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare a ∗ owns (c : Thread nD τ) arg9 fullShare b
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv3 x4 (accA3 i x2 x5 x6 a) (accB3 i x3 x5 x6 b)) ∗ owns (c : Thread nD τ) arg8 fullShare (accA3 i x2 x5 x6 a) ∗ owns (c : Thread nD τ) arg9 fullShare (accB3 i x3 x5 x6 b)) -∗ K ⟨⟩))
      ⊢ wp frame (wpE (defs₀ (F := F)) Variants.none c none) E
              (cc3_kernel i arg2 harg2 arg3 harg3 arg4 harg4 arg5 harg5 arg6 harg6 arg7 harg7 arg8 harg8 arg9 harg9) K :=
  sound_kernel1_C c i arg2 harg2 arg3 harg3 arg4 harg4 arg5 harg5 arg6 harg6 arg7 harg7 arg8 harg8 arg9 harg9 x2 x3 x4 x5 x6 hc1 hc2 a b E K

end

end Cert.KernelIdeal.Hand

end
-- ==== Proof.KI.Dat3.lean ====
import proofs.«413321_j24653112279275_3_alg».proof.Proof.KI.Body3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accAt3 (c : Dev nD) : (n : ℕ) → n < cfg3.N → Vec F S256x3200 .f32 × Vec F S256x3200 .f32
  | 0, hn =>
    (accA3 (grid3.coords ⟨0, hn⟩) (iblk3 V c 0 ⟨0, hn⟩) (iblk3 V c 3 ⟨0, hn⟩) (iblk3 V c 4 ⟨0, hn⟩) zeroA3,
     accB3 (grid3.coords ⟨0, hn⟩) (iblk3 V c 1 ⟨0, hn⟩) (iblk3 V c 3 ⟨0, hn⟩) (iblk3 V c 4 ⟨0, hn⟩) zeroB3)
  | n + 1, hn =>
    if h : (n + 1) % 50 = 0 then
      (accA3 (grid3.coords ⟨n + 1, hn⟩) (iblk3 V c 0 ⟨n + 1, hn⟩) (iblk3 V c 3 ⟨n + 1, hn⟩) (iblk3 V c 4 ⟨n + 1, hn⟩) zeroA3,
       accB3 (grid3.coords ⟨n + 1, hn⟩) (iblk3 V c 1 ⟨n + 1, hn⟩) (iblk3 V c 3 ⟨n + 1, hn⟩) (iblk3 V c 4 ⟨n + 1, hn⟩) zeroB3)
    else
      (accA3 (grid3.coords ⟨n + 1, hn⟩) (iblk3 V c 0 ⟨n + 1, hn⟩) (iblk3 V c 3 ⟨n + 1, hn⟩) (iblk3 V c 4 ⟨n + 1, hn⟩) (accAt3 c n (Nat.lt_of_succ_lt hn)).1,
       accB3 (grid3.coords ⟨n + 1, hn⟩) (iblk3 V c 1 ⟨n + 1, hn⟩) (iblk3 V c 3 ⟨n + 1, hn⟩) (iblk3 V c 4 ⟨n + 1, hn⟩) (accAt3 c n (Nat.lt_of_succ_lt hn)).2)

theorem accAt3_reset (c : Dev nD) (t : Fin cfg3.N) (h : t.val % 50 = 0) :
    accAt3 V c t.val t.isLt =
      (accA3 (grid3.coords t) (iblk3 V c 0 t) (iblk3 V c 3 t) (iblk3 V c 4 t) zeroA3,
       accB3 (grid3.coords t) (iblk3 V c 1 t) (iblk3 V c 3 t) (iblk3 V c 4 t) zeroB3) := by
  obtain ⟨n, hn⟩ := t
  cases n with
  | zero => exact rfl
  | succ n => exact (dif_pos h).trans rfl

theorem accAt3_step (c : Dev nD) (t : Fin cfg3.N) (h : ¬ t.val % 50 = 0) :
    accAt3 V c t.val t.isLt =
      (accA3 (grid3.coords t) (iblk3 V c 0 t) (iblk3 V c 3 t) (iblk3 V c 4 t) (accAt3 V c (t.val - 1) (Nat.lt_of_le_of_lt (Nat.sub_le _ _) t.isLt)).1,
       accB3 (grid3.coords t) (iblk3 V c 1 t) (iblk3 V c 3 t) (iblk3 V c 4 t) (accAt3 V c (t.val - 1) (Nat.lt_of_le_of_lt (Nat.sub_le _ _) t.isLt)).2) := by
  obtain ⟨n, hn⟩ := t
  cases n with
  | zero => exact absurd (Nat.zero_mod _) h
  | succ n => exact (dif_neg h).trans rfl

def outAt3 (c : Dev nD) (t : Fin cfg3.N) : Vec F S256x3200 .f32 :=
  outv3 (iblk3 V c 2 t) (accAt3 V c t.val t.isLt).1 (accAt3 V c t.val t.isLt).2

abbrev scA3 : Memref sig .tc .vmem S256x3200 .f32 := Memref.whole cc3_scratch0
abbrev scB3 : Memref sig .tc .vmem S256x3200 .f32 := Memref.whole cc3_scratch1

def PhiS3 (c : Dev nD) : (n : ℕ) → n ≤ cfg3.N → sProp 𝕄
  | 0, _ => Pipeline.ΦA spec3 c
  | n + 1, hn => iprop(iprop(iprop(owns (c : Thread nD τ) scA3 fullShare (accAt3 V c n hn).1 ∗ owns (c : Thread nD τ) scB3 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scA3 fullShare (accAt3 V c n hn).1 ∗ owns (c : Thread nD τ) scB3 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scA3 fullShare (accAt3 V c (n - 1) (by omega)).1 ∗ owns (c : Thread nD τ) scB3 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

theorem PhiA3_eq (c : Dev nD) :
    (Pipeline.ΦA spec3 c : sProp 𝕄)
      = iprop(iprop(iprop((∃ d, owns (c : Thread nD τ) scA3 fullShare d) ∗ (∃ d, owns (c : Thread nD τ) scB3 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scA3, scB3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3 V c 0]; try rfl) t d).trans
    (by unfold Dat.fetched Dat.blockOf iblk3; rw [A_eq3 V c 0]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3 V c 1]; try rfl) t d).trans
    (by unfold Dat.fetched Dat.blockOf iblk3; rw [A_eq3 V c 1]; try rfl)

theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3 V c 2]; try rfl) t d).trans
    (by unfold Dat.fetched Dat.blockOf iblk3; rw [A_eq3 V c 2]; try rfl)

theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3 V c 3]; try rfl) t d).trans
    (by unfold Dat.fetched Dat.blockOf iblk3; rw [A_eq3 V c 3]; try rfl)

theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3 V c 4]; try rfl) t d).trans
    (by unfold Dat.fetched Dat.blockOf iblk3; rw [A_eq3 V c 4]; try rfl)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl

theorem idleAt3_5 (t : Fin cfg3.N) (h : ¬ k3_cond2 (grid3.coords t) = 1#1) : cfg3.idle 5 (grid3.coords t) = true := by
  show (!(k3_cond2 (grid3.coords t) == 1#1)) = true
  simp only [Bool.not_eq_true', beq_eq_false_iff_ne, ne_eq]; exact h

theorem noFlush3_5 (t : Fin cfg3.N) (h : ¬ k3_cond2 (grid3.coords t) = 1#1) : (cfg3.win 5).flush t = false :=
  Bool.eq_false_iff.mpr fun hf => h ((hcond3_2 t).mpr ((flush3_5 t).mp hf))

theorem liveAt3_5 (t : Fin cfg3.N) (h : k3_cond2 (grid3.coords t) = 1#1) : cfg3.idle 5 (grid3.coords t) = false := by
  show (!(k3_cond2 (grid3.coords t) == 1#1)) = false
  rw [h]; rfl

abbrev ms3_0 (t : Fin cfg3.N) : Memref sig .tc .vmem S1x3200 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x3200 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x3200 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x1280 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x1280 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x3200 .f32 := win3_5.stage (cfg3.slots t 5)
abbrev hs3_5 (t : Fin cfg3.N) : (ms3_5 t).IsWhole := hstage3_5 ((cfg3.slots t 5).cast nbuf3_5)

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HA, HB⟩, HR⟩, Hg⟩
  isplitl [HA HB HR]
  · isplitl [HA HB]
    · isplitl [HA]
      · iexists _; iexact HA
      iexists _; iexact HB
    iexact HR
  iexact Hg

theorem Phi3_toA (c : Dev nD) (t : Fin (cfg3.N + 1)) : (dat3 V c).Φ t ⊢ Pipeline.ΦA spec3 c := by
  by_cases ht : t.val = 0
  · rw [show (dat3 V c).Φ t = PhiS3 V c t.val (Nat.le_of_lt_succ t.isLt) from rfl, PhiS3_zero V c _ _ ht]
    try exact Idealize.SL.BI.Entails.refl _
  · exact Phi3_out V c t ht

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 1000 := lt_of_lt_of_eq t.isLt (show cfg3.N = 1000 from N_3)
  by_cases h0 : t.val % 50 = 0
  · have h1 : ¬ t.val % 50 = 49 := by omega
    have hc1 : cond3_1 (grid3.coords t) := (hcond3_1 t).mpr h0
    have hc2 : ¬ k3_cond2 (grid3.coords t) = 1#1 := fun h => h1 ((hcond3_2 t).mp h)
    rw [Dat.leavesExact_idle (dat3 V c) 5 t (idleAt3_5 t hc2) (noFlush3_5 t hc2)]
    rw [accAt3_reset V c t h0]
    refine (sep_mono_left (Phi3_toA V c t.castSucc)).trans ?_
    rw [PhiA3_eq]
    iintro ⟨⟨⟨⟨⟨%dA, HA⟩, ⟨%dB, HB⟩⟩, HR⟩, Hg⟩, Ho, ⟨%d0, H0⟩, ⟨%d1, H1⟩, ⟨%d2, H2⟩, ⟨%d3, H3⟩, ⟨%d4, H4⟩, ⟨%d5, H5⟩⟩
    iapply (sound_kernel3_A (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (d7 := (dat3 V c).before 5 t d5))
    isplitl [H0]; · iexact H0
    isplitl [H1]; · iexact H1
    isplitl [H2]; · iexact H2
    isplitl [H3]; · iexact H3
    isplitl [H4]; · iexact H4
    isplitl [H5]; · iexact H5
    isplitl [HA]; · iexists _; iexact HA
    isplitl [HB]; · iexists _; iexact HB
    iintro ⟨H0, H1, H2, H3, H4, H5, HA, HB⟩
    isplitl [HA HB HR Hg]
    · isplitl [HA HB HR]
      · isplitl [HA HB]
        · isplitl [HA]; · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc1 : ¬ cond3_1 (grid3.coords t) := fun h => h0 ((hcond3_1 t).mp h)
    rw [accAt3_step V c t h0]
    rw [Phi3_castSucc V c t, PhiS3_pos V c _ _ hz]
    by_cases h1 : t.val % 50 = 49
    · have hc2 : k3_cond2 (grid3.coords t) = 1#1 := (hcond3_2 t).mpr h1
      rw [show (dat3 V c).leavesExact 5 t = owns (c : Thread nD τ) (ms3_5 t) fullShare ((dat3 V c).after 5 t) from by
        unfold Dat.leavesExact; rw [liveAt3_5 t hc2], after3_5]
      unfold outAt3
      rw [accAt3_step V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel3_C (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (a := (accAt3 V c (t.val - 1) (Nat.lt_of_le_of_lt (Nat.sub_le _ _) t.isLt)).1) (b := (accAt3 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k3_cond2 (grid3.coords t) = 1#1 := fun h => h1 ((hcond3_2 t).mp h)
      rw [Dat.leavesExact_idle (dat3 V c) 5 t (idleAt3_5 t hc2) (noFlush3_5 t hc2)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (sound_kernel3_B (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scA3) (harg8 := Memref.isWhole_whole _) (arg9 := scB3) (harg9 := Memref.isWhole_whole _) (x2 := iblk3 V c 0 t) (x3 := iblk3 V c 1 t) (x4 := iblk3 V c 2 t) (x5 := iblk3 V c 3 t) (x6 := iblk3 V c 4 t) (E := Set.univ) (K := _) (hc1 := hc1) (hc2 := hc2) (d7 := (dat3 V c).before 5 t d5) (a := (accAt3 V c (t.val - 1) (Nat.lt_of_le_of_lt (Nat.sub_le _ _) t.isLt)).1) (b := (accAt3 V c (t.val - 1) (Nat.lt_of_le_of_lt (Nat.sub_le _ _) t.isLt)).2))
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]; · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  Phi3_toA V c _

end

end Cert.KernelIdeal.Hand

end
-- ==== Proof.KI.ValueCond.lean ====
import proofs.«413321_j24653112279275_3_alg».proof.Proof.Gen.KernelIdeal.Regions

set_option maxRecDepth 1176

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v83) = V9 m outs c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => s.mem ((c.tc : Thread nD τ).loc main_v83) = V9 m outs c main_v83 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v83) (Finset.mem_filter.mpr ⟨StableHlo.devRef_mem_tcRefs main_v83, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c),
        (h (Proc.devRef .tc main_arg12) (Finset.mem_filter.mpr ⟨StableHlo.devRef_mem_tcRefs main_arg12, by decide⟩)).trans (V9_main_arg12 m outs c)⟩
    · iexact HSI

end Cert.KernelIdeal.Hand

end
-- ==== Proof.KI.Reg.lean ====
import proofs.«413321_j24653112279275_3_alg».proof.Proof.KI.Dat0
import proofs.«413321_j24653112279275_3_alg».proof.Proof.KI.Dat1
import proofs.«413321_j24653112279275_3_alg».proof.Proof.KI.Dat2
import proofs.«413321_j24653112279275_3_alg».proof.Proof.KI.Dat3
import proofs.«413321_j24653112279275_3_alg».proof.Proof.KI.ValueCond
import proofs.«413321_j24653112279275_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev LL : GSem nD τ sig → Finset Unit := fun _ => ∅
abbrev lvv : GSem nD τ sig → Unit → ℕ := fun _ _ => 0
abbrev Rr (c : Dev nD) : sProp 𝕄 := iprop((∃ r, prngReg c r) ∗ ∃ W, owes (c : Thread nD τ) (0 : CellTallies nD τ sig Unit) W)

abbrev En0 (c : Dev nD) (b : Ref sig .tc) : Buf (Elt F) ((c : Thread nD τ).loc b) := V1 m c b
def W2 (c : Dev nD) : Valuation τ sig (Elt F) :=
  Pipeline.withArrays spec0 c (V1 m c) fun w => (dat0 (En0 m) c).arrAt w cfg0.N
def outsA : Outs (F := F) := fun J r c => match J with
  | 2 => W2 m c r
  | _ => m ((c : Thread nD τ).loc r)

abbrev En1 (c : Dev nD) (b : Ref sig .tc) : Buf (Elt F) ((c : Thread nD τ).loc b) := V3 m (outsA m) c b
def W4 (c : Dev nD) : Valuation τ sig (Elt F) :=
  Pipeline.withArrays spec1 c (V3 m (outsA m) c) fun w => (dat1 (En1 m) c).arrAt w cfg1.N
def outsB : Outs (F := F) := fun J r c => match J with
  | 2 => W2 m c r
  | 4 => W4 m c r
  | _ => m ((c : Thread nD τ).loc r)

abbrev En2 (c : Dev nD) (b : Ref sig .tc) : Buf (Elt F) ((c : Thread nD τ).loc b) := V5 m (outsB m) c b
def W6 (c : Dev nD) : Valuation τ sig (Elt F) :=
  Pipeline.withArrays spec2 c (V5 m (outsB m) c) fun w => (dat2 (En2 m) c).arrAt w cfg2.N
def outsC : Outs (F := F) := fun J r c => match J with
  | 2 => W2 m c r
  | 4 => W4 m c r
  | 6 => W6 m c r
  | _ => m ((c : Thread nD τ).loc r)

abbrev En3 (c : Dev nD) (b : Ref sig .tc) : Buf (Elt F) ((c : Thread nD τ).loc b) := V7 m (outsC m) c b
def W8 (c : Dev nD) : Valuation τ sig (Elt F) :=
  Pipeline.withArrays spec3 c (V7 m (outsC m) c) fun w => (dat3 (En3 m) c).arrAt w cfg3.N
def outsD : Outs (F := F) := fun J r c => match J with
  | 2 => W2 m c r
  | 4 => W4 m c r
  | 6 => W6 m c r
  | 8 => W8 m c r
  | _ => m ((c : Thread nD τ).loc r)

def pdats : (p : Fin 4) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c

theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w

theorem V2_out (c : Dev nD) : V2 m (outsA m) c main_v19 = W2 m c main_v19 := by
  simp only [V2, Function.update_self]; rfl

theorem hF0_0 (c : Dev nD) : (pdats m 0 c).arrAt 0 cfg0.N = V2 m (outsA m) c main_v13 :=
  (((pdats m 0 c).arrAt_in 0 rfl _).trans (A_eq0 (En0 m) c 0)).trans (V2_of m (outsA m) c main_v13 (by decide)).symm
theorem hF0_1 (c : Dev nD) : (pdats m 0 c).arrAt 1 cfg0.N = V2 m (outsA m) c main_v14 :=
  (((pdats m 0 c).arrAt_in 1 rfl _).trans (A_eq0 (En0 m) c 1)).trans (V2_of m (outsA m) c main_v14 (by decide)).symm
theorem hF0_2 (c : Dev nD) : (pdats m 0 c).arrAt 2 cfg0.N = V2 m (outsA m) c main_v12 :=
  (((pdats m 0 c).arrAt_in 2 rfl _).trans (A_eq0 (En0 m) c 2)).trans (V2_of m (outsA m) c main_v12 (by decide)).symm
theorem hF0_3 (c : Dev nD) : (pdats m 0 c).arrAt 3 cfg0.N = V2 m (outsA m) c main_v15 :=
  (((pdats m 0 c).arrAt_in 3 rfl _).trans (A_eq0 (En0 m) c 3)).trans (V2_of m (outsA m) c main_v15 (by decide)).symm
theorem hF0_4 (c : Dev nD) : (pdats m 0 c).arrAt 4 cfg0.N = V2 m (outsA m) c main_v18 :=
  (((pdats m 0 c).arrAt_in 4 rfl _).trans (A_eq0 (En0 m) c 4)).trans (V2_of m (outsA m) c main_v18 (by decide)).symm
theorem hF0_5 (c : Dev nD) : (pdats m 0 c).arrAt 5 cfg0.N = V2 m (outsA m) c main_v19 :=
  (W2_arr m c 5).symm.trans (V2_out m c).symm

set_option maxHeartbeats 1000000 in
theorem hF0 (c : Dev nD) (w : Fin cfg0.W) : (pdats m 0 c).arrAt w cfg0.N = V2 m (outsA m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
theorem hrest0 (c : Dev nD) : ∀ b, b ∉ Finset.univ.image (Pipeline.arrRef spec0) → V2 m (outsA m) c b = En0 m c b :=
  fun b hb => V2_of m (outsA m) c b (by
    intro h; exact hb (Finset.mem_image.mpr ⟨5, Finset.mem_univ _, (List.mem_singleton.mp h).symm⟩))

theorem W4_arr (c : Dev nD) (w : Fin cfg1.W) :
    W4 m c (Proc.devRef .tc (Pipeline.arrRef spec1 w)) = (dat1 (En1 m) c).arrAt w cfg1.N := by
  unfold W4; exact Pipeline.withArrays_arr spec1 launch1.win.arr_inj c _ _ w

theorem V4_out (c : Dev nD) : V4 m (outsB m) c main_v39 = W4 m c main_v39 := by
  simp only [V4, Function.update_self]; rfl

theorem hF1_0 (c : Dev nD) : (pdats m 1 c).arrAt 0 cfg1.N = V4 m (outsB m) c main_v33 :=
  (((pdats m 1 c).arrAt_in 0 rfl _).trans (A_eq1 (En1 m) c 0)).trans (V4_of m (outsB m) c main_v33 (by decide)).symm
theorem hF1_1 (c : Dev nD) : (pdats m 1 c).arrAt 1 cfg1.N = V4 m (outsB m) c main_v34 :=
  (((pdats m 1 c).arrAt_in 1 rfl _).trans (A_eq1 (En1 m) c 1)).trans (V4_of m (outsB m) c main_v34 (by decide)).symm
theorem hF1_2 (c : Dev nD) : (pdats m 1 c).arrAt 2 cfg1.N = V4 m (outsB m) c main_v32 :=
  (((pdats m 1 c).arrAt_in 2 rfl _).trans (A_eq1 (En1 m) c 2)).trans (V4_of m (outsB m) c main_v32 (by decide)).symm
theorem hF1_3 (c : Dev nD) : (pdats m 1 c).arrAt 3 cfg1.N = V4 m (outsB m) c main_v35 :=
  (((pdats m 1 c).arrAt_in 3 rfl _).trans (A_eq1 (En1 m) c 3)).trans (V4_of m (outsB m) c main_v35 (by decide)).symm
theorem hF1_4 (c : Dev nD) : (pdats m 1 c).arrAt 4 cfg1.N = V4 m (outsB m) c main_v38 :=
  (((pdats m 1 c).arrAt_in 4 rfl _).trans (A_eq1 (En1 m) c 4)).trans (V4_of m (outsB m) c main_v38 (by decide)).symm
theorem hF1_5 (c : Dev nD) : (pdats m 1 c).arrAt 5 cfg1.N = V4 m (outsB m) c main_v39 :=
  (W4_arr m c 5).symm.trans (V4_out m c).symm

set_option maxHeartbeats 1000000 in
theorem hF1 (c : Dev nD) (w : Fin cfg1.W) : (pdats m 1 c).arrAt w cfg1.N = V4 m (outsB m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → V4 m (outsB m) c b = En1 m c b :=
  fun b hb => V4_of m (outsB m) c b (by
    intro h; exact hb (Finset.mem_image.mpr ⟨5, Finset.mem_univ _, (List.mem_singleton.mp h).symm⟩))

theorem W6_arr (c : Dev nD) (w : Fin cfg2.W) :
    W6 m c (Proc.devRef .tc (Pipeline.arrRef spec2 w)) = (dat2 (En2 m) c).arrAt w cfg2.N := by
  unfold W6; exact Pipeline.withArrays_arr spec2 launch2.win.arr_inj c _ _ w

theorem V6_out (c : Dev nD) : V6 m (outsC m) c main_v59 = W6 m c main_v59 := by
  simp only [V6, Function.update_self]; rfl

theorem hF2_0 (c : Dev nD) : (pdats m 2 c).arrAt 0 cfg2.N = V6 m (outsC m) c main_v53 :=
  (((pdats m 2 c).arrAt_in 0 rfl _).trans (A_eq2 (En2 m) c 0)).trans (V6_of m (outsC m) c main_v53 (by decide)).symm
theorem hF2_1 (c : Dev nD) : (pdats m 2 c).arrAt 1 cfg2.N = V6 m (outsC m) c main_v54 :=
  (((pdats m 2 c).arrAt_in 1 rfl _).trans (A_eq2 (En2 m) c 1)).trans (V6_of m (outsC m) c main_v54 (by decide)).symm
theorem hF2_2 (c : Dev nD) : (pdats m 2 c).arrAt 2 cfg2.N = V6 m (outsC m) c main_v52 :=
  (((pdats m 2 c).arrAt_in 2 rfl _).trans (A_eq2 (En2 m) c 2)).trans (V6_of m (outsC m) c main_v52 (by decide)).symm
theorem hF2_3 (c : Dev nD) : (pdats m 2 c).arrAt 3 cfg2.N = V6 m (outsC m) c main_v55 :=
  (((pdats m 2 c).arrAt_in 3 rfl _).trans (A_eq2 (En2 m) c 3)).trans (V6_of m (outsC m) c main_v55 (by decide)).symm
theorem hF2_4 (c : Dev nD) : (pdats m 2 c).arrAt 4 cfg2.N = V6 m (outsC m) c main_v58 :=
  (((pdats m 2 c).arrAt_in 4 rfl _).trans (A_eq2 (En2 m) c 4)).trans (V6_of m (outsC m) c main_v58 (by decide)).symm
theorem hF2_5 (c : Dev nD) : (pdats m 2 c).arrAt 5 cfg2.N = V6 m (outsC m) c main_v59 :=
  (W6_arr m c 5).symm.trans (V6_out m c).symm

set_option maxHeartbeats 1000000 in
theorem hF2 (c : Dev nD) (w : Fin cfg2.W) : (pdats m 2 c).arrAt w cfg2.N = V6 m (outsC m) c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
theorem hrest2 (c : Dev nD) : ∀ b, b ∉ Finset.univ.image (Pipeline.arrRef spec2) → V6 m (outsC m) c b = En2 m c b :=
  fun b hb => V6_of m (outsC m) c b (by
    intro h; exact hb (Finset.mem_image.mpr ⟨5, Finset.mem_univ _, (List.mem_singleton.mp h).symm⟩))

theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w

theorem V8_out (c : Dev nD) : V8 m (outsD m) c main_v79 = W8 m c main_v79 := by
  simp only [V8, Function.update_self]; rfl

theorem hF3_0 (c : Dev nD) : (pdats m 3 c).arrAt 0 cfg3.N = V8 m (outsD m) c main_v73 :=
  (((pdats m 3 c).arrAt_in 0 rfl _).trans (A_eq3 (En3 m) c 0)).trans (V8_of m (outsD m) c main_v73 (by decide)).symm
theorem hF3_1 (c : Dev nD) : (pdats m 3 c).arrAt 1 cfg3.N = V8 m (outsD m) c main_v74 :=
  (((pdats m 3 c).arrAt_in 1 rfl _).trans (A_eq3 (En3 m) c 1)).trans (V8_of m (outsD m) c main_v74 (by decide)).symm
theorem hF3_2 (c : Dev nD) : (pdats m 3 c).arrAt 2 cfg3.N = V8 m (outsD m) c main_v72 :=
  (((pdats m 3 c).arrAt_in 2 rfl _).trans (A_eq3 (En3 m) c 2)).trans (V8_of m (outsD m) c main_v72 (by decide)).symm
theorem hF3_3 (c : Dev nD) : (pdats m 3 c).arrAt 3 cfg3.N = V8 m (outsD m) c main_v75 :=
  (((pdats m 3 c).arrAt_in 3 rfl _).trans (A_eq3 (En3 m) c 3)).trans (V8_of m (outsD m) c main_v75 (by decide)).symm
theorem hF3_4 (c : Dev nD) : (pdats m 3 c).arrAt 4 cfg3.N = V8 m (outsD m) c main_v78 :=
  (((pdats m 3 c).arrAt_in 4 rfl _).trans (A_eq3 (En3 m) c 4)).trans (V8_of m (outsD m) c main_v78 (by decide)).symm
theorem hF3_5 (c : Dev nD) : (pdats m 3 c).arrAt 5 cfg3.N = V8 m (outsD m) c main_v79 :=
  (W8_arr m c 5).symm.trans (V8_out m c).symm

set_option maxHeartbeats 1000000 in
theorem hF3 (c : Dev nD) (w : Fin cfg3.W) : (pdats m 3 c).arrAt w cfg3.N = V8 m (outsD m) c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
theorem hrest3 (c : Dev nD) : ∀ b, b ∉ Finset.univ.image (Pipeline.arrRef spec3) → V8 m (outsD m) c b = En3 m c b :=
  fun b hb => V8_of m (outsD m) c b (by
    intro h; exact hb (Finset.mem_image.mpr ⟨5, Finset.mem_univ _, (List.mem_singleton.mp h).symm⟩))

set_option backward.isDefEq.respectTransparency.types false in
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ LL lvv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsA m) c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (En0 m) c)
    unfold Pipeline.ΦA
    iintro ⟨Hp, -, Hr⟩
    isplitl [Hr]; · iexact Hr
    iexact Hp
  hout c := by
    rw [Pipeline.ownSems0_none]
    refine BIBase.Entails.trans (hout0 (En0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => V2 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ LL lvv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsB m) c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En1 m) c)
    unfold Pipeline.ΦA
    iintro ⟨Hp, -, Hr⟩
    isplitl [Hr]; · iexact Hr
    iexact Hp
  hout c := by
    rw [Pipeline.ownSems0_none]
    refine BIBase.Entails.trans (hout1 (En1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => V4 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ LL lvv 2 fun _ _ => rfl
  pre c := iprop(StableHlo.held (c : Thread nD τ) (Pipeline.ucRefs τ sig) (V5 m (outsB m) c) ∗ Rr c)
  post c := iprop(StableHlo.held (c : Thread nD τ) (Pipeline.ucRefs τ sig) (V6 m (outsC m) c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (En2 m) c)
    unfold Pipeline.ΦA
    iintro ⟨Hp, -, Hr⟩
    isplitl [Hr]; · iexact Hr
    iexact Hp
  hout c := by
    rw [Pipeline.ownSems0_none]
    refine BIBase.Entails.trans (hout2 (En2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b => V6 m (outsC m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ LL lvv 3 fun _ _ => rfl
  pre c := iprop(StableHlo.held (c : Thread nD τ) (Pipeline.ucRefs τ sig) (V7 m (outsC m) c) ∗ Rr c)
  post c := iprop(StableHlo.held (c : Thread nD τ) (Pipeline.ucRefs τ sig) (V8 m (outsD m) c) ∗ Rr c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (En3 m) c)
    unfold Pipeline.ΦA
    iintro ⟨Hp, -, Hr⟩
    isplitl [Hr]; · iexact Hr
    iexact Hp
  hout c := by
    rw [Pipeline.ownSems0_none]
    refine BIBase.Entails.trans (hout3 (En3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (fun b => V8 m (outsD m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v83) = V9 m (outsD m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  value_cond m emb₁ () Variants.none LL lvv (fun _ _ => rfl) ρ (outsD m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach LL lvv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_main m ρ)

end Cert.KernelIdeal.Hand

end
-- ==== Proof.KI.Pay0.lean ====
import proofs.«413321_j24653112279275_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

def oh0 (i : grid0.Coords) (ia : Vec Ideal S1x3200 .i32) (d : Fin 1024) (n : Fin 3200) : EReal :=
  if BitVec.ofNat 32 d.val = ia (ix2 0 n) - Scalar.muli (BitVec.ofNat 32 (i 1).val) 1024#32 then 1 else 0

theorem pay3_apply_r0 (y : S256x3200.Idx) : k0_pay3 (F := Ideal) y = ((0 : ℝ) : EReal) := by
  unfold k0_pay3
  rw [shapeCast_self]
  show Ideal.ofBits .f32 0x00000000#32 = _
  rw [Ideal.ofBits_zero_f32]
  exact EReal.coe_zero.symm

theorem pay4_apply_r0 (y : S256x3200.Idx) : k0_pay4 (F := Ideal) y = ((0 : ℝ) : EReal) := by
  unfold k0_pay4
  rw [shapeCast_self]
  show Ideal.ofBits .f32 0x00000000#32 = _
  rw [Ideal.ofBits_zero_f32]
  exact EReal.coe_zero.symm

theorem pay2_apply_r0 (c0 c1 c2 c3 : Vec Ideal S1x3200 .f32) (a bb : Vec Ideal S256x3200 .f32) (b : Fin 256) (n : Fin 3200) :
    k0_pay2 (F := Ideal) c0 c1 c2 c3 a bb (ix2 b n)
      = c0 (ix2 0 n) + c1 (ix2 0 n) * a (ix2 b n) + c2 (ix2 0 n) * bb (ix2 b n) + c3 (ix2 0 n) * (a (ix2 b n) * bb (ix2 b n)) := by
  unfold k0_pay2
  simp only [shapeCast_self]
  simp only [addf_apply, mulf_apply, broadcastTo_1b_ab_apply]

theorem dot0_contr_rank : dot_S512x1024_S1024x3200_S512x3200_1_0_0_1_n_n.contr.rank = 1 := rfl

theorem lhs_dot0_0 (j : S512x3200.Idx) (k : dot_S512x1024_S1024x3200_S512x3200_1_0_0_1_n_n.contr.Idx) :
    (dot_S512x1024_S1024x3200_S512x3200_1_0_0_1_n_n.lhsIdx j k 0).val = (j 0).val := by
  simp [DotDims.lhsIdx, dot_S512x1024_S1024x3200_S512x3200_1_0_0_1_n_n]
  rfl

theorem lhs_dot0_1 (j : S512x3200.Idx) (k : dot_S512x1024_S1024x3200_S512x3200_1_0_0_1_n_n.contr.Idx) :
    (dot_S512x1024_S1024x3200_S512x3200_1_0_0_1_n_n.lhsIdx j k 1).val = (k ⟨0, by decide⟩).val :=
  DotDims.lhsIdx_val_of_single dot_S512x1024_S1024x3200_S512x3200_1_0_0_1_n_n rfl j k

theorem rhs_dot0_0 (j : S512x3200.Idx) (k : dot_S512x1024_S1024x3200_S512x3200_1_0_0_1_n_n.contr.Idx) :
    (dot_S512x1024_S1024x3200_S512x3200_1_0_0_1_n_n.rhsIdx j k 0).val = (k ⟨0, by decide⟩).val :=
  DotDims.rhsIdx_val_of_single dot_S512x1024_S1024x3200_S512x3200_1_0_0_1_n_n rfl j k

theorem rhs_dot0_1 (j : S512x3200.Idx) (k : dot_S512x1024_S1024x3200_S512x3200_1_0_0_1_n_n.contr.Idx) :
    (dot_S512x1024_S1024x3200_S512x3200_1_0_0_1_n_n.rhsIdx j k 1).val = (j 1).val := by
  simp [DotDims.rhsIdx, dot_S512x1024_S1024x3200_S512x3200_1_0_0_1_n_n]
  rfl

theorem matmul0_apply (A : FVec Ideal S512x1024 .bf16) (B : FVec Ideal S1024x3200 .bf16) (p : Fin 512) (q : Fin 3200) :
    matmul dot_S512x1024_S1024x3200_S512x3200_1_0_0_1_n_n none A B (constant (F := Ideal) S512x3200 .f32 0x00000000#32) (ix2 p q)
      = ∑ d : Fin 1024, A (ix2 p d) * B (ix2 d q) := by
  show FloatOps.matmul dot_S512x1024_S1024x3200_S512x3200_1_0_0_1_n_n none A B (constant (F := Ideal) S512x3200 .f32 0x00000000#32) (ix2 p q) = _
  rw [Ideal.matmul_constant_zero_apply,
    ← Equiv.sum_comp (contrEquiv1 dot_S512x1024_S1024x3200_S512x3200_1_0_0_1_n_n 1024 rfl rfl).symm]
  refine Finset.sum_congr rfl fun c _ => ?_
  have c2 := contrEquiv1_symm_val dot_S512x1024_S1024x3200_S512x3200_1_0_0_1_n_n 1024 rfl rfl c
  have l2 : dot_S512x1024_S1024x3200_S512x3200_1_0_0_1_n_n.lhsIdx (ix2 p q)
      ((contrEquiv1 dot_S512x1024_S1024x3200_S512x3200_1_0_0_1_n_n 1024 rfl rfl).symm c) = ix2 p c := by
    funext ax; apply Fin.ext
    match ax with
    | ⟨0, _⟩ => exact lhs_dot0_0 _ _
    | ⟨1, _⟩ => exact (lhs_dot0_1 _ _).trans c2
  have r2 : dot_S512x1024_S1024x3200_S512x3200_1_0_0_1_n_n.rhsIdx (ix2 p q)
      ((contrEquiv1 dot_S512x1024_S1024x3200_S512x3200_1_0_0_1_n_n 1024 rfl rfl).symm c) = ix2 c q := by
    funext ax; apply Fin.ext
    match ax with
    | ⟨0, _⟩ => exact (rhs_dot0_0 _ _).trans c2
    | ⟨1, _⟩ => exact rhs_dot0_1 _ _
  rw [l2, r2]

theorem sitofp_cmpi_eq_r0 (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    simp [IntOp.cmpi]
  · have hb : (x == y) = false := by simpa using h
    simp [IntOp.cmpi, hb, h]

def ohv_r0 (i : grid0.Coords) (ia : Vec Ideal S1x3200 .i32) : FVec Ideal S1024x3200 .bf16 :=
  truncf .bf16 (sitofp .f32 (extui 32 (cmpi .eq (iota .tc S1024x3200 32 [0] iota_S1024x3200_d0_w32)
    (broadcastTo S1024x3200 (subi (shapeCast S1x3200 ia shapeCasts_S1x3200_S1x3200)
      (broadcast S1x3200 (Scalar.muli (BitVec.ofNat 32 (i 1).val) 1024#32))) broadcasts_S1x3200_S1024x3200)) natLt_1_32)
    : FVec Ideal S1024x3200 .f32) bitsLt_bf16_f32

theorem ohv_apply_r0 (i : grid0.Coords) (ia : Vec Ideal S1x3200 .i32) (d : Fin 1024) (n : Fin 3200) :
    ohv_r0 i ia (ix2 d n) = oh0 i ia d n := by
  unfold ohv_r0 oh0
  rw [truncf_apply, sitofp_apply, extui_apply]
  show FloatOps.sitofp (F := Ideal) .f32 ((IntOp.cmpi .eq (iota .tc S1024x3200 32 [0] iota_S1024x3200_d0_w32 (ix2 d n))
    (broadcastTo S1024x3200 (subi (shapeCast S1x3200 ia shapeCasts_S1x3200_S1x3200)
      (broadcast S1x3200 (Scalar.muli (BitVec.ofNat 32 (i 1).val) 1024#32))) broadcasts_S1x3200_S1024x3200 (ix2 d n))).setWidth 32) = _
  rw [sitofp_cmpi_eq_r0, iota_single_apply, broadcastTo_1b_ab_apply, shapeCast_self]
  rfl

theorem pay5_top_r0 (xh xl : Vec Ideal S256x1024 .bf16) (b : Fin 256) (d : Fin 1024) (p : Fin 512) (hp : p.val = b.val) :
    k0_pay5 (F := Ideal) xh xl (ix2 p d) = xh (ix2 b d) := by
  unfold k0_pay5
  simp only [shapeCast_self]
  exact concatenate_pair_apply_left 0 xh xl _ (ix2 p d) rfl (ix2 b d)
    (fun ax => by match ax with | ⟨0, _⟩ => exact hp.symm | ⟨1, _⟩ => rfl)

theorem pay5_bot_r0 (xh xl : Vec Ideal S256x1024 .bf16) (b : Fin 256) (d : Fin 1024) (p : Fin 512) (hp : p.val = 256 + b.val) :
    k0_pay5 (F := Ideal) xh xl (ix2 p d) = xl (ix2 b d) := by
  unfold k0_pay5
  simp only [shapeCast_self]
  exact concatenate_pair_apply_right 0 xh xl _ (ix2 p d) rfl rfl (ix2 b d)
    (fun ax hne => by match ax with | ⟨0, _⟩ => exact absurd rfl hne | ⟨1, _⟩ => rfl)
    (by show b.val + 256 = p.val; omega)

def prod0 (i : grid0.Coords) (ia : Vec Ideal S1x3200 .i32) (xh xl : Vec Ideal S256x1024 .bf16) : FVec Ideal S512x3200 .f32 :=
  matmul dot_S512x1024_S1024x3200_S512x3200_1_0_0_1_n_n none (k0_pay5 (F := Ideal) xh xl) (ohv_r0 i ia)
    (constant (F := Ideal) S512x3200 .f32 0x00000000#32)

theorem pay6_eq_r0 (i : grid0.Coords) (ib : Vec Ideal S1x3200 .i32) (xh xl : Vec Ideal S256x1024 .bf16) :
    k0_pay6 (F := Ideal) i ib xh xl = prod0 i ib xh xl := rfl

theorem prod0_top (i : grid0.Coords) (ia : Vec Ideal S1x3200 .i32) (xh xl : Vec Ideal S256x1024 .bf16)
    (b : Fin 256) (n : Fin 3200) (p : Fin 512) (hp : p.val = b.val) :
    prod0 i ia xh xl (ix2 p n) = ∑ d : Fin 1024, xh (ix2 b d) * oh0 i ia d n := by
  unfold prod0
  rw [matmul0_apply]
  exact Finset.sum_congr rfl fun d _ => by rw [pay5_top_r0 xh xl b d p hp, ohv_apply_r0]

theorem prod0_bot (i : grid0.Coords) (ia : Vec Ideal S1x3200 .i32) (xh xl : Vec Ideal S256x1024 .bf16)
    (b : Fin 256) (n : Fin 3200) (p : Fin 512) (hp : p.val = 256 + b.val) :
    prod0 i ia xh xl (ix2 p n) = ∑ d : Fin 1024, xl (ix2 b d) * oh0 i ia d n := by
  unfold prod0
  rw [matmul0_apply]
  exact Finset.sum_congr rfl fun d _ => by rw [pay5_bot_r0 xh xl b d p hp, ohv_apply_r0]

theorem halves_apply_r0 (v : FVec Ideal S512x3200 .f32) (b : Fin 256) (n : Fin 3200) :
    addf (extractStridedSlice S256x3200 ![0, 0] v slices_S512x3200_o0_0_S256x3200)
        (extractStridedSlice S256x3200 ![256, 0] v slices_S512x3200_o256_0_S256x3200) (ix2 b n)
      = v (ix2 (⟨b.val, by omega⟩ : Fin 512) n) + v (ix2 (⟨256 + b.val, by omega⟩ : Fin 512) n) := by
  rw [addf_apply, slice2_axis0_apply 0 v _ b n ⟨b.val, by omega⟩ (by simp),
    slice2_axis0_apply 256 v _ b n ⟨256 + b.val, by omega⟩ rfl]

theorem pay7_eq_r0 (i : grid0.Coords) (ia : Vec Ideal S1x3200 .i32) (xh xl : Vec Ideal S256x1024 .bf16) (a : Vec Ideal S256x3200 .f32) :
    k0_pay7 (F := Ideal) i ia xh xl a
      = addf a (addf (extractStridedSlice S256x3200 ![0, 0] (prod0 i ia xh xl) slices_S512x3200_o0_0_S256x3200)
          (extractStridedSlice S256x3200 ![256, 0] (prod0 i ia xh xl) slices_S512x3200_o256_0_S256x3200)) := by
  unfold k0_pay7 prod0 ohv_r0
  exact shapeCast_self _ _

theorem pay1_eq_r0 (v : FVec Ideal S512x3200 .f32) (a : Vec Ideal S256x3200 .f32) :
    k0_pay1 (F := Ideal) v a
      = addf a (addf (extractStridedSlice S256x3200 ![0, 0] v slices_S512x3200_o0_0_S256x3200)
          (extractStridedSlice S256x3200 ![256, 0] v slices_S512x3200_o256_0_S256x3200)) := by
  unfold k0_pay1
  exact shapeCast_self _ _

theorem pay7_apply_r0 (i : grid0.Coords) (ia : Vec Ideal S1x3200 .i32) (xh xl : Vec Ideal S256x1024 .bf16)
    (a : Vec Ideal S256x3200 .f32) (b : Fin 256) (n : Fin 3200) :
    k0_pay7 (F := Ideal) i ia xh xl a (ix2 b n)
      = a (ix2 b n) + ((∑ d : Fin 1024, xh (ix2 b d) * oh0 i ia d n) + (∑ d : Fin 1024, xl (ix2 b d) * oh0 i ia d n)) := by
  rw [pay7_eq_r0, addf_apply, halves_apply_r0, prod0_top i ia xh xl b n _ rfl, prod0_bot i ia xh xl b n _ rfl]

theorem pay16_apply_r0 (i : grid0.Coords) (ib : Vec Ideal S1x3200 .i32) (xh xl : Vec Ideal S256x1024 .bf16)
    (bacc : Vec Ideal S256x3200 .f32) (b : Fin 256) (n : Fin 3200) :
    k0_pay1 (F := Ideal) (k0_pay6 i ib xh xl) bacc (ix2 b n)
      = bacc (ix2 b n) + ((∑ d : Fin 1024, xh (ix2 b d) * oh0 i ib d n) + (∑ d : Fin 1024, xl (ix2 b d) * oh0 i ib d n)) := by
  rw [pay6_eq_r0, pay1_eq_r0, addf_apply, halves_apply_r0, prod0_top i ib xh xl b n _ rfl, prod0_bot i ib xh xl b n _ rfl]

end Cert.KernelIdeal.Hand
-- ==== Proof.LibReal.lean ====
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

def IsReal (x : EReal) : Prop := ∃ r : ℝ, x = (r : EReal)

def IsPosReal (x : EReal) : Prop := ∃ r : ℝ, 0 < r ∧ x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.ne_bot {x : EReal} (hx : IsReal x) : x ≠ ⊥ := by
  obtain ⟨r, rfl⟩ := hx; exact EReal.coe_ne_bot r

theorem IsReal.ne_top {x : EReal} (hx : IsReal x) : x ≠ ⊤ := by
  obtain ⟨r, rfl⟩ := hx; exact EReal.coe_ne_top r

theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

theorem IsPosReal.isReal {x : EReal} (hx : IsPosReal x) : IsReal x := by
  obtain ⟨r, _, rfl⟩ := hx; exact ⟨r, rfl⟩

theorem IsPosReal.pos {x : EReal} (hx : IsPosReal x) : 0 < x := by
  obtain ⟨r, hr, rfl⟩ := hx; exact EReal.coe_pos.mpr hr

theorem IsPosReal.ne_zero {x : EReal} (hx : IsPosReal x) : x ≠ 0 := hx.pos.ne'

theorem isPosReal_coe {r : ℝ} (hr : 0 < r) : IsPosReal (r : EReal) := ⟨r, hr, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) :
    IsReal (∑ i, f i) :=
  IsReal.sum Finset.univ f fun i _ => h i

theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div_coe {x : EReal} (hx : IsReal x) {b : ℝ} (hb : b ≠ 0) : IsReal (Ideal.div x (b : EReal)) := by
  obtain ⟨a, rfl⟩ := hx; exact ⟨a / b, div_coe_coe a hb⟩

theorem IsReal.div {x y : EReal} (hx : IsReal x) (hy : IsReal y) (hy0 : y ≠ 0) : IsReal (Ideal.div x y) := by
  obtain ⟨b, rfl⟩ := hy
  exact hx.div_coe (EReal.coe_ne_zero.mp hy0)

theorem IsReal.div_pos {x y : EReal} (hx : IsReal x) (hy : IsPosReal y) : IsReal (Ideal.div x y) :=
  hx.div hy.isReal hy.ne_zero

theorem IsReal.exp_pos {x : EReal} (hx : IsReal x) : IsPosReal (Ideal.exp x) := by
  obtain ⟨a, rfl⟩ := hx; exact ⟨Real.exp a, Real.exp_pos a, Ideal.exp_coe a⟩

theorem IsReal.exp {x : EReal} (hx : IsReal x) : IsReal (Ideal.exp x) := hx.exp_pos.isReal

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

theorem ofBits_zero : Ideal.ofBits .f32 0x00000000#32 = ((0 : ℝ) : EReal) := by
  rw [Ideal.ofBits_zero_f32, EReal.coe_zero]

theorem isReal_ofBits_zero : IsReal (Ideal.ofBits .f32 0x00000000#32) := ⟨0, ofBits_zero⟩

theorem ofBits_524288 : Ideal.ofBits .f32 0x49000000#32 = ((524288 : ℝ) : EReal) := by
  simp [Ideal.ofBits, Ideal.ieee, -EReal.coe_mul]; norm_num

theorem real_524288_ne_zero : (524288 : ℝ) ≠ 0 := by norm_num

theorem ofBits_pos_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

end Cert.LibReal

end
-- ==== Proof.Spec.Gather.lean ====
import proofs.«413321_j24653112279275_3_alg».proof.Proof.LibReal
import Idealize.ShloMosaic.PureOps.Ideal
import Mathlib.Data.EReal.Operations
import Mathlib.Algebra.BigOperators.Group.Finset.Basic

noncomputable section

namespace Cert.Spec

open Cert.LibReal
open scoped BigOperators

theorem sub_self_of_isReal {x : EReal} (hx : IsReal x) : x - x = 0 := by
  obtain ⟨r, rfl⟩ := hx
  rw [← EReal.coe_sub, sub_self, EReal.coe_zero]

theorem sum_mul_indicator {n : ℕ} (r : Fin n → EReal) (k : ℕ) :
    (∑ d : Fin n, r d * (if d.val = k then (1 : EReal) else 0)) = if h : k < n then r ⟨k, h⟩ else 0 := by
  by_cases h : k < n
  · rw [dif_pos h, Finset.sum_eq_single (⟨k, h⟩ : Fin n)]
    · rw [if_pos rfl, mul_one]
    · intro d _ hd
      have hne : d.val ≠ k := fun e => hd (Fin.ext e)
      rw [if_neg hne, mul_zero]
    · intro hk; exact absurd (Finset.mem_univ _) hk
  · rw [dif_neg h]
    apply Finset.sum_eq_zero
    intro d _
    have hne : d.val ≠ k := fun e => h (e ▸ d.isLt)
    rw [if_neg hne, mul_zero]

def accF (S : ℕ → EReal) : ℕ → EReal
  | 0 => 0 + S 0
  | j + 1 => accF S j + S (j + 1)

theorem accF_eq_sum (S : ℕ → EReal) (J : ℕ) : accF S J = ∑ j ∈ Finset.range (J + 1), S j := by
  induction J with
  | zero =>
    show (0 : EReal) + S 0 = ∑ j ∈ Finset.range 1, S j
    rw [zero_add, Finset.sum_range_one]
  | succ J ih =>
    rw [accF, ih, Finset.sum_range_succ _ (J + 1)]

theorem gather_tiles (T td : ℕ) (htd : 0 < td) (hT : 0 < T) (x : ℕ → EReal) (hx : ∀ k, IsReal (x k)) (w : ℕ)
    (hw : w < T * td) :
    accF (fun j => (∑ d : Fin td, x (j * td + d.val) * (if j * td + d.val = w then (1 : EReal) else 0))
      + (∑ d : Fin td, (x (j * td + d.val) - x (j * td + d.val)) * (if j * td + d.val = w then (1 : EReal) else 0)))
      (T - 1) = x w := by
  rw [accF_eq_sum, show T - 1 + 1 = T by omega]
  have hB : ∀ j, (∑ d : Fin td, (x (j * td + d.val) - x (j * td + d.val))
      * (if j * td + d.val = w then (1 : EReal) else 0)) = 0 := by
    intro j; apply Finset.sum_eq_zero; intro d _; rw [sub_self_of_isReal (hx _), zero_mul]
  simp only [hB, add_zero]
  have hdm : w / td * td + w % td = w := by rw [Nat.mul_comm]; exact Nat.div_add_mod w td
  have hj0 : w / td < T := (Nat.div_lt_iff_lt_mul htd).2 hw
  rw [Finset.sum_eq_single (w / td)]
  · have hcongr : ∀ d : Fin td, (if w / td * td + d.val = w then (1 : EReal) else 0)
        = (if d.val = w % td then (1 : EReal) else 0) := by
      intro d; apply if_congr _ rfl rfl; omega
    simp only [hcongr]
    rw [sum_mul_indicator (fun d : Fin td => x (w / td * td + d.val)) (w % td), dif_pos (Nat.mod_lt _ htd)]
    show x (w / td * td + w % td) = x w
    rw [hdm]
  · intro j _ hj
    apply Finset.sum_eq_zero; intro d _
    have hne : j * td + d.val ≠ w := by
      intro e
      apply hj
      have hd := d.isLt
      symm
      apply Nat.div_eq_of_lt_le
      · omega
      · rw [Nat.add_mul, Nat.one_mul]; omega
    rw [if_neg hne, mul_zero]
  · intro hn; exact absurd (Finset.mem_range.2 hj0) hn

theorem ofNat_eq_sub_iff (w : BitVec 32) (hw : w.msb = false) (d o : ℕ) (h : d + o < 2 ^ 31) :
    (BitVec.ofNat 32 d = w - BitVec.ofNat 32 o) ↔ d + o = w.toNat := by
  have hw' : 2 * w.toNat < 2 ^ 32 := BitVec.msb_eq_false_iff_two_mul_lt.mp hw
  constructor
  · intro e
    have e' := congrArg BitVec.toNat e
    simp only [BitVec.toNat_sub, BitVec.toNat_ofNat] at e'
    omega
  · intro e
    apply BitVec.eq_of_toNat_eq
    simp only [BitVec.toNat_sub, BitVec.toNat_ofNat]
    omega

theorem ofNat_mul_ofNat (j td : ℕ) (h : j * td < 2 ^ 32) :
    BitVec.ofNat 32 j * BitVec.ofNat 32 td = BitVec.ofNat 32 (j * td) := by
  apply BitVec.eq_of_toNat_eq
  simp only [BitVec.toNat_mul, BitVec.toNat_ofNat, Nat.mul_mod, Nat.mod_mod]

theorem isReal_affine {c0 c1 c2 c3 a b : EReal} (h0 : IsReal c0) (h1 : IsReal c1) (h2 : IsReal c2) (h3 : IsReal c3)
    (ha : IsReal a) (hb : IsReal b) : IsReal (c0 + c1 * a + c2 * b + c3 * (a * b)) :=
  ((h0.add (h1.mul ha)).add (h2.mul hb)).add (h3.mul (ha.mul hb))

end Cert.Spec

end
-- ==== Proof.KI.Val0.lean ====
import proofs.«413321_j24653112279275_3_alg».proof.Proof.KI.Pay0
import proofs.«413321_j24653112279275_3_alg».proof.Proof.KI.Dat0
import proofs.«413321_j24653112279275_3_alg».proof.Proof.LibReal
import proofs.«413321_j24653112279275_3_alg».proof.Proof.Spec.Gather
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibReal Cert.Spec

theorem ld_row_apply (cb : Vec Ideal S4x3200 .f32) (k : Nat) (hk : k < 4)
    (inb : ∀ a, (![k, 0] : Fin 2 → Nat) a + S1x3200.size a ≤ S4x3200.size a) (n' : Fin 3200) :
    View.ld cb (Rect.unit (s := S4x3200) ![k, 0] S1x3200.size inb) (ix2 (0 : Fin 1) n') = cb (ix2 (⟨k, hk⟩ : Fin 4) n') := by
  show cb ((Rect.unit (s := S4x3200) ![k, 0] S1x3200.size inb).emb (ix2 (0 : Fin 1) n')) = _
  congr 1
  funext a
  apply Fin.ext
  match a with
  | ⟨0, _⟩ => show k + 1 * 0 = k; omega
  | ⟨1, _⟩ => show 0 + 1 * n'.val = n'.val; omega

theorem outv0_apply (cb : Vec Ideal S4x3200 .f32) (a bb : Vec Ideal S256x3200 .f32) (b : Fin 256) (n' : Fin 3200) :
    outv0 cb a bb (ix2 b n')
      = cb (ix2 0 n') + cb (ix2 1 n') * a (ix2 b n') + cb (ix2 2 n') * bb (ix2 b n')
        + cb (ix2 3 n') * (a (ix2 b n') * bb (ix2 b n')) := by
  unfold outv0
  rw [pay2_apply_r0, ld_row_apply cb 0 (by omega), ld_row_apply cb 1 (by omega), ld_row_apply cb 2 (by omega),
    ld_row_apply cb 3 (by omega)]
  rfl

theorem oh0_eq (i : grid0.Coords) (hi : (i 1).val = 0) (ia : Vec Ideal S1x3200 .i32) (n' : Fin 3200)
    (hmsb : (ia (ix2 0 n')).msb = false) (d : Fin 1024) :
    oh0 i ia d n' = if d.val = (ia (ix2 0 n')).toNat then (1 : EReal) else 0 := by
  unfold oh0
  rw [hi]
  have hmul : Scalar.muli (BitVec.ofNat 32 0) 1024#32 = BitVec.ofNat 32 (0 * 1024) := ofNat_mul_ofNat 0 1024 (by norm_num)
  rw [hmul]
  have hiff := ofNat_eq_sub_iff (ia (ix2 0 n')) hmsb d.val (0 * 1024) (by have := d.isLt; omega)
  by_cases h : d.val = (ia (ix2 0 n')).toNat
  · rw [if_pos (hiff.mpr (by omega)), if_pos h]
  · rw [if_neg (fun e => h (by have := hiff.mp e; omega)), if_neg h]

theorem onehot_sum (i : grid0.Coords) (hi : (i 1).val = 0) (ia : Vec Ideal S1x3200 .i32) (x : Vec Ideal S256x1024 .bf16)
    (b : Fin 256) (n' : Fin 3200) (hia : (ia (ix2 0 n')).toNat < 1024 ∧ (ia (ix2 0 n')).msb = false) :
    (∑ d : Fin 1024, x (ix2 b d) * oh0 i ia d n') = x (ix2 b ⟨(ia (ix2 0 n')).toNat, hia.1⟩) := by
  simp only [oh0_eq i hi ia n' hia.2]
  rw [sum_mul_indicator (fun d : Fin 1024 => x (ix2 b d)) (ia (ix2 0 n')).toNat, dif_pos hia.1]

theorem accA0_apply (i : grid0.Coords) (hi : (i 1).val = 0) (ia : Vec Ideal S1x3200 .i32) (xh xl : Vec Ideal S256x1024 .bf16)
    (hxh : ∀ j, IsReal (xh j)) (hxl : ∀ j, xl j = xh j - xh j) (b : Fin 256) (n' : Fin 3200)
    (hia : (ia (ix2 0 n')).toNat < 1024 ∧ (ia (ix2 0 n')).msb = false) :
    accA0 i ia xh xl (ix2 b n') = xh (ix2 b ⟨(ia (ix2 0 n')).toNat, hia.1⟩) := by
  unfold accA0
  rw [pay7_apply_r0, pay3_apply_r0, onehot_sum i hi ia xh b n' hia, onehot_sum i hi ia xl b n' hia, hxl,
    sub_self_of_isReal (hxh _), add_zero, EReal.coe_zero, zero_add]

theorem accB0_apply (i : grid0.Coords) (hi : (i 1).val = 0) (ib : Vec Ideal S1x3200 .i32) (xh xl : Vec Ideal S256x1024 .bf16)
    (hxh : ∀ j, IsReal (xh j)) (hxl : ∀ j, xl j = xh j - xh j) (b : Fin 256) (n' : Fin 3200)
    (hib : (ib (ix2 0 n')).toNat < 1024 ∧ (ib (ix2 0 n')).msb = false) :
    accB0 i ib xh xl (ix2 b n') = xh (ix2 b ⟨(ib (ix2 0 n')).toNat, hib.1⟩) := by
  unfold accB0
  rw [pay16_apply_r0, pay4_apply_r0, onehot_sum i hi ib xh b n' hib, onehot_sum i hi ib xl b n' hib, hxl,
    sub_self_of_isReal (hxh _), add_zero, EReal.coe_zero, zero_add]

theorem point_value (i : grid0.Coords) (hi : (i 1).val = 0) (ia ib : Vec Ideal S1x3200 .i32) (cb : Vec Ideal S4x3200 .f32)
    (xh xl : Vec Ideal S256x1024 .bf16) (hxh : ∀ j, IsReal (xh j)) (hxl : ∀ j, xl j = xh j - xh j)
    (b : Fin 256) (n' : Fin 3200)
    (hia : (ia (ix2 0 n')).toNat < 1024 ∧ (ia (ix2 0 n')).msb = false)
    (hib : (ib (ix2 0 n')).toNat < 1024 ∧ (ib (ix2 0 n')).msb = false)
    (kA kB : Fin 1024) (hkA : kA.val = (ia (ix2 0 n')).toNat) (hkB : kB.val = (ib (ix2 0 n')).toNat) :
    outv0 cb (accA0 i ia xh xl) (accB0 i ib xh xl) (ix2 b n')
      = cb (ix2 0 n') + cb (ix2 1 n') * xh (ix2 b kA) + cb (ix2 2 n') * xh (ix2 b kB)
        + cb (ix2 3 n') * (xh (ix2 b kA) * xh (ix2 b kB)) := by
  rw [outv0_apply, accA0_apply i hi ia xh xl hxh hxl b n' hia, accB0_apply i hi ib xh xl hxh hxl b n' hib,
    show (⟨(ia (ix2 0 n')).toNat, hia.1⟩ : Fin 1024) = kA from Fin.ext hkA.symm,
    show (⟨(ib (ix2 0 n')).toNat, hib.1⟩ : Fin 1024) = kB from Fin.ext hkB.symm]

section
variable (V : (c : Dev nD) → (b : Ref sig .tc) → Buf (Elt Ideal) ((c : Thread nD τ).loc b))

abbrev IA0 (c : Dev nD) : Vec Ideal S1x64000 .i32 := V c main_v13
abbrev IB0 (c : Dev nD) : Vec Ideal S1x64000 .i32 := V c main_v14
abbrev CT0 (c : Dev nD) : Vec Ideal S4x64000 .f32 := V c main_v12
abbrev XH0 (c : Dev nD) : Vec Ideal S256x1024 .bf16 := V c main_v15
abbrev XL0 (c : Dev nD) : Vec Ideal S256x1024 .bf16 := V c main_v18
abbrev OUT0 (c : Dev nD) : Vec Ideal S256x64000 .f32 := (dat0 V c).arrAt 5 cfg0.N

theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ (grid0.coords t (1 : Fin 2)).val = 0 :=
  (by decide +kernel : ∀ t : Fin grid0.N, _)

end

section
variable (V : (c : Dev nD) → (b : Ref sig .tc) → Buf (Elt Ideal) ((c : Thread nD τ).loc b))

theorem iblk0_0_apply (c : Dev nD) (t : Fin cfg0.N) (x : S1x3200.Idx) (k : S1x64000.Idx)
    (hk0 : (k 0).val = (x 0).val) (hk1 : (k 1).val = 3200 * t.val + (x 1).val) :
    (iblk0 V c 0 t : Vec Ideal S1x3200 .i32) x = IA0 V c k := by
  have hf := idx_facts0 t
  unfold iblk0
  rw [View.read_apply]
  show V c main_v13 _ = V c main_v13 _
  congr 1
  funext a
  apply Fin.ext
  match a with
  | ⟨0, _⟩ => show win0_0.index t 0 * 1 + 1 * (x 0).val = (k 0).val; rw [hk0]; omega
  | ⟨1, _⟩ => show win0_0.index t 1 * 3200 + 1 * (x 1).val = (k 1).val; rw [hk1]; omega

theorem iblk0_1_apply (c : Dev nD) (t : Fin cfg0.N) (x : S1x3200.Idx) (k : S1x64000.Idx)
    (hk0 : (k 0).val = (x 0).val) (hk1 : (k 1).val = 3200 * t.val + (x 1).val) :
    (iblk0 V c 1 t : Vec Ideal S1x3200 .i32) x = IB0 V c k := by
  have hf := idx_facts0 t
  unfold iblk0
  rw [View.read_apply]
  show V c main_v14 _ = V c main_v14 _
  congr 1
  funext a
  apply Fin.ext
  match a with
  | ⟨0, _⟩ => show win0_1.index t 0 * 1 + 1 * (x 0).val = (k 0).val; rw [hk0]; omega
  | ⟨1, _⟩ => show win0_1.index t 1 * 3200 + 1 * (x 1).val = (k 1).val; rw [hk1]; omega

theorem iblk0_2_apply (c : Dev nD) (t : Fin cfg0.N) (x : S4x3200.Idx) (k : S4x64000.Idx)
    (hk0 : (k 0).val = (x 0).val) (hk1 : (k 1).val = 3200 * t.val + (x 1).val) :
    (iblk0 V c 2 t : Vec Ideal S4x3200 .f32) x = CT0 V c k := by
  have hf := idx_facts0 t
  unfold iblk0
  rw [View.read_apply]
  show V c main_v12 _ = V c main_v12 _
  congr 1
  funext a
  apply Fin.ext
  match a with
  | ⟨0, _⟩ => show win0_2.index t 0 * 4 + 1 * (x 0).val = (k 0).val; rw [hk0]; omega
  | ⟨1, _⟩ => show win0_2.index t 1 * 3200 + 1 * (x 1).val = (k 1).val; rw [hk1]; omega

theorem iblk0_3_apply (c : Dev nD) (t : Fin cfg0.N) (x : S256x1024.Idx) :
    (iblk0 V c 3 t : Vec Ideal S256x1024 .bf16) x = XH0 V c x := by
  have hf := idx_facts0 t
  unfold iblk0
  rw [View.read_apply]
  show V c main_v15 _ = V c main_v15 _
  congr 1
  funext a
  apply Fin.ext
  match a with
  | ⟨0, _⟩ => show win0_3.index t 0 * 256 + 1 * (x 0).val = (x 0).val; omega
  | ⟨1, _⟩ => show win0_3.index t 1 * 1024 + 1 * (x 1).val = (x 1).val; omega

theorem iblk0_4_apply (c : Dev nD) (t : Fin cfg0.N) (x : S256x1024.Idx) :
    (iblk0 V c 4 t : Vec Ideal S256x1024 .bf16) x = XL0 V c x := by
  have hf := idx_facts0 t
  unfold iblk0
  rw [View.read_apply]
  show V c main_v18 _ = V c main_v18 _
  congr 1
  funext a
  apply Fin.ext
  match a with
  | ⟨0, _⟩ => show win0_4.index t 0 * 256 + 1 * (x 0).val = (x 0).val; omega
  | ⟨1, _⟩ => show win0_4.index t 1 * 1024 + 1 * (x 1).val = (x 1).val; omega

def G0 (c : Dev nD) (hIA : (∀ n : Fin 64000, (IA0 V c (ix2 0 n)).toNat < 1024 ∧ (IA0 V c (ix2 0 n)).msb = false)) (hIB : (∀ n : Fin 64000, (IB0 V c (ix2 0 n)).toNat < 1024 ∧ (IB0 V c (ix2 0 n)).msb = false)) : Vec Ideal S256x64000 .f32 :=
  fun j => CT0 V c (ix2 0 (j 1 : Fin 64000))
    + CT0 V c (ix2 1 (j 1 : Fin 64000)) * XH0 V c (ix2 (j 0 : Fin 256) ⟨(IA0 V c (ix2 0 (j 1 : Fin 64000))).toNat, (hIA (j 1 : Fin 64000)).1⟩)
    + CT0 V c (ix2 2 (j 1 : Fin 64000)) * XH0 V c (ix2 (j 0 : Fin 256) ⟨(IB0 V c (ix2 0 (j 1 : Fin 64000))).toNat, (hIB (j 1 : Fin 64000)).1⟩)
    + CT0 V c (ix2 3 (j 1 : Fin 64000)) * (XH0 V c (ix2 (j 0 : Fin 256) ⟨(IA0 V c (ix2 0 (j 1 : Fin 64000))).toNat, (hIA (j 1 : Fin 64000)).1⟩)
        * XH0 V c (ix2 (j 0 : Fin 256) ⟨(IB0 V c (ix2 0 (j 1 : Fin 64000))).toNat, (hIB (j 1 : Fin 64000)).1⟩))

theorem flushed0_eq (c : Dev nD) (hXH : ∀ i, IsReal (XH0 V c i)) (hXL : ∀ i, XL0 V c i = XH0 V c i - XH0 V c i)
    (hIA : (∀ n : Fin 64000, (IA0 V c (ix2 0 n)).toNat < 1024 ∧ (IA0 V c (ix2 0 n)).msb = false)) (hIB : (∀ n : Fin 64000, (IB0 V c (ix2 0 n)).toNat < 1024 ∧ (IB0 V c (ix2 0 n)).msb = false)) (t : Fin cfg0.N) :
    (dat0 V c).flushed 5 t = ((cfg0.win 5).blk t).view.read (Elt Ideal) (G0 V c hIA hIB) := by
  have hf := idx_facts0 t
  have ei : (grid0.coords t (1 : Fin 2)).val = 0 := hf.2.2.2.2.2.2.2.2.2.2.2.2
  have hN : t.val < 20 := by
    have h1 := t.isLt
    have h2 : cfg0.N = 20 := N_0
    omega
  show (cfg0.win 5).cut (grid0.coords t) ((dat0 V c).after 5 t) = _
  rw [after0_5]
  funext y
  obtain ⟨b, n', rfl⟩ : ∃ (b : Fin 256) (n' : Fin 3200), y = ix2 b n' := ⟨y 0, y 1, eq_ix2 y⟩
  rw [View.read_apply]
  have hn : 3200 * t.val + n'.val < 64000 := by have := n'.isLt; omega
  have hemb : ((cfg0.win 5).blk t).view.emb (ix2 b n') = ix2 b (⟨3200 * t.val + n'.val, hn⟩ : Fin 64000) := by
    funext a
    apply Fin.ext
    match a with
    | ⟨0, _⟩ => show win0_5.index t 0 * 256 + 1 * b.val = b.val; omega
    | ⟨1, _⟩ => show win0_5.index t 1 * 3200 + 1 * n'.val = 3200 * t.val + n'.val; omega
  show outAt0 V c t (ix2 b n') = G0 V c hIA hIB (((cfg0.win 5).blk t).view.emb (ix2 b n'))
  rw [hemb]
  unfold outAt0
  have hia_blk : (iblk0 V c 0 t : Vec Ideal S1x3200 .i32) (ix2 0 n') = IA0 V c (ix2 0 (⟨3200 * t.val + n'.val, hn⟩ : Fin 64000)) :=
    iblk0_0_apply V c t _ _ rfl rfl
  have hib_blk : (iblk0 V c 1 t : Vec Ideal S1x3200 .i32) (ix2 0 n') = IB0 V c (ix2 0 (⟨3200 * t.val + n'.val, hn⟩ : Fin 64000)) :=
    iblk0_1_apply V c t _ _ rfl rfl
  have hct : ∀ k : Fin 4, (iblk0 V c 2 t : Vec Ideal S4x3200 .f32) (ix2 k n') = CT0 V c (ix2 k (⟨3200 * t.val + n'.val, hn⟩ : Fin 64000)) :=
    fun k => iblk0_2_apply V c t _ _ rfl rfl
  refine (point_value (grid0.coords t) ei (iblk0 V c 0 t) (iblk0 V c 1 t) (iblk0 V c 2 t) (iblk0 V c 3 t) (iblk0 V c 4 t)
    ?hxh ?hxl b n' ?hia ?hib ⟨(IA0 V c (ix2 0 ⟨3200 * t.val + n'.val, hn⟩)).toNat, (hIA ⟨3200 * t.val + n'.val, hn⟩).1⟩ ⟨(IB0 V c (ix2 0 ⟨3200 * t.val + n'.val, hn⟩)).toNat, (hIB ⟨3200 * t.val + n'.val, hn⟩).1⟩ ?hkA ?hkB).trans ?_
  case hxh => intro j; rw [iblk0_3_apply V c t j]; exact hXH j
  case hxl => intro j; rw [iblk0_4_apply V c t j, iblk0_3_apply V c t j]; exact hXL j
  case hia => rw [hia_blk]; exact hIA _
  case hib => rw [hib_blk]; exact hIB _
  case hkA => exact congrArg BitVec.toNat hia_blk.symm
  case hkB => exact congrArg BitVec.toNat hib_blk.symm
  rw [hct 0, hct 1, hct 2, hct 3, iblk0_3_apply V c t, iblk0_3_apply V c t]
  rfl

theorem mem_blk0_5 (t : Fin cfg0.N) (i : S256x64000.Idx) :
    i ∈ ((cfg0.win 5).blk t).view.set
      ↔ ∀ a : Fin 2, win0_5.index t a * S256x3200.size a ≤ (i a).val ∧ (i a).val < win0_5.index t a * S256x3200.size a + S256x3200.size a := by
  show i ∈ ((View.whole main_v19).slice (win0_5.rect t)).set ↔ _
  rw [View.set_slice_whole, Rect.mem_set_unit]
  exact Iff.rfl

theorem cover0 (i : S256x64000.Idx) :
    ∃ t : Fin cfg0.N, (cfg0.win 5).flush t = true ∧ i ∈ ((cfg0.win 5).blk t).view.set := by
  have hi0 : (i 0).val < 256 := (i 0).isLt
  have hi1 : (i 1).val < 64000 := (i 1).isLt
  have hN : cfg0.N = 20 := N_0
  have ht : (i 1).val / 3200 < cfg0.N := by rw [hN]; omega
  have hf := idx_facts0 ⟨(i 1).val / 3200, ht⟩
  have e50 : win0_5.index ⟨(i 1).val / 3200, ht⟩ (0 : Fin 2) = 0 := hf.2.2.2.2.2.2.2.2.2.2.1
  have e51 : win0_5.index ⟨(i 1).val / 3200, ht⟩ (1 : Fin 2) = (i 1).val / 3200 := hf.2.2.2.2.2.2.2.2.2.2.2.1
  refine ⟨⟨(i 1).val / 3200, ht⟩, flush0_5 _, ?_⟩
  rw [mem_blk0_5]
  intro a
  match a with
  | ⟨0, _⟩ =>
    show win0_5.index ⟨(i 1).val / 3200, ht⟩ 0 * 256 ≤ (i 0).val ∧ (i 0).val < win0_5.index ⟨(i 1).val / 3200, ht⟩ 0 * 256 + 256
    rw [e50]; omega
  | ⟨1, _⟩ =>
    show win0_5.index ⟨(i 1).val / 3200, ht⟩ 1 * 3200 ≤ (i 1).val ∧ (i 1).val < win0_5.index ⟨(i 1).val / 3200, ht⟩ 1 * 3200 + 3200
    rw [e51]; omega

theorem region0_value (c : Dev nD)
    (hXH : ∀ i, Cert.LibReal.IsReal (XH0 V c i)) (hXL : ∀ i, XL0 V c i = XH0 V c i - XH0 V c i)
    (hIA : (∀ n : Fin 64000, (IA0 V c (ix2 0 n)).toNat < 1024 ∧ (IA0 V c (ix2 0 n)).msb = false)) (hIB : (∀ n : Fin 64000, (IB0 V c (ix2 0 n)).toNat < 1024 ∧ (IB0 V c (ix2 0 n)).msb = false)) (b : Fin 256) (n : Fin 64000) :
    OUT0 V c (ix2 b n)
      = CT0 V c (ix2 0 n) + CT0 V c (ix2 1 n) * XH0 V c (ix2 b ⟨(IA0 V c (ix2 0 n)).toNat, (hIA n).1⟩)
        + CT0 V c (ix2 2 n) * XH0 V c (ix2 b ⟨(IB0 V c (ix2 0 n)).toNat, (hIB n).1⟩)
        + CT0 V c (ix2 3 n) * (XH0 V c (ix2 b ⟨(IA0 V c (ix2 0 n)).toNat, (hIA n).1⟩) * XH0 V c (ix2 b ⟨(IB0 V c (ix2 0 n)).toNat, (hIB n).1⟩)) := by
  have h : OUT0 V c = G0 V c hIA hIB :=
    (dat0 V c).arrAt_eq_of_cover 5 (G0 V c hIA hIB) (fun t _ => flushed0_eq V c hXH hXL hIA hIB t) cover0
  rw [h]
  rfl

end

end Cert.KernelIdeal.Hand

end
-- ==== Proof.KI.Pay1.lean ====
import proofs.«413321_j24653112279275_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

def oh1 (i : grid1.Coords) (ia : Vec Ideal S1x3200 .i32) (d : Fin 1280) (n : Fin 3200) : EReal :=
  if BitVec.ofNat 32 d.val = ia (ix2 0 n) - Scalar.muli (BitVec.ofNat 32 (i 1).val) 1280#32 then 1 else 0

theorem pay3_apply (y : S256x3200.Idx) : k1_pay3 (F := Ideal) y = ((0 : ℝ) : EReal) := by
  unfold k1_pay3
  rw [shapeCast_self]
  show Ideal.ofBits .f32 0x00000000#32 = _
  rw [Ideal.ofBits_zero_f32]
  exact EReal.coe_zero.symm

theorem pay4_apply (y : S256x3200.Idx) : k1_pay4 (F := Ideal) y = ((0 : ℝ) : EReal) := by
  unfold k1_pay4
  rw [shapeCast_self]
  show Ideal.ofBits .f32 0x00000000#32 = _
  rw [Ideal.ofBits_zero_f32]
  exact EReal.coe_zero.symm

theorem pay2_apply (c0 c1 c2 c3 : Vec Ideal S1x3200 .f32) (a bb : Vec Ideal S256x3200 .f32) (b : Fin 256) (n : Fin 3200) :
    k1_pay2 (F := Ideal) c0 c1 c2 c3 a bb (ix2 b n)
      = c0 (ix2 0 n) + c1 (ix2 0 n) * a (ix2 b n) + c2 (ix2 0 n) * bb (ix2 b n) + c3 (ix2 0 n) * (a (ix2 b n) * bb (ix2 b n)) := by
  unfold k1_pay2
  simp only [shapeCast_self]
  simp only [addf_apply, mulf_apply, broadcastTo_1b_ab_apply]

theorem dot1_contr_rank : dot_S512x1280_S1280x3200_S512x3200_1_0_0_1_n_n.contr.rank = 1 := rfl

theorem lhs_dot1_0 (j : S512x3200.Idx) (k : dot_S512x1280_S1280x3200_S512x3200_1_0_0_1_n_n.contr.Idx) :
    (dot_S512x1280_S1280x3200_S512x3200_1_0_0_1_n_n.lhsIdx j k 0).val = (j 0).val := by
  simp [DotDims.lhsIdx, dot_S512x1280_S1280x3200_S512x3200_1_0_0_1_n_n]
  rfl

theorem lhs_dot1_1 (j : S512x3200.Idx) (k : dot_S512x1280_S1280x3200_S512x3200_1_0_0_1_n_n.contr.Idx) :
    (dot_S512x1280_S1280x3200_S512x3200_1_0_0_1_n_n.lhsIdx j k 1).val = (k ⟨0, by decide⟩).val :=
  DotDims.lhsIdx_val_of_single dot_S512x1280_S1280x3200_S512x3200_1_0_0_1_n_n rfl j k

theorem rhs_dot1_0 (j : S512x3200.Idx) (k : dot_S512x1280_S1280x3200_S512x3200_1_0_0_1_n_n.contr.Idx) :
    (dot_S512x1280_S1280x3200_S512x3200_1_0_0_1_n_n.rhsIdx j k 0).val = (k ⟨0, by decide⟩).val :=
  DotDims.rhsIdx_val_of_single dot_S512x1280_S1280x3200_S512x3200_1_0_0_1_n_n rfl j k

theorem rhs_dot1_1 (j : S512x3200.Idx) (k : dot_S512x1280_S1280x3200_S512x3200_1_0_0_1_n_n.contr.Idx) :
    (dot_S512x1280_S1280x3200_S512x3200_1_0_0_1_n_n.rhsIdx j k 1).val = (j 1).val := by
  simp [DotDims.rhsIdx, dot_S512x1280_S1280x3200_S512x3200_1_0_0_1_n_n]
  rfl

theorem matmul1_apply (A : FVec Ideal S512x1280 .bf16) (B : FVec Ideal S1280x3200 .bf16) (p : Fin 512) (q : Fin 3200) :
    matmul dot_S512x1280_S1280x3200_S512x3200_1_0_0_1_n_n none A B (constant (F := Ideal) S512x3200 .f32 0x00000000#32) (ix2 p q)
      = ∑ d : Fin 1280, A (ix2 p d) * B (ix2 d q) := by
  show FloatOps.matmul dot_S512x1280_S1280x3200_S512x3200_1_0_0_1_n_n none A B (constant (F := Ideal) S512x3200 .f32 0x00000000#32) (ix2 p q) = _
  rw [Ideal.matmul_constant_zero_apply,
    ← Equiv.sum_comp (contrEquiv1 dot_S512x1280_S1280x3200_S512x3200_1_0_0_1_n_n 1280 rfl rfl).symm]
  refine Finset.sum_congr rfl fun c _ => ?_
  have c2 := contrEquiv1_symm_val dot_S512x1280_S1280x3200_S512x3200_1_0_0_1_n_n 1280 rfl rfl c
  have l2 : dot_S512x1280_S1280x3200_S512x3200_1_0_0_1_n_n.lhsIdx (ix2 p q)
      ((contrEquiv1 dot_S512x1280_S1280x3200_S512x3200_1_0_0_1_n_n 1280 rfl rfl).symm c) = ix2 p c := by
    funext ax; apply Fin.ext
    match ax with
    | ⟨0, _⟩ => exact lhs_dot1_0 _ _
    | ⟨1, _⟩ => exact (lhs_dot1_1 _ _).trans c2
  have r2 : dot_S512x1280_S1280x3200_S512x3200_1_0_0_1_n_n.rhsIdx (ix2 p q)
      ((contrEquiv1 dot_S512x1280_S1280x3200_S512x3200_1_0_0_1_n_n 1280 rfl rfl).symm c) = ix2 c q := by
    funext ax; apply Fin.ext
    match ax with
    | ⟨0, _⟩ => exact (rhs_dot1_0 _ _).trans c2
    | ⟨1, _⟩ => exact rhs_dot1_1 _ _
  rw [l2, r2]

theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    simp [IntOp.cmpi]
  · have hb : (x == y) = false := by simpa using h
    simp [IntOp.cmpi, hb, h]

def ohv (i : grid1.Coords) (ia : Vec Ideal S1x3200 .i32) : FVec Ideal S1280x3200 .bf16 :=
  truncf .bf16 (sitofp .f32 (extui 32 (cmpi .eq (iota .tc S1280x3200 32 [0] iota_S1280x3200_d0_w32)
    (broadcastTo S1280x3200 (subi (shapeCast S1x3200 ia shapeCasts_S1x3200_S1x3200)
      (broadcast S1x3200 (Scalar.muli (BitVec.ofNat 32 (i 1).val) 1280#32))) broadcasts_S1x3200_S1280x3200)) natLt_1_32)
    : FVec Ideal S1280x3200 .f32) bitsLt_bf16_f32

theorem ohv_apply (i : grid1.Coords) (ia : Vec Ideal S1x3200 .i32) (d : Fin 1280) (n : Fin 3200) :
    ohv i ia (ix2 d n) = oh1 i ia d n := by
  unfold ohv oh1
  rw [truncf_apply, sitofp_apply, extui_apply]
  show FloatOps.sitofp (F := Ideal) .f32 ((IntOp.cmpi .eq (iota .tc S1280x3200 32 [0] iota_S1280x3200_d0_w32 (ix2 d n))
    (broadcastTo S1280x3200 (subi (shapeCast S1x3200 ia shapeCasts_S1x3200_S1x3200)
      (broadcast S1x3200 (Scalar.muli (BitVec.ofNat 32 (i 1).val) 1280#32))) broadcasts_S1x3200_S1280x3200 (ix2 d n))).setWidth 32) = _
  rw [sitofp_cmpi_eq, iota_single_apply, broadcastTo_1b_ab_apply, shapeCast_self]
  rfl

theorem pay5_top (xh xl : Vec Ideal S256x1280 .bf16) (b : Fin 256) (d : Fin 1280) (p : Fin 512) (hp : p.val = b.val) :
    k1_pay5 (F := Ideal) xh xl (ix2 p d) = xh (ix2 b d) := by
  unfold k1_pay5
  simp only [shapeCast_self]
  exact concatenate_pair_apply_left 0 xh xl _ (ix2 p d) rfl (ix2 b d)
    (fun ax => by match ax with | ⟨0, _⟩ => exact hp.symm | ⟨1, _⟩ => rfl)

theorem pay5_bot (xh xl : Vec Ideal S256x1280 .bf16) (b : Fin 256) (d : Fin 1280) (p : Fin 512) (hp : p.val = 256 + b.val) :
    k1_pay5 (F := Ideal) xh xl (ix2 p d) = xl (ix2 b d) := by
  unfold k1_pay5
  simp only [shapeCast_self]
  exact concatenate_pair_apply_right 0 xh xl _ (ix2 p d) rfl rfl (ix2 b d)
    (fun ax hne => by match ax with | ⟨0, _⟩ => exact absurd rfl hne | ⟨1, _⟩ => rfl)
    (by show b.val + 256 = p.val; omega)

def prod1 (i : grid1.Coords) (ia : Vec Ideal S1x3200 .i32) (xh xl : Vec Ideal S256x1280 .bf16) : FVec Ideal S512x3200 .f32 :=
  matmul dot_S512x1280_S1280x3200_S512x3200_1_0_0_1_n_n none (k1_pay5 (F := Ideal) xh xl) (ohv i ia)
    (constant (F := Ideal) S512x3200 .f32 0x00000000#32)

theorem pay6_eq (i : grid1.Coords) (ib : Vec Ideal S1x3200 .i32) (xh xl : Vec Ideal S256x1280 .bf16) :
    k1_pay6 (F := Ideal) i ib xh xl = prod1 i ib xh xl := rfl

theorem prod1_top (i : grid1.Coords) (ia : Vec Ideal S1x3200 .i32) (xh xl : Vec Ideal S256x1280 .bf16)
    (b : Fin 256) (n : Fin 3200) (p : Fin 512) (hp : p.val = b.val) :
    prod1 i ia xh xl (ix2 p n) = ∑ d : Fin 1280, xh (ix2 b d) * oh1 i ia d n := by
  unfold prod1
  rw [matmul1_apply]
  exact Finset.sum_congr rfl fun d _ => by rw [pay5_top xh xl b d p hp, ohv_apply]

theorem prod1_bot (i : grid1.Coords) (ia : Vec Ideal S1x3200 .i32) (xh xl : Vec Ideal S256x1280 .bf16)
    (b : Fin 256) (n : Fin 3200) (p : Fin 512) (hp : p.val = 256 + b.val) :
    prod1 i ia xh xl (ix2 p n) = ∑ d : Fin 1280, xl (ix2 b d) * oh1 i ia d n := by
  unfold prod1
  rw [matmul1_apply]
  exact Finset.sum_congr rfl fun d _ => by rw [pay5_bot xh xl b d p hp, ohv_apply]

theorem halves_apply (v : FVec Ideal S512x3200 .f32) (b : Fin 256) (n : Fin 3200) :
    addf (extractStridedSlice S256x3200 ![0, 0] v slices_S512x3200_o0_0_S256x3200)
        (extractStridedSlice S256x3200 ![256, 0] v slices_S512x3200_o256_0_S256x3200) (ix2 b n)
      = v (ix2 (⟨b.val, by omega⟩ : Fin 512) n) + v (ix2 (⟨256 + b.val, by omega⟩ : Fin 512) n) := by
  rw [addf_apply, slice2_axis0_apply 0 v _ b n ⟨b.val, by omega⟩ (by simp),
    slice2_axis0_apply 256 v _ b n ⟨256 + b.val, by omega⟩ rfl]

theorem pay7_eq (i : grid1.Coords) (ia : Vec Ideal S1x3200 .i32) (xh xl : Vec Ideal S256x1280 .bf16) (a : Vec Ideal S256x3200 .f32) :
    k1_pay7 (F := Ideal) i ia xh xl a
      = addf a (addf (extractStridedSlice S256x3200 ![0, 0] (prod1 i ia xh xl) slices_S512x3200_o0_0_S256x3200)
          (extractStridedSlice S256x3200 ![256, 0] (prod1 i ia xh xl) slices_S512x3200_o256_0_S256x3200)) := by
  unfold k1_pay7 prod1 ohv
  exact shapeCast_self _ _

theorem pay1_eq (v : FVec Ideal S512x3200 .f32) (a : Vec Ideal S256x3200 .f32) :
    k1_pay1 (F := Ideal) v a
      = addf a (addf (extractStridedSlice S256x3200 ![0, 0] v slices_S512x3200_o0_0_S256x3200)
          (extractStridedSlice S256x3200 ![256, 0] v slices_S512x3200_o256_0_S256x3200)) := by
  unfold k1_pay1
  exact shapeCast_self _ _

theorem pay7_apply (i : grid1.Coords) (ia : Vec Ideal S1x3200 .i32) (xh xl : Vec Ideal S256x1280 .bf16)
    (a : Vec Ideal S256x3200 .f32) (b : Fin 256) (n : Fin 3200) :
    k1_pay7 (F := Ideal) i ia xh xl a (ix2 b n)
      = a (ix2 b n) + ((∑ d : Fin 1280, xh (ix2 b d) * oh1 i ia d n) + (∑ d : Fin 1280, xl (ix2 b d) * oh1 i ia d n)) := by
  rw [pay7_eq, addf_apply, halves_apply, prod1_top i ia xh xl b n _ rfl, prod1_bot i ia xh xl b n _ rfl]

theorem pay16_apply (i : grid1.Coords) (ib : Vec Ideal S1x3200 .i32) (xh xl : Vec Ideal S256x1280 .bf16)
    (bacc : Vec Ideal S256x3200 .f32) (b : Fin 256) (n : Fin 3200) :
    k1_pay1 (F := Ideal) (k1_pay6 i ib xh xl) bacc (ix2 b n)
      = bacc (ix2 b n) + ((∑ d : Fin 1280, xh (ix2 b d) * oh1 i ib d n) + (∑ d : Fin 1280, xl (ix2 b d) * oh1 i ib d n)) := by
  rw [pay6_eq, pay1_eq, addf_apply, halves_apply, prod1_top i ib xh xl b n _ rfl, prod1_bot i ib xh xl b n _ rfl]

end Cert.KernelIdeal.Hand
-- ==== Proof.KI.Val1.lean ====
import proofs.«413321_j24653112279275_3_alg».proof.Proof.KI.Pay1
import proofs.«413321_j24653112279275_3_alg».proof.Proof.KI.Dat1
import proofs.«413321_j24653112279275_3_alg».proof.Proof.Spec.Gather
import Idealize.ShloMosaic.Lib.ValueIdx
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.LibReal Cert.Spec

section Val
variable (V : (c : Dev nD) → (b : Ref sig .tc) → Buf (Elt Ideal) ((c : Thread nD τ).loc b))

abbrev IA1 (c : Dev nD) : Vec Ideal S1x64000 .i32 := V c main_v33
abbrev IB1 (c : Dev nD) : Vec Ideal S1x64000 .i32 := V c main_v34
abbrev CT1 (c : Dev nD) : Vec Ideal S4x64000 .f32 := V c main_v32
abbrev XH1 (c : Dev nD) : Vec Ideal S256x64000 .bf16 := V c main_v35
abbrev XL1 (c : Dev nD) : Vec Ideal S256x64000 .bf16 := V c main_v38
abbrev OUT1 (c : Dev nD) : Vec Ideal S256x64000 .f32 := (dat1 V c).arrAt 5 cfg1.N

theorem idx_facts1 : ∀ t : Fin cfg1.N,
    ((grid1.coords t 0).val = t.val / 50 ∧ (grid1.coords t 1).val = t.val % 50)
    ∧ (win1_0.index t (0 : Fin 2) = 0 ∧ win1_0.index t (1 : Fin 2) = t.val / 50)
    ∧ (win1_1.index t (0 : Fin 2) = 0 ∧ win1_1.index t (1 : Fin 2) = t.val / 50)
    ∧ (win1_2.index t (0 : Fin 2) = 0 ∧ win1_2.index t (1 : Fin 2) = t.val / 50)
    ∧ (win1_3.index t (0 : Fin 2) = 0 ∧ win1_3.index t (1 : Fin 2) = t.val % 50)
    ∧ (win1_4.index t (0 : Fin 2) = 0 ∧ win1_4.index t (1 : Fin 2) = t.val % 50)
    ∧ (win1_5.index t (0 : Fin 2) = 0 ∧ win1_5.index t (1 : Fin 2) = t.val / 50) :=
  (by decide +kernel : ∀ t : Fin grid1.N, _)

theorem iblk1_0_apply (c : Dev nD) (t : Fin cfg1.N) (n' : Fin 3200) (n : Fin 64000) (hn : n.val = 3200 * (t.val / 50) + n'.val) :
    (iblk1 V c 0 t : Vec Ideal S1x3200 .i32) (ix2 0 n') = IA1 V c (ix2 0 n) := by
  obtain ⟨-, ⟨e0, e1⟩, -⟩ := idx_facts1 t
  unfold iblk1
  rw [View.read_apply]
  show V c main_v33 _ = V c main_v33 _
  congr 1
  funext a
  apply Fin.ext
  match a with
  | ⟨0, _⟩ => show win1_0.index t (0 : Fin 2) * 1 + 1 * 0 = 0; rw [e0]
  | ⟨1, _⟩ => show win1_0.index t (1 : Fin 2) * 3200 + 1 * n'.val = n.val; rw [e1]; omega

theorem iblk1_1_apply (c : Dev nD) (t : Fin cfg1.N) (n' : Fin 3200) (n : Fin 64000) (hn : n.val = 3200 * (t.val / 50) + n'.val) :
    (iblk1 V c 1 t : Vec Ideal S1x3200 .i32) (ix2 0 n') = IB1 V c (ix2 0 n) := by
  obtain ⟨-, -, ⟨e0, e1⟩, -⟩ := idx_facts1 t
  unfold iblk1
  rw [View.read_apply]
  show V c main_v34 _ = V c main_v34 _
  congr 1
  funext a
  apply Fin.ext
  match a with
  | ⟨0, _⟩ => show win1_1.index t (0 : Fin 2) * 1 + 1 * 0 = 0; rw [e0]
  | ⟨1, _⟩ => show win1_1.index t (1 : Fin 2) * 3200 + 1 * n'.val = n.val; rw [e1]; omega

theorem iblk1_2_apply (c : Dev nD) (t : Fin cfg1.N) (r : Fin 4) (n' : Fin 3200) (n : Fin 64000) (hn : n.val = 3200 * (t.val / 50) + n'.val) :
    (iblk1 V c 2 t : Vec Ideal S4x3200 .f32) (ix2 r n') = CT1 V c (ix2 r n) := by
  obtain ⟨-, -, -, ⟨e0, e1⟩, -⟩ := idx_facts1 t
  unfold iblk1
  rw [View.read_apply]
  show V c main_v32 _ = V c main_v32 _
  congr 1
  funext a
  apply Fin.ext
  match a with
  | ⟨0, _⟩ => show win1_2.index t (0 : Fin 2) * 4 + 1 * r.val = r.val; rw [e0]; omega
  | ⟨1, _⟩ => show win1_2.index t (1 : Fin 2) * 3200 + 1 * n'.val = n.val; rw [e1]; omega

theorem iblk1_3_apply (c : Dev nD) (t : Fin cfg1.N) (b : Fin 256) (d : Fin 1280) (k : Fin 64000) (hk : k.val = t.val % 50 * 1280 + d.val) :
    (iblk1 V c 3 t : Vec Ideal S256x1280 .bf16) (ix2 b d) = XH1 V c (ix2 b k) := by
  obtain ⟨-, -, -, -, ⟨e0, e1⟩, -⟩ := idx_facts1 t
  unfold iblk1
  rw [View.read_apply]
  show V c main_v35 _ = V c main_v35 _
  congr 1
  funext a
  apply Fin.ext
  match a with
  | ⟨0, _⟩ => show win1_3.index t (0 : Fin 2) * 256 + 1 * b.val = b.val; rw [e0]; omega
  | ⟨1, _⟩ => show win1_3.index t (1 : Fin 2) * 1280 + 1 * d.val = k.val; rw [e1]; omega

theorem iblk1_4_apply (c : Dev nD) (t : Fin cfg1.N) (b : Fin 256) (d : Fin 1280) (k : Fin 64000) (hk : k.val = t.val % 50 * 1280 + d.val) :
    (iblk1 V c 4 t : Vec Ideal S256x1280 .bf16) (ix2 b d) = XL1 V c (ix2 b k) := by
  obtain ⟨-, -, -, -, -, ⟨e0, e1⟩, -⟩ := idx_facts1 t
  unfold iblk1
  rw [View.read_apply]
  show V c main_v38 _ = V c main_v38 _
  congr 1
  funext a
  apply Fin.ext
  match a with
  | ⟨0, _⟩ => show win1_4.index t (0 : Fin 2) * 256 + 1 * b.val = b.val; rw [e0]; omega
  | ⟨1, _⟩ => show win1_4.index t (1 : Fin 2) * 1280 + 1 * d.val = k.val; rw [e1]; omega

theorem oh1_eq (i : grid1.Coords) (ia : Vec Ideal S1x3200 .i32) (d : Fin 1280) (n' : Fin 3200) (j : ℕ) (hj : (i 1).val = j) (hj50 : j < 50)
    (hmsb : (ia (ix2 0 n')).msb = false) :
    oh1 i ia d n' = if j * 1280 + d.val = (ia (ix2 0 n')).toNat then (1 : EReal) else 0 := by
  unfold oh1
  rw [hj]
  have hm : Scalar.muli (BitVec.ofNat 32 j) 1280#32 = BitVec.ofNat 32 (j * 1280) := ofNat_mul_ofNat j 1280 (by omega)
  rw [hm]
  refine if_congr ?_ rfl rfl
  rw [ofNat_eq_sub_iff _ hmsb d.val (j * 1280) (by have := d.isLt; omega)]
  omega

def rowH (c : Dev nD) (b : Fin 256) (k : ℕ) : EReal := if h : k < 64000 then XH1 V c (ix2 b ⟨k, h⟩) else 0

theorem rowH_of_lt (c : Dev nD) (b : Fin 256) (k : ℕ) (h : k < 64000) : rowH V c b k = XH1 V c (ix2 b ⟨k, h⟩) := dif_pos h

theorem rowH_isReal (c : Dev nD) (hXH : ∀ i, IsReal (XH1 V c i)) (b : Fin 256) (k : ℕ) : IsReal (rowH V c b k) := by
  unfold rowH
  split
  · exact hXH _
  · exact isReal_zero

def tileS (c : Dev nD) (b : Fin 256) (w j : ℕ) : EReal :=
  (∑ d : Fin 1280, rowH V c b (j * 1280 + d.val) * (if j * 1280 + d.val = w then (1 : EReal) else 0))
    + (∑ d : Fin 1280, (rowH V c b (j * 1280 + d.val) - rowH V c b (j * 1280 + d.val)) * (if j * 1280 + d.val = w then (1 : EReal) else 0))

abbrev iaB (c : Dev nD) (t : Fin cfg1.N) : Vec Ideal S1x3200 .i32 := iblk1 V c 0 t
abbrev ibB (c : Dev nD) (t : Fin cfg1.N) : Vec Ideal S1x3200 .i32 := iblk1 V c 1 t
abbrev ctB (c : Dev nD) (t : Fin cfg1.N) : Vec Ideal S4x3200 .f32 := iblk1 V c 2 t
abbrev xhB (c : Dev nD) (t : Fin cfg1.N) : Vec Ideal S256x1280 .bf16 := iblk1 V c 3 t
abbrev xlB (c : Dev nD) (t : Fin cfg1.N) : Vec Ideal S256x1280 .bf16 := iblk1 V c 4 t

-- Both accumulators add the same two sums over a tile; only the index row they compare against differs.
theorem tile_sums (c : Dev nD) (t : Fin cfg1.N) (iv : Vec Ideal S1x3200 .i32) (I : BitVec 32) (b : Fin 256) (n' : Fin 3200)
    (hia : iv (ix2 0 n') = I) (hXL : ∀ i, XL1 V c i = XH1 V c i - XH1 V c i) (hmsb : I.msb = false) :
    (∑ d : Fin 1280, xhB V c t (ix2 b d) * oh1 (grid1.coords t) iv d n') + (∑ d : Fin 1280, xlB V c t (ix2 b d) * oh1 (grid1.coords t) iv d n')
      = tileS V c b I.toNat (t.val % 50) := by
  obtain ⟨⟨-, g1⟩, -⟩ := idx_facts1 t
  have hlt : t.val % 50 < 50 := Nat.mod_lt _ (by decide)
  have hms : (iv (ix2 0 n')).msb = false := by rw [hia]; exact hmsb
  have h1 : (∑ d : Fin 1280, xhB V c t (ix2 b d) * oh1 (grid1.coords t) iv d n')
      = ∑ d : Fin 1280, rowH V c b (t.val % 50 * 1280 + d.val)
          * (if t.val % 50 * 1280 + d.val = I.toNat then (1 : EReal) else 0) := by
    refine Finset.sum_congr rfl fun d _ => ?_
    have hk : t.val % 50 * 1280 + d.val < 64000 := by have := d.isLt; omega
    have hx : xhB V c t (ix2 b d) = XH1 V c (ix2 b ⟨_, hk⟩) := iblk1_3_apply V c t b d ⟨_, hk⟩ rfl
    rw [hx, oh1_eq (grid1.coords t) iv d n' (t.val % 50) g1 hlt hms, hia, rowH_of_lt V c b _ hk]
  have h2 : (∑ d : Fin 1280, xlB V c t (ix2 b d) * oh1 (grid1.coords t) iv d n')
      = ∑ d : Fin 1280, (rowH V c b (t.val % 50 * 1280 + d.val) - rowH V c b (t.val % 50 * 1280 + d.val))
          * (if t.val % 50 * 1280 + d.val = I.toNat then (1 : EReal) else 0) := by
    refine Finset.sum_congr rfl fun d _ => ?_
    have hk : t.val % 50 * 1280 + d.val < 64000 := by have := d.isLt; omega
    have hx : xlB V c t (ix2 b d) = XL1 V c (ix2 b ⟨_, hk⟩) := iblk1_4_apply V c t b d ⟨_, hk⟩ rfl
    rw [hx, hXL, oh1_eq (grid1.coords t) iv d n' (t.val % 50) g1 hlt hms, hia, rowH_of_lt V c b _ hk]
  rw [h1, h2]
  rfl

theorem accA1_apply (c : Dev nD) (t : Fin cfg1.N) (a : Vec Ideal S256x3200 .f32) (b : Fin 256) (n' : Fin 3200) (n : Fin 64000)
    (hn : n.val = 3200 * (t.val / 50) + n'.val)
    (hXL : ∀ i, XL1 V c i = XH1 V c i - XH1 V c i)
    (hmsb : (IA1 V c (ix2 0 n)).msb = false) :
    accA1 (grid1.coords t) (iaB V c t) (xhB V c t) (xlB V c t) a (ix2 b n')
      = a (ix2 b n') + tileS V c b (IA1 V c (ix2 0 n)).toNat (t.val % 50) := by
  unfold accA1
  refine (pay7_apply (grid1.coords t) (iaB V c t) (xhB V c t) (xlB V c t) a b n').trans ?_
  rw [tile_sums V c t (iaB V c t) _ b n' (iblk1_0_apply V c t n' n hn) hXL hmsb]

theorem accB1_apply (c : Dev nD) (t : Fin cfg1.N) (a : Vec Ideal S256x3200 .f32) (b : Fin 256) (n' : Fin 3200) (n : Fin 64000)
    (hn : n.val = 3200 * (t.val / 50) + n'.val)
    (hXL : ∀ i, XL1 V c i = XH1 V c i - XH1 V c i)
    (hmsb : (IB1 V c (ix2 0 n)).msb = false) :
    accB1 (grid1.coords t) (ibB V c t) (xhB V c t) (xlB V c t) a (ix2 b n')
      = a (ix2 b n') + tileS V c b (IB1 V c (ix2 0 n)).toNat (t.val % 50) := by
  unfold accB1
  refine (pay16_apply (grid1.coords t) (ibB V c t) (xhB V c t) (xlB V c t) a b n').trans ?_
  rw [tile_sums V c t (ibB V c t) _ b n' (iblk1_1_apply V c t n' n hn) hXL hmsb]

theorem N1' : cfg1.N = 1000 := N_1

theorem accA_row (c : Dev nD) (hXL : ∀ i, XL1 V c i = XH1 V c i - XH1 V c i) (q : ℕ) (b : Fin 256) (n' : Fin 3200) (n : Fin 64000)
    (hn : n.val = 3200 * q + n'.val) (hmsb : (IA1 V c (ix2 0 n)).msb = false) :
    ∀ (j : ℕ) (hj : j < 50) (t : Fin cfg1.N) (ht : t.val = 50 * q + j),
      (accAt1 V c t.val t.isLt).1 (ix2 b n') = accF (tileS V c b (IA1 V c (ix2 0 n)).toNat) j
  | 0, hj, t, ht => by
    have hm : t.val % 50 = 0 := by omega
    have hq : t.val / 50 = q := by omega
    rw [accAt1_reset V c t hm]
    dsimp only
    refine (accA1_apply V c t zeroA1 b n' n (by rw [hq]; exact hn) hXL hmsb).trans ?_
    rw [hm]
    show _ = 0 + tileS V c b (IA1 V c (ix2 0 n)).toNat 0
    congr 1
    exact (pay3_apply _).trans EReal.coe_zero
  | j + 1, hj, t, ht => by
    have hm : ¬ t.val % 50 = 0 := by omega
    have hq : t.val / 50 = q := by omega
    have hmod : t.val % 50 = j + 1 := by omega
    rw [accAt1_step V c t hm]
    dsimp only
    refine (accA1_apply V c t _ b n' n (by rw [hq]; exact hn) hXL hmsb).trans ?_
    rw [hmod]
    show _ = accF (tileS V c b (IA1 V c (ix2 0 n)).toNat) j + tileS V c b (IA1 V c (ix2 0 n)).toNat (j + 1)
    congr 1
    exact accA_row c hXL q b n' n hn hmsb j (by omega) ⟨t.val - 1, Nat.lt_of_le_of_lt (Nat.sub_le _ _) t.isLt⟩ (by show t.val - 1 = _; omega)

theorem accB_row (c : Dev nD) (hXL : ∀ i, XL1 V c i = XH1 V c i - XH1 V c i) (q : ℕ) (b : Fin 256) (n' : Fin 3200) (n : Fin 64000)
    (hn : n.val = 3200 * q + n'.val) (hmsb : (IB1 V c (ix2 0 n)).msb = false) :
    ∀ (j : ℕ) (hj : j < 50) (t : Fin cfg1.N) (ht : t.val = 50 * q + j),
      (accAt1 V c t.val t.isLt).2 (ix2 b n') = accF (tileS V c b (IB1 V c (ix2 0 n)).toNat) j
  | 0, hj, t, ht => by
    have hm : t.val % 50 = 0 := by omega
    have hq : t.val / 50 = q := by omega
    rw [accAt1_reset V c t hm]
    dsimp only
    refine (accB1_apply V c t zeroB1 b n' n (by rw [hq]; exact hn) hXL hmsb).trans ?_
    rw [hm]
    show _ = 0 + tileS V c b (IB1 V c (ix2 0 n)).toNat 0
    congr 1
    exact (pay4_apply _).trans EReal.coe_zero
  | j + 1, hj, t, ht => by
    have hm : ¬ t.val % 50 = 0 := by omega
    have hq : t.val / 50 = q := by omega
    have hmod : t.val % 50 = j + 1 := by omega
    rw [accAt1_step V c t hm]
    dsimp only
    refine (accB1_apply V c t _ b n' n (by rw [hq]; exact hn) hXL hmsb).trans ?_
    rw [hmod]
    show _ = accF (tileS V c b (IB1 V c (ix2 0 n)).toNat) j + tileS V c b (IB1 V c (ix2 0 n)).toNat (j + 1)
    congr 1
    exact accB_row c hXL q b n' n hn hmsb j (by omega) ⟨t.val - 1, Nat.lt_of_le_of_lt (Nat.sub_le _ _) t.isLt⟩ (by show t.val - 1 = _; omega)

theorem walk_eq (c : Dev nD) (hXH : ∀ i, IsReal (XH1 V c i)) (b : Fin 256) (w : ℕ) (hw : w < 64000) :
    accF (tileS V c b w) 49 = XH1 V c (ix2 b ⟨w, hw⟩) := by
  have h := gather_tiles 50 1280 (by decide) (by decide) (rowH V c b) (rowH_isReal V c hXH b) w (by omega)
  rw [rowH_of_lt V c b w hw] at h
  exact h

theorem ld_row1_apply (cb : Vec Ideal S4x3200 .f32) (r : Fin 4) (off : Fin 2 → ℕ) (hoff : off = ![r.val, 0])
    (inb : ∀ a, off a + S1x3200.size a ≤ S4x3200.size a) (n' : Fin 3200) :
    View.ld cb (Rect.unit (s := S4x3200) off S1x3200.size inb) (ix2 0 n') = cb (ix2 r n') := by
  subst hoff
  show cb _ = cb _
  congr 1
  funext a
  apply Fin.ext
  match a with
  | ⟨0, _⟩ => show r.val + 1 * 0 = r.val; omega
  | ⟨1, _⟩ => show 0 + 1 * n'.val = n'.val; omega

theorem outv1_apply (cb : Vec Ideal S4x3200 .f32) (a bb : Vec Ideal S256x3200 .f32) (b : Fin 256) (n' : Fin 3200) :
    outv1 cb a bb (ix2 b n') = cb (ix2 0 n') + cb (ix2 1 n') * a (ix2 b n') + cb (ix2 2 n') * bb (ix2 b n')
      + cb (ix2 3 n') * (a (ix2 b n') * bb (ix2 b n')) := by
  unfold outv1
  rw [pay2_apply, ld_row1_apply cb 0 ![0, 0] rfl inb_S4x3200_S1x3200_0_0 n', ld_row1_apply cb 1 ![1, 0] rfl inb_S4x3200_S1x3200_1_0 n',
    ld_row1_apply cb 2 ![2, 0] rfl inb_S4x3200_S1x3200_2_0 n', ld_row1_apply cb 3 ![3, 0] rfl inb_S4x3200_S1x3200_3_0 n']

def gval (c : Dev nD)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false)
    (b : Fin 256) (n : Fin 64000) : EReal :=
  CT1 V c (ix2 0 n) + CT1 V c (ix2 1 n) * XH1 V c (ix2 b ⟨(IA1 V c (ix2 0 n)).toNat, (hIA n).1⟩)
    + CT1 V c (ix2 2 n) * XH1 V c (ix2 b ⟨(IB1 V c (ix2 0 n)).toNat, (hIB n).1⟩)
    + CT1 V c (ix2 3 n) * (XH1 V c (ix2 b ⟨(IA1 V c (ix2 0 n)).toNat, (hIA n).1⟩) * XH1 V c (ix2 b ⟨(IB1 V c (ix2 0 n)).toNat, (hIB n).1⟩))

theorem outAt1_apply (c : Dev nD) (hXH : ∀ i, IsReal (XH1 V c i)) (hXL : ∀ i, XL1 V c i = XH1 V c i - XH1 V c i)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false)
    (t : Fin cfg1.N) (ht : t.val % 50 = 49) (b : Fin 256) (n' : Fin 3200) (n : Fin 64000) (hn : n.val = 3200 * (t.val / 50) + n'.val) :
    outAt1 V c t (ix2 b n') = gval V c hIA hIB b n := by
  have hc0 : ctB V c t (ix2 0 n') = CT1 V c (ix2 0 n) := iblk1_2_apply V c t 0 n' n hn
  have hc1 : ctB V c t (ix2 1 n') = CT1 V c (ix2 1 n) := iblk1_2_apply V c t 1 n' n hn
  have hc2 : ctB V c t (ix2 2 n') = CT1 V c (ix2 2 n) := iblk1_2_apply V c t 2 n' n hn
  have hc3 : ctB V c t (ix2 3 n') = CT1 V c (ix2 3 n) := iblk1_2_apply V c t 3 n' n hn
  have hA : (accAt1 V c t.val t.isLt).1 (ix2 b n') = XH1 V c (ix2 b ⟨(IA1 V c (ix2 0 n)).toNat, (hIA n).1⟩) :=
    (accA_row V c hXL (t.val / 50) b n' n hn (hIA n).2 49 (by decide) t (by omega)).trans (walk_eq V c hXH b _ (hIA n).1)
  have hB : (accAt1 V c t.val t.isLt).2 (ix2 b n') = XH1 V c (ix2 b ⟨(IB1 V c (ix2 0 n)).toNat, (hIB n).1⟩) :=
    (accB_row V c hXL (t.val / 50) b n' n hn (hIB n).2 49 (by decide) t (by omega)).trans (walk_eq V c hXH b _ (hIB n).1)
  unfold outAt1
  refine (outv1_apply (ctB V c t) (accAt1 V c t.val t.isLt).1 (accAt1 V c t.val t.isLt).2 b n').trans ?_
  rw [hc0, hc1, hc2, hc3, hA, hB]
  rfl

def G1 (c : Dev nD)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false) :
    Vec Ideal S256x64000 .f32 := fun i => gval V c hIA hIB (i 0) (i 1)

theorem flushed1_eq (c : Dev nD) (hXH : ∀ i, IsReal (XH1 V c i)) (hXL : ∀ i, XL1 V c i = XH1 V c i - XH1 V c i)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false)
    (t : Fin cfg1.N) (hf : (cfg1.win 5).flush t = true) :
    (dat1 V c).flushed 5 t = ((cfg1.win 5).blk t).view.read (Elt Ideal) (G1 V c hIA hIB) := by
  have h49 : t.val % 50 = 49 := (flush1_5 t).mp hf
  obtain ⟨-, -, -, -, -, -, ⟨e0, e1⟩⟩ := idx_facts1 t
  show (cfg1.win 5).cut (grid1.coords t) ((dat1 V c).after 5 t) = _
  rw [after1_5]
  funext y
  obtain ⟨b, n', rfl⟩ : ∃ (b : Fin 256) (n' : Fin 3200), y = ix2 b n' := ⟨y 0, y 1, eq_ix2 y⟩
  rw [View.read_apply]
  have hk : 3200 * (t.val / 50) + n'.val < 64000 := by
    have h1 : t.val < cfg1.N := t.isLt
    have h2 : cfg1.N = 1000 := N1'
    have h3 := n'.isLt
    omega
  refine (outAt1_apply V c hXH hXL hIA hIB t h49 b n' ⟨_, hk⟩ rfl).trans ?_
  show gval V c hIA hIB b ⟨_, hk⟩ = gval V c hIA hIB ((((cfg1.win 5).blk t).view.emb (ix2 b n')) 0) ((((cfg1.win 5).blk t).view.emb (ix2 b n')) 1)
  have hb : b = (((cfg1.win 5).blk t).view.emb (ix2 b n')) 0 :=
    Fin.ext (by show b.val = win1_5.index t (0 : Fin 2) * 256 + 1 * b.val; rw [e0]; omega)
  have hn : (⟨_, hk⟩ : Fin 64000) = (((cfg1.win 5).blk t).view.emb (ix2 b n')) 1 :=
    Fin.ext (by show 3200 * (t.val / 50) + n'.val = win1_5.index t (1 : Fin 2) * 3200 + 1 * n'.val; rw [e1]; omega)
  exact congrArg₂ (gval V c hIA hIB) hb hn

theorem cover1 (i : S256x64000.Idx) : ∃ t : Fin cfg1.N, (cfg1.win 5).flush t = true ∧ i ∈ ((cfg1.win 5).blk t).view.set := by
  have h1 : (i 1).val < 64000 := (i 1).isLt
  have h0 : (i 0).val < 256 := (i 0).isLt
  have hN : 50 * ((i 1).val / 3200) + 49 < cfg1.N := by rw [N1']; omega
  obtain ⟨-, -, -, -, -, -, ⟨e0, e1⟩⟩ := idx_facts1 ⟨50 * ((i 1).val / 3200) + 49, hN⟩
  have e1' : win1_5.index ⟨50 * ((i 1).val / 3200) + 49, hN⟩ (1 : Fin 2) = (i 1).val / 3200 := by rw [e1]; show (50 * ((i 1).val / 3200) + 49) / 50 = _; omega
  refine ⟨⟨50 * ((i 1).val / 3200) + 49, hN⟩, (flush1_5 _).mpr (by show (50 * ((i 1).val / 3200) + 49) % 50 = 49; omega), ?_⟩
  show i ∈ ((View.whole main_v39).slice (win1_5.rect ⟨50 * ((i 1).val / 3200) + 49, hN⟩)).set
  rw [View.set_slice_whole, Rect.mem_set_unit]
  intro a
  match a with
  | ⟨0, _⟩ =>
    show win1_5.index ⟨50 * ((i 1).val / 3200) + 49, hN⟩ (0 : Fin 2) * 256 ≤ (i 0).val
      ∧ (i 0).val < win1_5.index ⟨50 * ((i 1).val / 3200) + 49, hN⟩ (0 : Fin 2) * 256 + 256
    rw [e0]; omega
  | ⟨1, _⟩ =>
    show win1_5.index ⟨50 * ((i 1).val / 3200) + 49, hN⟩ (1 : Fin 2) * 3200 ≤ (i 1).val
      ∧ (i 1).val < win1_5.index ⟨50 * ((i 1).val / 3200) + 49, hN⟩ (1 : Fin 2) * 3200 + 3200
    rw [e1']; omega

theorem final1 (c : Dev nD) (hXH : ∀ i, IsReal (XH1 V c i)) (hXL : ∀ i, XL1 V c i = XH1 V c i - XH1 V c i)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false) :
    OUT1 V c = G1 V c hIA hIB :=
  (dat1 V c).arrAt_eq_of_cover 5 (G1 V c hIA hIB) (flushed1_eq V c hXH hXL hIA hIB) cover1

theorem region1_value (c : Dev nD) (hXH : ∀ i, IsReal (XH1 V c i)) (hXL : ∀ i, XL1 V c i = XH1 V c i - XH1 V c i)
    (hIA : ∀ n : Fin 64000, (IA1 V c (ix2 0 n)).toNat < 64000 ∧ (IA1 V c (ix2 0 n)).msb = false)
    (hIB : ∀ n : Fin 64000, (IB1 V c (ix2 0 n)).toNat < 64000 ∧ (IB1 V c (ix2 0 n)).msb = false)
    (b : Fin 256) (n : Fin 64000) :
    OUT1 V c (ix2 b n)
      = CT1 V c (ix2 0 n) + CT1 V c (ix2 1 n) * XH1 V c (ix2 b ⟨(IA1 V c (ix2 0 n)).toNat, (hIA n).1⟩)
        + CT1 V c (ix2 2 n) * XH1 V c (ix2 b ⟨(IB1 V c (ix2 0 n)).toNat, (hIB n).1⟩)
        + CT1 V c (ix2 3 n) * (XH1 V c (ix2 b ⟨(IA1 V c (ix2 0 n)).toNat, (hIA n).1⟩) * XH1 V c (ix2 b ⟨(IB1 V c (ix2 0 n)).toNat, (hIB n).1⟩)) := by
  rw [final1 V c hXH hXL hIA hIB]
  rfl

end Val
end Cert.KernelIdeal.Hand
-- ==== Proof.KI.Pay2.lean ====
import proofs.«413321_j24653112279275_3_alg».proof.Proof.KI.Pay1

set_option maxRecDepth 16384

noncomputable section

namespace Cert.KernelIdeal.Hand

open Cert.KernelIdeal Cert.KernelIdeal.Gen
open Idealize.ShloMosaic Idealize.ShloMosaic.ValueIdx

def oh2 (i : grid2.Coords) (ia : Vec Ideal S1x3200 .i32) (d : Fin 1280) (n : Fin 3200) : EReal :=
  if BitVec.ofNat 32 d.val = ia (ix2 0 n) - Scalar.muli (BitVec.ofNat 32 (i 1).val) 1280#32 then 1 else 0

-- Region 2's payloads are the functions region 1's are, so they take region 1's values at every index.
theorem pay3_apply_r2 (y : S256x3200.Idx) : k2_pay3 (F := Ideal) y = ((0 : ℝ) : EReal) :=
  pay3_apply y

theorem pay4_apply_r2 (y : S256x3200.Idx) : k2_pay4 (F := Ideal) y = ((0 : ℝ) : EReal) :=
  pay4_apply y

theorem pay2_apply_r2 (c0 c1 c2 c3 : Vec Ideal S1x3200 .f32) (a bb : Vec Ideal S256x3200 .f32) (b : Fin 256) (n : Fin 3200) :
    k2_pay2 (F := Ideal) c0 c1 c2 c3 a bb (ix2 b n)
      = c0 (ix2 0 n) + c1 (ix2 0 n) * a (ix2 b n) + c2 (ix2 0 n) * bb (ix2 b n) + c3 (ix2 0 n) * (a (ix2 b n) * bb (ix2 b n)) :=
  pay2_apply c0 c1 c2 c3 a bb b n

theorem pay7_apply_r2 (i : grid2.Coords) (ia : Vec Ideal S1x3200 .i32) (xh xl : Vec Ideal S256x1280 .bf16)
    (a : Vec Ideal S256x3200 .f32) (b : Fin 256) (n : Fin 3200) :
    k2_pay7 (F := Ideal) i ia xh xl a (ix2 b n)
      = a (ix2 b n) + ((∑ d : Fin 1280, xh (ix2 b d) * oh2 i ia d n) + (∑ d : Fin 1280, xl (ix2 b d) * oh2 i ia d n)) :=
  pay7_apply i ia xh xl a b n

theorem pay16_apply_r2 (i : grid2.Coords) (ib : Vec Ideal S1x3200 .i32) (xh xl : Vec Ideal S256x1280 .bf16)
    (bacc : Vec Ideal S256x3200 .f32) (b : Fin 256) (n : Fin 3200) :
    k2_pay1 (F := Ideal) (k2_pay6 i ib xh xl) bacc (ix2 b n)
      = bacc (ix2 b n) + ((∑ d : Fin 1280, xh (ix2 b d) * oh2 i ib d n) + (∑ d : Fin 1280, xl (ix2 b d) * oh2 i ib d n)) :=
  pay16_apply i ib xh xl bacc b n

end Cert.KernelIdeal.Hand

end
-- ==== Proof.KI.Val2.lean ====
import proofs.«413321_j24653112279275_3_alg».proof.Proof.KI.Pay2
import proofs.«413321_j24653112279275_3_alg».proof.Proof.KI.Dat2
import proofs.«413321_j24653112279275_3_alg».proof.Proof.Spec.Gather
import Idealize.ShloMosaic.Lib.ValueIdx
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.LibReal Cert.Spec

section Val
variable (V : (c : Dev nD) → (b : Ref sig .tc) → Buf (Elt Ideal) ((c : Thread nD τ).loc b))

abbrev IA2 (c : Dev nD) : Vec Ideal S1x64000 .i32 := V c main_v53
abbrev IB2 (c : Dev nD) : Vec Ideal S1x64000 .i32 := V c main_v54
abbrev CT2 (c : Dev nD) : Vec Ideal S4x64000 .f32 := V c main_v52
abbrev XH2 (c : Dev nD) : Vec Ideal S256x64000 .bf16 := V c main_v55
abbrev XL2 (c : Dev nD) : Vec Ideal S256x64000 .bf16 := V c main_v58
abbrev OUT2 (c : Dev nD) : Vec Ideal S256x64000 .f32 := (dat2 V c).arrAt 5 cfg2.N

theorem idx_facts2 : ∀ t : Fin cfg2.N,
    ((grid2.coords t 0).val = t.val / 50 ∧ (grid2.coords t 1).val = t.val % 50)
    ∧ (win2_0.index t (0 : Fin 2) = 0 ∧ win2_0.index t (1 : Fin 2) = t.val / 50)
    ∧ (win2_1.index t (0 : Fin 2) = 0 ∧ win2_1.index t (1 : Fin 2) = t.val / 50)
    ∧ (win2_2.index t (0 : Fin 2) = 0 ∧ win2_2.index t (1 : Fin 2) = t.val / 50)
    ∧ (win2_3.index t (0 : Fin 2) = 0 ∧ win2_3.index t (1 : Fin 2) = t.val % 50)
    ∧ (win2_4.index t (0 : Fin 2) = 0 ∧ win2_4.index t (1 : Fin 2) = t.val % 50)
    ∧ (win2_5.index t (0 : Fin 2) = 0 ∧ win2_5.index t (1 : Fin 2) = t.val / 50) :=
  (by decide +kernel : ∀ t : Fin grid2.N, _)

theorem iblk2_0_apply (c : Dev nD) (t : Fin cfg2.N) (n' : Fin 3200) (n : Fin 64000) (hn : n.val = 3200 * (t.val / 50) + n'.val) :
    (iblk2 V c 0 t : Vec Ideal S1x3200 .i32) (ix2 0 n') = IA2 V c (ix2 0 n) := by
  obtain ⟨-, ⟨e0, e1⟩, -⟩ := idx_facts2 t
  unfold iblk2
  rw [View.read_apply]
  show V c main_v53 _ = V c main_v53 _
  congr 1
  funext a
  apply Fin.ext
  match a with
  | ⟨0, _⟩ => show win2_0.index t (0 : Fin 2) * 1 + 1 * 0 = 0; rw [e0]
  | ⟨1, _⟩ => show win2_0.index t (1 : Fin 2) * 3200 + 1 * n'.val = n.val; rw [e1]; omega

theorem iblk2_1_apply (c : Dev nD) (t : Fin cfg2.N) (n' : Fin 3200) (n : Fin 64000) (hn : n.val = 3200 * (t.val / 50) + n'.val) :
    (iblk2 V c 1 t : Vec Ideal S1x3200 .i32) (ix2 0 n') = IB2 V c (ix2 0 n) := by
  obtain ⟨-, -, ⟨e0, e1⟩, -⟩ := idx_facts2 t
  unfold iblk2
  rw [View.read_apply]
  show V c main_v54 _ = V c main_v54 _
  congr 1
  funext a
  apply Fin.ext
  match a with
  | ⟨0, _⟩ => show win2_1.index t (0 : Fin 2) * 1 + 1 * 0 = 0; rw [e0]
  | ⟨1, _⟩ => show win2_1.index t (1 : Fin 2) * 3200 + 1 * n'.val = n.val; rw [e1]; omega

theorem iblk2_2_apply (c : Dev nD) (t : Fin cfg2.N) (r : Fin 4) (n' : Fin 3200) (n : Fin 64000) (hn : n.val = 3200 * (t.val / 50) + n'.val) :
    (iblk2 V c 2 t : Vec Ideal S4x3200 .f32) (ix2 r n') = CT2 V c (ix2 r n) := by
  obtain ⟨-, -, -, ⟨e0, e1⟩, -⟩ := idx_facts2 t
  unfold iblk2
  rw [View.read_apply]
  show V c main_v52 _ = V c main_v52 _
  congr 1
  funext a
  apply Fin.ext
  match a with
  | ⟨0, _⟩ => show win2_2.index t (0 : Fin 2) * 4 + 1 * r.val = r.val; rw [e0]; omega
  | ⟨1, _⟩ => show win2_2.index t (1 : Fin 2) * 3200 + 1 * n'.val = n.val; rw [e1]; omega

theorem iblk2_3_apply (c : Dev nD) (t : Fin cfg2.N) (b : Fin 256) (d : Fin 1280) (k : Fin 64000) (hk : k.val = t.val % 50 * 1280 + d.val) :
    (iblk2 V c 3 t : Vec Ideal S256x1280 .bf16) (ix2 b d) = XH2 V c (ix2 b k) := by
  obtain ⟨-, -, -, -, ⟨e0, e1⟩, -⟩ := idx_facts2 t
  unfold iblk2
  rw [View.read_apply]
  show V c main_v55 _ = V c main_v55 _
  congr 1
  funext a
  apply Fin.ext
  match a with
  | ⟨0, _⟩ => show win2_3.index t (0 : Fin 2) * 256 + 1 * b.val = b.val; rw [e0]; omega
  | ⟨1, _⟩ => show win2_3.index t (1 : Fin 2) * 1280 + 1 * d.val = k.val; rw [e1]; omega

theorem iblk2_4_apply (c : Dev nD) (t : Fin cfg2.N) (b : Fin 256) (d : Fin 1280) (k : Fin 64000) (hk : k.val = t.val % 50 * 1280 + d.val) :
    (iblk2 V c 4 t : Vec Ideal S256x1280 .bf16) (ix2 b d) = XL2 V c (ix2 b k) := by
  obtain ⟨-, -, -, -, -, ⟨e0, e1⟩, -⟩ := idx_facts2 t
  unfold iblk2
  rw [View.read_apply]
  show V c main_v58 _ = V c main_v58 _
  congr 1
  funext a
  apply Fin.ext
  match a with
  | ⟨0, _⟩ => show win2_4.index t (0 : Fin 2) * 256 + 1 * b.val = b.val; rw [e0]; omega
  | ⟨1, _⟩ => show win2_4.index t (1 : Fin 2) * 1280 + 1 * d.val = k.val; rw [e1]; omega

theorem oh2_eq (i : grid2.Coords) (ia : Vec Ideal S1x3200 .i32) (d : Fin 1280) (n' : Fin 3200) (j : ℕ) (hj : (i 1).val = j) (hj50 : j < 50)
    (hmsb : (ia (ix2 0 n')).msb = false) :
    oh2 i ia d n' = if j * 1280 + d.val = (ia (ix2 0 n')).toNat then (1 : EReal) else 0 := by
  unfold oh2
  rw [hj]
  have hm : Scalar.muli (BitVec.ofNat 32 j) 1280#32 = BitVec.ofNat 32 (j * 1280) := ofNat_mul_ofNat j 1280 (by omega)
  rw [hm]
  refine if_congr ?_ rfl rfl
  rw [ofNat_eq_sub_iff _ hmsb d.val (j * 1280) (by have := d.isLt; omega)]
  omega

def rowH_r2 (c : Dev nD) (b : Fin 256) (k : ℕ) : EReal := if h : k < 64000 then XH2 V c (ix2 b ⟨k, h⟩) else 0

theorem rowH_of_lt_r2 (c : Dev nD) (b : Fin 256) (k : ℕ) (h : k < 64000) : rowH_r2 V c b k = XH2 V c (ix2 b ⟨k, h⟩) := dif_pos h

theorem rowH_isReal_r2 (c : Dev nD) (hXH : ∀ i, IsReal (XH2 V c i)) (b : Fin 256) (k : ℕ) : IsReal (rowH_r2 V c b k) := by
  unfold rowH_r2
  split
  · exact hXH _
  · exact isReal_zero

def tileS_r2 (c : Dev nD) (b : Fin 256) (w j : ℕ) : EReal :=
  (∑ d : Fin 1280, rowH_r2 V c b (j * 1280 + d.val) * (if j * 1280 + d.val = w then (1 : EReal) else 0))
    + (∑ d : Fin 1280, (rowH_r2 V c b (j * 1280 + d.val) - rowH_r2 V c b (j * 1280 + d.val)) * (if j * 1280 + d.val = w then (1 : EReal) else 0))

abbrev iaB_r2 (c : Dev nD) (t : Fin cfg2.N) : Vec Ideal S1x3200 .i32 := iblk2 V c 0 t
abbrev ibB_r2 (c : Dev nD) (t : Fin cfg2.N) : Vec Ideal S1x3200 .i32 := iblk2 V c 1 t
abbrev ctB_r2 (c : Dev nD) (t : Fin cfg2.N) : Vec Ideal S4x3200 .f32 := iblk2 V c 2 t
abbrev xhB_r2 (c : Dev nD) (t : Fin cfg2.N) : Vec Ideal S256x1280 .bf16 := iblk2 V c 3 t
abbrev xlB_r2 (c : Dev nD) (t : Fin cfg2.N) : Vec Ideal S256x1280 .bf16 := iblk2 V c 4 t

-- Both accumulators add the same two sums over a tile; only the index row they compare against differs.
theorem tile_sums_r2 (c : Dev nD) (t : Fin cfg2.N) (iv : Vec Ideal S1x3200 .i32) (I : BitVec 32) (b : Fin 256) (n' : Fin 3200)
    (hia : iv (ix2 0 n') = I) (hXL : ∀ i, XL2 V c i = XH2 V c i - XH2 V c i) (hmsb : I.msb = false) :
    (∑ d : Fin 1280, xhB_r2 V c t (ix2 b d) * oh2 (grid2.coords t) iv d n') + (∑ d : Fin 1280, xlB_r2 V c t (ix2 b d) * oh2 (grid2.coords t) iv d n')
      = tileS_r2 V c b I.toNat (t.val % 50) := by
  obtain ⟨⟨-, g1⟩, -⟩ := idx_facts2 t
  have hlt : t.val % 50 < 50 := Nat.mod_lt _ (by decide)
  have hms : (iv (ix2 0 n')).msb = false := by rw [hia]; exact hmsb
  have h1 : (∑ d : Fin 1280, xhB_r2 V c t (ix2 b d) * oh2 (grid2.coords t) iv d n')
      = ∑ d : Fin 1280, rowH_r2 V c b (t.val % 50 * 1280 + d.val)
          * (if t.val % 50 * 1280 + d.val = I.toNat then (1 : EReal) else 0) := by
    refine Finset.sum_congr rfl fun d _ => ?_
    have hk : t.val % 50 * 1280 + d.val < 64000 := by have := d.isLt; omega
    have hx : xhB_r2 V c t (ix2 b d) = XH2 V c (ix2 b ⟨_, hk⟩) := iblk2_3_apply V c t b d ⟨_, hk⟩ rfl
    rw [hx, oh2_eq (grid2.coords t) iv d n' (t.val % 50) g1 hlt hms, hia, rowH_of_lt_r2 V c b _ hk]
  have h2 : (∑ d : Fin 1280, xlB_r2 V c t (ix2 b d) * oh2 (grid2.coords t) iv d n')
      = ∑ d : Fin 1280, (rowH_r2 V c b (t.val % 50 * 1280 + d.val) - rowH_r2 V c b (t.val % 50 * 1280 + d.val))
          * (if t.val % 50 * 1280 + d.val = I.toNat then (1 : EReal) else 0) := by
    refine Finset.sum_congr rfl fun d _ => ?_
    have hk : t.val % 50 * 1280 + d.val < 64000 := by have := d.isLt; omega
    have hx : xlB_r2 V c t (ix2 b d) = XL2 V c (ix2 b ⟨_, hk⟩) := iblk2_4_apply V c t b d ⟨_, hk⟩ rfl
    rw [hx, hXL, oh2_eq (grid2.coords t) iv d n' (t.val % 50) g1 hlt hms, hia, rowH_of_lt_r2 V c b _ hk]
  rw [h1, h2]
  rfl

theorem accA2_apply (c : Dev nD) (t : Fin cfg2.N) (a : Vec Ideal S256x3200 .f32) (b : Fin 256) (n' : Fin 3200) (n : Fin 64000)
    (hn : n.val = 3200 * (t.val / 50) + n'.val)
    (hXL : ∀ i, XL2 V c i = XH2 V c i - XH2 V c i)
    (hmsb : (IA2 V c (ix2 0 n)).msb = false) :
    accA2 (grid2.coords t) (iaB_r2 V c t) (xhB_r2 V c t) (xlB_r2 V c t) a (ix2 b n')
      = a (ix2 b n') + tileS_r2 V c b (IA2 V c (ix2 0 n)).toNat (t.val % 50) := by
  unfold accA2
  refine (pay7_apply_r2 (grid2.coords t) (iaB_r2 V c t) (xhB_r2 V c t) (xlB_r2 V c t) a b n').trans ?_
  rw [tile_sums_r2 V c t (iaB_r2 V c t) _ b n' (iblk2_0_apply V c t n' n hn) hXL hmsb]

theorem accB2_apply (c : Dev nD) (t : Fin cfg2.N) (a : Vec Ideal S256x3200 .f32) (b : Fin 256) (n' : Fin 3200) (n : Fin 64000)
    (hn : n.val = 3200 * (t.val / 50) + n'.val)
    (hXL : ∀ i, XL2 V c i = XH2 V c i - XH2 V c i)
    (hmsb : (IB2 V c (ix2 0 n)).msb = false) :
    accB2 (grid2.coords t) (ibB_r2 V c t) (xhB_r2 V c t) (xlB_r2 V c t) a (ix2 b n')
      = a (ix2 b n') + tileS_r2 V c b (IB2 V c (ix2 0 n)).toNat (t.val % 50) := by
  unfold accB2
  refine (pay16_apply_r2 (grid2.coords t) (ibB_r2 V c t) (xhB_r2 V c t) (xlB_r2 V c t) a b n').trans ?_
  rw [tile_sums_r2 V c t (ibB_r2 V c t) _ b n' (iblk2_1_apply V c t n' n hn) hXL hmsb]

theorem N1'_r2 : cfg2.N = 1000 := N_2

theorem accA_row_r2 (c : Dev nD) (hXL : ∀ i, XL2 V c i = XH2 V c i - XH2 V c i) (q : ℕ) (b : Fin 256) (n' : Fin 3200) (n : Fin 64000)
    (hn : n.val = 3200 * q + n'.val) (hmsb : (IA2 V c (ix2 0 n)).msb = false) :
    ∀ (j : ℕ) (hj : j < 50) (t : Fin cfg2.N) (ht : t.val = 50 * q + j),
      (accAt2 V c t.val t.isLt).1 (ix2 b n') = accF (tileS_r2 V c b (IA2 V c (ix2 0 n)).toNat) j
  | 0, hj, t, ht => by
    have hm : t.val % 50 = 0 := by omega
    have hq : t.val / 50 = q := by omega
    rw [accAt2_reset V c t hm]
    dsimp only
    refine (accA2_apply V c t zeroA2 b n' n (by rw [hq]; exact hn) hXL hmsb).trans ?_
    rw [hm]
    show _ = 0 + tileS_r2 V c b (IA2 V c (ix2 0 n)).toNat 0
    congr 1
    exact (pay3_apply_r2 _).trans EReal.coe_zero
  | j + 1, hj, t, ht => by
    have hm : ¬ t.val % 50 = 0 := by omega
    have hq : t.val / 50 = q := by omega
    have hmod : t.val % 50 = j + 1 := by omega
    rw [accAt2_step V c t hm]
    dsimp only
    refine (accA2_apply V c t _ b n' n (by rw [hq]; exact hn) hXL hmsb).trans ?_
    rw [hmod]
    show _ = accF (tileS_r2 V c b (IA2 V c (ix2 0 n)).toNat) j + tileS_r2 V c b (IA2 V c (ix2 0 n)).toNat (j + 1)
    congr 1
    exact accA_row_r2 c hXL q b n' n hn hmsb j (by omega) ⟨t.val - 1, Nat.lt_of_le_of_lt (Nat.sub_le _ _) t.isLt⟩ (by show t.val - 1 = _; omega)

theorem accB_row_r2 (c : Dev nD) (hXL : ∀ i, XL2 V c i = XH2 V c i - XH2 V c i) (q : ℕ) (b : Fin 256) (n' : Fin 3200) (n : Fin 64000)
    (hn : n.val = 3200 * q + n'.val) (hmsb : (IB2 V c (ix2 0 n)).msb = false) :
    ∀ (j : ℕ) (hj : j < 50) (t : Fin cfg2.N) (ht : t.val = 50 * q + j),
      (accAt2 V c t.val t.isLt).2 (ix2 b n') = accF (tileS_r2 V c b (IB2 V c (ix2 0 n)).toNat) j
  | 0, hj, t, ht => by
    have hm : t.val % 50 = 0 := by omega
    have hq : t.val / 50 = q := by omega
    rw [accAt2_reset V c t hm]
    dsimp only
    refine (accB2_apply V c t zeroB2 b n' n (by rw [hq]; exact hn) hXL hmsb).trans ?_
    rw [hm]
    show _ = 0 + tileS_r2 V c b (IB2 V c (ix2 0 n)).toNat 0
    congr 1
    exact (pay4_apply_r2 _).trans EReal.coe_zero
  | j + 1, hj, t, ht => by
    have hm : ¬ t.val % 50 = 0 := by omega
    have hq : t.val / 50 = q := by omega
    have hmod : t.val % 50 = j + 1 := by omega
    rw [accAt2_step V c t hm]
    dsimp only
    refine (accB2_apply V c t _ b n' n (by rw [hq]; exact hn) hXL hmsb).trans ?_
    rw [hmod]
    show _ = accF (tileS_r2 V c b (IB2 V c (ix2 0 n)).toNat) j + tileS_r2 V c b (IB2 V c (ix2 0 n)).toNat (j + 1)
    congr 1
    exact accB_row_r2 c hXL q b n' n hn hmsb j (by omega) ⟨t.val - 1, Nat.lt_of_le_of_lt (Nat.sub_le _ _) t.isLt⟩ (by show t.val - 1 = _; omega)

theorem walk_eq_r2 (c : Dev nD) (hXH : ∀ i, IsReal (XH2 V c i)) (b : Fin 256) (w : ℕ) (hw : w < 64000) :
    accF (tileS_r2 V c b w) 49 = XH2 V c (ix2 b ⟨w, hw⟩) := by
  have h := gather_tiles 50 1280 (by decide) (by decide) (rowH_r2 V c b) (rowH_isReal_r2 V c hXH b) w (by omega)
  rw [rowH_of_lt_r2 V c b w hw] at h
  exact h

theorem ld_row2_apply (cb : Vec Ideal S4x3200 .f32) (r : Fin 4) (off : Fin 2 → ℕ) (hoff : off = ![r.val, 0])
    (inb : ∀ a, off a + S1x3200.size a ≤ S4x3200.size a) (n' : Fin 3200) :
    View.ld cb (Rect.unit (s := S4x3200) off S1x3200.size inb) (ix2 0 n') = cb (ix2 r n') := by
  subst hoff
  show cb _ = cb _
  congr 1
  funext a
  apply Fin.ext
  match a with
  | ⟨0, _⟩ => show r.val + 1 * 0 = r.val; omega
  | ⟨1, _⟩ => show 0 + 1 * n'.val = n'.val; omega

theorem outv2_apply (cb : Vec Ideal S4x3200 .f32) (a bb : Vec Ideal S256x3200 .f32) (b : Fin 256) (n' : Fin 3200) :
    outv2 cb a bb (ix2 b n') = cb (ix2 0 n') + cb (ix2 1 n') * a (ix2 b n') + cb (ix2 2 n') * bb (ix2 b n')
      + cb (ix2 3 n') * (a (ix2 b n') * bb (ix2 b n')) := by
  unfold outv2
  rw [pay2_apply_r2, ld_row2_apply cb 0 ![0, 0] rfl inb_S4x3200_S1x3200_0_0 n', ld_row2_apply cb 1 ![1, 0] rfl inb_S4x3200_S1x3200_1_0 n',
    ld_row2_apply cb 2 ![2, 0] rfl inb_S4x3200_S1x3200_2_0 n', ld_row2_apply cb 3 ![3, 0] rfl inb_S4x3200_S1x3200_3_0 n']

def gval_r2 (c : Dev nD)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false)
    (b : Fin 256) (n : Fin 64000) : EReal :=
  CT2 V c (ix2 0 n) + CT2 V c (ix2 1 n) * XH2 V c (ix2 b ⟨(IA2 V c (ix2 0 n)).toNat, (hIA n).1⟩)
    + CT2 V c (ix2 2 n) * XH2 V c (ix2 b ⟨(IB2 V c (ix2 0 n)).toNat, (hIB n).1⟩)
    + CT2 V c (ix2 3 n) * (XH2 V c (ix2 b ⟨(IA2 V c (ix2 0 n)).toNat, (hIA n).1⟩) * XH2 V c (ix2 b ⟨(IB2 V c (ix2 0 n)).toNat, (hIB n).1⟩))

theorem outAt2_apply (c : Dev nD) (hXH : ∀ i, IsReal (XH2 V c i)) (hXL : ∀ i, XL2 V c i = XH2 V c i - XH2 V c i)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false)
    (t : Fin cfg2.N) (ht : t.val % 50 = 49) (b : Fin 256) (n' : Fin 3200) (n : Fin 64000) (hn : n.val = 3200 * (t.val / 50) + n'.val) :
    outAt2 V c t (ix2 b n') = gval_r2 V c hIA hIB b n := by
  have hc0 : ctB_r2 V c t (ix2 0 n') = CT2 V c (ix2 0 n) := iblk2_2_apply V c t 0 n' n hn
  have hc1 : ctB_r2 V c t (ix2 1 n') = CT2 V c (ix2 1 n) := iblk2_2_apply V c t 1 n' n hn
  have hc2 : ctB_r2 V c t (ix2 2 n') = CT2 V c (ix2 2 n) := iblk2_2_apply V c t 2 n' n hn
  have hc3 : ctB_r2 V c t (ix2 3 n') = CT2 V c (ix2 3 n) := iblk2_2_apply V c t 3 n' n hn
  have hA : (accAt2 V c t.val t.isLt).1 (ix2 b n') = XH2 V c (ix2 b ⟨(IA2 V c (ix2 0 n)).toNat, (hIA n).1⟩) :=
    (accA_row_r2 V c hXL (t.val / 50) b n' n hn (hIA n).2 49 (by decide) t (by omega)).trans (walk_eq_r2 V c hXH b _ (hIA n).1)
  have hB : (accAt2 V c t.val t.isLt).2 (ix2 b n') = XH2 V c (ix2 b ⟨(IB2 V c (ix2 0 n)).toNat, (hIB n).1⟩) :=
    (accB_row_r2 V c hXL (t.val / 50) b n' n hn (hIB n).2 49 (by decide) t (by omega)).trans (walk_eq_r2 V c hXH b _ (hIB n).1)
  unfold outAt2
  refine (outv2_apply (ctB_r2 V c t) (accAt2 V c t.val t.isLt).1 (accAt2 V c t.val t.isLt).2 b n').trans ?_
  rw [hc0, hc1, hc2, hc3, hA, hB]
  rfl

def G2 (c : Dev nD)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false) :
    Vec Ideal S256x64000 .f32 := fun i => gval_r2 V c hIA hIB (i 0) (i 1)

theorem flushed2_eq (c : Dev nD) (hXH : ∀ i, IsReal (XH2 V c i)) (hXL : ∀ i, XL2 V c i = XH2 V c i - XH2 V c i)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false)
    (t : Fin cfg2.N) (hf : (cfg2.win 5).flush t = true) :
    (dat2 V c).flushed 5 t = ((cfg2.win 5).blk t).view.read (Elt Ideal) (G2 V c hIA hIB) := by
  have h49 : t.val % 50 = 49 := (flush2_5 t).mp hf
  obtain ⟨-, -, -, -, -, -, ⟨e0, e1⟩⟩ := idx_facts2 t
  show (cfg2.win 5).cut (grid2.coords t) ((dat2 V c).after 5 t) = _
  rw [after2_5]
  funext y
  obtain ⟨b, n', rfl⟩ : ∃ (b : Fin 256) (n' : Fin 3200), y = ix2 b n' := ⟨y 0, y 1, eq_ix2 y⟩
  rw [View.read_apply]
  have hk : 3200 * (t.val / 50) + n'.val < 64000 := by
    have h1 : t.val < cfg2.N := t.isLt
    have h2 : cfg2.N = 1000 := N1'_r2
    have h3 := n'.isLt
    omega
  refine (outAt2_apply V c hXH hXL hIA hIB t h49 b n' ⟨_, hk⟩ rfl).trans ?_
  show gval_r2 V c hIA hIB b ⟨_, hk⟩ = gval_r2 V c hIA hIB ((((cfg2.win 5).blk t).view.emb (ix2 b n')) 0) ((((cfg2.win 5).blk t).view.emb (ix2 b n')) 1)
  have hb : b = (((cfg2.win 5).blk t).view.emb (ix2 b n')) 0 :=
    Fin.ext (by show b.val = win2_5.index t (0 : Fin 2) * 256 + 1 * b.val; rw [e0]; omega)
  have hn : (⟨_, hk⟩ : Fin 64000) = (((cfg2.win 5).blk t).view.emb (ix2 b n')) 1 :=
    Fin.ext (by show 3200 * (t.val / 50) + n'.val = win2_5.index t (1 : Fin 2) * 3200 + 1 * n'.val; rw [e1]; omega)
  exact congrArg₂ (gval_r2 V c hIA hIB) hb hn

theorem cover2 (i : S256x64000.Idx) : ∃ t : Fin cfg2.N, (cfg2.win 5).flush t = true ∧ i ∈ ((cfg2.win 5).blk t).view.set := by
  have h1 : (i 1).val < 64000 := (i 1).isLt
  have h0 : (i 0).val < 256 := (i 0).isLt
  have hN : 50 * ((i 1).val / 3200) + 49 < cfg2.N := by rw [N1'_r2]; omega
  obtain ⟨-, -, -, -, -, -, ⟨e0, e1⟩⟩ := idx_facts2 ⟨50 * ((i 1).val / 3200) + 49, hN⟩
  have e1' : win2_5.index ⟨50 * ((i 1).val / 3200) + 49, hN⟩ (1 : Fin 2) = (i 1).val / 3200 := by rw [e1]; show (50 * ((i 1).val / 3200) + 49) / 50 = _; omega
  refine ⟨⟨50 * ((i 1).val / 3200) + 49, hN⟩, (flush2_5 _).mpr (by show (50 * ((i 1).val / 3200) + 49) % 50 = 49; omega), ?_⟩
  show i ∈ ((View.whole main_v59).slice (win2_5.rect ⟨50 * ((i 1).val / 3200) + 49, hN⟩)).set
  rw [View.set_slice_whole, Rect.mem_set_unit]
  intro a
  match a with
  | ⟨0, _⟩ =>
    show win2_5.index ⟨50 * ((i 1).val / 3200) + 49, hN⟩ (0 : Fin 2) * 256 ≤ (i 0).val
      ∧ (i 0).val < win2_5.index ⟨50 * ((i 1).val / 3200) + 49, hN⟩ (0 : Fin 2) * 256 + 256
    rw [e0]; omega
  | ⟨1, _⟩ =>
    show win2_5.index ⟨50 * ((i 1).val / 3200) + 49, hN⟩ (1 : Fin 2) * 3200 ≤ (i 1).val
      ∧ (i 1).val < win2_5.index ⟨50 * ((i 1).val / 3200) + 49, hN⟩ (1 : Fin 2) * 3200 + 3200
    rw [e1']; omega

theorem final2 (c : Dev nD) (hXH : ∀ i, IsReal (XH2 V c i)) (hXL : ∀ i, XL2 V c i = XH2 V c i - XH2 V c i)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false) :
    OUT2 V c = G2 V c hIA hIB :=
  (dat2 V c).arrAt_eq_of_cover 5 (G2 V c hIA hIB) (flushed2_eq V c hXH hXL hIA hIB) cover2

theorem region2_value (c : Dev nD) (hXH : ∀ i, IsReal (XH2 V c i)) (hXL : ∀ i, XL2 V c i = XH2 V c i - XH2 V c i)
    (hIA : ∀ n : Fin 64000, (IA2 V c (ix2 0 n)).toNat < 64000 ∧ (IA2 V c (ix2 0 n)).msb = false)
    (hIB : ∀ n : Fin 64000, (IB2 V c (ix2 0 n)).toNat < 64000 ∧ (IB2 V c (ix2 0 n)).msb = false)
    (b : Fin 256) (n : Fin 64000) :
    OUT2 V c (ix2 b n)
      = CT2 V c (ix2 0 n) + CT2 V c (ix2 1 n) * XH2 V c (ix2 b ⟨(IA2 V c (ix2 0 n)).toNat, (hIA n).1⟩)
        + CT2 V c (ix2 2 n) * XH2 V c (ix2 b ⟨(IB2 V c (ix2 0 n)).toNat, (hIB n).1⟩)
        + CT2 V c (ix2 3 n) * (XH2 V c (ix2 b ⟨(IA2 V c (ix2 0 n)).toNat, (hIA n).1⟩) * XH2 V c (ix2 b ⟨(IB2 V c (ix2 0 n)).toNat, (hIB n).1⟩)) := by
  rw [final2 V c hXH hXL hIA hIB]
  rfl

end Val
end Cert.KernelIdeal.Hand
-- ==== Proof.KI.Pay3.lean ====
import proofs.«413321_j24653112279275_3_alg».proof.Proof.KI.Pay1

set_option maxRecDepth 16384

noncomputable section

namespace Cert.KernelIdeal.Hand

open Cert.KernelIdeal Cert.KernelIdeal.Gen
open Idealize.ShloMosaic Idealize.ShloMosaic.ValueIdx

def oh3 (i : grid3.Coords) (ia : Vec Ideal S1x3200 .i32) (d : Fin 1280) (n : Fin 3200) : EReal :=
  if BitVec.ofNat 32 d.val = ia (ix2 0 n) - Scalar.muli (BitVec.ofNat 32 (i 1).val) 1280#32 then 1 else 0

-- Region 3's payloads are the functions region 1's are, so they take region 1's values at every index.
theorem pay3_apply_r3 (y : S256x3200.Idx) : k3_pay3 (F := Ideal) y = ((0 : ℝ) : EReal) :=
  pay3_apply y

theorem pay4_apply_r3 (y : S256x3200.Idx) : k3_pay4 (F := Ideal) y = ((0 : ℝ) : EReal) :=
  pay4_apply y

theorem pay2_apply_r3 (c0 c1 c2 c3 : Vec Ideal S1x3200 .f32) (a bb : Vec Ideal S256x3200 .f32) (b : Fin 256) (n : Fin 3200) :
    k3_pay2 (F := Ideal) c0 c1 c2 c3 a bb (ix2 b n)
      = c0 (ix2 0 n) + c1 (ix2 0 n) * a (ix2 b n) + c2 (ix2 0 n) * bb (ix2 b n) + c3 (ix2 0 n) * (a (ix2 b n) * bb (ix2 b n)) :=
  pay2_apply c0 c1 c2 c3 a bb b n

theorem pay7_apply_r3 (i : grid3.Coords) (ia : Vec Ideal S1x3200 .i32) (xh xl : Vec Ideal S256x1280 .bf16)
    (a : Vec Ideal S256x3200 .f32) (b : Fin 256) (n : Fin 3200) :
    k3_pay7 (F := Ideal) i ia xh xl a (ix2 b n)
      = a (ix2 b n) + ((∑ d : Fin 1280, xh (ix2 b d) * oh3 i ia d n) + (∑ d : Fin 1280, xl (ix2 b d) * oh3 i ia d n)) :=
  pay7_apply i ia xh xl a b n

theorem pay16_apply_r3 (i : grid3.Coords) (ib : Vec Ideal S1x3200 .i32) (xh xl : Vec Ideal S256x1280 .bf16)
    (bacc : Vec Ideal S256x3200 .f32) (b : Fin 256) (n : Fin 3200) :
    k3_pay1 (F := Ideal) (k3_pay6 i ib xh xl) bacc (ix2 b n)
      = bacc (ix2 b n) + ((∑ d : Fin 1280, xh (ix2 b d) * oh3 i ib d n) + (∑ d : Fin 1280, xl (ix2 b d) * oh3 i ib d n)) :=
  pay16_apply i ib xh xl bacc b n

end Cert.KernelIdeal.Hand

end
-- ==== Proof.KI.Val3.lean ====
import proofs.«413321_j24653112279275_3_alg».proof.Proof.KI.Pay3
import proofs.«413321_j24653112279275_3_alg».proof.Proof.KI.Dat3
import proofs.«413321_j24653112279275_3_alg».proof.Proof.Spec.Gather
import Idealize.ShloMosaic.Lib.ValueIdx
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.LibReal Cert.Spec

section Val
variable (V : (c : Dev nD) → (b : Ref sig .tc) → Buf (Elt Ideal) ((c : Thread nD τ).loc b))

abbrev IA3 (c : Dev nD) : Vec Ideal S1x64000 .i32 := V c main_v73
abbrev IB3 (c : Dev nD) : Vec Ideal S1x64000 .i32 := V c main_v74
abbrev CT3 (c : Dev nD) : Vec Ideal S4x64000 .f32 := V c main_v72
abbrev XH3 (c : Dev nD) : Vec Ideal S256x64000 .bf16 := V c main_v75
abbrev XL3 (c : Dev nD) : Vec Ideal S256x64000 .bf16 := V c main_v78
abbrev OUT3 (c : Dev nD) : Vec Ideal S256x64000 .f32 := (dat3 V c).arrAt 5 cfg3.N

theorem idx_facts3 : ∀ t : Fin cfg3.N,
    ((grid3.coords t 0).val = t.val / 50 ∧ (grid3.coords t 1).val = t.val % 50)
    ∧ (win3_0.index t (0 : Fin 2) = 0 ∧ win3_0.index t (1 : Fin 2) = t.val / 50)
    ∧ (win3_1.index t (0 : Fin 2) = 0 ∧ win3_1.index t (1 : Fin 2) = t.val / 50)
    ∧ (win3_2.index t (0 : Fin 2) = 0 ∧ win3_2.index t (1 : Fin 2) = t.val / 50)
    ∧ (win3_3.index t (0 : Fin 2) = 0 ∧ win3_3.index t (1 : Fin 2) = t.val % 50)
    ∧ (win3_4.index t (0 : Fin 2) = 0 ∧ win3_4.index t (1 : Fin 2) = t.val % 50)
    ∧ (win3_5.index t (0 : Fin 2) = 0 ∧ win3_5.index t (1 : Fin 2) = t.val / 50) :=
  (by decide +kernel : ∀ t : Fin grid3.N, _)

theorem iblk3_0_apply (c : Dev nD) (t : Fin cfg3.N) (n' : Fin 3200) (n : Fin 64000) (hn : n.val = 3200 * (t.val / 50) + n'.val) :
    (iblk3 V c 0 t : Vec Ideal S1x3200 .i32) (ix2 0 n') = IA3 V c (ix2 0 n) := by
  obtain ⟨-, ⟨e0, e1⟩, -⟩ := idx_facts3 t
  unfold iblk3
  rw [View.read_apply]
  show V c main_v73 _ = V c main_v73 _
  congr 1
  funext a
  apply Fin.ext
  match a with
  | ⟨0, _⟩ => show win3_0.index t (0 : Fin 2) * 1 + 1 * 0 = 0; rw [e0]
  | ⟨1, _⟩ => show win3_0.index t (1 : Fin 2) * 3200 + 1 * n'.val = n.val; rw [e1]; omega

theorem iblk3_1_apply (c : Dev nD) (t : Fin cfg3.N) (n' : Fin 3200) (n : Fin 64000) (hn : n.val = 3200 * (t.val / 50) + n'.val) :
    (iblk3 V c 1 t : Vec Ideal S1x3200 .i32) (ix2 0 n') = IB3 V c (ix2 0 n) := by
  obtain ⟨-, -, ⟨e0, e1⟩, -⟩ := idx_facts3 t
  unfold iblk3
  rw [View.read_apply]
  show V c main_v74 _ = V c main_v74 _
  congr 1
  funext a
  apply Fin.ext
  match a with
  | ⟨0, _⟩ => show win3_1.index t (0 : Fin 2) * 1 + 1 * 0 = 0; rw [e0]
  | ⟨1, _⟩ => show win3_1.index t (1 : Fin 2) * 3200 + 1 * n'.val = n.val; rw [e1]; omega

theorem iblk3_2_apply (c : Dev nD) (t : Fin cfg3.N) (r : Fin 4) (n' : Fin 3200) (n : Fin 64000) (hn : n.val = 3200 * (t.val / 50) + n'.val) :
    (iblk3 V c 2 t : Vec Ideal S4x3200 .f32) (ix2 r n') = CT3 V c (ix2 r n) := by
  obtain ⟨-, -, -, ⟨e0, e1⟩, -⟩ := idx_facts3 t
  unfold iblk3
  rw [View.read_apply]
  show V c main_v72 _ = V c main_v72 _
  congr 1
  funext a
  apply Fin.ext
  match a with
  | ⟨0, _⟩ => show win3_2.index t (0 : Fin 2) * 4 + 1 * r.val = r.val; rw [e0]; omega
  | ⟨1, _⟩ => show win3_2.index t (1 : Fin 2) * 3200 + 1 * n'.val = n.val; rw [e1]; omega

theorem iblk3_3_apply (c : Dev nD) (t : Fin cfg3.N) (b : Fin 256) (d : Fin 1280) (k : Fin 64000) (hk : k.val = t.val % 50 * 1280 + d.val) :
    (iblk3 V c 3 t : Vec Ideal S256x1280 .bf16) (ix2 b d) = XH3 V c (ix2 b k) := by
  obtain ⟨-, -, -, -, ⟨e0, e1⟩, -⟩ := idx_facts3 t
  unfold iblk3
  rw [View.read_apply]
  show V c main_v75 _ = V c main_v75 _
  congr 1
  funext a
  apply Fin.ext
  match a with
  | ⟨0, _⟩ => show win3_3.index t (0 : Fin 2) * 256 + 1 * b.val = b.val; rw [e0]; omega
  | ⟨1, _⟩ => show win3_3.index t (1 : Fin 2) * 1280 + 1 * d.val = k.val; rw [e1]; omega

theorem iblk3_4_apply (c : Dev nD) (t : Fin cfg3.N) (b : Fin 256) (d : Fin 1280) (k : Fin 64000) (hk : k.val = t.val % 50 * 1280 + d.val) :
    (iblk3 V c 4 t : Vec Ideal S256x1280 .bf16) (ix2 b d) = XL3 V c (ix2 b k) := by
  obtain ⟨-, -, -, -, -, ⟨e0, e1⟩, -⟩ := idx_facts3 t
  unfold iblk3
  rw [View.read_apply]
  show V c main_v78 _ = V c main_v78 _
  congr 1
  funext a
  apply Fin.ext
  match a with
  | ⟨0, _⟩ => show win3_4.index t (0 : Fin 2) * 256 + 1 * b.val = b.val; rw [e0]; omega
  | ⟨1, _⟩ => show win3_4.index t (1 : Fin 2) * 1280 + 1 * d.val = k.val; rw [e1]; omega

theorem oh3_eq (i : grid3.Coords) (ia : Vec Ideal S1x3200 .i32) (d : Fin 1280) (n' : Fin 3200) (j : ℕ) (hj : (i 1).val = j) (hj50 : j < 50)
    (hmsb : (ia (ix2 0 n')).msb = false) :
    oh3 i ia d n' = if j * 1280 + d.val = (ia (ix2 0 n')).toNat then (1 : EReal) else 0 := by
  unfold oh3
  rw [hj]
  have hm : Scalar.muli (BitVec.ofNat 32 j) 1280#32 = BitVec.ofNat 32 (j * 1280) := ofNat_mul_ofNat j 1280 (by omega)
  rw [hm]
  refine if_congr ?_ rfl rfl
  rw [ofNat_eq_sub_iff _ hmsb d.val (j * 1280) (by have := d.isLt; omega)]
  omega

def rowH_r3 (c : Dev nD) (b : Fin 256) (k : ℕ) : EReal := if h : k < 64000 then XH3 V c (ix2 b ⟨k, h⟩) else 0

theorem rowH_of_lt_r3 (c : Dev nD) (b : Fin 256) (k : ℕ) (h : k < 64000) : rowH_r3 V c b k = XH3 V c (ix2 b ⟨k, h⟩) := dif_pos h

theorem rowH_isReal_r3 (c : Dev nD) (hXH : ∀ i, IsReal (XH3 V c i)) (b : Fin 256) (k : ℕ) : IsReal (rowH_r3 V c b k) := by
  unfold rowH_r3
  split
  · exact hXH _
  · exact isReal_zero

def tileS_r3 (c : Dev nD) (b : Fin 256) (w j : ℕ) : EReal :=
  (∑ d : Fin 1280, rowH_r3 V c b (j * 1280 + d.val) * (if j * 1280 + d.val = w then (1 : EReal) else 0))
    + (∑ d : Fin 1280, (rowH_r3 V c b (j * 1280 + d.val) - rowH_r3 V c b (j * 1280 + d.val)) * (if j * 1280 + d.val = w then (1 : EReal) else 0))

abbrev iaB_r3 (c : Dev nD) (t : Fin cfg3.N) : Vec Ideal S1x3200 .i32 := iblk3 V c 0 t
abbrev ibB_r3 (c : Dev nD) (t : Fin cfg3.N) : Vec Ideal S1x3200 .i32 := iblk3 V c 1 t
abbrev ctB_r3 (c : Dev nD) (t : Fin cfg3.N) : Vec Ideal S4x3200 .f32 := iblk3 V c 2 t
abbrev xhB_r3 (c : Dev nD) (t : Fin cfg3.N) : Vec Ideal S256x1280 .bf16 := iblk3 V c 3 t
abbrev xlB_r3 (c : Dev nD) (t : Fin cfg3.N) : Vec Ideal S256x1280 .bf16 := iblk3 V c 4 t

-- Both accumulators add the same two sums over a tile; only the index row they compare against differs.
theorem tile_sums_r3 (c : Dev nD) (t : Fin cfg3.N) (iv : Vec Ideal S1x3200 .i32) (I : BitVec 32) (b : Fin 256) (n' : Fin 3200)
    (hia : iv (ix2 0 n') = I) (hXL : ∀ i, XL3 V c i = XH3 V c i - XH3 V c i) (hmsb : I.msb = false) :
    (∑ d : Fin 1280, xhB_r3 V c t (ix2 b d) * oh3 (grid3.coords t) iv d n') + (∑ d : Fin 1280, xlB_r3 V c t (ix2 b d) * oh3 (grid3.coords t) iv d n')
      = tileS_r3 V c b I.toNat (t.val % 50) := by
  obtain ⟨⟨-, g1⟩, -⟩ := idx_facts3 t
  have hlt : t.val % 50 < 50 := Nat.mod_lt _ (by decide)
  have hms : (iv (ix2 0 n')).msb = false := by rw [hia]; exact hmsb
  have h1 : (∑ d : Fin 1280, xhB_r3 V c t (ix2 b d) * oh3 (grid3.coords t) iv d n')
      = ∑ d : Fin 1280, rowH_r3 V c b (t.val % 50 * 1280 + d.val)
          * (if t.val % 50 * 1280 + d.val = I.toNat then (1 : EReal) else 0) := by
    refine Finset.sum_congr rfl fun d _ => ?_
    have hk : t.val % 50 * 1280 + d.val < 64000 := by have := d.isLt; omega
    have hx : xhB_r3 V c t (ix2 b d) = XH3 V c (ix2 b ⟨_, hk⟩) := iblk3_3_apply V c t b d ⟨_, hk⟩ rfl
    rw [hx, oh3_eq (grid3.coords t) iv d n' (t.val % 50) g1 hlt hms, hia, rowH_of_lt_r3 V c b _ hk]
  have h2 : (∑ d : Fin 1280, xlB_r3 V c t (ix2 b d) * oh3 (grid3.coords t) iv d n')
      = ∑ d : Fin 1280, (rowH_r3 V c b (t.val % 50 * 1280 + d.val) - rowH_r3 V c b (t.val % 50 * 1280 + d.val))
          * (if t.val % 50 * 1280 + d.val = I.toNat then (1 : EReal) else 0) := by
    refine Finset.sum_congr rfl fun d _ => ?_
    have hk : t.val % 50 * 1280 + d.val < 64000 := by have := d.isLt; omega
    have hx : xlB_r3 V c t (ix2 b d) = XL3 V c (ix2 b ⟨_, hk⟩) := iblk3_4_apply V c t b d ⟨_, hk⟩ rfl
    rw [hx, hXL, oh3_eq (grid3.coords t) iv d n' (t.val % 50) g1 hlt hms, hia, rowH_of_lt_r3 V c b _ hk]
  rw [h1, h2]
  rfl

theorem accA3_apply (c : Dev nD) (t : Fin cfg3.N) (a : Vec Ideal S256x3200 .f32) (b : Fin 256) (n' : Fin 3200) (n : Fin 64000)
    (hn : n.val = 3200 * (t.val / 50) + n'.val)
    (hXL : ∀ i, XL3 V c i = XH3 V c i - XH3 V c i)
    (hmsb : (IA3 V c (ix2 0 n)).msb = false) :
    accA3 (grid3.coords t) (iaB_r3 V c t) (xhB_r3 V c t) (xlB_r3 V c t) a (ix2 b n')
      = a (ix2 b n') + tileS_r3 V c b (IA3 V c (ix2 0 n)).toNat (t.val % 50) := by
  unfold accA3
  refine (pay7_apply_r3 (grid3.coords t) (iaB_r3 V c t) (xhB_r3 V c t) (xlB_r3 V c t) a b n').trans ?_
  rw [tile_sums_r3 V c t (iaB_r3 V c t) _ b n' (iblk3_0_apply V c t n' n hn) hXL hmsb]

theorem accB3_apply (c : Dev nD) (t : Fin cfg3.N) (a : Vec Ideal S256x3200 .f32) (b : Fin 256) (n' : Fin 3200) (n : Fin 64000)
    (hn : n.val = 3200 * (t.val / 50) + n'.val)
    (hXL : ∀ i, XL3 V c i = XH3 V c i - XH3 V c i)
    (hmsb : (IB3 V c (ix2 0 n)).msb = false) :
    accB3 (grid3.coords t) (ibB_r3 V c t) (xhB_r3 V c t) (xlB_r3 V c t) a (ix2 b n')
      = a (ix2 b n') + tileS_r3 V c b (IB3 V c (ix2 0 n)).toNat (t.val % 50) := by
  unfold accB3
  refine (pay16_apply_r3 (grid3.coords t) (ibB_r3 V c t) (xhB_r3 V c t) (xlB_r3 V c t) a b n').trans ?_
  rw [tile_sums_r3 V c t (ibB_r3 V c t) _ b n' (iblk3_1_apply V c t n' n hn) hXL hmsb]

theorem N1'_r3 : cfg3.N = 1000 := N_3

theorem accA_row_r3 (c : Dev nD) (hXL : ∀ i, XL3 V c i = XH3 V c i - XH3 V c i) (q : ℕ) (b : Fin 256) (n' : Fin 3200) (n : Fin 64000)
    (hn : n.val = 3200 * q + n'.val) (hmsb : (IA3 V c (ix2 0 n)).msb = false) :
    ∀ (j : ℕ) (hj : j < 50) (t : Fin cfg3.N) (ht : t.val = 50 * q + j),
      (accAt3 V c t.val t.isLt).1 (ix2 b n') = accF (tileS_r3 V c b (IA3 V c (ix2 0 n)).toNat) j
  | 0, hj, t, ht => by
    have hm : t.val % 50 = 0 := by omega
    have hq : t.val / 50 = q := by omega
    rw [accAt3_reset V c t hm]
    dsimp only
    refine (accA3_apply V c t zeroA3 b n' n (by rw [hq]; exact hn) hXL hmsb).trans ?_
    rw [hm]
    show _ = 0 + tileS_r3 V c b (IA3 V c (ix2 0 n)).toNat 0
    congr 1
    exact (pay3_apply_r3 _).trans EReal.coe_zero
  | j + 1, hj, t, ht => by
    have hm : ¬ t.val % 50 = 0 := by omega
    have hq : t.val / 50 = q := by omega
    have hmod : t.val % 50 = j + 1 := by omega
    rw [accAt3_step V c t hm]
    dsimp only
    refine (accA3_apply V c t _ b n' n (by rw [hq]; exact hn) hXL hmsb).trans ?_
    rw [hmod]
    show _ = accF (tileS_r3 V c b (IA3 V c (ix2 0 n)).toNat) j + tileS_r3 V c b (IA3 V c (ix2 0 n)).toNat (j + 1)
    congr 1
    exact accA_row_r3 c hXL q b n' n hn hmsb j (by omega) ⟨t.val - 1, Nat.lt_of_le_of_lt (Nat.sub_le _ _) t.isLt⟩ (by show t.val - 1 = _; omega)

theorem accB_row_r3 (c : Dev nD) (hXL : ∀ i, XL3 V c i = XH3 V c i - XH3 V c i) (q : ℕ) (b : Fin 256) (n' : Fin 3200) (n : Fin 64000)
    (hn : n.val = 3200 * q + n'.val) (hmsb : (IB3 V c (ix2 0 n)).msb = false) :
    ∀ (j : ℕ) (hj : j < 50) (t : Fin cfg3.N) (ht : t.val = 50 * q + j),
      (accAt3 V c t.val t.isLt).2 (ix2 b n') = accF (tileS_r3 V c b (IB3 V c (ix2 0 n)).toNat) j
  | 0, hj, t, ht => by
    have hm : t.val % 50 = 0 := by omega
    have hq : t.val / 50 = q := by omega
    rw [accAt3_reset V c t hm]
    dsimp only
    refine (accB3_apply V c t zeroB3 b n' n (by rw [hq]; exact hn) hXL hmsb).trans ?_
    rw [hm]
    show _ = 0 + tileS_r3 V c b (IB3 V c (ix2 0 n)).toNat 0
    congr 1
    exact (pay4_apply_r3 _).trans EReal.coe_zero
  | j + 1, hj, t, ht => by
    have hm : ¬ t.val % 50 = 0 := by omega
    have hq : t.val / 50 = q := by omega
    have hmod : t.val % 50 = j + 1 := by omega
    rw [accAt3_step V c t hm]
    dsimp only
    refine (accB3_apply V c t _ b n' n (by rw [hq]; exact hn) hXL hmsb).trans ?_
    rw [hmod]
    show _ = accF (tileS_r3 V c b (IB3 V c (ix2 0 n)).toNat) j + tileS_r3 V c b (IB3 V c (ix2 0 n)).toNat (j + 1)
    congr 1
    exact accB_row_r3 c hXL q b n' n hn hmsb j (by omega) ⟨t.val - 1, Nat.lt_of_le_of_lt (Nat.sub_le _ _) t.isLt⟩ (by show t.val - 1 = _; omega)

theorem walk_eq_r3 (c : Dev nD) (hXH : ∀ i, IsReal (XH3 V c i)) (b : Fin 256) (w : ℕ) (hw : w < 64000) :
    accF (tileS_r3 V c b w) 49 = XH3 V c (ix2 b ⟨w, hw⟩) := by
  have h := gather_tiles 50 1280 (by decide) (by decide) (rowH_r3 V c b) (rowH_isReal_r3 V c hXH b) w (by omega)
  rw [rowH_of_lt_r3 V c b w hw] at h
  exact h

theorem ld_row3_apply (cb : Vec Ideal S4x3200 .f32) (r : Fin 4) (off : Fin 2 → ℕ) (hoff : off = ![r.val, 0])
    (inb : ∀ a, off a + S1x3200.size a ≤ S4x3200.size a) (n' : Fin 3200) :
    View.ld cb (Rect.unit (s := S4x3200) off S1x3200.size inb) (ix2 0 n') = cb (ix2 r n') := by
  subst hoff
  show cb _ = cb _
  congr 1
  funext a
  apply Fin.ext
  match a with
  | ⟨0, _⟩ => show r.val + 1 * 0 = r.val; omega
  | ⟨1, _⟩ => show 0 + 1 * n'.val = n'.val; omega

theorem outv3_apply (cb : Vec Ideal S4x3200 .f32) (a bb : Vec Ideal S256x3200 .f32) (b : Fin 256) (n' : Fin 3200) :
    outv3 cb a bb (ix2 b n') = cb (ix2 0 n') + cb (ix2 1 n') * a (ix2 b n') + cb (ix2 2 n') * bb (ix2 b n')
      + cb (ix2 3 n') * (a (ix2 b n') * bb (ix2 b n')) := by
  unfold outv3
  rw [pay2_apply_r3, ld_row3_apply cb 0 ![0, 0] rfl inb_S4x3200_S1x3200_0_0 n', ld_row3_apply cb 1 ![1, 0] rfl inb_S4x3200_S1x3200_1_0 n',
    ld_row3_apply cb 2 ![2, 0] rfl inb_S4x3200_S1x3200_2_0 n', ld_row3_apply cb 3 ![3, 0] rfl inb_S4x3200_S1x3200_3_0 n']

def gval_r3 (c : Dev nD)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false)
    (b : Fin 256) (n : Fin 64000) : EReal :=
  CT3 V c (ix2 0 n) + CT3 V c (ix2 1 n) * XH3 V c (ix2 b ⟨(IA3 V c (ix2 0 n)).toNat, (hIA n).1⟩)
    + CT3 V c (ix2 2 n) * XH3 V c (ix2 b ⟨(IB3 V c (ix2 0 n)).toNat, (hIB n).1⟩)
    + CT3 V c (ix2 3 n) * (XH3 V c (ix2 b ⟨(IA3 V c (ix2 0 n)).toNat, (hIA n).1⟩) * XH3 V c (ix2 b ⟨(IB3 V c (ix2 0 n)).toNat, (hIB n).1⟩))

theorem outAt3_apply (c : Dev nD) (hXH : ∀ i, IsReal (XH3 V c i)) (hXL : ∀ i, XL3 V c i = XH3 V c i - XH3 V c i)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false)
    (t : Fin cfg3.N) (ht : t.val % 50 = 49) (b : Fin 256) (n' : Fin 3200) (n : Fin 64000) (hn : n.val = 3200 * (t.val / 50) + n'.val) :
    outAt3 V c t (ix2 b n') = gval_r3 V c hIA hIB b n := by
  have hc0 : ctB_r3 V c t (ix2 0 n') = CT3 V c (ix2 0 n) := iblk3_2_apply V c t 0 n' n hn
  have hc1 : ctB_r3 V c t (ix2 1 n') = CT3 V c (ix2 1 n) := iblk3_2_apply V c t 1 n' n hn
  have hc2 : ctB_r3 V c t (ix2 2 n') = CT3 V c (ix2 2 n) := iblk3_2_apply V c t 2 n' n hn
  have hc3 : ctB_r3 V c t (ix2 3 n') = CT3 V c (ix2 3 n) := iblk3_2_apply V c t 3 n' n hn
  have hA : (accAt3 V c t.val t.isLt).1 (ix2 b n') = XH3 V c (ix2 b ⟨(IA3 V c (ix2 0 n)).toNat, (hIA n).1⟩) :=
    (accA_row_r3 V c hXL (t.val / 50) b n' n hn (hIA n).2 49 (by decide) t (by omega)).trans (walk_eq_r3 V c hXH b _ (hIA n).1)
  have hB : (accAt3 V c t.val t.isLt).2 (ix2 b n') = XH3 V c (ix2 b ⟨(IB3 V c (ix2 0 n)).toNat, (hIB n).1⟩) :=
    (accB_row_r3 V c hXL (t.val / 50) b n' n hn (hIB n).2 49 (by decide) t (by omega)).trans (walk_eq_r3 V c hXH b _ (hIB n).1)
  unfold outAt3
  refine (outv3_apply (ctB_r3 V c t) (accAt3 V c t.val t.isLt).1 (accAt3 V c t.val t.isLt).2 b n').trans ?_
  rw [hc0, hc1, hc2, hc3, hA, hB]
  rfl

def G3 (c : Dev nD)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false) :
    Vec Ideal S256x64000 .f32 := fun i => gval_r3 V c hIA hIB (i 0) (i 1)

theorem flushed3_eq (c : Dev nD) (hXH : ∀ i, IsReal (XH3 V c i)) (hXL : ∀ i, XL3 V c i = XH3 V c i - XH3 V c i)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false)
    (t : Fin cfg3.N) (hf : (cfg3.win 5).flush t = true) :
    (dat3 V c).flushed 5 t = ((cfg3.win 5).blk t).view.read (Elt Ideal) (G3 V c hIA hIB) := by
  have h49 : t.val % 50 = 49 := (flush3_5 t).mp hf
  obtain ⟨-, -, -, -, -, -, ⟨e0, e1⟩⟩ := idx_facts3 t
  show (cfg3.win 5).cut (grid3.coords t) ((dat3 V c).after 5 t) = _
  rw [after3_5]
  funext y
  obtain ⟨b, n', rfl⟩ : ∃ (b : Fin 256) (n' : Fin 3200), y = ix2 b n' := ⟨y 0, y 1, eq_ix2 y⟩
  rw [View.read_apply]
  have hk : 3200 * (t.val / 50) + n'.val < 64000 := by
    have h1 : t.val < cfg3.N := t.isLt
    have h2 : cfg3.N = 1000 := N1'_r3
    have h3 := n'.isLt
    omega
  refine (outAt3_apply V c hXH hXL hIA hIB t h49 b n' ⟨_, hk⟩ rfl).trans ?_
  show gval_r3 V c hIA hIB b ⟨_, hk⟩ = gval_r3 V c hIA hIB ((((cfg3.win 5).blk t).view.emb (ix2 b n')) 0) ((((cfg3.win 5).blk t).view.emb (ix2 b n')) 1)
  have hb : b = (((cfg3.win 5).blk t).view.emb (ix2 b n')) 0 :=
    Fin.ext (by show b.val = win3_5.index t (0 : Fin 2) * 256 + 1 * b.val; rw [e0]; omega)
  have hn : (⟨_, hk⟩ : Fin 64000) = (((cfg3.win 5).blk t).view.emb (ix2 b n')) 1 :=
    Fin.ext (by show 3200 * (t.val / 50) + n'.val = win3_5.index t (1 : Fin 2) * 3200 + 1 * n'.val; rw [e1]; omega)
  exact congrArg₂ (gval_r3 V c hIA hIB) hb hn

theorem cover3 (i : S256x64000.Idx) : ∃ t : Fin cfg3.N, (cfg3.win 5).flush t = true ∧ i ∈ ((cfg3.win 5).blk t).view.set := by
  have h1 : (i 1).val < 64000 := (i 1).isLt
  have h0 : (i 0).val < 256 := (i 0).isLt
  have hN : 50 * ((i 1).val / 3200) + 49 < cfg3.N := by rw [N1'_r3]; omega
  obtain ⟨-, -, -, -, -, -, ⟨e0, e1⟩⟩ := idx_facts3 ⟨50 * ((i 1).val / 3200) + 49, hN⟩
  have e1' : win3_5.index ⟨50 * ((i 1).val / 3200) + 49, hN⟩ (1 : Fin 2) = (i 1).val / 3200 := by rw [e1]; show (50 * ((i 1).val / 3200) + 49) / 50 = _; omega
  refine ⟨⟨50 * ((i 1).val / 3200) + 49, hN⟩, (flush3_5 _).mpr (by show (50 * ((i 1).val / 3200) + 49) % 50 = 49; omega), ?_⟩
  show i ∈ ((View.whole main_v79).slice (win3_5.rect ⟨50 * ((i 1).val / 3200) + 49, hN⟩)).set
  rw [View.set_slice_whole, Rect.mem_set_unit]
  intro a
  match a with
  | ⟨0, _⟩ =>
    show win3_5.index ⟨50 * ((i 1).val / 3200) + 49, hN⟩ (0 : Fin 2) * 256 ≤ (i 0).val
      ∧ (i 0).val < win3_5.index ⟨50 * ((i 1).val / 3200) + 49, hN⟩ (0 : Fin 2) * 256 + 256
    rw [e0]; omega
  | ⟨1, _⟩ =>
    show win3_5.index ⟨50 * ((i 1).val / 3200) + 49, hN⟩ (1 : Fin 2) * 3200 ≤ (i 1).val
      ∧ (i 1).val < win3_5.index ⟨50 * ((i 1).val / 3200) + 49, hN⟩ (1 : Fin 2) * 3200 + 3200
    rw [e1']; omega

theorem final3 (c : Dev nD) (hXH : ∀ i, IsReal (XH3 V c i)) (hXL : ∀ i, XL3 V c i = XH3 V c i - XH3 V c i)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false) :
    OUT3 V c = G3 V c hIA hIB :=
  (dat3 V c).arrAt_eq_of_cover 5 (G3 V c hIA hIB) (flushed3_eq V c hXH hXL hIA hIB) cover3

theorem region3_value (c : Dev nD) (hXH : ∀ i, IsReal (XH3 V c i)) (hXL : ∀ i, XL3 V c i = XH3 V c i - XH3 V c i)
    (hIA : ∀ n : Fin 64000, (IA3 V c (ix2 0 n)).toNat < 64000 ∧ (IA3 V c (ix2 0 n)).msb = false)
    (hIB : ∀ n : Fin 64000, (IB3 V c (ix2 0 n)).toNat < 64000 ∧ (IB3 V c (ix2 0 n)).msb = false)
    (b : Fin 256) (n : Fin 64000) :
    OUT3 V c (ix2 b n)
      = CT3 V c (ix2 0 n) + CT3 V c (ix2 1 n) * XH3 V c (ix2 b ⟨(IA3 V c (ix2 0 n)).toNat, (hIA n).1⟩)
        + CT3 V c (ix2 2 n) * XH3 V c (ix2 b ⟨(IB3 V c (ix2 0 n)).toNat, (hIB n).1⟩)
        + CT3 V c (ix2 3 n) * (XH3 V c (ix2 b ⟨(IA3 V c (ix2 0 n)).toNat, (hIA n).1⟩) * XH3 V c (ix2 b ⟨(IB3 V c (ix2 0 n)).toNat, (hIB n).1⟩)) := by
  rw [final3 V c hXH hXL hIA hIB]
  rfl

end Val
end Cert.KernelIdeal.Hand
-- ==== Proof.KI.Host.lean ====
import proofs.«413321_j24653112279275_3_alg».proof.Proof.Gen.KernelIdeal.Regions
import proofs.«413321_j24653112279275_3_alg».proof.Proof.R.Run
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

local notation "R.table" => Cert.ReferenceIdeal.Hand.table
local notation "R.coef" => Cert.ReferenceIdeal.Hand.coef
local notation "R.groupSum" => Cert.ReferenceIdeal.Hand.groupSum

set_option maxRecDepth 8192 in
set_option maxHeartbeats 1600000 in
theorem ops0_table (V : Valuation τ sig (Elt F)) : after hostOps0 V (Proc.devRef .tc main_cst) = R.table := by
  simp only [hostOps0]
  after_results_simp <;> rfl

set_option maxRecDepth 8192 in
set_option maxHeartbeats 1600000 in
theorem ops0_idxA (V : Valuation τ sig (Elt F)) :
    after hostOps0 V (Proc.devRef .tc main_v13) = shapeCast S1x64000 (V (Proc.devRef .tc main_arg1)) shapeCasts_S64000_S1x64000 := by
  simp only [hostOps0]
  after_results_simp <;> rfl

set_option maxRecDepth 8192 in
set_option maxHeartbeats 1600000 in
theorem ops0_idxB (V : Valuation τ sig (Elt F)) :
    after hostOps0 V (Proc.devRef .tc main_v14) = shapeCast S1x64000 (V (Proc.devRef .tc main_arg2)) shapeCasts_S64000_S1x64000 := by
  simp only [hostOps0]
  after_results_simp <;> rfl

set_option maxRecDepth 8192 in
set_option maxHeartbeats 1600000 in
theorem ops0_coef (V : Valuation τ sig (Elt F)) :
    after hostOps0 V (Proc.devRef .tc main_v12)
      = transpose S4x64000 [1, 0] (R.coef (V (Proc.devRef .tc main_arg3))) transposes_S64000x4_S4x64000_1_0 := by
  simp only [hostOps0]
  after_results_simp <;> rfl

set_option maxRecDepth 8192 in
set_option maxHeartbeats 1600000 in
theorem ops0_hi (V : Valuation τ sig (Elt F)) :
    after hostOps0 V (Proc.devRef .tc main_v15) = truncf .bf16 (V (Proc.devRef .tc main_arg0)) bitsLt_bf16_f32 := by
  simp only [hostOps0]
  after_results_simp <;> rfl

set_option maxRecDepth 8192 in
set_option maxHeartbeats 1600000 in
theorem ops0_lo (V : Valuation τ sig (Elt F)) :
    after hostOps0 V (Proc.devRef .tc main_v18)
      = truncf .bf16 (subf (V (Proc.devRef .tc main_arg0)) (extf .f32 (truncf .bf16 (V (Proc.devRef .tc main_arg0)) bitsLt_bf16_f32) bitsLt_bf16_f32)) bitsLt_bf16_f32 := by
  simp only [hostOps0]
  after_results_simp <;> rfl

set_option maxRecDepth 8192 in
set_option maxHeartbeats 1600000 in
theorem ops1_idxA (V : Valuation τ sig (Elt F)) :
    after hostOps1 V (Proc.devRef .tc main_v33) = shapeCast S1x64000 (V (Proc.devRef .tc main_arg4)) shapeCasts_S64000_S1x64000 := by
  simp only [hostOps1]
  after_results_simp <;> rfl

set_option maxRecDepth 8192 in
set_option maxHeartbeats 1600000 in
theorem ops1_idxB (V : Valuation τ sig (Elt F)) :
    after hostOps1 V (Proc.devRef .tc main_v34) = shapeCast S1x64000 (V (Proc.devRef .tc main_arg5)) shapeCasts_S64000_S1x64000 := by
  simp only [hostOps1]
  after_results_simp <;> rfl

set_option maxRecDepth 8192 in
set_option maxHeartbeats 1600000 in
theorem ops1_coef (V : Valuation τ sig (Elt F)) (hT : V (Proc.devRef .tc main_cst) = R.table) :
    after hostOps1 V (Proc.devRef .tc main_v32)
      = transpose S4x64000 [1, 0] (R.coef (V (Proc.devRef .tc main_arg6))) transposes_S64000x4_S4x64000_1_0 := by
  simp only [hostOps1]
  after_results_simp
  rw [hT]
  rfl

set_option maxRecDepth 8192 in
set_option maxHeartbeats 1600000 in
theorem ops1_hi (V : Valuation τ sig (Elt F)) :
    after hostOps1 V (Proc.devRef .tc main_v35) = truncf .bf16 (V (Proc.devRef .tc main_v19)) bitsLt_bf16_f32 := by
  simp only [hostOps1]
  after_results_simp <;> rfl

set_option maxRecDepth 8192 in
set_option maxHeartbeats 1600000 in
theorem ops1_lo (V : Valuation τ sig (Elt F)) :
    after hostOps1 V (Proc.devRef .tc main_v38)
      = truncf .bf16 (subf (V (Proc.devRef .tc main_v19)) (extf .f32 (truncf .bf16 (V (Proc.devRef .tc main_v19)) bitsLt_bf16_f32) bitsLt_bf16_f32)) bitsLt_bf16_f32 := by
  simp only [hostOps1]
  after_results_simp <;> rfl

set_option maxRecDepth 8192 in
set_option maxHeartbeats 1600000 in
theorem ops2_idxA (V : Valuation τ sig (Elt F)) :
    after hostOps2 V (Proc.devRef .tc main_v53) = shapeCast S1x64000 (V (Proc.devRef .tc main_arg7)) shapeCasts_S64000_S1x64000 := by
  simp only [hostOps2]
  after_results_simp <;> rfl

set_option maxRecDepth 8192 in
set_option maxHeartbeats 1600000 in
theorem ops2_idxB (V : Valuation τ sig (Elt F)) :
    after hostOps2 V (Proc.devRef .tc main_v54) = shapeCast S1x64000 (V (Proc.devRef .tc main_arg8)) shapeCasts_S64000_S1x64000 := by
  simp only [hostOps2]
  after_results_simp <;> rfl

set_option maxRecDepth 8192 in
set_option maxHeartbeats 1600000 in
theorem ops2_coef (V : Valuation τ sig (Elt F)) (hT : V (Proc.devRef .tc main_cst) = R.table) :
    after hostOps2 V (Proc.devRef .tc main_v52)
      = transpose S4x64000 [1, 0] (R.coef (V (Proc.devRef .tc main_arg9))) transposes_S64000x4_S4x64000_1_0 := by
  simp only [hostOps2]
  after_results_simp
  rw [hT]
  rfl

set_option maxRecDepth 8192 in
set_option maxHeartbeats 1600000 in
theorem ops2_hi (V : Valuation τ sig (Elt F)) :
    after hostOps2 V (Proc.devRef .tc main_v55) = truncf .bf16 (V (Proc.devRef .tc main_v39)) bitsLt_bf16_f32 := by
  simp only [hostOps2]
  after_results_simp <;> rfl

set_option maxRecDepth 8192 in
set_option maxHeartbeats 1600000 in
theorem ops2_lo (V : Valuation τ sig (Elt F)) :
    after hostOps2 V (Proc.devRef .tc main_v58)
      = truncf .bf16 (subf (V (Proc.devRef .tc main_v39)) (extf .f32 (truncf .bf16 (V (Proc.devRef .tc main_v39)) bitsLt_bf16_f32) bitsLt_bf16_f32)) bitsLt_bf16_f32 := by
  simp only [hostOps2]
  after_results_simp <;> rfl

set_option maxRecDepth 8192 in
set_option maxHeartbeats 1600000 in
theorem ops3_idxA (V : Valuation τ sig (Elt F)) :
    after hostOps3 V (Proc.devRef .tc main_v73) = shapeCast S1x64000 (V (Proc.devRef .tc main_arg10)) shapeCasts_S64000_S1x64000 := by
  simp only [hostOps3]
  after_results_simp <;> rfl

set_option maxRecDepth 8192 in
set_option maxHeartbeats 1600000 in
theorem ops3_idxB (V : Valuation τ sig (Elt F)) :
    after hostOps3 V (Proc.devRef .tc main_v74) = shapeCast S1x64000 (V (Proc.devRef .tc main_arg11)) shapeCasts_S64000_S1x64000 := by
  simp only [hostOps3]
  after_results_simp <;> rfl

set_option maxRecDepth 8192 in
set_option maxHeartbeats 1600000 in
theorem ops3_coef (V : Valuation τ sig (Elt F)) (hT : V (Proc.devRef .tc main_cst) = R.table) :
    after hostOps3 V (Proc.devRef .tc main_v72)
      = transpose S4x64000 [1, 0] (R.coef (V (Proc.devRef .tc main_arg12))) transposes_S64000x4_S4x64000_1_0 := by
  simp only [hostOps3]
  after_results_simp
  rw [hT]
  rfl

set_option maxRecDepth 8192 in
set_option maxHeartbeats 1600000 in
theorem ops3_hi (V : Valuation τ sig (Elt F)) :
    after hostOps3 V (Proc.devRef .tc main_v75) = truncf .bf16 (V (Proc.devRef .tc main_v59)) bitsLt_bf16_f32 := by
  simp only [hostOps3]
  after_results_simp <;> rfl

set_option maxRecDepth 8192 in
set_option maxHeartbeats 1600000 in
theorem ops3_lo (V : Valuation τ sig (Elt F)) :
    after hostOps3 V (Proc.devRef .tc main_v78)
      = truncf .bf16 (subf (V (Proc.devRef .tc main_v59)) (extf .f32 (truncf .bf16 (V (Proc.devRef .tc main_v59)) bitsLt_bf16_f32) bitsLt_bf16_f32)) bitsLt_bf16_f32 := by
  simp only [hostOps3]
  after_results_simp <;> rfl

set_option maxRecDepth 8192 in
set_option maxHeartbeats 1600000 in
theorem ops4_val (V : Valuation τ sig (Elt F)) :
    after hostOps4 V (Proc.devRef .tc main_v83) = R.groupSum (V (Proc.devRef .tc main_v79)) := by
  simp only [hostOps4]
  after_results_simp <;> rfl

section Boundary

variable (m : (ℓ : Loc nD τ sig) → Buf (Elt F) ℓ) (outs : Outs (F := F))

theorem V2_arg (c : Dev nD) (r : Ref sig .tc) (h2 : r ∉ ([main_v19] : List (Ref sig .tc))) (h1 : r ∉ hostOps0_W) :
    V2 m outs c r = m ((c : Thread nD τ).loc r) :=
  (V2_of m outs c r h2).trans (V1_of m c r h1)

theorem V4_arg (c : Dev nD) (r : Ref sig .tc) (h4 : r ∉ ([main_v39] : List (Ref sig .tc))) (h3 : r ∉ hostOps1_W)
    (h2 : r ∉ ([main_v19] : List (Ref sig .tc))) (h1 : r ∉ hostOps0_W) :
    V4 m outs c r = m ((c : Thread nD τ).loc r) :=
  (V4_of m outs c r h4).trans ((V3_of m outs c r h3).trans (V2_arg m outs c r h2 h1))

theorem V6_arg (c : Dev nD) (r : Ref sig .tc) (h6 : r ∉ ([main_v59] : List (Ref sig .tc))) (h5 : r ∉ hostOps2_W)
    (h4 : r ∉ ([main_v39] : List (Ref sig .tc))) (h3 : r ∉ hostOps1_W)
    (h2 : r ∉ ([main_v19] : List (Ref sig .tc))) (h1 : r ∉ hostOps0_W) :
    V6 m outs c r = m ((c : Thread nD τ).loc r) :=
  (V6_of m outs c r h6).trans ((V5_of m outs c r h5).trans (V4_arg m outs c r h4 h3 h2 h1))

theorem V1_table (c : Dev nD) : V1 m c main_cst = R.table := ops0_table (V0 m c)

theorem V2_table (c : Dev nD) : V2 m outs c main_cst = R.table :=
  (V2_of m outs c main_cst (by decide)).trans (V1_table m c)

theorem V4_table (c : Dev nD) : V4 m outs c main_cst = R.table :=
  (V4_of m outs c main_cst (by decide)).trans ((V3_of m outs c main_cst (by decide)).trans (V2_table m outs c))

theorem V6_table (c : Dev nD) : V6 m outs c main_cst = R.table :=
  (V6_of m outs c main_cst (by decide)).trans ((V5_of m outs c main_cst (by decide)).trans (V4_table m outs c))

end Boundary

section AtIdeal

variable (m : (ℓ : Loc nD τ sig) → Buf (Elt Ideal) ℓ) (outs : Outs (F := Ideal))

theorem host0 (c : Dev nD) :
    (∀ n : Fin 64000, (V1 m c main_v13 : IVec S1x64000 32) (ix2 0 n) = (m ((c : Thread nD τ).loc main_arg1) : IVec S64000 32) (ix1 n))
    ∧ (∀ n : Fin 64000, (V1 m c main_v14 : IVec S1x64000 32) (ix2 0 n) = (m ((c : Thread nD τ).loc main_arg2) : IVec S64000 32) (ix1 n))
    ∧ (∀ (k : Fin 4) (n : Fin 64000), (V1 m c main_v12 : FVec Ideal S4x64000 .f32) (ix2 k n)
        = Cert.ReferenceIdeal.Hand.coef (F := Ideal) (m ((c : Thread nD τ).loc main_arg3)) (ix2 n k))
    ∧ (∀ i : S256x1024.Idx, (V1 m c main_v15 : S256x1024.Idx → EReal) i = (m ((c : Thread nD τ).loc main_arg0) : S256x1024.Idx → EReal) i)
    ∧ (∀ i : S256x1024.Idx, (V1 m c main_v18 : S256x1024.Idx → EReal) i = HSub.hSub (α := EReal) (β := EReal) (γ := EReal) ((m ((c : Thread nD τ).loc main_arg0) : S256x1024.Idx → EReal) i) ((m ((c : Thread nD τ).loc main_arg0) : S256x1024.Idx → EReal) i)) := by
  refine ⟨fun n => ?_, fun n => ?_, fun k n => ?_, fun i => ?_, fun i => ?_⟩
  · refine (congrFun (ops0_idxA (F := Ideal) (V0 m c)) (ix2 0 n)).trans ?_
    exact shapeCast_a_1a_apply _ _ 0 n
  · refine (congrFun (ops0_idxB (F := Ideal) (V0 m c)) (ix2 0 n)).trans ?_
    exact shapeCast_a_1a_apply _ _ 0 n
  · refine (congrFun (ops0_coef (F := Ideal) (V0 m c)) (ix2 k n)).trans ?_
    exact transpose_ix2_apply _ _ k n
  · exact congrFun (ops0_hi (F := Ideal) (V0 m c)) i
  · exact congrFun (ops0_lo (F := Ideal) (V0 m c)) i

theorem host1 (c : Dev nD) :
    (∀ n : Fin 64000, (V3 m outs c main_v33 : IVec S1x64000 32) (ix2 0 n) = (m ((c : Thread nD τ).loc main_arg4) : IVec S64000 32) (ix1 n))
    ∧ (∀ n : Fin 64000, (V3 m outs c main_v34 : IVec S1x64000 32) (ix2 0 n) = (m ((c : Thread nD τ).loc main_arg5) : IVec S64000 32) (ix1 n))
    ∧ (∀ (k : Fin 4) (n : Fin 64000), (V3 m outs c main_v32 : FVec Ideal S4x64000 .f32) (ix2 k n)
        = Cert.ReferenceIdeal.Hand.coef (F := Ideal) (m ((c : Thread nD τ).loc main_arg6)) (ix2 n k))
    ∧ (∀ i : S256x64000.Idx, (V3 m outs c main_v35 : S256x64000.Idx → EReal) i = (V2 m outs c main_v19 : S256x64000.Idx → EReal) i)
    ∧ (∀ i : S256x64000.Idx, (V3 m outs c main_v38 : S256x64000.Idx → EReal) i = HSub.hSub (α := EReal) (β := EReal) (γ := EReal) ((V2 m outs c main_v19 : S256x64000.Idx → EReal) i) ((V2 m outs c main_v19 : S256x64000.Idx → EReal) i)) := by
  have hA : V2 m outs c main_arg4 = m ((c : Thread nD τ).loc main_arg4) := V2_arg m outs c main_arg4 (by decide) (by decide)
  have hB : V2 m outs c main_arg5 = m ((c : Thread nD τ).loc main_arg5) := V2_arg m outs c main_arg5 (by decide) (by decide)
  have hW : V2 m outs c main_arg6 = m ((c : Thread nD τ).loc main_arg6) := V2_arg m outs c main_arg6 (by decide) (by decide)
  refine ⟨fun n => ?_, fun n => ?_, fun k n => ?_, fun i => ?_, fun i => ?_⟩
  · refine (congrFun (ops1_idxA (F := Ideal) (V2 m outs c)) (ix2 0 n)).trans ?_
    rw [hA]
    exact shapeCast_a_1a_apply _ _ 0 n
  · refine (congrFun (ops1_idxB (F := Ideal) (V2 m outs c)) (ix2 0 n)).trans ?_
    rw [hB]
    exact shapeCast_a_1a_apply _ _ 0 n
  · refine (congrFun (ops1_coef (F := Ideal) (V2 m outs c) (V2_table m outs c)) (ix2 k n)).trans ?_
    rw [hW]
    exact transpose_ix2_apply _ _ k n
  · exact congrFun (ops1_hi (F := Ideal) (V2 m outs c)) i
  · exact congrFun (ops1_lo (F := Ideal) (V2 m outs c)) i

theorem host2 (c : Dev nD) :
    (∀ n : Fin 64000, (V5 m outs c main_v53 : IVec S1x64000 32) (ix2 0 n) = (m ((c : Thread nD τ).loc main_arg7) : IVec S64000 32) (ix1 n))
    ∧ (∀ n : Fin 64000, (V5 m outs c main_v54 : IVec S1x64000 32) (ix2 0 n) = (m ((c : Thread nD τ).loc main_arg8) : IVec S64000 32) (ix1 n))
    ∧ (∀ (k : Fin 4) (n : Fin 64000), (V5 m outs c main_v52 : FVec Ideal S4x64000 .f32) (ix2 k n)
        = Cert.ReferenceIdeal.Hand.coef (F := Ideal) (m ((c : Thread nD τ).loc main_arg9)) (ix2 n k))
    ∧ (∀ i : S256x64000.Idx, (V5 m outs c main_v55 : S256x64000.Idx → EReal) i = (V4 m outs c main_v39 : S256x64000.Idx → EReal) i)
    ∧ (∀ i : S256x64000.Idx, (V5 m outs c main_v58 : S256x64000.Idx → EReal) i = HSub.hSub (α := EReal) (β := EReal) (γ := EReal) ((V4 m outs c main_v39 : S256x64000.Idx → EReal) i) ((V4 m outs c main_v39 : S256x64000.Idx → EReal) i)) := by
  have hA : V4 m outs c main_arg7 = m ((c : Thread nD τ).loc main_arg7) := V4_arg m outs c main_arg7 (by decide) (by decide) (by decide) (by decide)
  have hB : V4 m outs c main_arg8 = m ((c : Thread nD τ).loc main_arg8) := V4_arg m outs c main_arg8 (by decide) (by decide) (by decide) (by decide)
  have hW : V4 m outs c main_arg9 = m ((c : Thread nD τ).loc main_arg9) := V4_arg m outs c main_arg9 (by decide) (by decide) (by decide) (by decide)
  refine ⟨fun n => ?_, fun n => ?_, fun k n => ?_, fun i => ?_, fun i => ?_⟩
  · refine (congrFun (ops2_idxA (F := Ideal) (V4 m outs c)) (ix2 0 n)).trans ?_
    rw [hA]
    exact shapeCast_a_1a_apply _ _ 0 n
  · refine (congrFun (ops2_idxB (F := Ideal) (V4 m outs c)) (ix2 0 n)).trans ?_
    rw [hB]
    exact shapeCast_a_1a_apply _ _ 0 n
  · refine (congrFun (ops2_coef (F := Ideal) (V4 m outs c) (V4_table m outs c)) (ix2 k n)).trans ?_
    rw [hW]
    exact transpose_ix2_apply _ _ k n
  · exact congrFun (ops2_hi (F := Ideal) (V4 m outs c)) i
  · exact congrFun (ops2_lo (F := Ideal) (V4 m outs c)) i

theorem host3 (c : Dev nD) :
    (∀ n : Fin 64000, (V7 m outs c main_v73 : IVec S1x64000 32) (ix2 0 n) = (m ((c : Thread nD τ).loc main_arg10) : IVec S64000 32) (ix1 n))
    ∧ (∀ n : Fin 64000, (V7 m outs c main_v74 : IVec S1x64000 32) (ix2 0 n) = (m ((c : Thread nD τ).loc main_arg11) : IVec S64000 32) (ix1 n))
    ∧ (∀ (k : Fin 4) (n : Fin 64000), (V7 m outs c main_v72 : FVec Ideal S4x64000 .f32) (ix2 k n)
        = Cert.ReferenceIdeal.Hand.coef (F := Ideal) (m ((c : Thread nD τ).loc main_arg12)) (ix2 n k))
    ∧ (∀ i : S256x64000.Idx, (V7 m outs c main_v75 : S256x64000.Idx → EReal) i = (V6 m outs c main_v59 : S256x64000.Idx → EReal) i)
    ∧ (∀ i : S256x64000.Idx, (V7 m outs c main_v78 : S256x64000.Idx → EReal) i = HSub.hSub (α := EReal) (β := EReal) (γ := EReal) ((V6 m outs c main_v59 : S256x64000.Idx → EReal) i) ((V6 m outs c main_v59 : S256x64000.Idx → EReal) i)) := by
  have hA : V6 m outs c main_arg10 = m ((c : Thread nD τ).loc main_arg10) := V6_arg m outs c main_arg10 (by decide) (by decide) (by decide) (by decide) (by decide) (by decide)
  have hB : V6 m outs c main_arg11 = m ((c : Thread nD τ).loc main_arg11) := V6_arg m outs c main_arg11 (by decide) (by decide) (by decide) (by decide) (by decide) (by decide)
  have hW : V6 m outs c main_arg12 = m ((c : Thread nD τ).loc main_arg12) := V6_arg m outs c main_arg12 (by decide) (by decide) (by decide) (by decide) (by decide) (by decide)
  refine ⟨fun n => ?_, fun n => ?_, fun k n => ?_, fun i => ?_, fun i => ?_⟩
  · refine (congrFun (ops3_idxA (F := Ideal) (V6 m outs c)) (ix2 0 n)).trans ?_
    rw [hA]
    exact shapeCast_a_1a_apply _ _ 0 n
  · refine (congrFun (ops3_idxB (F := Ideal) (V6 m outs c)) (ix2 0 n)).trans ?_
    rw [hB]
    exact shapeCast_a_1a_apply _ _ 0 n
  · refine (congrFun (ops3_coef (F := Ideal) (V6 m outs c) (V6_table m outs c)) (ix2 k n)).trans ?_
    rw [hW]
    exact transpose_ix2_apply _ _ k n
  · exact congrFun (ops3_hi (F := Ideal) (V6 m outs c)) i
  · exact congrFun (ops3_lo (F := Ideal) (V6 m outs c)) i

theorem host4 (c : Dev nD) :
    (V9 m outs c main_v83 : FVec Ideal S256x10 .f32) = Cert.ReferenceIdeal.Hand.groupSum (F := Ideal) (V8 m outs c main_v79) :=
  ops4_val (F := Ideal) (V8 m outs c)

end AtIdeal

end Cert.KernelIdeal.Hand

end
-- ==== Proof.R.Value.lean ====
import proofs.«413321_j24653112279275_3_alg».proof.Proof.R.Run
import proofs.«413321_j24653112279275_3_alg».proof.Proof.LibReal
import proofs.«413321_j24653112279275_3_alg».proof.Proof.Spec.Gather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

namespace Cert.ReferenceIdeal.Hand

open Cert.ReferenceIdeal Cert.ReferenceIdeal.Gen Idealize.ShloMosaic Idealize.ShloMosaic.ValueIdx Cert.LibReal
open scoped BigOperators

theorem isReal_ofBits_f32 (b : BitVec 32) (h : (b.extractLsb' 23 8).toNat ≠ 255) : IsReal (Ideal.ofBits .f32 b) := by
  show IsReal (Ideal.ieee 8 23 b)
  unfold Ideal.ieee
  simp only []
  have h' : ¬ ((b.extractLsb' 23 8).toNat = 2 ^ 8 - 1) := by norm_num; exact h
  rw [if_neg h']
  split <;> exact ⟨_, rfl⟩

theorem table_isReal (i : S16x4.Idx) : IsReal (table (F := Ideal) i) := by
  have key : ∀ n : Fin 64, ((lit0 n).extractLsb' 23 8).toNat ≠ 255 := by decide
  exact isReal_ofBits_f32 _ (key _)

theorem broadcastInDim_all {s t : Shape} {α : Type} (P : α → Prop) (dims : Fin s.rank → Fin t.rank)
    (h : s.BroadcastsInDim t dims) (x : s.Idx → α) (hx : ∀ q, P (x q)) (p : t.Idx) : P (broadcastInDim t dims h x p) :=
  hx _

def rowMax (w : FVec Ideal S64000x16 .f32) : FVec Ideal S64000 .f32 :=
  maximumf (broadcastInDim S64000 ![] bcast_S_S64000 (constant S_ .f32 0xFF800000#32)) (Host.reduce FloatOps.maximumf w (constant S_ .f32 0xFF800000#32) reducesTo_S64000x16_S64000_d1 h_S_)

def expo (w : FVec Ideal S64000x16 .f32) : FVec Ideal S64000x16 .f32 :=
  Host.exp (subf w (broadcastInDim S64000x16 ![0, 1] bcast_S64000x1_S64000x16_0_1 (broadcastInDim S64000x1 ![0] bcast_S64000_S64000x1_0 (rowMax w))))

def rowSum (w : FVec Ideal S64000x16 .f32) : FVec Ideal S64000 .f32 :=
  Host.reduceAdd (expo w) (constant S_ .f32 0x00000000#32) reducesTo_S64000x16_S64000_d1 h_S_

theorem coef_eq (w : FVec Ideal S64000x16 .f32) : coef (F := Ideal) w
    = Host.dotGeneral dot_S64000x16_S16x4_S64000x4_1_0_0_1_n_n none (Host.divf (expo w) (broadcastInDim S64000x16 ![0, 1] bcast_S64000x1_S64000x16_0_1 (broadcastInDim S64000x1 ![0] bcast_S64000_S64000x1_0 (rowSum w)))) table := rfl

theorem rowMax_isReal (w : FVec Ideal S64000x16 .f32) (hw : ∀ i, IsReal (w i)) (q : S64000.Idx) : IsReal (rowMax w q) := by
  have hred : S64000x16.Reduces [1] S64000 := by decide
  unfold rowMax
  rw [maximumf_apply]
  have h1 : broadcastInDim S64000 ![] bcast_S_S64000 (constant (F := Ideal) S_ .f32 0xFF800000#32) q = (⊥ : EReal) := ofBits_neg_inf
  rw [h1, max_eq_right bot_le]
  rw [Host.reduce_eq_fold_single FloatOps.maximumf w _ reducesTo_S64000x16_S64000_d1 hred h_S_ q]
  have h2 : (constant (F := Ideal) S_ .f32 0xFF800000#32) (Shape.Idx.first h_S_) = (⊥ : EReal) := ofBits_neg_inf
  rw [h2]
  exact IsReal.fold_maximumf Finset.univ ⟨⟨0, by decide⟩, Finset.mem_univ _⟩ _ (fun k _ => hw _)

theorem expo_isPos (w : FVec Ideal S64000x16 .f32) (hw : ∀ i, IsReal (w i)) (p : S64000x16.Idx) : IsPosReal (expo w p) :=
  (IsReal.sub (hw p) (broadcastInDim_all IsReal _ _ _ (broadcastInDim_all IsReal _ _ _ (rowMax_isReal w hw)) p)).exp_pos

theorem rowSum_isPos (w : FVec Ideal S64000x16 .f32) (hw : ∀ i, IsReal (w i)) (q : S64000.Idx) : IsPosReal (rowSum w q) := by
  have hred : S64000x16.Reduces [1] S64000 := by decide
  unfold rowSum
  show IsPosReal (Ideal.hostReduceAdd reducesTo_S64000x16_S64000_d1 (expo w) (Ideal.ofBits .f32 0x00000000#32) q)
  rw [Ideal.hostReduceAdd_single reducesTo_S64000x16_S64000_d1 hred, Ideal.ofBits_zero_f32, zero_add]
  exact IsPosReal.sum Finset.univ ⟨⟨0, by decide⟩, Finset.mem_univ _⟩ _ (fun k _ => expo_isPos w hw _)

theorem hostDivf_apply {s : Shape} {φ : FTy} (a b : FVec Ideal s φ) (i : s.Idx) :
    Host.divf a b i = Ideal.div (a i) (b i) := rfl

theorem soft_isReal (w : FVec Ideal S64000x16 .f32) (hw : ∀ i, IsReal (w i)) (p : S64000x16.Idx) :
    IsReal (Host.divf (expo w) (broadcastInDim S64000x16 ![0, 1] bcast_S64000x1_S64000x16_0_1 (broadcastInDim S64000x1 ![0] bcast_S64000_S64000x1_0 (rowSum w))) p) := by
  have h1 : IsPosReal ((broadcastInDim S64000x16 ![0, 1] bcast_S64000x1_S64000x16_0_1 (broadcastInDim S64000x1 ![0] bcast_S64000_S64000x1_0 (rowSum w))) p) :=
    broadcastInDim_all IsPosReal _ _ _ (broadcastInDim_all IsPosReal _ _ _ (rowSum_isPos w hw)) p
  rw [hostDivf_apply]
  exact IsReal.div_pos (expo_isPos w hw p).isReal h1

theorem coef_isReal (w : FVec Ideal S64000x16 .f32) (hw : ∀ i, IsReal (w i)) (i : S64000x4.Idx) :
    IsReal (coef (F := Ideal) w i) := by
  rw [coef_eq]
  simp only [Host.dotGeneral]
  rw [Ideal.dotGeneral_apply]
  exact IsReal.sum_univ _ (fun k => (soft_isReal w hw _).mul (table_isReal _))

section Gather
variable {α : Type}

abbrev colDims (R N C : Nat) (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

theorem gather_col_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (b : Fin R) (n : Fin C) :
    Host.gather (colDims R N C wf) x idx (ix2 b n)
      = x (ix2 b ⟨min (idx (ix2 n (0 : Fin 1))).toInt.toNat (N - 1), by omega⟩) := by
  unfold Host.gather
  congr 1
  funext a
  refine Fin.ext ?_
  match a with
  | ⟨0, _⟩ =>
    show (colDims R N C wf).start (ix2 b n) idx 0 + (colDims R N C wf).batchCoord (ix2 b n) 0
      + (colDims R N C wf).offCoord (ix2 b n) 0 = b.val
    rw [GatherDims.batchCoord_eq_zero _ _ _ List.not_mem_nil]
    have h0 : (0 : Fin 2) ∉ (colDims R N C wf).startIndexMap := fun h =>
      Nat.zero_ne_one (congrArg Fin.val (List.mem_singleton.mp h))
    have h1 : (0 : Fin 2) ∈ (colDims R N C wf).sKept :=
      (GatherDims.mem_sKept _ _).mpr ⟨fun h => Nat.zero_ne_one (congrArg Fin.val (List.mem_singleton.mp h)), List.not_mem_nil⟩
    have hk : ∀ (k : Nat) (hk : k < (colDims R N C wf).offsetDims.length), (colDims R N C wf).offsetDims[k]'hk = 0 := by
      intro k hk
      have h1' : k < 1 := hk
      have h2' : k = 0 := by omega
      subst h2'
      rfl
    unfold GatherDims.start GatherDims.offCoord
    rw [dif_neg h0, dif_pos h1, hk]
    show 0 + 0 + b.val = b.val
    omega
  | ⟨1, _⟩ =>
    show (colDims R N C wf).start (ix2 b n) idx 1 + (colDims R N C wf).batchCoord (ix2 b n) 1
      + (colDims R N C wf).offCoord (ix2 b n) 1 = min (idx (ix2 n (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N C wf).startIndexMap from List.mem_singleton.mpr rfl)]
    have hsi : (colDims R N C wf).siIdx (ix2 b n) ⟨List.idxOf (1 : Fin 2) (colDims R N C wf).startIndexMap,
        List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl

theorem gather_col_apply_of_lt {R N C : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ 32) (b : Fin R) (n : Fin C) (v : BitVec 32)
    (hidx : idx (ix2 n (0 : Fin 1)) = v) (hv : v.toNat < N ∧ v.msb = false) :
    Host.gather (colDims R N C wf) x idx (ix2 b n) = x (ix2 b ⟨v.toNat, hv.1⟩) := by
  refine (gather_col_apply hN wf x idx b n).trans (congrArg x ?_)
  funext a
  match a with
  | ⟨0, _⟩ => rfl
  | ⟨1, _⟩ =>
    refine Fin.ext ?_
    show min (idx (ix2 n (0 : Fin 1))).toInt.toNat (N - 1) = v.toNat
    rw [hidx, BitVec.toInt_eq_toNat_of_msb hv.2, Int.toNat_natCast]
    exact Nat.min_eq_left (by have := hv.1; omega)

end Gather

theorem wrap_apply (N : BitVec 32) (ia : IVec S64000 32) (n : Fin 64000) (h : (ia (ix1 n)).msb = false) :
    (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 N))) ia)) (ix2 n (0 : Fin 1)) = ia (ix1 n) := by
  refine (broadcastInDim_apply _ _ _ (ix2 n (0 : Fin 1)) (ix1 n) (fun a => ?_)).trans ?_
  · match a with
    | ⟨0, _⟩ => rfl
  rw [select_apply]
  have hc : cmpi .slt ia (broadcastInDim S64000 ![] bcast_S_S64000 (constantI S_ 32 0#32)) (ix1 n) = 0#1 := by
    apply eq_zero_of_ne_one
    intro h1
    have h2 : IntOp.cmpi .slt (ia (ix1 n)) (0#32) = 1#1 := h1
    have h3 := IntOp.cmpi_slt.mp h2
    rw [BitVec.toInt_eq_toNat_of_msb h] at h3
    have h4 : (0#32 : BitVec 32).toInt = 0 := by decide
    omega
  rw [hc, select_zero]

theorem col_apply (o : Nat) (ho : o < 4) (hs : S64000x4.Slices ![0, o] S64000x1) (cf : FVec Ideal S64000x4 .f32)
    (b : Fin 256) (n : Fin 64000) :
    (broadcastInDim S256x64000 ![0, 1] bcast_S1x64000_S256x64000_0_1 (broadcastInDim S1x64000 ![1] bcast_S64000_S1x64000_1 (shapeCast S64000 (extractStridedSlice S64000x1 ![0, o] cf hs) shapeCasts_S64000x1_S64000))) (ix2 b n) = cf (ix2 n ⟨o, ho⟩) := by
  refine (broadcastInDim_apply _ _ _ (ix2 b n) (ix2 (0 : Fin 1) n) (fun a => ?_)).trans ?_
  · match a with
    | ⟨0, _⟩ => rfl
    | ⟨1, _⟩ => rfl
  refine (broadcastInDim_apply _ _ _ (ix2 (0 : Fin 1) n) (ix1 n) (fun a => ?_)).trans ?_
  · match a with
    | ⟨0, _⟩ => rfl
  refine (shapeCast_apply _ _ (ix1 n) (ix2 n (0 : Fin 1)) ?_).trans ?_
  · rw [Shape.rowMajor_val_two, Shape.rowMajor_val_one]
    show n.val * 1 + 0 = n.val
    omega
  exact slice2_axis1_apply o cf hs n (0 : Fin 1) ⟨o, ho⟩ (Nat.add_zero o).symm

theorem layer0_apply (x : FVec Ideal S256x1024 .f32) (ia ib : IVec S64000 32) (cf : FVec Ideal S64000x4 .f32)
    (hia : ∀ j, (ia j).toNat < 1024 ∧ (ia j).msb = false) (hib : ∀ j, (ib j).toNat < 1024 ∧ (ib j).msb = false)
    (b : Fin 256) (n : Fin 64000) :
    layer0 (F := Ideal) x ia ib cf (ix2 b n)
      = cf (ix2 n 0) + cf (ix2 n 1) * x (ix2 b ⟨(ia (ix1 n)).toNat, (hia _).1⟩)
        + cf (ix2 n 2) * x (ix2 b ⟨(ib (ix1 n)).toNat, (hib _).1⟩)
        + cf (ix2 n 3) * (x (ix2 b ⟨(ia (ix1 n)).toNat, (hia _).1⟩) * x (ix2 b ⟨(ib (ix1 n)).toNat, (hib _).1⟩)) := by
  have hA : Host.gather gather_S256x1024_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 1024#32))) ia)) (ix2 b n)
      = x (ix2 b ⟨(ia (ix1 n)).toNat, (hia _).1⟩) :=
    gather_col_apply_of_lt (R := 256) (N := 1024) (C := 64000) (by decide)
      gather_S256x1024_S64000x1_S256x64000_0_1_n_n_1_1_2561_wf x _ b n _ (wrap_apply 1024#32 ia n (hia _).2) (hia _)
  have hB : Host.gather gather_S256x1024_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 1024#32))) ib)) (ix2 b n)
      = x (ix2 b ⟨(ib (ix1 n)).toNat, (hib _).1⟩) :=
    gather_col_apply_of_lt (R := 256) (N := 1024) (C := 64000) (by decide)
      gather_S256x1024_S64000x1_S256x64000_0_1_n_n_1_1_2561_wf x _ b n _ (wrap_apply 1024#32 ib n (hib _).2) (hib _)
  have h0 : (broadcastInDim S256x64000 ![0, 1] bcast_S1x64000_S256x64000_0_1 (broadcastInDim S1x64000 ![1] bcast_S64000_S1x64000_1 (shapeCast S64000 (extractStridedSlice S64000x1 ![0, 0] cf slices_S64000x4_S64000x1_0_0) shapeCasts_S64000x1_S64000))) (ix2 b n) = cf (ix2 n 0) :=
    col_apply 0 (by omega) slices_S64000x4_S64000x1_0_0 cf b n
  have h1 : (broadcastInDim S256x64000 ![0, 1] bcast_S1x64000_S256x64000_0_1 (broadcastInDim S1x64000 ![1] bcast_S64000_S1x64000_1 (shapeCast S64000 (extractStridedSlice S64000x1 ![0, 1] cf slices_S64000x4_S64000x1_0_1) shapeCasts_S64000x1_S64000))) (ix2 b n) = cf (ix2 n 1) :=
    col_apply 1 (by omega) slices_S64000x4_S64000x1_0_1 cf b n
  have h2 : (broadcastInDim S256x64000 ![0, 1] bcast_S1x64000_S256x64000_0_1 (broadcastInDim S1x64000 ![1] bcast_S64000_S1x64000_1 (shapeCast S64000 (extractStridedSlice S64000x1 ![0, 2] cf slices_S64000x4_S64000x1_0_2) shapeCasts_S64000x1_S64000))) (ix2 b n) = cf (ix2 n 2) :=
    col_apply 2 (by omega) slices_S64000x4_S64000x1_0_2 cf b n
  have h3 : (broadcastInDim S256x64000 ![0, 1] bcast_S1x64000_S256x64000_0_1 (broadcastInDim S1x64000 ![1] bcast_S64000_S1x64000_1 (shapeCast S64000 (extractStridedSlice S64000x1 ![0, 3] cf slices_S64000x4_S64000x1_0_3) shapeCasts_S64000x1_S64000))) (ix2 b n) = cf (ix2 n 3) :=
    col_apply 3 (by omega) slices_S64000x4_S64000x1_0_3 cf b n
  unfold layer0
  simp only [addf_apply, mulf_apply]
  rw [h0, h1, h2, h3, hA, hB]

theorem layerN_apply (x : FVec Ideal S256x64000 .f32) (ia ib : IVec S64000 32) (cf : FVec Ideal S64000x4 .f32)
    (hia : ∀ j, (ia j).toNat < 64000 ∧ (ia j).msb = false) (hib : ∀ j, (ib j).toNat < 64000 ∧ (ib j).msb = false)
    (b : Fin 256) (n : Fin 64000) :
    layerN (F := Ideal) x ia ib cf (ix2 b n)
      = cf (ix2 n 0) + cf (ix2 n 1) * x (ix2 b ⟨(ia (ix1 n)).toNat, (hia _).1⟩)
        + cf (ix2 n 2) * x (ix2 b ⟨(ib (ix1 n)).toNat, (hib _).1⟩)
        + cf (ix2 n 3) * (x (ix2 b ⟨(ia (ix1 n)).toNat, (hia _).1⟩) * x (ix2 b ⟨(ib (ix1 n)).toNat, (hib _).1⟩)) := by
  have hA : Host.gather gather_S256x64000_S64000x1_S256x64000_0_1_n_n_1_1_2561 x (broadcastInDim S64000x1 ![0] bcast_S64000_S64000x1_0 (select (cmpi .slt ia (broadcastInDim S64000 ![] bcast_S_S64000 (constantI S_ 32 0#32))) (addi ia (broadcastInDim S64000 ![] bcast_S_S64000 (constantI S_ 32 64000#32))) ia)) (ix2 b n)
      = x (ix2 b ⟨(ia (ix1 n)).toNat, (hia _).1⟩) :=
    gather_col_apply_of_lt (R := 256) (N := 64000) (C := 64000) (by decide)
      gather_S256x64000_S64000x1_S256x64000_0_1_n_n_1_1_2561_wf x _ b n _ (wrap_apply 64000#32 ia n (hia _).2) (hia _)
  have hB : Host.gather gather_S256x64000_S64000x1_S256x64000_0_1_n_n_1_1_2561 x (broadcastInDim S64000x1 ![0] bcast_S64000_S64000x1_0 (select (cmpi .slt ib (broadcastInDim S64000 ![] bcast_S_S64000 (constantI S_ 32 0#32))) (addi ib (broadcastInDim S64000 ![] bcast_S_S64000 (constantI S_ 32 64000#32))) ib)) (ix2 b n)
      = x (ix2 b ⟨(ib (ix1 n)).toNat, (hib _).1⟩) :=
    gather_col_apply_of_lt (R := 256) (N := 64000) (C := 64000) (by decide)
      gather_S256x64000_S64000x1_S256x64000_0_1_n_n_1_1_2561_wf x _ b n _ (wrap_apply 64000#32 ib n (hib _).2) (hib _)
  have h0 : (broadcastInDim S256x64000 ![0, 1] bcast_S1x64000_S256x64000_0_1 (broadcastInDim S1x64000 ![1] bcast_S64000_S1x64000_1 (shapeCast S64000 (extractStridedSlice S64000x1 ![0, 0] cf slices_S64000x4_S64000x1_0_0) shapeCasts_S64000x1_S64000))) (ix2 b n) = cf (ix2 n 0) :=
    col_apply 0 (by omega) slices_S64000x4_S64000x1_0_0 cf b n
  have h1 : (broadcastInDim S256x64000 ![0, 1] bcast_S1x64000_S256x64000_0_1 (broadcastInDim S1x64000 ![1] bcast_S64000_S1x64000_1 (shapeCast S64000 (extractStridedSlice S64000x1 ![0, 1] cf slices_S64000x4_S64000x1_0_1) shapeCasts_S64000x1_S64000))) (ix2 b n) = cf (ix2 n 1) :=
    col_apply 1 (by omega) slices_S64000x4_S64000x1_0_1 cf b n
  have h2 : (broadcastInDim S256x64000 ![0, 1] bcast_S1x64000_S256x64000_0_1 (broadcastInDim S1x64000 ![1] bcast_S64000_S1x64000_1 (shapeCast S64000 (extractStridedSlice S64000x1 ![0, 2] cf slices_S64000x4_S64000x1_0_2) shapeCasts_S64000x1_S64000))) (ix2 b n) = cf (ix2 n 2) :=
    col_apply 2 (by omega) slices_S64000x4_S64000x1_0_2 cf b n
  have h3 : (broadcastInDim S256x64000 ![0, 1] bcast_S1x64000_S256x64000_0_1 (broadcastInDim S1x64000 ![1] bcast_S64000_S1x64000_1 (shapeCast S64000 (extractStridedSlice S64000x1 ![0, 3] cf slices_S64000x4_S64000x1_0_3) shapeCasts_S64000x1_S64000))) (ix2 b n) = cf (ix2 n 3) :=
    col_apply 3 (by omega) slices_S64000x4_S64000x1_0_3 cf b n
  unfold layerN
  simp only [addf_apply, mulf_apply]
  rw [h0, h1, h2, h3, hA, hB]

theorem layer0_isReal (x : FVec Ideal S256x1024 .f32) (ia ib : IVec S64000 32) (cf : FVec Ideal S64000x4 .f32)
    (hx : ∀ i, IsReal (x i)) (hcf : ∀ i, IsReal (cf i))
    (hia : ∀ j, (ia j).toNat < 1024 ∧ (ia j).msb = false) (hib : ∀ j, (ib j).toNat < 1024 ∧ (ib j).msb = false)
    (i : S256x64000.Idx) : IsReal (layer0 (F := Ideal) x ia ib cf i) := by
  obtain ⟨b, n, rfl⟩ : ∃ (b : Fin 256) (n : Fin 64000), i = ix2 b n := ⟨i 0, i 1, eq_ix2 i⟩
  rw [layer0_apply x ia ib cf hia hib b n]
  exact Cert.Spec.isReal_affine (hcf _) (hcf _) (hcf _) (hcf _) (hx _) (hx _)

theorem layerN_isReal (x : FVec Ideal S256x64000 .f32) (ia ib : IVec S64000 32) (cf : FVec Ideal S64000x4 .f32)
    (hx : ∀ i, IsReal (x i)) (hcf : ∀ i, IsReal (cf i))
    (hia : ∀ j, (ia j).toNat < 64000 ∧ (ia j).msb = false) (hib : ∀ j, (ib j).toNat < 64000 ∧ (ib j).msb = false)
    (i : S256x64000.Idx) : IsReal (layerN (F := Ideal) x ia ib cf i) := by
  obtain ⟨b, n, rfl⟩ : ∃ (b : Fin 256) (n : Fin 64000), i = ix2 b n := ⟨i 0, i 1, eq_ix2 i⟩
  rw [layerN_apply x ia ib cf hia hib b n]
  exact Cert.Spec.isReal_affine (hcf _) (hcf _) (hcf _) (hcf _) (hx _) (hx _)

end Cert.ReferenceIdeal.Hand

end
-- ==== Proof.Pre.lean ====
import proofs.«413321_j24653112279275_3_alg».proof.Pre_finite_inputs
import proofs.«413321_j24653112279275_3_alg».proof.Proof.Gen.Pre_finite_inputs
import proofs.«413321_j24653112279275_3_alg».proof.Proof.LibReal
import Idealize.ShloMosaic.Lib.ReduceAll
import Idealize.ShloMosaic.Lib.ValueIdx
import Idealize.ShloMosaic.Lib.StableHlo.Predicate
import Idealize.ShloMosaic.PureOps.Ideal

noncomputable section

namespace Cert.PreFacts

open Idealize.ShloMosaic Cert.Pre_finite_inputs

instance subsingleton_S_ : Subsingleton S_.Idx := ⟨fun a b => funext fun d => d.elim0⟩

theorem isReal_of_entry (x : EReal)
    (h : FloatOps.cmpf (F := Ideal) (φ := .f32) .olt (FloatOps.hostAbsf (F := Ideal) (φ := .f32) x)
      (FloatOps.ofBits (F := Ideal) .f32 0x7F800000#32) = 1#1) : Cert.LibReal.IsReal x := by
  apply Cert.LibReal.isReal_of_abs_lt_top
  have h' : BitVec.ofBool (decide (Max.max x (-x) < Ideal.ofBits .f32 0x7F800000#32)) = 1#1 := h
  rw [Cert.LibReal.ofBits_pos_inf, StableHlo.Predicate.ofBool_eq_one_iff, decide_eq_true_eq] at h'
  exact h'

theorem range_of_entry (w : BitVec 32) (N : Nat) (hN : N < 2 ^ 31)
    (h1 : IntOp.cmpi .sge w 0#32 = 1#1) (h2 : IntOp.cmpi .slt w (BitVec.ofNat 32 N) = 1#1) :
    w.toNat < N ∧ w.msb = false := by
  simp only [IntOp.cmpi, StableHlo.Predicate.ofBool_eq_one_iff, BitVec.sle, BitVec.slt, decide_eq_true_eq] at h1 h2
  rw [StableHlo.Predicate.toInt_ofNat_small N hN] at h2
  have h0 : (0#32 : BitVec 32).toInt = 0 := by decide
  rw [h0] at h1
  have hlt := w.isLt
  rw [BitVec.toInt_eq_msb_cond] at h1 h2
  cases hm : w.msb
  · rw [hm] at h2
    simp only [Bool.false_eq_true, ↓reduceIte] at h2
    exact ⟨by omega, rfl⟩
  · rw [hm] at h1
    simp only [↓reduceIte] at h1
    omega

theorem isReal_of_all {s : Shape} {axes : List (Fin s.rank)} (hb : S_.BroadcastsInDim s (![] : Fin 0 → Fin s.rank))
    (hr : s.ReducesTo axes S_) (h0 : 0 < S_.numel) (a : FVec Ideal s .f32)
    (e : Host.reduce IntOp.andi
        (cmpf .olt (Host.absf a) (broadcastInDim s ![] hb (constant (F := Ideal) S_ .f32 0x7F800000#32)))
        (constantI S_ 1 1#1) hr h0 ValueIdx.ix0 = 1#1) :
    ∀ i, Cert.LibReal.IsReal (a i) := fun i =>
  isReal_of_entry (a i) (Host.reduce_andi_all _ _ hr h0 _ e i)

theorem range_of_all {s : Shape} {axes : List (Fin s.rank)} (hb : S_.BroadcastsInDim s (![] : Fin 0 → Fin s.rank))
    (hr : s.ReducesTo axes S_) (h0 : 0 < S_.numel) (a : IVec s 32) (N : Nat) (hN : N < 2 ^ 31)
    (e : Host.reduce IntOp.andi
        (andi (cmpi .sge a (broadcastInDim s ![] hb (constantI S_ 32 0#32)))
          (cmpi .slt a (broadcastInDim s ![] hb (constantI S_ 32 (BitVec.ofNat 32 N)))))
        (constantI S_ 1 1#1) hr h0 ValueIdx.ix0 = 1#1) :
    ∀ n, (a n).toNat < N ∧ (a n).msb = false := fun n => by
  have hn := Host.reduce_andi_all _ _ hr h0 _ e n
  obtain ⟨h1, h2⟩ := IntOp.andi_eq_one.1 hn
  exact range_of_entry (a n) N hN h1 h2

theorem andi_at {s : Shape} {w : Nat} (x y : IVec s w) (i : s.Idx) : andi x y i = IntOp.andi (x i) (y i) := rfl

theorem facts_of_pre (a0 : FVec Ideal S256x1024 .f32) (a1 a2 : IVec S64000 32) (a3 : FVec Ideal S64000x16 .f32)
    (a4 a5 : IVec S64000 32) (a6 : FVec Ideal S64000x16 .f32) (a7 a8 : IVec S64000 32) (a9 : FVec Ideal S64000x16 .f32)
    (a10 a11 : IVec S64000 32) (a12 : FVec Ideal S64000x16 .f32)
    (h : Cert.Pre_finite_inputs.fn (F := Ideal) a0 a1 a2 a3 a4 a5 a6 a7 a8 a9 a10 a11 a12 = fun _ => 1#1) :
    (∀ i, Cert.LibReal.IsReal (a0 i)) ∧ (∀ i, Cert.LibReal.IsReal (a3 i)) ∧ (∀ i, Cert.LibReal.IsReal (a6 i))
      ∧ (∀ i, Cert.LibReal.IsReal (a9 i)) ∧ (∀ i, Cert.LibReal.IsReal (a12 i))
      ∧ (∀ n, (a1 n).toNat < 1024 ∧ (a1 n).msb = false) ∧ (∀ n, (a2 n).toNat < 1024 ∧ (a2 n).msb = false)
      ∧ (∀ n, (a4 n).toNat < 64000 ∧ (a4 n).msb = false) ∧ (∀ n, (a5 n).toNat < 64000 ∧ (a5 n).msb = false)
      ∧ (∀ n, (a7 n).toNat < 64000 ∧ (a7 n).msb = false) ∧ (∀ n, (a8 n).toNat < 64000 ∧ (a8 n).msb = false)
      ∧ (∀ n, (a10 n).toNat < 64000 ∧ (a10 n).msb = false) ∧ (∀ n, (a11 n).toNat < 64000 ∧ (a11 n).msb = false) := by
  have h0 := congrFun h ValueIdx.ix0
  dsimp only [fn, fn_part1, fn_part2, fn_part3, fn_part4] at h0
  simp only [andi_at, IntOp.andi_eq_one] at h0
  obtain ⟨⟨⟨⟨⟨⟨⟨⟨⟨⟨⟨⟨e0, e3⟩, e6⟩, e9⟩, e12⟩, e1⟩, e2⟩, e4⟩, e5⟩, e7⟩, e8⟩, e10⟩, e11⟩ := h0
  exact ⟨isReal_of_all _ _ _ a0 e0, isReal_of_all _ _ _ a3 e3, isReal_of_all _ _ _ a6 e6,
    isReal_of_all _ _ _ a9 e9, isReal_of_all _ _ _ a12 e12,
    range_of_all _ _ _ a1 1024 (by decide) e1, range_of_all _ _ _ a2 1024 (by decide) e2,
    range_of_all _ _ _ a4 64000 (by decide) e4, range_of_all _ _ _ a5 64000 (by decide) e5,
    range_of_all _ _ _ a7 64000 (by decide) e7, range_of_all _ _ _ a8 64000 (by decide) e8,
    range_of_all _ _ _ a10 64000 (by decide) e10, range_of_all _ _ _ a11 64000 (by decide) e11⟩

end Cert.PreFacts

end
-- ==== Proof.KI.Bridge.lean ====
import proofs.«413321_j24653112279275_3_alg».proof.Proof.KI.Reg
import proofs.«413321_j24653112279275_3_alg».proof.Proof.KI.Val0
import proofs.«413321_j24653112279275_3_alg».proof.Proof.KI.Val1
import proofs.«413321_j24653112279275_3_alg».proof.Proof.KI.Val2
import proofs.«413321_j24653112279275_3_alg».proof.Proof.KI.Val3
import proofs.«413321_j24653112279275_3_alg».proof.Proof.KI.Host
import proofs.«413321_j24653112279275_3_alg».proof.Proof.R.Value
import proofs.«413321_j24653112279275_3_alg».proof.Proof.Pre
import proofs.«413321_j24653112279275_3_alg».proof.Defs
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.LibReal

local notation "R.coef" => Cert.ReferenceIdeal.Hand.coef (F := Ideal)
local notation "R.layer0" => Cert.ReferenceIdeal.Hand.layer0 (F := Ideal)
local notation "R.layerN" => Cert.ReferenceIdeal.Hand.layerN (F := Ideal)
local notation "R.groupSum" => Cert.ReferenceIdeal.Hand.groupSum (F := Ideal)
local notation "R.out" => Cert.ReferenceIdeal.Hand.out (F := Ideal)

theorem bilin_congr {N : Nat} (X x : (⟨2, ![256, N]⟩ : Shape).Idx → EReal) (hX : ∀ i, X i = x i)
    (c0 c1 c2 c3 d0 d1 d2 d3 : EReal) (h0 : c0 = d0) (h1 : c1 = d1) (h2 : c2 = d2) (h3 : c3 = d3)
    (va vb ua ub : BitVec 32) (ha : va = ua) (hb : vb = ub) (b : Fin 256)
    (p1 : va.toNat < N) (p2 : vb.toNat < N) (q1 : ua.toNat < N) (q2 : ub.toNat < N) :
    c0 + c1 * X (ix2 b ⟨va.toNat, p1⟩) + c2 * X (ix2 b ⟨vb.toNat, p2⟩)
        + c3 * (X (ix2 b ⟨va.toNat, p1⟩) * X (ix2 b ⟨vb.toNat, p2⟩))
      = d0 + d1 * x (ix2 b ⟨ua.toNat, q1⟩) + d2 * x (ix2 b ⟨ub.toNat, q2⟩)
        + d3 * (x (ix2 b ⟨ua.toNat, q1⟩) * x (ix2 b ⟨ub.toNat, q2⟩)) := by
  subst h0 h1 h2 h3 ha hb
  simp only [hX]

theorem row_range {N : Nat} (IA : (⟨2, ![1, 64000]⟩ : Shape).Idx → BitVec 32) (ia : IVec ⟨1, ![64000]⟩ 32)
    (h : ∀ n : Fin 64000, IA (ix2 0 n) = ia (ix1 n)) (hia : ∀ j, (ia j).toNat < N ∧ (ia j).msb = false)
    (n : Fin 64000) : (IA (ix2 0 n)).toNat < N ∧ (IA (ix2 0 n)).msb = false := by
  rw [h n]; exact hia _

theorem layer0_of_value
    (IA IB : (⟨2, ![1, 64000]⟩ : Shape).Idx → BitVec 32) (CT : (⟨2, ![4, 64000]⟩ : Shape).Idx → EReal)
    (X : (⟨2, ![256, 1024]⟩ : Shape).Idx → EReal) (OUT : (⟨2, ![256, 64000]⟩ : Shape).Idx → EReal)
    (x : FVec Ideal ⟨2, ![256, 1024]⟩ .f32) (ia ib : IVec ⟨1, ![64000]⟩ 32) (cf : FVec Ideal ⟨2, ![64000, 4]⟩ .f32)
    (hIA : ∀ n : Fin 64000, IA (ix2 0 n) = ia (ix1 n)) (hIB : ∀ n : Fin 64000, IB (ix2 0 n) = ib (ix1 n))
    (hCT : ∀ (k : Fin 4) (n : Fin 64000), CT (ix2 k n) = cf (ix2 n k)) (hX : ∀ i, X i = x i)
    (hia : ∀ j, (ia j).toNat < 1024 ∧ (ia j).msb = false) (hib : ∀ j, (ib j).toNat < 1024 ∧ (ib j).msb = false)
    (hval : ∀ (hA : ∀ n : Fin 64000, (IA (ix2 0 n)).toNat < 1024 ∧ (IA (ix2 0 n)).msb = false)
        (hB : ∀ n : Fin 64000, (IB (ix2 0 n)).toNat < 1024 ∧ (IB (ix2 0 n)).msb = false) (b : Fin 256) (n : Fin 64000),
        OUT (ix2 b n) = CT (ix2 0 n) + CT (ix2 1 n) * X (ix2 b ⟨(IA (ix2 0 n)).toNat, (hA n).1⟩)
          + CT (ix2 2 n) * X (ix2 b ⟨(IB (ix2 0 n)).toNat, (hB n).1⟩)
          + CT (ix2 3 n) * (X (ix2 b ⟨(IA (ix2 0 n)).toNat, (hA n).1⟩) * X (ix2 b ⟨(IB (ix2 0 n)).toNat, (hB n).1⟩))) :
    OUT = R.layer0 x ia ib cf := by
  funext i
  obtain ⟨b, n, rfl⟩ : ∃ (b : Fin 256) (n : Fin 64000), i = ix2 b n := ⟨i 0, i 1, eq_ix2 i⟩
  rw [hval (row_range IA ia hIA hia) (row_range IB ib hIB hib) b n]
  refine Eq.trans ?_ (Cert.ReferenceIdeal.Hand.layer0_apply x ia ib cf hia hib b n).symm
  exact bilin_congr X x hX _ _ _ _ _ _ _ _ (hCT 0 n) (hCT 1 n) (hCT 2 n) (hCT 3 n) _ _ _ _ (hIA n) (hIB n) b _ _ _ _

theorem layerN_of_value
    (IA IB : (⟨2, ![1, 64000]⟩ : Shape).Idx → BitVec 32) (CT : (⟨2, ![4, 64000]⟩ : Shape).Idx → EReal)
    (X : (⟨2, ![256, 64000]⟩ : Shape).Idx → EReal) (OUT : (⟨2, ![256, 64000]⟩ : Shape).Idx → EReal)
    (x : FVec Ideal ⟨2, ![256, 64000]⟩ .f32) (ia ib : IVec ⟨1, ![64000]⟩ 32) (cf : FVec Ideal ⟨2, ![64000, 4]⟩ .f32)
    (hIA : ∀ n : Fin 64000, IA (ix2 0 n) = ia (ix1 n)) (hIB : ∀ n : Fin 64000, IB (ix2 0 n) = ib (ix1 n))
    (hCT : ∀ (k : Fin 4) (n : Fin 64000), CT (ix2 k n) = cf (ix2 n k)) (hX : ∀ i, X i = x i)
    (hia : ∀ j, (ia j).toNat < 64000 ∧ (ia j).msb = false) (hib : ∀ j, (ib j).toNat < 64000 ∧ (ib j).msb = false)
    (hval : ∀ (hA : ∀ n : Fin 64000, (IA (ix2 0 n)).toNat < 64000 ∧ (IA (ix2 0 n)).msb = false)
        (hB : ∀ n : Fin 64000, (IB (ix2 0 n)).toNat < 64000 ∧ (IB (ix2 0 n)).msb = false) (b : Fin 256) (n : Fin 64000),
        OUT (ix2 b n) = CT (ix2 0 n) + CT (ix2 1 n) * X (ix2 b ⟨(IA (ix2 0 n)).toNat, (hA n).1⟩)
          + CT (ix2 2 n) * X (ix2 b ⟨(IB (ix2 0 n)).toNat, (hB n).1⟩)
          + CT (ix2 3 n) * (X (ix2 b ⟨(IA (ix2 0 n)).toNat, (hA n).1⟩) * X (ix2 b ⟨(IB (ix2 0 n)).toNat, (hB n).1⟩))) :
    OUT = R.layerN x ia ib cf := by
  funext i
  obtain ⟨b, n, rfl⟩ : ∃ (b : Fin 256) (n : Fin 64000), i = ix2 b n := ⟨i 0, i 1, eq_ix2 i⟩
  rw [hval (row_range IA ia hIA hia) (row_range IB ib hIB hib) b n]
  refine Eq.trans ?_ (Cert.ReferenceIdeal.Hand.layerN_apply x ia ib cf hia hib b n).symm
  exact bilin_congr X x hX _ _ _ _ _ _ _ _ (hCT 0 n) (hCT 1 n) (hCT 2 n) (hCT 3 n) _ _ _ _ (hIA n) (hIB n) b _ _ _ _

theorem lo_of_hi {s : Shape} (XH XL x : s.Idx → EReal) (hH : ∀ i, XH i = x i) (hL : ∀ i, XL i = x i - x i) (i : s.Idx) :
    XL i = XH i - XH i := by rw [hL i, hH i]

theorem isReal_of_eq {x y : EReal} (h : x = y) (hy : IsReal y) : IsReal x := h ▸ hy

section Outputs
variable (m : (ℓ : Loc nD τ sig) → Buf (Elt Ideal) ℓ)

theorem out0_at (c : Dev nD) : OUT0 (En0 m) c = V2 m (outsA m) c main_v19 := hF0_5 m c

theorem out1_at (c : Dev nD) : OUT1 (En1 m) c = V4 m (outsB m) c main_v39 := hF1_5 m c

theorem out2_at (c : Dev nD) : OUT2 (En2 m) c = V6 m (outsC m) c main_v59 := hF2_5 m c

theorem out3_at (c : Dev nD) : OUT3 (En3 m) c = V8 m (outsD m) c main_v79 := hF3_5 m c

end Outputs

section Bridge
variable (m : (ℓ : Loc nD τ sig) → Buf (Elt Ideal) ℓ)

abbrev ar0 (c : Dev nD) : FVec Ideal ⟨2, ![256, 1024]⟩ .f32 := m ((c : Thread nD τ).loc main_arg0)
abbrev ar1 (c : Dev nD) : IVec ⟨1, ![64000]⟩ 32 := m ((c : Thread nD τ).loc main_arg1)
abbrev ar2 (c : Dev nD) : IVec ⟨1, ![64000]⟩ 32 := m ((c : Thread nD τ).loc main_arg2)
abbrev ar3 (c : Dev nD) : FVec Ideal ⟨2, ![64000, 16]⟩ .f32 := m ((c : Thread nD τ).loc main_arg3)
abbrev ar4 (c : Dev nD) : IVec ⟨1, ![64000]⟩ 32 := m ((c : Thread nD τ).loc main_arg4)
abbrev ar5 (c : Dev nD) : IVec ⟨1, ![64000]⟩ 32 := m ((c : Thread nD τ).loc main_arg5)
abbrev ar6 (c : Dev nD) : FVec Ideal ⟨2, ![64000, 16]⟩ .f32 := m ((c : Thread nD τ).loc main_arg6)
abbrev ar7 (c : Dev nD) : IVec ⟨1, ![64000]⟩ 32 := m ((c : Thread nD τ).loc main_arg7)
abbrev ar8 (c : Dev nD) : IVec ⟨1, ![64000]⟩ 32 := m ((c : Thread nD τ).loc main_arg8)
abbrev ar9 (c : Dev nD) : FVec Ideal ⟨2, ![64000, 16]⟩ .f32 := m ((c : Thread nD τ).loc main_arg9)
abbrev ar10 (c : Dev nD) : IVec ⟨1, ![64000]⟩ 32 := m ((c : Thread nD τ).loc main_arg10)
abbrev ar11 (c : Dev nD) : IVec ⟨1, ![64000]⟩ 32 := m ((c : Thread nD τ).loc main_arg11)
abbrev ar12 (c : Dev nD) : FVec Ideal ⟨2, ![64000, 16]⟩ .f32 := m ((c : Thread nD τ).loc main_arg12)

abbrev rl0 (c : Dev nD) : FVec Ideal ⟨2, ![256, 64000]⟩ .f32 := R.layer0 (ar0 m c) (ar1 m c) (ar2 m c) (R.coef (ar3 m c))
abbrev rl1 (c : Dev nD) : FVec Ideal ⟨2, ![256, 64000]⟩ .f32 := R.layerN (rl0 m c) (ar4 m c) (ar5 m c) (R.coef (ar6 m c))
abbrev rl2 (c : Dev nD) : FVec Ideal ⟨2, ![256, 64000]⟩ .f32 := R.layerN (rl1 m c) (ar7 m c) (ar8 m c) (R.coef (ar9 m c))
abbrev rl3 (c : Dev nD) : FVec Ideal ⟨2, ![256, 64000]⟩ .f32 := R.layerN (rl2 m c) (ar10 m c) (ar11 m c) (R.coef (ar12 m c))

theorem pre_facts (hpre : Cert.Pre_KernelIdeal m) (c : Dev nD) :
    (∀ i, IsReal (ar0 m c i)) ∧ (∀ i, IsReal (ar3 m c i)) ∧ (∀ i, IsReal (ar6 m c i))
      ∧ (∀ i, IsReal (ar9 m c i)) ∧ (∀ i, IsReal (ar12 m c i))
      ∧ (∀ n, (ar1 m c n).toNat < 1024 ∧ (ar1 m c n).msb = false) ∧ (∀ n, (ar2 m c n).toNat < 1024 ∧ (ar2 m c n).msb = false)
      ∧ (∀ n, (ar4 m c n).toNat < 64000 ∧ (ar4 m c n).msb = false) ∧ (∀ n, (ar5 m c n).toNat < 64000 ∧ (ar5 m c n).msb = false)
      ∧ (∀ n, (ar7 m c n).toNat < 64000 ∧ (ar7 m c n).msb = false) ∧ (∀ n, (ar8 m c n).toNat < 64000 ∧ (ar8 m c n).msb = false)
      ∧ (∀ n, (ar10 m c n).toNat < 64000 ∧ (ar10 m c n).msb = false) ∧ (∀ n, (ar11 m c n).toNat < 64000 ∧ (ar11 m c n).msb = false) :=
  Cert.PreFacts.facts_of_pre _ _ _ _ _ _ _ _ _ _ _ _ _ (hpre c)

theorem rl0_real (hpre : Cert.Pre_KernelIdeal m) (c : Dev nD) (i) : IsReal (rl0 m c i) := by
  obtain ⟨f0, f3, f6, f9, f12, r1, r2, r4, r5, r7, r8, r10, r11⟩ := pre_facts m hpre c
  exact Cert.ReferenceIdeal.Hand.layer0_isReal _ _ _ _ f0 (Cert.ReferenceIdeal.Hand.coef_isReal _ f3) r1 r2 i

theorem rl1_real (hpre : Cert.Pre_KernelIdeal m) (c : Dev nD) (i) : IsReal (rl1 m c i) := by
  obtain ⟨f0, f3, f6, f9, f12, r1, r2, r4, r5, r7, r8, r10, r11⟩ := pre_facts m hpre c
  exact Cert.ReferenceIdeal.Hand.layerN_isReal _ _ _ _ (rl0_real m hpre c) (Cert.ReferenceIdeal.Hand.coef_isReal _ f6) r4 r5 i

theorem rl2_real (hpre : Cert.Pre_KernelIdeal m) (c : Dev nD) (i) : IsReal (rl2 m c i) := by
  obtain ⟨f0, f3, f6, f9, f12, r1, r2, r4, r5, r7, r8, r10, r11⟩ := pre_facts m hpre c
  exact Cert.ReferenceIdeal.Hand.layerN_isReal _ _ _ _ (rl1_real m hpre c) (Cert.ReferenceIdeal.Hand.coef_isReal _ f9) r7 r8 i

theorem layer0_eq (hpre : Cert.Pre_KernelIdeal m) (c : Dev nD) :
    (V2 m (outsA m) c main_v19 : (⟨2, ![256, 64000]⟩ : Shape).Idx → EReal) = rl0 m c := by
  obtain ⟨f0, f3, f6, f9, f12, r1, r2, r4, r5, r7, r8, r10, r11⟩ := pre_facts m hpre c
  obtain ⟨hA, hB, hC, hHi, hLo⟩ := host0 m c
  exact layer0_of_value (IA0 (En0 m) c) (IB0 (En0 m) c) (CT0 (En0 m) c) (XH0 (En0 m) c) _
    (ar0 m c) (ar1 m c) (ar2 m c) (R.coef (ar3 m c)) hA hB hC hHi r1 r2
    (fun hA' hB' b n => (congrFun (out0_at m c).symm (ix2 b n)).trans
      (region0_value (En0 m) c (fun i => isReal_of_eq (hHi i) (f0 i)) (lo_of_hi _ _ _ hHi hLo) hA' hB' b n))

theorem layer1_eq (hpre : Cert.Pre_KernelIdeal m) (c : Dev nD) :
    (V4 m (outsB m) c main_v39 : (⟨2, ![256, 64000]⟩ : Shape).Idx → EReal) = rl1 m c := by
  obtain ⟨f0, f3, f6, f9, f12, r1, r2, r4, r5, r7, r8, r10, r11⟩ := pre_facts m hpre c
  obtain ⟨hA, hB, hC, hHi, hLo⟩ := host1 m (outsA m) c
  have e : (V2 m (outsA m) c main_v19 : (⟨2, ![256, 64000]⟩ : Shape).Idx → EReal) = rl0 m c := layer0_eq m hpre c
  have hH : ∀ i, XH1 (En1 m) c i = rl0 m c i := fun i => (hHi i).trans (congrFun e i)
  have hL : ∀ i, XL1 (En1 m) c i = rl0 m c i - rl0 m c i := fun i => (hLo i).trans (by rw [congrFun e i])
  exact layerN_of_value (IA1 (En1 m) c) (IB1 (En1 m) c) (CT1 (En1 m) c) (XH1 (En1 m) c) _
    (rl0 m c) (ar4 m c) (ar5 m c) (R.coef (ar6 m c)) hA hB hC hH r4 r5
    (fun hA' hB' b n => (congrFun (out1_at m c).symm (ix2 b n)).trans
      (region1_value (En1 m) c (fun i => isReal_of_eq (hH i) (rl0_real m hpre c i)) (lo_of_hi _ _ _ hH hL) hA' hB' b n))

theorem layer2_eq (hpre : Cert.Pre_KernelIdeal m) (c : Dev nD) :
    (V6 m (outsC m) c main_v59 : (⟨2, ![256, 64000]⟩ : Shape).Idx → EReal) = rl2 m c := by
  obtain ⟨f0, f3, f6, f9, f12, r1, r2, r4, r5, r7, r8, r10, r11⟩ := pre_facts m hpre c
  obtain ⟨hA, hB, hC, hHi, hLo⟩ := host2 m (outsB m) c
  have e : (V4 m (outsB m) c main_v39 : (⟨2, ![256, 64000]⟩ : Shape).Idx → EReal) = rl1 m c := layer1_eq m hpre c
  have hH : ∀ i, XH2 (En2 m) c i = rl1 m c i := fun i => (hHi i).trans (congrFun e i)
  have hL : ∀ i, XL2 (En2 m) c i = rl1 m c i - rl1 m c i := fun i => (hLo i).trans (by rw [congrFun e i])
  exact layerN_of_value (IA2 (En2 m) c) (IB2 (En2 m) c) (CT2 (En2 m) c) (XH2 (En2 m) c) _
    (rl1 m c) (ar7 m c) (ar8 m c) (R.coef (ar9 m c)) hA hB hC hH r7 r8
    (fun hA' hB' b n => (congrFun (out2_at m c).symm (ix2 b n)).trans
      (region2_value (En2 m) c (fun i => isReal_of_eq (hH i) (rl1_real m hpre c i)) (lo_of_hi _ _ _ hH hL) hA' hB' b n))

theorem layer3_eq (hpre : Cert.Pre_KernelIdeal m) (c : Dev nD) :
    (V8 m (outsD m) c main_v79 : (⟨2, ![256, 64000]⟩ : Shape).Idx → EReal) = rl3 m c := by
  obtain ⟨f0, f3, f6, f9, f12, r1, r2, r4, r5, r7, r8, r10, r11⟩ := pre_facts m hpre c
  obtain ⟨hA, hB, hC, hHi, hLo⟩ := host3 m (outsC m) c
  have e : (V6 m (outsC m) c main_v59 : (⟨2, ![256, 64000]⟩ : Shape).Idx → EReal) = rl2 m c := layer2_eq m hpre c
  have hH : ∀ i, XH3 (En3 m) c i = rl2 m c i := fun i => (hHi i).trans (congrFun e i)
  have hL : ∀ i, XL3 (En3 m) c i = rl2 m c i - rl2 m c i := fun i => (hLo i).trans (by rw [congrFun e i])
  exact layerN_of_value (IA3 (En3 m) c) (IB3 (En3 m) c) (CT3 (En3 m) c) (XH3 (En3 m) c) _
    (rl2 m c) (ar10 m c) (ar11 m c) (R.coef (ar12 m c)) hA hB hC hH r10 r11
    (fun hA' hB' b n => (congrFun (out3_at m c).symm (ix2 b n)).trans
      (region3_value (En3 m) c (fun i => isReal_of_eq (hH i) (rl2_real m hpre c i)) (lo_of_hi _ _ _ hH hL) hA' hB' b n))

theorem result_eq (m : (ℓ : Loc nD τ sig) → Buf (Elt Ideal) ℓ) (hpre : Cert.Pre_KernelIdeal m) (c : Dev nD) :
    V9 m (outsD m) c main_v83 = Cert.ReferenceIdeal.Hand.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (host4 m (outsD m) c).trans (congrArg (Cert.ReferenceIdeal.Hand.groupSum (F := Ideal)) (layer3_eq m hpre c))

end Bridge

end Cert.KernelIdeal.Hand

end
-- ==== Proof.lean ====
import proofs.«413321_j24653112279275_3_alg».proof.Defs
import proofs.«413321_j24653112279275_3_alg».proof.Proof.Gen.Kernel
import proofs.«413321_j24653112279275_3_alg».proof.Proof.Gen.Kernel.Skeleton
import proofs.«413321_j24653112279275_3_alg».proof.Proof.Gen.Kernel.Launch
import proofs.«413321_j24653112279275_3_alg».proof.Proof.Gen.Kernel.Regions
import proofs.«413321_j24653112279275_3_alg».proof.Proof.Gen.Kernel.Points
import proofs.«413321_j24653112279275_3_alg».proof.Proof.Gen.KernelIdeal
import proofs.«413321_j24653112279275_3_alg».proof.Proof.Gen.KernelIdeal.Skeleton
import proofs.«413321_j24653112279275_3_alg».proof.Proof.Gen.KernelIdeal.Launch
import proofs.«413321_j24653112279275_3_alg».proof.Proof.Gen.KernelIdeal.Regions
import proofs.«413321_j24653112279275_3_alg».proof.Proof.Gen.KernelIdeal.Points
import proofs.«413321_j24653112279275_3_alg».proof.Proof.Gen.ReferenceIdeal
import proofs.«413321_j24653112279275_3_alg».proof.Proof.Gen.Pre_finite_inputs
import proofs.«413321_j24653112279275_3_alg».proof.Proof.R.Run
import proofs.«413321_j24653112279275_3_alg».proof.Proof.K.Reg
import proofs.«413321_j24653112279275_3_alg».proof.Proof.KI.Reg
import proofs.«413321_j24653112279275_3_alg».proof.Proof.KI.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

theorem algebraic : Cert.algebraic_KernelIdeal_ReferenceIdeal := by
  intro m ρ m' ρ' hpre hagree
  refine ⟨fun c => Cert.ReferenceIdeal.Hand.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Hand.result_eq m hpre c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
